-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x6x64x64 : Shape := ⟨4, ![32, 6, 64, 64]⟩
abbrev S25x3x128 : Shape := ⟨3, ![25, 3, 128]⟩
abbrev S3x128 : Shape := ⟨2, ![3, 128]⟩
abbrev S25x128x128 : Shape := ⟨3, ![25, 128, 128]⟩
abbrev S9x128x256 : Shape := ⟨3, ![9, 128, 256]⟩
abbrev S3x256 : Shape := ⟨2, ![3, 256]⟩
abbrev S9x256x512 : Shape := ⟨3, ![9, 256, 512]⟩
abbrev S3x512 : Shape := ⟨2, ![3, 512]⟩
abbrev S32768x1024 : Shape := ⟨2, ![32768, 1024]⟩
abbrev S3x1024 : Shape := ⟨2, ![3, 1024]⟩
abbrev S2048x256 : Shape := ⟨2, ![2048, 256]⟩
abbrev S1x256 : Shape := ⟨2, ![1, 256]⟩
abbrev S256x2 : Shape := ⟨2, ![256, 2]⟩
abbrev S1x2 : Shape := ⟨2, ![1, 2]⟩
abbrev S_ : Shape := ⟨0, ![]⟩

class Facts : Prop where
  bcast_S_S32x6x64x64 : S_.BroadcastsInDim S32x6x64x64 (![] : Fin 0 → Fin S32x6x64x64.rank)
  reducesTo_S32x6x64x64_S_d0_1_2_3 : S32x6x64x64.ReducesTo [0, 1, 2, 3] S_
  h_S_ : 0 < S_.numel
  bitsLt_bf16_f32 : FTy.bits .bf16 < FTy.bits .f32
  bcast_S_S25x3x128 : S_.BroadcastsInDim S25x3x128 (![] : Fin 0 → Fin S25x3x128.rank)
  reducesTo_S25x3x128_S_d0_1_2 : S25x3x128.ReducesTo [0, 1, 2] S_
  bcast_S_S3x128 : S_.BroadcastsInDim S3x128 (![] : Fin 0 → Fin S3x128.rank)
  reducesTo_S3x128_S_d0_1 : S3x128.ReducesTo [0, 1] S_
  bcast_S_S25x128x128 : S_.BroadcastsInDim S25x128x128 (![] : Fin 0 → Fin S25x128x128.rank)
  reducesTo_S25x128x128_S_d0_1_2 : S25x128x128.ReducesTo [0, 1, 2] S_
  bcast_S_S9x128x256 : S_.BroadcastsInDim S9x128x256 (![] : Fin 0 → Fin S9x128x256.rank)
  reducesTo_S9x128x256_S_d0_1_2 : S9x128x256.ReducesTo [0, 1, 2] S_
  bcast_S_S3x256 : S_.BroadcastsInDim S3x256 (![] : Fin 0 → Fin S3x256.rank)
  reducesTo_S3x256_S_d0_1 : S3x256.ReducesTo [0, 1] S_
  bcast_S_S9x256x512 : S_.BroadcastsInDim S9x256x512 (![] : Fin 0 → Fin S9x256x512.rank)
  reducesTo_S9x256x512_S_d0_1_2 : S9x256x512.ReducesTo [0, 1, 2] S_
  bcast_S_S3x512 : S_.BroadcastsInDim S3x512 (![] : Fin 0 → Fin S3x512.rank)
  reducesTo_S3x512_S_d0_1 : S3x512.ReducesTo [0, 1] S_
  bcast_S_S32768x1024 : S_.BroadcastsInDim S32768x1024 (![] : Fin 0 → Fin S32768x1024.rank)
  reducesTo_S32768x1024_S_d0_1 : S32768x1024.ReducesTo [0, 1] S_
  bcast_S_S3x1024 : S_.BroadcastsInDim S3x1024 (![] : Fin 0 → Fin S3x1024.rank)
  reducesTo_S3x1024_S_d0_1 : S3x1024.ReducesTo [0, 1] S_
  bcast_S_S2048x256 : S_.BroadcastsInDim S2048x256 (![] : Fin 0 → Fin S2048x256.rank)
  reducesTo_S2048x256_S_d0_1 : S2048x256.ReducesTo [0, 1] S_
  bcast_S_S1x256 : S_.BroadcastsInDim S1x256 (![] : Fin 0 → Fin S1x256.rank)
  reducesTo_S1x256_S_d0_1 : S1x256.ReducesTo [0, 1] S_
  bcast_S_S256x2 : S_.BroadcastsInDim S256x2 (![] : Fin 0 → Fin S256x2.rank)
  reducesTo_S256x2_S_d0_1 : S256x2.ReducesTo [0, 1] S_
  bcast_S_S1x2 : S_.BroadcastsInDim S1x2 (![] : Fin 0 → Fin S1x2.rank)
  reducesTo_S1x2_S_d0_1 : S1x2.ReducesTo [0, 1] S_

variable [Facts]

def fn_part4 {F : FTy → Type} [FloatOps F] (main_arg13 : FVec F S256x2 .bf16) (main_arg14 : FVec F S1x2 .f32) (main_v69 : IVec S_ 1) : IVec S_ 1 :=
  let main_v70 : FVec F S256x2 .f32 := (extf .f32 · bitsLt_bf16_f32) main_arg13
  let main_v71 : FVec F S256x2 .f32 := Host.absf main_v70
  let main_cst_24 : FVec F S_ .f32 := constant S_ .f32 0x7F800000#32
  let main_v72 : FVec F S256x2 .f32 := broadcastInDim S256x2 ![] bcast_S_S256x2 main_cst_24
  let main_v73 : IVec S256x2 1 := cmpf .olt main_v71 main_v72
  let main_c_25 : IVec S_ 1 := constantI S_ 1 1#1
  let main_v74 : IVec S_ 1 := (fun x v => Host.reduce IntOp.andi x v reducesTo_S256x2_S_d0_1 h_S_) main_v73 main_c_25
  let main_v75 : IVec S_ 1 := andi main_v69 main_v74
  let main_v76 : FVec F S1x2 .f32 := Host.absf main_arg14
  let main_cst_26 : FVec F S_ .f32 := constant S_ .f32 0x7F800000#32
  let main_v77 : FVec F S1x2 .f32 := broadcastInDim S1x2 ![] bcast_S_S1x2 main_cst_26
  let main_v78 : IVec S1x2 1 := cmpf .olt main_v76 main_v77
  let main_c_27 : IVec S_ 1 := constantI S_ 1 1#1
  let main_v79 : IVec S_ 1 := (fun x v => Host.reduce IntOp.andi x v reducesTo_S1x2_S_d0_1 h_S_) main_v78 main_c_27
  let main_v80 : IVec S_ 1 := andi main_v75 main_v79
  main_v80

def fn_part3 {F : FTy → Type} [FloatOps F] (main_arg10 : FVec F S3x1024 .f32) (main_arg11 : FVec F S2048x256 .bf16) (main_arg12 : FVec F S1x256 .f32) (main_arg13 : FVec F S256x2 .bf16) (main_arg14 : FVec F S1x2 .f32) (main_v47 : IVec S_ 1) (main_v51 : IVec S32768x1024 1) (main_c_17 : IVec S_ 1) : IVec S_ 1 :=
  let main_v52 : IVec S_ 1 := (fun x v => Host.reduce IntOp.andi x v reducesTo_S32768x1024_S_d0_1 h_S_) main_v51 main_c_17
  let main_v53 : IVec S_ 1 := andi main_v47 main_v52
  let main_v54 : FVec F S3x1024 .f32 := Host.absf main_arg10
  let main_cst_18 : FVec F S_ .f32 := constant S_ .f32 0x7F800000#32
  let main_v55 : FVec F S3x1024 .f32 := broadcastInDim S3x1024 ![] bcast_S_S3x1024 main_cst_18
  let main_v56 : IVec S3x1024 1 := cmpf .olt main_v54 main_v55
  let main_c_19 : IVec S_ 1 := constantI S_ 1 1#1
  let main_v57 : IVec S_ 1 := (fun x v => Host.reduce IntOp.andi x v reducesTo_S3x1024_S_d0_1 h_S_) main_v56 main_c_19
  let main_v58 : IVec S_ 1 := andi main_v53 main_v57
  let main_v59 : FVec F S2048x256 .f32 := (extf .f32 · bitsLt_bf16_f32) main_arg11
  let main_v60 : FVec F S2048x256 .f32 := Host.absf main_v59
  let main_cst_20 : FVec F S_ .f32 := constant S_ .f32 0x7F800000#32
  let main_v61 : FVec F S2048x256 .f32 := broadcastInDim S2048x256 ![] bcast_S_S2048x256 main_cst_20
  let main_v62 : IVec S2048x256 1 := cmpf .olt main_v60 main_v61
  let main_c_21 : IVec S_ 1 := constantI S_ 1 1#1
  let main_v63 : IVec S_ 1 := (fun x v => Host.reduce IntOp.andi x v reducesTo_S2048x256_S_d0_1 h_S_) main_v62 main_c_21
  let main_v64 : IVec S_ 1 := andi main_v58 main_v63
  let main_v65 : FVec F S1x256 .f32 := Host.absf main_arg12
  let main_cst_22 : FVec F S_ .f32 := constant S_ .f32 0x7F800000#32
  let main_v66 : FVec F S1x256 .f32 := broadcastInDim S1x256 ![] bcast_S_S1x256 main_cst_22
  let main_v67 : IVec S1x256 1 := cmpf .olt main_v65 main_v66
  let main_c_23 : IVec S_ 1 := constantI S_ 1 1#1
  let main_v68 : IVec S_ 1 := (fun x v => Host.reduce IntOp.andi x v reducesTo_S1x256_S_d0_1 h_S_) main_v67 main_c_23
  let main_v69 : IVec S_ 1 := andi main_v64 main_v68
  fn_part4 (F := F) main_arg13 main_arg14 main_v69

def fn_part2 {F : FTy → Type} [FloatOps F] (main_arg7 : FVec F S9x256x512 .bf16) (main_arg8 : FVec F S3x512 .f32) (main_arg9 : FVec F S32768x1024 .bf16) (main_arg10 : FVec F S3x1024 .f32) (main_arg11 : FVec F S2048x256 .bf16) (main_arg12 : FVec F S1x256 .f32) (main_arg13 : FVec F S256x2 .bf16) (main_arg14 : FVec F S1x2 .f32) (main_v31 : IVec S_ 1) (main_v34 : IVec S3x256 1) : IVec S_ 1 :=
  let main_c_11 : IVec S_ 1 := constantI S_ 1 1#1
  let main_v35 : IVec S_ 1 := (fun x v => Host.reduce IntOp.andi x v reducesTo_S3x256_S_d0_1 h_S_) main_v34 main_c_11
  let main_v36 : IVec S_ 1 := andi main_v31 main_v35
  let main_v37 : FVec F S9x256x512 .f32 := (extf .f32 · bitsLt_bf16_f32) main_arg7
  let main_v38 : FVec F S9x256x512 .f32 := Host.absf main_v37
  let main_cst_12 : FVec F S_ .f32 := constant S_ .f32 0x7F800000#32
  let main_v39 : FVec F S9x256x512 .f32 := broadcastInDim S9x256x512 ![] bcast_S_S9x256x512 main_cst_12
  let main_v40 : IVec S9x256x512 1 := cmpf .olt main_v38 main_v39
  let main_c_13 : IVec S_ 1 := constantI S_ 1 1#1
  let main_v41 : IVec S_ 1 := (fun x v => Host.reduce IntOp.andi x v reducesTo_S9x256x512_S_d0_1_2 h_S_) main_v40 main_c_13
  let main_v42 : IVec S_ 1 := andi main_v36 main_v41
  let main_v43 : FVec F S3x512 .f32 := Host.absf main_arg8
  let main_cst_14 : FVec F S_ .f32 := constant S_ .f32 0x7F800000#32
  let main_v44 : FVec F S3x512 .f32 := broadcastInDim S3x512 ![] bcast_S_S3x512 main_cst_14
  let main_v45 : IVec S3x512 1 := cmpf .olt main_v43 main_v44
  let main_c_15 : IVec S_ 1 := constantI S_ 1 1#1
  let main_v46 : IVec S_ 1 := (fun x v => Host.reduce IntOp.andi x v reducesTo_S3x512_S_d0_1 h_S_) main_v45 main_c_15
  let main_v47 : IVec S_ 1 := andi main_v42 main_v46
  let main_v48 : FVec F S32768x1024 .f32 := (extf .f32 · bitsLt_bf16_f32) main_arg9
  let main_v49 : FVec F S32768x1024 .f32 := Host.absf main_v48
  let main_cst_16 : FVec F S_ .f32 := constant S_ .f32 0x7F800000#32
  let main_v50 : FVec F S32768x1024 .f32 := broadcastInDim S32768x1024 ![] bcast_S_S32768x1024 main_cst_16
  let main_v51 : IVec S32768x1024 1 := cmpf .olt main_v49 main_v50
  let main_c_17 : IVec S_ 1 := constantI S_ 1 1#1
  fn_part3 (F := F) main_arg10 main_arg11 main_arg12 main_arg13 main_arg14 main_v47 main_v51 main_c_17

def fn_part1 {F : FTy → Type} [FloatOps F] (main_arg4 : FVec F S3x128 .f32) (main_arg5 : FVec F S9x128x256 .bf16) (main_arg6 : FVec F S3x256 .f32) (main_arg7 : FVec F S9x256x512 .bf16) (main_arg8 : FVec F S3x512 .f32) (main_arg9 : FVec F S32768x1024 .bf16) (main_arg10 : FVec F S3x1024 .f32) (main_arg11 : FVec F S2048x256 .bf16) (main_arg12 : FVec F S1x256 .f32) (main_arg13 : FVec F S256x2 .bf16) (main_arg14 : FVec F S1x2 .f32) (main_v14 : IVec S_ 1) (main_v16 : FVec F S25x128x128 .f32) (main_cst_4 : FVec F S_ .f32) : IVec S_ 1 :=
  let main_v17 : FVec F S25x128x128 .f32 := broadcastInDim S25x128x128 ![] bcast_S_S25x128x128 main_cst_4
  let main_v18 : IVec S25x128x128 1 := cmpf .olt main_v16 main_v17
  let main_c_5 : IVec S_ 1 := constantI S_ 1 1#1
  let main_v19 : IVec S_ 1 := (fun x v => Host.reduce IntOp.andi x v reducesTo_S25x128x128_S_d0_1_2 h_S_) main_v18 main_c_5
  let main_v20 : IVec S_ 1 := andi main_v14 main_v19
  let main_v21 : FVec F S3x128 .f32 := Host.absf main_arg4
  let main_cst_6 : FVec F S_ .f32 := constant S_ .f32 0x7F800000#32
  let main_v22 : FVec F S3x128 .f32 := broadcastInDim S3x128 ![] bcast_S_S3x128 main_cst_6
  let main_v23 : IVec S3x128 1 := cmpf .olt main_v21 main_v22
  let main_c_7 : IVec S_ 1 := constantI S_ 1 1#1
  let main_v24 : IVec S_ 1 := (fun x v => Host.reduce IntOp.andi x v reducesTo_S3x128_S_d0_1 h_S_) main_v23 main_c_7
  let main_v25 : IVec S_ 1 := andi main_v20 main_v24
  let main_v26 : FVec F S9x128x256 .f32 := (extf .f32 · bitsLt_bf16_f32) main_arg5
  let main_v27 : FVec F S9x128x256 .f32 := Host.absf main_v26
  let main_cst_8 : FVec F S_ .f32 := constant S_ .f32 0x7F800000#32
  let main_v28 : FVec F S9x128x256 .f32 := broadcastInDim S9x128x256 ![] bcast_S_S9x128x256 main_cst_8
  let main_v29 : IVec S9x128x256 1 := cmpf .olt main_v27 main_v28
  let main_c_9 : IVec S_ 1 := constantI S_ 1 1#1
  let main_v30 : IVec S_ 1 := (fun x v => Host.reduce IntOp.andi x v reducesTo_S9x128x256_S_d0_1_2 h_S_) main_v29 main_c_9
  let main_v31 : IVec S_ 1 := andi main_v25 main_v30
  let main_v32 : FVec F S3x256 .f32 := Host.absf main_arg6
  let main_cst_10 : FVec F S_ .f32 := constant S_ .f32 0x7F800000#32
  let main_v33 : FVec F S3x256 .f32 := broadcastInDim S3x256 ![] bcast_S_S3x256 main_cst_10
  let main_v34 : IVec S3x256 1 := cmpf .olt main_v32 main_v33
  fn_part2 (F := F) main_arg7 main_arg8 main_arg9 main_arg10 main_arg11 main_arg12 main_arg13 main_arg14 main_v31 main_v34

def fn {F : FTy → Type} [FloatOps F] (main_arg0 : FVec F S32x6x64x64 .f32) (main_arg1 : FVec F S25x3x128 .bf16) (main_arg2 : FVec F S3x128 .f32) (main_arg3 : FVec F S25x128x128 .bf16) (main_arg4 : FVec F S3x128 .f32) (main_arg5 : FVec F S9x128x256 .bf16) (main_arg6 : FVec F S3x256 .f32) (main_arg7 : FVec F S9x256x512 .bf16) (main_arg8 : FVec F S3x512 .f32) (main_arg9 : FVec F S32768x1024 .bf16) (main_arg10 : FVec F S3x1024 .f32) (main_arg11 : FVec F S2048x256 .bf16) (main_arg12 : FVec F S1x256 .f32) (main_arg13 : FVec F S256x2 .bf16) (main_arg14 : FVec F S1x2 .f32) : IVec S_ 1 :=
  let main_v0 : FVec F S32x6x64x64 .f32 := Host.absf main_arg0
  let main_cst : FVec F S_ .f32 := constant S_ .f32 0x7F800000#32
  let main_v1 : FVec F S32x6x64x64 .f32 := broadcastInDim S32x6x64x64 ![] bcast_S_S32x6x64x64 main_cst
  let main_v2 : IVec S32x6x64x64 1 := cmpf .olt main_v0 main_v1
  let main_c : IVec S_ 1 := constantI S_ 1 1#1
  let main_v3 : IVec S_ 1 := (fun x v => Host.reduce IntOp.andi x v reducesTo_S32x6x64x64_S_d0_1_2_3 h_S_) main_v2 main_c
  let main_v4 : FVec F S25x3x128 .f32 := (extf .f32 · bitsLt_bf16_f32) main_arg1
  let main_v5 : FVec F S25x3x128 .f32 := Host.absf main_v4
  let main_cst_0 : FVec F S_ .f32 := constant S_ .f32 0x7F800000#32
  let main_v6 : FVec F S25x3x128 .f32 := broadcastInDim S25x3x128 ![] bcast_S_S25x3x128 main_cst_0
  let main_v7 : IVec S25x3x128 1 := cmpf .olt main_v5 main_v6
  let main_c_1 : IVec S_ 1 := constantI S_ 1 1#1
  let main_v8 : IVec S_ 1 := (fun x v => Host.reduce IntOp.andi x v reducesTo_S25x3x128_S_d0_1_2 h_S_) main_v7 main_c_1
  let main_v9 : IVec S_ 1 := andi main_v3 main_v8
  let main_v10 : FVec F S3x128 .f32 := Host.absf main_arg2
  let main_cst_2 : FVec F S_ .f32 := constant S_ .f32 0x7F800000#32
  let main_v11 : FVec F S3x128 .f32 := broadcastInDim S3x128 ![] bcast_S_S3x128 main_cst_2
  let main_v12 : IVec S3x128 1 := cmpf .olt main_v10 main_v11
  let main_c_3 : IVec S_ 1 := constantI S_ 1 1#1
  let main_v13 : IVec S_ 1 := (fun x v => Host.reduce IntOp.andi x v reducesTo_S3x128_S_d0_1 h_S_) main_v12 main_c_3
  let main_v14 : IVec S_ 1 := andi main_v9 main_v13
  let main_v15 : FVec F S25x128x128 .f32 := (extf .f32 · bitsLt_bf16_f32) main_arg3
  let main_v16 : FVec F S25x128x128 .f32 := Host.absf main_v15
  let main_cst_4 : FVec F S_ .f32 := constant S_ .f32 0x7F800000#32
  fn_part1 (F := F) main_arg4 main_arg5 main_arg6 main_arg7 main_arg8 main_arg9 main_arg10 main_arg11 main_arg12 main_arg13 main_arg14 main_v14 main_v16 main_cst_4
-- ==== Kernel.lean ====
abbrev S32x6x64x64 : Shape := ⟨4, ![32, 6, 64, 64]⟩
abbrev S25x3x128 : Shape := ⟨3, ![25, 3, 128]⟩
abbrev S3x128 : Shape := ⟨2, ![3, 128]⟩
abbrev S25x128x128 : Shape := ⟨3, ![25, 128, 128]⟩
abbrev S9x128x256 : Shape := ⟨3, ![9, 128, 256]⟩
abbrev S3x256 : Shape := ⟨2, ![3, 256]⟩
abbrev S9x256x512 : Shape := ⟨3, ![9, 256, 512]⟩
abbrev S3x512 : Shape := ⟨2, ![3, 512]⟩
abbrev S32768x1024 : Shape := ⟨2, ![32768, 1024]⟩
abbrev S3x1024 : Shape := ⟨2, ![3, 1024]⟩
abbrev S2048x256 : Shape := ⟨2, ![2048, 256]⟩
abbrev S1x256 : Shape := ⟨2, ![1, 256]⟩
abbrev S256x2 : Shape := ⟨2, ![256, 2]⟩
abbrev S1x2 : Shape := ⟨2, ![1, 2]⟩
abbrev S32x3x64x64 : Shape := ⟨4, ![32, 3, 64, 64]⟩
abbrev S64x3x64x64 : Shape := ⟨4, ![64, 3, 64, 64]⟩
abbrev S64x64x64x3 : Shape := ⟨4, ![64, 64, 64, 3]⟩
abbrev S_ : Shape := ⟨0, ![]⟩
abbrev S64x68x68x4 : Shape := ⟨4, ![64, 68, 68, 4]⟩
abbrev S5x5x3x128 : Shape := ⟨4, ![5, 5, 3, 128]⟩
abbrev S5x5x4x128 : Shape := ⟨4, ![5, 5, 4, 128]⟩
abbrev S5x20x128 : Shape := ⟨3, ![5, 20, 128]⟩
abbrev S64x64x512 : Shape := ⟨3, ![64, 64, 512]⟩
abbrev S1x68x68x4 : Shape := ⟨4, ![1, 68, 68, 4]⟩
abbrev S1x64x512 : Shape := ⟨3, ![1, 64, 512]⟩
abbrev S68x68x4 : Shape := ⟨3, ![68, 68, 4]⟩
abbrev S68x64x4 : Shape := ⟨3, ![68, 64, 4]⟩
abbrev S68x64x20 : Shape := ⟨3, ![68, 64, 20]⟩
abbrev S4096x128 : Shape := ⟨2, ![4096, 128]⟩
abbrev S64x64x20 : Shape := ⟨3, ![64, 64, 20]⟩
abbrev S4096x20 : Shape := ⟨2, ![4096, 20]⟩
abbrev S1x20x128 : Shape := ⟨3, ![1, 20, 128]⟩
abbrev S20x128 : Shape := ⟨2, ![20, 128]⟩
abbrev S1x128 : Shape := ⟨2, ![1, 128]⟩
abbrev S64x32x256 : Shape := ⟨3, ![64, 32, 256]⟩
abbrev S32x2x32x256 : Shape := ⟨4, ![32, 2, 32, 256]⟩
abbrev S32x1x32x256 : Shape := ⟨4, ![32, 1, 32, 256]⟩
abbrev S32x32x256 : Shape := ⟨3, ![32, 32, 256]⟩
abbrev S32x32x128 : Shape := ⟨3, ![32, 32, 128]⟩
abbrev S2x32x128 : Shape := ⟨3, ![2, 32, 128]⟩
abbrev S34x32x128 : Shape := ⟨3, ![34, 32, 128]⟩
abbrev S36x32x128 : Shape := ⟨3, ![36, 32, 128]⟩
abbrev S36x2x128 : Shape := ⟨3, ![36, 2, 128]⟩
abbrev S36x34x128 : Shape := ⟨3, ![36, 34, 128]⟩
abbrev S36x36x128 : Shape := ⟨3, ![36, 36, 128]⟩
abbrev S1024x128 : Shape := ⟨2, ![1024, 128]⟩
abbrev S1x128x128 : Shape := ⟨3, ![1, 128, 128]⟩
abbrev S128x128 : Shape := ⟨2, ![128, 128]⟩
abbrev S32x16x256 : Shape := ⟨3, ![32, 16, 256]⟩
abbrev S16x2x16x256 : Shape := ⟨4, ![16, 2, 16, 256]⟩
abbrev S16x1x16x256 : Shape := ⟨4, ![16, 1, 16, 256]⟩
abbrev S16x16x256 : Shape := ⟨3, ![16, 16, 256]⟩
abbrev S16x16x128 : Shape := ⟨3, ![16, 16, 128]⟩
abbrev S1x16x128 : Shape := ⟨3, ![1, 16, 128]⟩
abbrev S17x16x128 : Shape := ⟨3, ![17, 16, 128]⟩
abbrev S18x16x128 : Shape := ⟨3, ![18, 16, 128]⟩
abbrev S18x1x128 : Shape := ⟨3, ![18, 1, 128]⟩
abbrev S18x17x128 : Shape := ⟨3, ![18, 17, 128]⟩
abbrev S18x18x128 : Shape := ⟨3, ![18, 18, 128]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S16x8x512 : Shape := ⟨3, ![16, 8, 512]⟩
abbrev S8x2x8x512 : Shape := ⟨4, ![8, 2, 8, 512]⟩
abbrev S8x1x8x512 : Shape := ⟨4, ![8, 1, 8, 512]⟩
abbrev S8x8x512 : Shape := ⟨3, ![8, 8, 512]⟩
abbrev S8x8x256 : Shape := ⟨3, ![8, 8, 256]⟩
abbrev S1x8x256 : Shape := ⟨3, ![1, 8, 256]⟩
abbrev S9x8x256 : Shape := ⟨3, ![9, 8, 256]⟩
abbrev S10x8x256 : Shape := ⟨3, ![10, 8, 256]⟩
abbrev S10x1x256 : Shape := ⟨3, ![10, 1, 256]⟩
abbrev S10x9x256 : Shape := ⟨3, ![10, 9, 256]⟩
abbrev S10x10x256 : Shape := ⟨3, ![10, 10, 256]⟩
abbrev S64x512 : Shape := ⟨2, ![64, 512]⟩
abbrev S64x256 : Shape := ⟨2, ![64, 256]⟩
abbrev S1x256x512 : Shape := ⟨3, ![1, 256, 512]⟩
abbrev S256x512 : Shape := ⟨2, ![256, 512]⟩
abbrev S1x512 : Shape := ⟨2, ![1, 512]⟩
abbrev S64x32768 : Shape := ⟨2, ![64, 32768]⟩
abbrev S64x1024 : Shape := ⟨2, ![64, 1024]⟩
abbrev S64x4096 : Shape := ⟨2, ![64, 4096]⟩
abbrev S4096x512 : Shape := ⟨2, ![4096, 512]⟩
abbrev S32x2 : Shape := ⟨2, ![32, 2]⟩
abbrev S32x1024 : Shape := ⟨2, ![32, 1024]⟩
abbrev S1024x256 : Shape := ⟨2, ![1024, 256]⟩
abbrev S32x256 : Shape := ⟨2, ![32, 256]⟩

abbrev nBuf : Space → Nat
  | .hbm => 32
  | .vmem => 27
  | .smem => 0
  | _ => 0

abbrev bufTy : (tb : Table) → Fin (tcTables nBuf tb) → BufTy
  | .hbm, ⟨0, _⟩ => ⟨S32x6x64x64, .f32⟩
  | .hbm, ⟨1, _⟩ => ⟨S25x3x128, .bf16⟩
  | .hbm, ⟨2, _⟩ => ⟨S3x128, .f32⟩
  | .hbm, ⟨3, _⟩ => ⟨S25x128x128, .bf16⟩
  | .hbm, ⟨4, _⟩ => ⟨S3x128, .f32⟩
  | .hbm, ⟨5, _⟩ => ⟨S9x128x256, .bf16⟩
  | .hbm, ⟨6, _⟩ => ⟨S3x256, .f32⟩
  | .hbm, ⟨7, _⟩ => ⟨S9x256x512, .bf16⟩
  | .hbm, ⟨8, _⟩ => ⟨S3x512, .f32⟩
  | .hbm, ⟨9, _⟩ => ⟨S32768x1024, .bf16⟩
  | .hbm, ⟨10, _⟩ => ⟨S3x1024, .f32⟩
  | .hbm, ⟨11, _⟩ => ⟨S2048x256, .bf16⟩
  | .hbm, ⟨12, _⟩ => ⟨S1x256, .f32⟩
  | .hbm, ⟨13, _⟩ => ⟨S256x2, .bf16⟩
  | .hbm, ⟨14, _⟩ => ⟨S1x2, .f32⟩
  | .hbm, ⟨15, _⟩ => ⟨S32x3x64x64, .f32⟩
  | .hbm, ⟨16, _⟩ => ⟨S32x3x64x64, .f32⟩
  | .hbm, ⟨17, _⟩ => ⟨S64x3x64x64, .f32⟩
  | .hbm, ⟨18, _⟩ => ⟨S64x64x64x3, .f32⟩
  | .hbm, ⟨19, _⟩ => ⟨S64x64x64x3, .bf16⟩
  | .hbm, ⟨20, _⟩ => ⟨S_, .i32⟩
  | .hbm, ⟨21, _⟩ => ⟨S_, .bf16⟩
  | .hbm, ⟨22, _⟩ => ⟨S64x68x68x4, .bf16⟩
  | .hbm, ⟨23, _⟩ => ⟨S5x5x3x128, .bf16⟩
  | .hbm, ⟨24, _⟩ => ⟨S_, .i32⟩
  | .hbm, ⟨25, _⟩ => ⟨S_, .bf16⟩
  | .hbm, ⟨26, _⟩ => ⟨S5x5x4x128, .bf16⟩
  | .hbm, ⟨27, _⟩ => ⟨S5x20x128, .bf16⟩
  | .hbm, ⟨28, _⟩ => ⟨S64x64x512, .bf16⟩
  | .hbm, ⟨29, _⟩ => ⟨S64x32768, .bf16⟩
  | .hbm, ⟨30, _⟩ => ⟨S64x1024, .bf16⟩
  | .hbm, ⟨31, _⟩ => ⟨S32x2, .f32⟩
  | .local _ .vmem, ⟨0, _⟩ => ⟨S1x68x68x4, .bf16⟩
  | .local _ .vmem, ⟨1, _⟩ => ⟨S1x68x68x4, .bf16⟩
  | .local _ .vmem, ⟨2, _⟩ => ⟨S5x20x128, .bf16⟩
  | .local _ .vmem, ⟨3, _⟩ => ⟨S3x128, .f32⟩
  | .local _ .vmem, ⟨4, _⟩ => ⟨S25x128x128, .bf16⟩
  | .local _ .vmem, ⟨5, _⟩ => ⟨S3x128, .f32⟩
  | .local _ .vmem, ⟨6, _⟩ => ⟨S9x128x256, .bf16⟩
  | .local _ .vmem, ⟨7, _⟩ => ⟨S3x256, .f32⟩
  | .local _ .vmem, ⟨8, _⟩ => ⟨S9x256x512, .bf16⟩
  | .local _ .vmem, ⟨9, _⟩ => ⟨S3x512, .f32⟩
  | .local _ .vmem, ⟨10, _⟩ => ⟨S1x64x512, .bf16⟩
  | .local _ .vmem, ⟨11, _⟩ => ⟨S1x64x512, .bf16⟩
  | .local _ .vmem, ⟨12, _⟩ => ⟨S64x4096, .bf16⟩
  | .local _ .vmem, ⟨13, _⟩ => ⟨S64x4096, .bf16⟩
  | .local _ .vmem, ⟨14, _⟩ => ⟨S4096x512, .bf16⟩
  | .local _ .vmem, ⟨15, _⟩ => ⟨S4096x512, .bf16⟩
  | .local _ .vmem, ⟨16, _⟩ => ⟨S3x512, .f32⟩
  | .local _ .vmem, ⟨17, _⟩ => ⟨S3x512, .f32⟩
  | .local _ .vmem, ⟨18, _⟩ => ⟨S64x512, .bf16⟩
  | .local _ .vmem, ⟨19, _⟩ => ⟨S64x512, .bf16⟩
  | .local _ .vmem, ⟨20, _⟩ => ⟨S64x512, .f32⟩
  | .local _ .vmem, ⟨21, _⟩ => ⟨S64x1024, .bf16⟩
  | .local _ .vmem, ⟨22, _⟩ => ⟨S2048x256, .bf16⟩
  | .local _ .vmem, ⟨23, _⟩ => ⟨S1x256, .f32⟩
  | .local _ .vmem, ⟨24, _⟩ => ⟨S256x2, .bf16⟩
  | .local _ .vmem, ⟨25, _⟩ => ⟨S1x2, .f32⟩
  | .local _ .vmem, ⟨26, _⟩ => ⟨S32x2, .f32⟩
  | _, _ => ⟨S32x6x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x68x68x4 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x20x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S25x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S3x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S32x6x64x64_S32x3x64x64_0_0_0_0 : S32x6x64x64.Slices ![0, 0, 0, 0] S32x3x64x64
  slices_S32x6x64x64_S32x3x64x64_0_3_0_0 : S32x6x64x64.Slices ![0, 3, 0, 0] S32x3x64x64
  concatenates_S32x3x64x64_S32x3x64x64_S64x3x64x64_d0 : Shape.Concatenates [S32x3x64x64, S32x3x64x64] S64x3x64x64 0
  transposes_S64x3x64x64_S64x64x64x3_0_2_3_1 : S64x3x64x64.Transposes [0, 2, 3, 1] S64x64x64x3
  bitsLt_bf16_f32 : FTy.bits .bf16 < FTy.bits .f32
  pads_S64x64x64x3_S64x68x68x4_000_220_220_010 : S64x64x64x3.Pads (![0, 2, 2, 0] : Fin 4 → Nat) ![0, 2, 2, 1] ![0, 0, 0, 0] S64x68x68x4
  h_S_ : 0 < S_.numel
  shapeCasts_S25x3x128_S5x5x3x128 : S25x3x128.ShapeCasts S5x5x3x128
  pads_S5x5x3x128_S5x5x4x128_000_000_010_000 : S5x5x3x128.Pads (![0, 0, 0, 0] : Fin 4 → Nat) ![0, 0, 1, 0] ![0, 0, 0, 0] S5x5x4x128
  shapeCasts_S5x5x4x128_S5x20x128 : S5x5x4x128.ShapeCasts S5x20x128
  inb_S1x68x68x4_S1x68x68x4_0_0_0_0 : ∀ a, (![0, 0, 0, 0] : Fin 4 → Nat) a + S1x68x68x4.size a ≤ S1x68x68x4.size a
  h_S1x68x68x4 : 0 < S1x68x68x4.numel
  shapeCasts_S1x68x68x4_S68x68x4 : S1x68x68x4.ShapeCasts S68x68x4
  slices_S68x68x4_o0_0_0_S68x64x4 : S68x68x4.Slices ![0, 0, 0] S68x64x4
  slices_S68x68x4_o0_1_0_S68x64x4 : S68x68x4.Slices ![0, 1, 0] S68x64x4
  slices_S68x68x4_o0_2_0_S68x64x4 : S68x68x4.Slices ![0, 2, 0] S68x64x4
  slices_S68x68x4_o0_3_0_S68x64x4 : S68x68x4.Slices ![0, 3, 0] S68x64x4
  slices_S68x68x4_o0_4_0_S68x64x4 : S68x68x4.Slices ![0, 4, 0] S68x64x4
  concatenates_S68x64x4_S68x64x4_S68x64x4_S68x64x4_S68x64x4_S68x64x20_d2 : Shape.Concatenates [S68x64x4, S68x64x4, S68x64x4, S68x64x4, S68x64x4] S68x64x20 2
  slices_S68x64x20_o0_0_0_S64x64x20 : S68x64x20.Slices ![0, 0, 0] S64x64x20
  shapeCasts_S64x64x20_S4096x20 : S64x64x20.ShapeCasts S4096x20
  inb_S5x20x128_S1x20x128_0_0_0 : ∀ a, (![0, 0, 0] : Fin 3 → Nat) a + S1x20x128.size a ≤ S5x20x128.size a
  h_S1x20x128 : 0 < S1x20x128.numel
  shapeCasts_S1x20x128_S20x128 : S1x20x128.ShapeCasts S20x128
  slices_S68x64x20_o1_0_0_S64x64x20 : S68x64x20.Slices ![1, 0, 0] S64x64x20
  inb_S5x20x128_S1x20x128_1_0_0 : ∀ a, (![1, 0, 0] : Fin 3 → Nat) a + S1x20x128.size a ≤ S5x20x128.size a
  slices_S68x64x20_o2_0_0_S64x64x20 : S68x64x20.Slices ![2, 0, 0] S64x64x20
  inb_S5x20x128_S1x20x128_2_0_0 : ∀ a, (![2, 0, 0] : Fin 3 → Nat) a + S1x20x128.size a ≤ S5x20x128.size a
  slices_S68x64x20_o3_0_0_S64x64x20 : S68x64x20.Slices ![3, 0, 0] S64x64x20
  inb_S5x20x128_S1x20x128_3_0_0 : ∀ a, (![3, 0, 0] : Fin 3 → Nat) a + S1x20x128.size a ≤ S5x20x128.size a
  slices_S68x64x20_o4_0_0_S64x64x20 : S68x64x20.Slices ![4, 0, 0] S64x64x20
  inb_S5x20x128_S1x20x128_4_0_0 : ∀ a, (![4, 0, 0] : Fin 3 → Nat) a + S1x20x128.size a ≤ S5x20x128.size a
  inb_S3x128_S1x128_0_0 : ∀ a, (![0, 0] : Fin 2 → Nat) a + S1x128.size a ≤ S3x128.size a
  h_S1x128 : 0 < S1x128.numel
  broadcasts_S1x128_S4096x128 : S1x128.Broadcasts S4096x128
  inb_S3x128_S1x128_1_0 : ∀ a, (![1, 0] : Fin 2 → Nat) a + S1x128.size a ≤ S3x128.size a
  inb_S3x128_S1x128_2_0 : ∀ a, (![2, 0] : Fin 2 → Nat) a + S1x128.size a ≤ S3x128.size a
  shapeCasts_S4096x128_S64x32x256 : S4096x128.ShapeCasts S64x32x256
  shapeCasts_S64x32x256_S32x2x32x256 : S64x32x256.ShapeCasts S32x2x32x256
  slices_S32x2x32x256_o0_0_0_0_S32x1x32x256 : S32x2x32x256.Slices ![0, 0, 0, 0] S32x1x32x256
  shapeCasts_S32x1x32x256_S32x32x256 : S32x1x32x256.ShapeCasts S32x32x256
  slices_S32x2x32x256_o0_1_0_0_S32x1x32x256 : S32x2x32x256.Slices ![0, 1, 0, 0] S32x1x32x256
  slices_S32x32x256_o0_0_0_S32x32x128 : S32x32x256.Slices ![0, 0, 0] S32x32x128
  slices_S32x32x256_o0_0_128_S32x32x128 : S32x32x256.Slices ![0, 0, 128] S32x32x128
  concatenates_S2x32x128_S32x32x128_S34x32x128_d0 : Shape.Concatenates [S2x32x128, S32x32x128] S34x32x128 0
  concatenates_S34x32x128_S2x32x128_S36x32x128_d0 : Shape.Concatenates [S34x32x128, S2x32x128] S36x32x128 0
  concatenates_S36x2x128_S36x32x128_S36x34x128_d1 : Shape.Concatenates [S36x2x128, S36x32x128] S36x34x128 1
  concatenates_S36x34x128_S36x2x128_S36x36x128_d1 : Shape.Concatenates [S36x34x128, S36x2x128] S36x36x128 1
  slices_S36x36x128_o0_0_0_S32x32x128 : S36x36x128.Slices ![0, 0, 0] S32x32x128
  shapeCasts_S32x32x128_S1024x128 : S32x32x128.ShapeCasts S1024x128
  inb_S25x128x128_S1x128x128_0_0_0 : ∀ a, (![0, 0, 0] : Fin 3 → Nat) a + S1x128x128.size a ≤ S25x128x128.size a
  h_S1x128x128 : 0 < S1x128x128.numel
  shapeCasts_S1x128x128_S128x128 : S1x128x128.ShapeCasts S128x128
  slices_S36x36x128_o0_1_0_S32x32x128 : S36x36x128.Slices ![0, 1, 0] S32x32x128
  inb_S25x128x128_S1x128x128_1_0_0 : ∀ a, (![1, 0, 0] : Fin 3 → Nat) a + S1x128x128.size a ≤ S25x128x128.size a
  slices_S36x36x128_o0_2_0_S32x32x128 : S36x36x128.Slices ![0, 2, 0] S32x32x128
  inb_S25x128x128_S1x128x128_2_0_0 : ∀ a, (![2, 0, 0] : Fin 3 → Nat) a + S1x128x128.size a ≤ S25x128x128.size a
  slices_S36x36x128_o0_3_0_S32x32x128 : S36x36x128.Slices ![0, 3, 0] S32x32x128
  inb_S25x128x128_S1x128x128_3_0_0 : ∀ a, (![3, 0, 0] : Fin 3 → Nat) a + S1x128x128.size a ≤ S25x128x128.size a
  slices_S36x36x128_o0_4_0_S32x32x128 : S36x36x128.Slices ![0, 4, 0] S32x32x128
  inb_S25x128x128_S1x128x128_4_0_0 : ∀ a, (![4, 0, 0] : Fin 3 → Nat) a + S1x128x128.size a ≤ S25x128x128.size a
  slices_S36x36x128_o1_0_0_S32x32x128 : S36x36x128.Slices ![1, 0, 0] S32x32x128
  inb_S25x128x128_S1x128x128_5_0_0 : ∀ a, (![5, 0, 0] : Fin 3 → Nat) a + S1x128x128.size a ≤ S25x128x128.size a
  slices_S36x36x128_o1_1_0_S32x32x128 : S36x36x128.Slices ![1, 1, 0] S32x32x128
  inb_S25x128x128_S1x128x128_6_0_0 : ∀ a, (![6, 0, 0] : Fin 3 → Nat) a + S1x128x128.size a ≤ S25x128x128.size a
  slices_S36x36x128_o1_2_0_S32x32x128 : S36x36x128.Slices ![1, 2, 0] S32x32x128
  inb_S25x128x128_S1x128x128_7_0_0 : ∀ a, (![7, 0, 0] : Fin 3 → Nat) a + S1x128x128.size a ≤ S25x128x128.size a
  slices_S36x36x128_o1_3_0_S32x32x128 : S36x36x128.Slices ![1, 3, 0] S32x32x128
  inb_S25x128x128_S1x128x128_8_0_0 : ∀ a, (![8, 0, 0] : Fin 3 → Nat) a + S1x128x128.size a ≤ S25x128x128.size a
  slices_S36x36x128_o1_4_0_S32x32x128 : S36x36x128.Slices ![1, 4, 0] S32x32x128
  inb_S25x128x128_S1x128x128_9_0_0 : ∀ a, (![9, 0, 0] : Fin 3 → Nat) a + S1x128x128.size a ≤ S25x128x128.size a
  slices_S36x36x128_o2_0_0_S32x32x128 : S36x36x128.Slices ![2, 0, 0] S32x32x128
  inb_S25x128x128_S1x128x128_10_0_0 : ∀ a, (![10, 0, 0] : Fin 3 → Nat) a + S1x128x128.size a ≤ S25x128x128.size a
  slices_S36x36x128_o2_1_0_S32x32x128 : S36x36x128.Slices ![2, 1, 0] S32x32x128
  inb_S25x128x128_S1x128x128_11_0_0 : ∀ a, (![11, 0, 0] : Fin 3 → Nat) a + S1x128x128.size a ≤ S25x128x128.size a
  slices_S36x36x128_o2_2_0_S32x32x128 : S36x36x128.Slices ![2, 2, 0] S32x32x128
  inb_S25x128x128_S1x128x128_12_0_0 : ∀ a, (![12, 0, 0] : Fin 3 → Nat) a + S1x128x128.size a ≤ S25x128x128.size a
  slices_S36x36x128_o2_3_0_S32x32x128 : S36x36x128.Slices ![2, 3, 0] S32x32x128
  inb_S25x128x128_S1x128x128_13_0_0 : ∀ a, (![13, 0, 0] : Fin 3 → Nat) a + S1x128x128.size a ≤ S25x128x128.size a
  slices_S36x36x128_o2_4_0_S32x32x128 : S36x36x128.Slices ![2, 4, 0] S32x32x128
  inb_S25x128x128_S1x128x128_14_0_0 : ∀ a, (![14, 0, 0] : Fin 3 → Nat) a + S1x128x128.size a ≤ S25x128x128.size a
  slices_S36x36x128_o3_0_0_S32x32x128 : S36x36x128.Slices ![3, 0, 0] S32x32x128
  inb_S25x128x128_S1x128x128_15_0_0 : ∀ a, (![15, 0, 0] : Fin 3 → Nat) a + S1x128x128.size a ≤ S25x128x128.size a
  slices_S36x36x128_o3_1_0_S32x32x128 : S36x36x128.Slices ![3, 1, 0] S32x32x128
  inb_S25x128x128_S1x128x128_16_0_0 : ∀ a, (![16, 0, 0] : Fin 3 → Nat) a + S1x128x128.size a ≤ S25x128x128.size a
  slices_S36x36x128_o3_2_0_S32x32x128 : S36x36x128.Slices ![3, 2, 0] S32x32x128
  inb_S25x128x128_S1x128x128_17_0_0 : ∀ a, (![17, 0, 0] : Fin 3 → Nat) a + S1x128x128.size a ≤ S25x128x128.size a
  slices_S36x36x128_o3_3_0_S32x32x128 : S36x36x128.Slices ![3, 3, 0] S32x32x128
  inb_S25x128x128_S1x128x128_18_0_0 : ∀ a, (![18, 0, 0] : Fin 3 → Nat) a + S1x128x128.size a ≤ S25x128x128.size a
  slices_S36x36x128_o3_4_0_S32x32x128 : S36x36x128.Slices ![3, 4, 0] S32x32x128
  inb_S25x128x128_S1x128x128_19_0_0 : ∀ a, (![19, 0, 0] : Fin 3 → Nat) a + S1x128x128.size a ≤ S25x128x128.size a
  slices_S36x36x128_o4_0_0_S32x32x128 : S36x36x128.Slices ![4, 0, 0] S32x32x128
  inb_S25x128x128_S1x128x128_20_0_0 : ∀ a, (![20, 0, 0] : Fin 3 → Nat) a + S1x128x128.size a ≤ S25x128x128.size a
  slices_S36x36x128_o4_1_0_S32x32x128 : S36x36x128.Slices ![4, 1, 0] S32x32x128
  inb_S25x128x128_S1x128x128_21_0_0 : ∀ a, (![21, 0, 0] : Fin 3 → Nat) a + S1x128x128.size a ≤ S25x128x128.size a
  slices_S36x36x128_o4_2_0_S32x32x128 : S36x36x128.Slices ![4, 2, 0] S32x32x128
  inb_S25x128x128_S1x128x128_22_0_0 : ∀ a, (![22, 0, 0] : Fin 3 → Nat) a + S1x128x128.size a ≤ S25x128x128.size a
  slices_S36x36x128_o4_3_0_S32x32x128 : S36x36x128.Slices ![4, 3, 0] S32x32x128
  inb_S25x128x128_S1x128x128_23_0_0 : ∀ a, (![23, 0, 0] : Fin 3 → Nat) a + S1x128x128.size a ≤ S25x128x128.size a
  slices_S36x36x128_o4_4_0_S32x32x128 : S36x36x128.Slices ![4, 4, 0] S32x32x128
  inb_S25x128x128_S1x128x128_24_0_0 : ∀ a, (![24, 0, 0] : Fin 3 → Nat) a + S1x128x128.size a ≤ S25x128x128.size a
  broadcasts_S1x128_S1024x128 : S1x128.Broadcasts S1024x128
  shapeCasts_S1024x128_S32x16x256 : S1024x128.ShapeCasts S32x16x256
  shapeCasts_S32x16x256_S16x2x16x256 : S32x16x256.ShapeCasts S16x2x16x256
  slices_S16x2x16x256_o0_0_0_0_S16x1x16x256 : S16x2x16x256.Slices ![0, 0, 0, 0] S16x1x16x256
  shapeCasts_S16x1x16x256_S16x16x256 : S16x1x16x256.ShapeCasts S16x16x256
  slices_S16x2x16x256_o0_1_0_0_S16x1x16x256 : S16x2x16x256.Slices ![0, 1, 0, 0] S16x1x16x256
  slices_S16x16x256_o0_0_0_S16x16x128 : S16x16x256.Slices ![0, 0, 0] S16x16x128
  slices_S16x16x256_o0_0_128_S16x16x128 : S16x16x256.Slices ![0, 0, 128] S16x16x128
  concatenates_S1x16x128_S16x16x128_S17x16x128_d0 : Shape.Concatenates [S1x16x128, S16x16x128] S17x16x128 0
  concatenates_S17x16x128_S1x16x128_S18x16x128_d0 : Shape.Concatenates [S17x16x128, S1x16x128] S18x16x128 0
  concatenates_S18x1x128_S18x16x128_S18x17x128_d1 : Shape.Concatenates [S18x1x128, S18x16x128] S18x17x128 1
  concatenates_S18x17x128_S18x1x128_S18x18x128_d1 : Shape.Concatenates [S18x17x128, S18x1x128] S18x18x128 1
  slices_S18x18x128_o0_0_0_S16x16x128 : S18x18x128.Slices ![0, 0, 0] S16x16x128
  shapeCasts_S16x16x128_S256x128 : S16x16x128.ShapeCasts S256x128
  inb_S9x128x256_S1x128x256_0_0_0 : ∀ a, (![0, 0, 0] : Fin 3 → Nat) a + S1x128x256.size a ≤ S9x128x256.size a
  h_S1x128x256 : 0 < S1x128x256.numel
  shapeCasts_S1x128x256_S128x256 : S1x128x256.ShapeCasts S128x256
  slices_S18x18x128_o0_1_0_S16x16x128 : S18x18x128.Slices ![0, 1, 0] S16x16x128
  inb_S9x128x256_S1x128x256_1_0_0 : ∀ a, (![1, 0, 0] : Fin 3 → Nat) a + S1x128x256.size a ≤ S9x128x256.size a
  slices_S18x18x128_o0_2_0_S16x16x128 : S18x18x128.Slices ![0, 2, 0] S16x16x128
  inb_S9x128x256_S1x128x256_2_0_0 : ∀ a, (![2, 0, 0] : Fin 3 → Nat) a + S1x128x256.size a ≤ S9x128x256.size a
  slices_S18x18x128_o1_0_0_S16x16x128 : S18x18x128.Slices ![1, 0, 0] S16x16x128
  inb_S9x128x256_S1x128x256_3_0_0 : ∀ a, (![3, 0, 0] : Fin 3 → Nat) a + S1x128x256.size a ≤ S9x128x256.size a
  slices_S18x18x128_o1_1_0_S16x16x128 : S18x18x128.Slices ![1, 1, 0] S16x16x128
  inb_S9x128x256_S1x128x256_4_0_0 : ∀ a, (![4, 0, 0] : Fin 3 → Nat) a + S1x128x256.size a ≤ S9x128x256.size a
  slices_S18x18x128_o1_2_0_S16x16x128 : S18x18x128.Slices ![1, 2, 0] S16x16x128
  inb_S9x128x256_S1x128x256_5_0_0 : ∀ a, (![5, 0, 0] : Fin 3 → Nat) a + S1x128x256.size a ≤ S9x128x256.size a
  slices_S18x18x128_o2_0_0_S16x16x128 : S18x18x128.Slices ![2, 0, 0] S16x16x128
  inb_S9x128x256_S1x128x256_6_0_0 : ∀ a, (![6, 0, 0] : Fin 3 → Nat) a + S1x128x256.size a ≤ S9x128x256.size a
  slices_S18x18x128_o2_1_0_S16x16x128 : S18x18x128.Slices ![2, 1, 0] S16x16x128
  inb_S9x128x256_S1x128x256_7_0_0 : ∀ a, (![7, 0, 0] : Fin 3 → Nat) a + S1x128x256.size a ≤ S9x128x256.size a
  slices_S18x18x128_o2_2_0_S16x16x128 : S18x18x128.Slices ![2, 2, 0] S16x16x128
  inb_S9x128x256_S1x128x256_8_0_0 : ∀ a, (![8, 0, 0] : Fin 3 → Nat) a + S1x128x256.size a ≤ S9x128x256.size a
  inb_S3x256_S1x256_0_0 : ∀ a, (![0, 0] : Fin 2 → Nat) a + S1x256.size a ≤ S3x256.size a
  h_S1x256 : 0 < S1x256.numel
  broadcasts_S1x256_S256x256 : S1x256.Broadcasts S256x256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  shapeCasts_S256x256_S16x8x512 : S256x256.ShapeCasts S16x8x512
  shapeCasts_S16x8x512_S8x2x8x512 : S16x8x512.ShapeCasts S8x2x8x512
  slices_S8x2x8x512_o0_0_0_0_S8x1x8x512 : S8x2x8x512.Slices ![0, 0, 0, 0] S8x1x8x512
  shapeCasts_S8x1x8x512_S8x8x512 : S8x1x8x512.ShapeCasts S8x8x512
  slices_S8x2x8x512_o0_1_0_0_S8x1x8x512 : S8x2x8x512.Slices ![0, 1, 0, 0] S8x1x8x512
  slices_S8x8x512_o0_0_0_S8x8x256 : S8x8x512.Slices ![0, 0, 0] S8x8x256
  slices_S8x8x512_o0_0_256_S8x8x256 : S8x8x512.Slices ![0, 0, 256] S8x8x256
  concatenates_S1x8x256_S8x8x256_S9x8x256_d0 : Shape.Concatenates [S1x8x256, S8x8x256] S9x8x256 0
  concatenates_S9x8x256_S1x8x256_S10x8x256_d0 : Shape.Concatenates [S9x8x256, S1x8x256] S10x8x256 0
  concatenates_S10x1x256_S10x8x256_S10x9x256_d1 : Shape.Concatenates [S10x1x256, S10x8x256] S10x9x256 1
  concatenates_S10x9x256_S10x1x256_S10x10x256_d1 : Shape.Concatenates [S10x9x256, S10x1x256] S10x10x256 1
  slices_S10x10x256_o0_0_0_S8x8x256 : S10x10x256.Slices ![0, 0, 0] S8x8x256
  shapeCasts_S8x8x256_S64x256 : S8x8x256.ShapeCasts S64x256
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  slices_S10x10x256_o0_1_0_S8x8x256 : S10x10x256.Slices ![0, 1, 0] S8x8x256
  inb_S9x256x512_S1x256x512_1_0_0 : ∀ a, (![1, 0, 0] : Fin 3 → Nat) a + S1x256x512.size a ≤ S9x256x512.size a
  slices_S10x10x256_o0_2_0_S8x8x256 : S10x10x256.Slices ![0, 2, 0] S8x8x256
  inb_S9x256x512_S1x256x512_2_0_0 : ∀ a, (![2, 0, 0] : Fin 3 → Nat) a + S1x256x512.size a ≤ S9x256x512.size a
  slices_S10x10x256_o1_0_0_S8x8x256 : S10x10x256.Slices ![1, 0, 0] S8x8x256
  inb_S9x256x512_S1x256x512_3_0_0 : ∀ a, (![3, 0, 0] : Fin 3 → Nat) a + S1x256x512.size a ≤ S9x256x512.size a
  slices_S10x10x256_o1_1_0_S8x8x256 : S10x10x256.Slices ![1, 1, 0] S8x8x256
  inb_S9x256x512_S1x256x512_4_0_0 : ∀ a, (![4, 0, 0] : Fin 3 → Nat) a + S1x256x512.size a ≤ S9x256x512.size a
  slices_S10x10x256_o1_2_0_S8x8x256 : S10x10x256.Slices ![1, 2, 0] S8x8x256
  inb_S9x256x512_S1x256x512_5_0_0 : ∀ a, (![5, 0, 0] : Fin 3 → Nat) a + S1x256x512.size a ≤ S9x256x512.size a
  slices_S10x10x256_o2_0_0_S8x8x256 : S10x10x256.Slices ![2, 0, 0] S8x8x256
  inb_S9x256x512_S1x256x512_6_0_0 : ∀ a, (![6, 0, 0] : Fin 3 → Nat) a + S1x256x512.size a ≤ S9x256x512.size a
  slices_S10x10x256_o2_1_0_S8x8x256 : S10x10x256.Slices ![2, 1, 0] S8x8x256
  inb_S9x256x512_S1x256x512_7_0_0 : ∀ a, (![7, 0, 0] : Fin 3 → Nat) a + S1x256x512.size a ≤ S9x256x512.size a
  slices_S10x10x256_o2_2_0_S8x8x256 : S10x10x256.Slices ![2, 2, 0] S8x8x256
  inb_S9x256x512_S1x256x512_8_0_0 : ∀ a, (![8, 0, 0] : Fin 3 → Nat) a + S1x256x512.size a ≤ S9x256x512.size a
  inb_S3x512_S1x512_0_0 : ∀ a, (![0, 0] : Fin 2 → Nat) a + S1x512.size a ≤ S3x512.size a
  h_S1x512 : 0 < S1x512.numel
  broadcasts_S1x512_S64x512 : S1x512.Broadcasts S64x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  packedbf16_S1x64x512_S1x64x512_0_0_0 : (Rect.unit (s := S1x64x512) ![0, 0, 0] S1x64x512.size inb_S1x64x512_S1x64x512_0_0_0).PackedRows (EltTy.packing .bf16)
  shapeCasts_S64x64x512_S64x32768 : S64x64x512.ShapeCasts S64x32768
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x512_S4096x512_0_0 : ∀ a, (![0, 0] : Fin 2 → Nat) a + S4096x512.size a ≤ S4096x512.size a
  h_S4096x512 : 0 < S4096x512.numel
  inb_S3x512_S3x512_0_0 : ∀ a, (![0, 0] : Fin 2 → Nat) a + S3x512.size a ≤ S3x512.size a
  h_S3x512 : 0 < S3x512.numel
  slices_S3x512_o0_0_S1x512 : S3x512.Slices ![0, 0] S1x512
  slices_S3x512_o1_0_S1x512 : S3x512.Slices ![1, 0] S1x512
  slices_S3x512_o2_0_S1x512 : S3x512.Slices ![2, 0] S1x512
  packedbf16_S64x512_S64x512_0_0 : (Rect.unit (s := S64x512) ![0, 0] S64x512.size inb_S64x512_S64x512_0_0).PackedRows (EltTy.packing .bf16)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  slices_S64x1024_o0_0_S32x1024 : S64x1024.Slices ![0, 0] S32x1024
  inb_S2048x256_S1024x256_0_0 : ∀ a, (![0, 0] : Fin 2 → Nat) a + S1024x256.size a ≤ S2048x256.size a
  h_S1024x256 : 0 < S1024x256.numel
  slices_S64x1024_o32_0_S32x1024 : S64x1024.Slices ![32, 0] S32x1024
  inb_S2048x256_S1024x256_1024_0 : ∀ a, (![1024, 0] : Fin 2 → Nat) a + S1024x256.size a ≤ S2048x256.size a
  inb_S1x256_S1x256_0_0 : ∀ a, (![0, 0] : Fin 2 → Nat) a + S1x256.size a ≤ S1x256.size a
  broadcasts_S1x256_S32x256 : S1x256.Broadcasts S32x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  broadcasts_S1x2_S32x2 : S1x2.Broadcasts S32x2
  inb_S32x2_S32x2_0_0 : ∀ a, (![0, 0] : Fin 2 → Nat) a + S32x2.size a ≤ S32x2.size a
  h_S32x2 : 0 < S32x2.numel
  dot_S4096x20_S20x128_S4096x128_1_0_0_1_n_n_wf : DotDims.WF S4096x20 S20x128 S4096x128 [1] [0] [0] [1] [] []
  dot_S1024x128_S128x128_S1024x128_1_0_0_1_n_n_wf : DotDims.WF S1024x128 S128x128 S1024x128 [1] [0] [0] [1] [] []
  dot_S256x128_S128x256_S256x256_1_0_0_1_n_n_wf : DotDims.WF S256x128 S128x256 S256x256 [1] [0] [0] [1] [] []
  dot_S64x256_S256x512_S64x512_1_0_0_1_n_n_wf : DotDims.WF S64x256 S256x512 S64x512 [1] [0] [0] [1] [] []
  dot_S64x4096_S4096x512_S64x512_1_0_0_1_n_n_wf : DotDims.WF S64x4096 S4096x512 S64x512 [1] [0] [0] [1] [] []
  dot_S32x1024_S1024x256_S32x256_1_0_0_1_n_n_wf : DotDims.WF S32x1024 S1024x256 S32x256 [1] [0] [0] [1] [] []
  dot_S32x256_S256x2_S32x2_1_0_0_1_n_n_wf : DotDims.WF S32x256 S256x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x4.size a ≤ S64x68x68x4.size a
  hwx0_0 : ∀ i : grid0.Coords, EltTy.bits .bf16 = 32 ∨ (Rect.block (s := S64x68x68x4) S1x68x68x4.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x20x128.size a ≤ S5x20x128.size a
  hwx0_1 : ∀ i : grid0.Coords, EltTy.bits .bf16 = 32 ∨ (Rect.block (s := S5x20x128) S5x20x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x128x128.size a ≤ S25x128x128.size a
  hwx0_3 : ∀ i : grid0.Coords, EltTy.bits .bf16 = 32 ∨ (Rect.block (s := S25x128x128) S25x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x128x256.size a ≤ S9x128x256.size a
  hwx0_5 : ∀ i : grid0.Coords, EltTy.bits .bf16 = 32 ∨ (Rect.block (s := S9x128x256) S9x128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x256.size a ≤ S3x256.size a
  hwx0_6 : ∀ i : grid0.Coords, EltTy.bits .f32 = 32 ∨ (Rect.block (s := S3x256) S3x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S9x256x512.size a ≤ S9x256x512.size a
  hwx0_7 : ∀ i : grid0.Coords, EltTy.bits .bf16 = 32 ∨ (Rect.block (s := S9x256x512) S9x256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x512.size a ≤ S3x512.size a
  hwx0_8 : ∀ i : grid0.Coords, EltTy.bits .f32 = 32 ∨ (Rect.block (s := S3x512) S3x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x512.size a ≤ S64x64x512.size a
  hwx0_9 : ∀ i : grid0.Coords, EltTy.bits .bf16 = 32 ∨ (Rect.block (s := S64x64x512) S1x64x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S64x32768.size a
  hwx1_0 : ∀ i : grid1.Coords, EltTy.bits .bf16 = 32 ∨ (Rect.block (s := S64x32768) S64x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S32768x1024.size a
  hwx1_1 : ∀ i : grid1.Coords, EltTy.bits .bf16 = 32 ∨ (Rect.block (s := S32768x1024) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x512.size a ≤ S3x1024.size a
  hwx1_2 : ∀ i : grid1.Coords, EltTy.bits .f32 = 32 ∨ (Rect.block (s := S3x1024) S3x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x1024.size a
  hwx1_3 : ∀ i : grid1.Coords, EltTy.bits .bf16 = 32 ∨ (Rect.block (s := S64x1024) S64x512.size (cc1_transform_3 i) (hinb1_3 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S64x1024.size a
  hwx2_0 : ∀ i : grid2.Coords, EltTy.bits .bf16 = 32 ∨ (Rect.block (s := S64x1024) S64x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .bf16 = 32 ∨ (Rect.block (s := S2048x256) S2048x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x2.size a ≤ S256x2.size a
  hwx2_3 : ∀ i : grid2.Coords, EltTy.bits .bf16 = 32 ∨ (Rect.block (s := S256x2) S256x2.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x2.size a ≤ S32x2.size a
  hwx2_5 : ∀ i : grid2.Coords, EltTy.bits .f32 = 32 ∨ (Rect.block (s := S32x2) S32x2.size (cc2_transform_5 i) (hinb2_5 i)).WholeWords (EltTy.packing .f32)

variable [Facts₀]

def dot_S4096x20_S20x128_S4096x128_1_0_0_1_n_n : DotDims S4096x20 S20x128 S4096x128 where
  lhsContracting := [1]
  rhsContracting := [0]
  lhsNonContracting := [0]
  rhsNonContracting := [1]
  lhsBatch := []
  rhsBatch := []
  wf := dot_S4096x20_S20x128_S4096x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

abbrev win0_0 : Pipeline.Window sig grid0 :=
  Pipeline.Window.ofSpec (Memref.whole main_v5) S1x68x68x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5x20x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S25x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S9x128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S9x256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x64x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S3x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S64x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S64x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S2048x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S32x2.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S32x6x64x64 : Shape := ⟨4, ![32, 6, 64, 64]⟩
abbrev S25x3x128 : Shape := ⟨3, ![25, 3, 128]⟩
abbrev S3x128 : Shape := ⟨2, ![3, 128]⟩
abbrev S25x128x128 : Shape := ⟨3, ![25, 128, 128]⟩
abbrev S9x128x256 : Shape := ⟨3, ![9, 128, 256]⟩
abbrev S3x256 : Shape := ⟨2, ![3, 256]⟩
abbrev S9x256x512 : Shape := ⟨3, ![9, 256, 512]⟩
abbrev S3x512 : Shape := ⟨2, ![3, 512]⟩
abbrev S32768x1024 : Shape := ⟨2, ![32768, 1024]⟩
abbrev S3x1024 : Shape := ⟨2, ![3, 1024]⟩
abbrev S2048x256 : Shape := ⟨2, ![2048, 256]⟩
abbrev S1x256 : Shape := ⟨2, ![1, 256]⟩
abbrev S256x2 : Shape := ⟨2, ![256, 2]⟩
abbrev S1x2 : Shape := ⟨2, ![1, 2]⟩
abbrev S32x3x64x64 : Shape := ⟨4, ![32, 3, 64, 64]⟩
abbrev S64x3x64x64 : Shape := ⟨4, ![64, 3, 64, 64]⟩
abbrev S64x64x64x3 : Shape := ⟨4, ![64, 64, 64, 3]⟩
abbrev S_ : Shape := ⟨0, ![]⟩
abbrev S64x68x68x3 : Shape := ⟨4, ![64, 68, 68, 3]⟩
abbrev S64x4096x128 : Shape := ⟨3, ![64, 4096, 128]⟩
abbrev S1x68x68x3 : Shape := ⟨4, ![1, 68, 68, 3]⟩
abbrev S1x4096x128 : Shape := ⟨3, ![1, 4096, 128]⟩
abbrev S4096x128 : Shape := ⟨2, ![4096, 128]⟩
abbrev S1x64x64x3 : Shape := ⟨4, ![1, 64, 64, 3]⟩
abbrev S64x64x3 : Shape := ⟨3, ![64, 64, 3]⟩
abbrev S4096x3 : Shape := ⟨2, ![4096, 3]⟩
abbrev S1x3x128 : Shape := ⟨3, ![1, 3, 128]⟩
abbrev S1x128 : Shape := ⟨2, ![1, 128]⟩
abbrev S64x64x64x128 : Shape := ⟨4, ![64, 64, 64, 128]⟩
abbrev S2048x2x32x256 : Shape := ⟨4, ![2048, 2, 32, 256]⟩
abbrev S2048x32x128 : Shape := ⟨3, ![2048, 32, 128]⟩
abbrev S512x2x32x256 : Shape := ⟨4, ![512, 2, 32, 256]⟩
abbrev S512x32x128 : Shape := ⟨3, ![512, 32, 128]⟩
abbrev S512x1x32x256 : Shape := ⟨4, ![512, 1, 32, 256]⟩
abbrev S512x32x256 : Shape := ⟨3, ![512, 32, 256]⟩
abbrev S64x32x32x128 : Shape := ⟨4, ![64, 32, 32, 128]⟩
abbrev S64x36x36x128 : Shape := ⟨4, ![64, 36, 36, 128]⟩
abbrev S64x1024x128 : Shape := ⟨3, ![64, 1024, 128]⟩
abbrev S1x36x36x128 : Shape := ⟨4, ![1, 36, 36, 128]⟩
abbrev S1x1024x128 : Shape := ⟨3, ![1, 1024, 128]⟩
abbrev S1024x128 : Shape := ⟨2, ![1024, 128]⟩
abbrev S1x32x32x128 : Shape := ⟨4, ![1, 32, 32, 128]⟩
abbrev S32x32x128 : Shape := ⟨3, ![32, 32, 128]⟩
abbrev S1x128x128 : Shape := ⟨3, ![1, 128, 128]⟩
abbrev S128x128 : Shape := ⟨2, ![128, 128]⟩
abbrev S1024x2x16x256 : Shape := ⟨4, ![1024, 2, 16, 256]⟩
abbrev S1024x16x128 : Shape := ⟨3, ![1024, 16, 128]⟩
abbrev S256x2x16x256 : Shape := ⟨4, ![256, 2, 16, 256]⟩
abbrev S256x16x128 : Shape := ⟨3, ![256, 16, 128]⟩
abbrev S256x1x16x256 : Shape := ⟨4, ![256, 1, 16, 256]⟩
abbrev S256x16x256 : Shape := ⟨3, ![256, 16, 256]⟩
abbrev S64x16x16x128 : Shape := ⟨4, ![64, 16, 16, 128]⟩
abbrev S64x18x18x128 : Shape := ⟨4, ![64, 18, 18, 128]⟩
abbrev S64x256x256 : Shape := ⟨3, ![64, 256, 256]⟩
abbrev S1x18x18x128 : Shape := ⟨4, ![1, 18, 18, 128]⟩
abbrev S1x256x256 : Shape := ⟨3, ![1, 256, 256]⟩
abbrev S256x256 : Shape := ⟨2, ![256, 256]⟩
abbrev S1x16x16x128 : Shape := ⟨4, ![1, 16, 16, 128]⟩
abbrev S16x16x128 : Shape := ⟨3, ![16, 16, 128]⟩
abbrev S256x128 : Shape := ⟨2, ![256, 128]⟩
abbrev S1x128x256 : Shape := ⟨3, ![1, 128, 256]⟩
abbrev S128x256 : Shape := ⟨2, ![128, 256]⟩
abbrev S64x16x16x256 : Shape := ⟨4, ![64, 16, 16, 256]⟩
abbrev S512x2x8x512 : Shape := ⟨4, ![512, 2, 8, 512]⟩
abbrev S512x8x256 : Shape := ⟨3, ![512, 8, 256]⟩
abbrev S128x2x8x512 : Shape := ⟨4, ![128, 2, 8, 512]⟩
abbrev S128x8x256 : Shape := ⟨3, ![128, 8, 256]⟩
abbrev S128x1x8x512 : Shape := ⟨4, ![128, 1, 8, 512]⟩
abbrev S128x8x512 : Shape := ⟨3, ![128, 8, 512]⟩
abbrev S64x8x8x256 : Shape := ⟨4, ![64, 8, 8, 256]⟩
abbrev S64x10x10x256 : Shape := ⟨4, ![64, 10, 10, 256]⟩
abbrev S64x64x512 : Shape := ⟨3, ![64, 64, 512]⟩
abbrev S1x10x10x256 : Shape := ⟨4, ![1, 10, 10, 256]⟩
abbrev S1x64x512 : Shape := ⟨3, ![1, 64, 512]⟩
abbrev S64x512 : Shape := ⟨2, ![64, 512]⟩
abbrev S1x8x8x256 : Shape := ⟨4, ![1, 8, 8, 256]⟩
abbrev S8x8x256 : Shape := ⟨3, ![8, 8, 256]⟩
abbrev S64x256 : Shape := ⟨2, ![64, 256]⟩
abbrev S1x256x512 : Shape := ⟨3, ![1, 256, 512]⟩
abbrev S256x512 : Shape := ⟨2, ![256, 512]⟩
abbrev S1x512 : Shape := ⟨2, ![1, 512]⟩
abbrev S64x8x8x512 : Shape := ⟨4, ![64, 8, 8, 512]⟩
abbrev S64x32768 : Shape := ⟨2, ![64, 32768]⟩
abbrev S32x2 : Shape := ⟨2, ![32, 2]⟩
abbrev S64x4096 : Shape := ⟨2, ![64, 4096]⟩
abbrev S4096x1024 : Shape := ⟨2, ![4096, 1024]⟩
abbrev S64x1024 : Shape := ⟨2, ![64, 1024]⟩
abbrev S1x1024 : Shape := ⟨2, ![1, 1024]⟩
abbrev S32x1024 : Shape := ⟨2, ![32, 1024]⟩
abbrev S1024x256 : Shape := ⟨2, ![1024, 256]⟩
abbrev S32x256 : Shape := ⟨2, ![32, 256]⟩

abbrev nBuf : Space → Nat
  | .hbm => 51
  | .vmem => 47
  | .smem => 0
  | _ => 0

abbrev bufTy : (tb : Table) → Fin (tcTables nBuf tb) → BufTy
  | .hbm, ⟨0, _⟩ => ⟨S32x6x64x64, .f32⟩
  | .hbm, ⟨1, _⟩ => ⟨S25x3x128, .bf16⟩
  | .hbm, ⟨2, _⟩ => ⟨S3x128, .f32⟩
  | .hbm, ⟨3, _⟩ => ⟨S25x128x128, .bf16⟩
  | .hbm, ⟨4, _⟩ => ⟨S3x128, .f32⟩
  | .hbm, ⟨5, _⟩ => ⟨S9x128x256, .bf16⟩
  | .hbm, ⟨6, _⟩ => ⟨S3x256, .f32⟩
  | .hbm, ⟨7, _⟩ => ⟨S9x256x512, .bf16⟩
  | .hbm, ⟨8, _⟩ => ⟨S3x512, .f32⟩
  | .hbm, ⟨9, _⟩ => ⟨S32768x1024, .bf16⟩
  | .hbm, ⟨10, _⟩ => ⟨S3x1024, .f32⟩
  | .hbm, ⟨11, _⟩ => ⟨S2048x256, .bf16⟩
  | .hbm, ⟨12, _⟩ => ⟨S1x256, .f32⟩
  | .hbm, ⟨13, _⟩ => ⟨S256x2, .bf16⟩
  | .hbm, ⟨14, _⟩ => ⟨S1x2, .f32⟩
  | .hbm, ⟨15, _⟩ => ⟨S32x3x64x64, .f32⟩
  | .hbm, ⟨16, _⟩ => ⟨S32x3x64x64, .f32⟩
  | .hbm, ⟨17, _⟩ => ⟨S64x3x64x64, .f32⟩
  | .hbm, ⟨18, _⟩ => ⟨S64x64x64x3, .f32⟩
  | .hbm, ⟨19, _⟩ => ⟨S64x64x64x3, .bf16⟩
  | .hbm, ⟨20, _⟩ => ⟨S_, .i32⟩
  | .hbm, ⟨21, _⟩ => ⟨S_, .bf16⟩
  | .hbm, ⟨22, _⟩ => ⟨S64x68x68x3, .bf16⟩
  | .hbm, ⟨23, _⟩ => ⟨S64x4096x128, .bf16⟩
  | .hbm, ⟨24, _⟩ => ⟨S64x64x64x128, .bf16⟩
  | .hbm, ⟨25, _⟩ => ⟨S2048x2x32x256, .bf16⟩
  | .hbm, ⟨26, _⟩ => ⟨S2048x32x128, .bf16⟩
  | .hbm, ⟨27, _⟩ => ⟨S64x32x32x128, .bf16⟩
  | .hbm, ⟨28, _⟩ => ⟨S_, .i32⟩
  | .hbm, ⟨29, _⟩ => ⟨S_, .bf16⟩
  | .hbm, ⟨30, _⟩ => ⟨S64x36x36x128, .bf16⟩
  | .hbm, ⟨31, _⟩ => ⟨S64x1024x128, .bf16⟩
  | .hbm, ⟨32, _⟩ => ⟨S64x32x32x128, .bf16⟩
  | .hbm, ⟨33, _⟩ => ⟨S1024x2x16x256, .bf16⟩
  | .hbm, ⟨34, _⟩ => ⟨S1024x16x128, .bf16⟩
  | .hbm, ⟨35, _⟩ => ⟨S64x16x16x128, .bf16⟩
  | .hbm, ⟨36, _⟩ => ⟨S_, .i32⟩
  | .hbm, ⟨37, _⟩ => ⟨S_, .bf16⟩
  | .hbm, ⟨38, _⟩ => ⟨S64x18x18x128, .bf16⟩
  | .hbm, ⟨39, _⟩ => ⟨S64x256x256, .bf16⟩
  | .hbm, ⟨40, _⟩ => ⟨S64x16x16x256, .bf16⟩
  | .hbm, ⟨41, _⟩ => ⟨S512x2x8x512, .bf16⟩
  | .hbm, ⟨42, _⟩ => ⟨S512x8x256, .bf16⟩
  | .hbm, ⟨43, _⟩ => ⟨S64x8x8x256, .bf16⟩
  | .hbm, ⟨44, _⟩ => ⟨S_, .i32⟩
  | .hbm, ⟨45, _⟩ => ⟨S_, .bf16⟩
  | .hbm, ⟨46, _⟩ => ⟨S64x10x10x256, .bf16⟩
  | .hbm, ⟨47, _⟩ => ⟨S64x64x512, .bf16⟩
  | .hbm, ⟨48, _⟩ => ⟨S64x8x8x512, .bf16⟩
  | .hbm, ⟨49, _⟩ => ⟨S64x32768, .bf16⟩
  | .hbm, ⟨50, _⟩ => ⟨S32x2, .f32⟩
  | .local _ .vmem, ⟨0, _⟩ => ⟨S1x68x68x3, .bf16⟩
  | .local _ .vmem, ⟨1, _⟩ => ⟨S1x68x68x3, .bf16⟩
  | .local _ .vmem, ⟨2, _⟩ => ⟨S25x3x128, .bf16⟩
  | .local _ .vmem, ⟨3, _⟩ => ⟨S3x128, .f32⟩
  | .local _ .vmem, ⟨4, _⟩ => ⟨S1x4096x128, .bf16⟩
  | .local _ .vmem, ⟨5, _⟩ => ⟨S1x4096x128, .bf16⟩
  | .local _ .vmem, ⟨6, _⟩ => ⟨S512x2x32x256, .bf16⟩
  | .local _ .vmem, ⟨7, _⟩ => ⟨S512x2x32x256, .bf16⟩
  | .local _ .vmem, ⟨8, _⟩ => ⟨S512x32x128, .bf16⟩
  | .local _ .vmem, ⟨9, _⟩ => ⟨S512x32x128, .bf16⟩
  | .local _ .vmem, ⟨10, _⟩ => ⟨S1x36x36x128, .bf16⟩
  | .local _ .vmem, ⟨11, _⟩ => ⟨S1x36x36x128, .bf16⟩
  | .local _ .vmem, ⟨12, _⟩ => ⟨S25x128x128, .bf16⟩
  | .local _ .vmem, ⟨13, _⟩ => ⟨S3x128, .f32⟩
  | .local _ .vmem, ⟨14, _⟩ => ⟨S1x1024x128, .bf16⟩
  | .local _ .vmem, ⟨15, _⟩ => ⟨S1x1024x128, .bf16⟩
  | .local _ .vmem, ⟨16, _⟩ => ⟨S256x2x16x256, .bf16⟩
  | .local _ .vmem, ⟨17, _⟩ => ⟨S256x2x16x256, .bf16⟩
  | .local _ .vmem, ⟨18, _⟩ => ⟨S256x16x128, .bf16⟩
  | .local _ .vmem, ⟨19, _⟩ => ⟨S256x16x128, .bf16⟩
  | .local _ .vmem, ⟨20, _⟩ => ⟨S1x18x18x128, .bf16⟩
  | .local _ .vmem, ⟨21, _⟩ => ⟨S1x18x18x128, .bf16⟩
  | .local _ .vmem, ⟨22, _⟩ => ⟨S9x128x256, .bf16⟩
  | .local _ .vmem, ⟨23, _⟩ => ⟨S3x256, .f32⟩
  | .local _ .vmem, ⟨24, _⟩ => ⟨S1x256x256, .bf16⟩
  | .local _ .vmem, ⟨25, _⟩ => ⟨S1x256x256, .bf16⟩
  | .local _ .vmem, ⟨26, _⟩ => ⟨S128x2x8x512, .bf16⟩
  | .local _ .vmem, ⟨27, _⟩ => ⟨S128x2x8x512, .bf16⟩
  | .local _ .vmem, ⟨28, _⟩ => ⟨S128x8x256, .bf16⟩
  | .local _ .vmem, ⟨29, _⟩ => ⟨S128x8x256, .bf16⟩
  | .local _ .vmem, ⟨30, _⟩ => ⟨S1x10x10x256, .bf16⟩
  | .local _ .vmem, ⟨31, _⟩ => ⟨S1x10x10x256, .bf16⟩
  | .local _ .vmem, ⟨32, _⟩ => ⟨S9x256x512, .bf16⟩
  | .local _ .vmem, ⟨33, _⟩ => ⟨S3x512, .f32⟩
  | .local _ .vmem, ⟨34, _⟩ => ⟨S1x64x512, .bf16⟩
  | .local _ .vmem, ⟨35, _⟩ => ⟨S1x64x512, .bf16⟩
  | .local _ .vmem, ⟨36, _⟩ => ⟨S64x4096, .bf16⟩
  | .local _ .vmem, ⟨37, _⟩ => ⟨S64x4096, .bf16⟩
  | .local _ .vmem, ⟨38, _⟩ => ⟨S4096x1024, .bf16⟩
  | .local _ .vmem, ⟨39, _⟩ => ⟨S4096x1024, .bf16⟩
  | .local _ .vmem, ⟨40, _⟩ => ⟨S3x1024, .f32⟩
  | .local _ .vmem, ⟨41, _⟩ => ⟨S2048x256, .bf16⟩
  | .local _ .vmem, ⟨42, _⟩ => ⟨S1x256, .f32⟩
  | .local _ .vmem, ⟨43, _⟩ => ⟨S256x2, .bf16⟩
  | .local _ .vmem, ⟨44, _⟩ => ⟨S1x2, .f32⟩
  | .local _ .vmem, ⟨45, _⟩ => ⟨S32x2, .f32⟩
  | .local _ .vmem, ⟨46, _⟩ => ⟨S64x1024, .f32⟩
  | _, _ => ⟨S32x6x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg1_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg3_0 : Ref sig .tc := ⟨.vmem, 41, rfl⟩
abbrev cc7_stg4_0 : Ref sig .tc := ⟨.vmem, 42, rfl⟩
abbrev cc7_stg5_0 : Ref sig .tc := ⟨.vmem, 43, rfl⟩
abbrev cc7_stg6_0 : Ref sig .tc := ⟨.vmem, 44, rfl⟩
abbrev cc7_stg7_0 : Ref sig .tc := ⟨.vmem, 45, rfl⟩
abbrev cc7_scratch0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc7_sem1_1 : DmaSem sig := 39
abbrev cc7_sem2_0 : DmaSem sig := 40
abbrev cc7_sem3_0 : DmaSem sig := 41
abbrev cc7_sem4_0 : DmaSem sig := 42
abbrev cc7_sem5_0 : DmaSem sig := 43
abbrev cc7_sem6_0 : DmaSem sig := 44
abbrev cc7_sem7_0 : DmaSem sig := 45

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x68x68x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x3x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2x32x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x32x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x36x36x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S25x128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S256x2x16x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x16x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![64], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x18x18x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x128x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x256x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S128x2x8x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x8x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![64], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x10x10x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x256x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S3x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x64x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def k7_cond2 (i : grid7.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S64x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S3x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2048x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x2 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x2 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S32x2 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

class Facts₀ : Prop where
  slices_S32x6x64x64_S32x3x64x64_0_0_0_0 : S32x6x64x64.Slices ![0, 0, 0, 0] S32x3x64x64
  slices_S32x6x64x64_S32x3x64x64_0_3_0_0 : S32x6x64x64.Slices ![0, 3, 0, 0] S32x3x64x64
  concatenates_S32x3x64x64_S32x3x64x64_S64x3x64x64_d0 : Shape.Concatenates [S32x3x64x64, S32x3x64x64] S64x3x64x64 0
  transposes_S64x3x64x64_S64x64x64x3_0_2_3_1 : S64x3x64x64.Transposes [0, 2, 3, 1] S64x64x64x3
  bitsLt_bf16_f32 : FTy.bits .bf16 < FTy.bits .f32
  pads_S64x64x64x3_S64x68x68x3_000_220_220_000 : S64x64x64x3.Pads (![0, 2, 2, 0] : Fin 4 → Nat) ![0, 2, 2, 0] ![0, 0, 0, 0] S64x68x68x3
  h_S_ : 0 < S_.numel
  inb_S1x68x68x3_S1x64x64x3_0_0_0_0 : ∀ a, (![0, 0, 0, 0] : Fin 4 → Nat) a + S1x64x64x3.size a ≤ S1x68x68x3.size a
  h_S1x64x64x3 : 0 < S1x64x64x3.numel
  shapeCasts_S1x64x64x3_S64x64x3 : S1x64x64x3.ShapeCasts S64x64x3
  shapeCasts_S64x64x3_S4096x3 : S64x64x3.ShapeCasts S4096x3
  inb_S25x3x128_S1x3x128_0_0_0 : ∀ a, (![0, 0, 0] : Fin 3 → Nat) a + S1x3x128.size a ≤ S25x3x128.size a
  h_S1x3x128 : 0 < S1x3x128.numel
  shapeCasts_S1x3x128_S3x128 : S1x3x128.ShapeCasts S3x128
  inb_S1x68x68x3_S1x64x64x3_0_0_1_0 : ∀ a, (![0, 0, 1, 0] : Fin 4 → Nat) a + S1x64x64x3.size a ≤ S1x68x68x3.size a
  inb_S25x3x128_S1x3x128_1_0_0 : ∀ a, (![1, 0, 0] : Fin 3 → Nat) a + S1x3x128.size a ≤ S25x3x128.size a
  inb_S1x68x68x3_S1x64x64x3_0_0_2_0 : ∀ a, (![0, 0, 2, 0] : Fin 4 → Nat) a + S1x64x64x3.size a ≤ S1x68x68x3.size a
  inb_S25x3x128_S1x3x128_2_0_0 : ∀ a, (![2, 0, 0] : Fin 3 → Nat) a + S1x3x128.size a ≤ S25x3x128.size a
  inb_S1x68x68x3_S1x64x64x3_0_0_3_0 : ∀ a, (![0, 0, 3, 0] : Fin 4 → Nat) a + S1x64x64x3.size a ≤ S1x68x68x3.size a
  inb_S25x3x128_S1x3x128_3_0_0 : ∀ a, (![3, 0, 0] : Fin 3 → Nat) a + S1x3x128.size a ≤ S25x3x128.size a
  inb_S1x68x68x3_S1x64x64x3_0_0_4_0 : ∀ a, (![0, 0, 4, 0] : Fin 4 → Nat) a + S1x64x64x3.size a ≤ S1x68x68x3.size a
  inb_S25x3x128_S1x3x128_4_0_0 : ∀ a, (![4, 0, 0] : Fin 3 → Nat) a + S1x3x128.size a ≤ S25x3x128.size a
  inb_S1x68x68x3_S1x64x64x3_0_1_0_0 : ∀ a, (![0, 1, 0, 0] : Fin 4 → Nat) a + S1x64x64x3.size a ≤ S1x68x68x3.size a
  inb_S25x3x128_S1x3x128_5_0_0 : ∀ a, (![5, 0, 0] : Fin 3 → Nat) a + S1x3x128.size a ≤ S25x3x128.size a
  inb_S1x68x68x3_S1x64x64x3_0_1_1_0 : ∀ a, (![0, 1, 1, 0] : Fin 4 → Nat) a + S1x64x64x3.size a ≤ S1x68x68x3.size a
  inb_S25x3x128_S1x3x128_6_0_0 : ∀ a, (![6, 0, 0] : Fin 3 → Nat) a + S1x3x128.size a ≤ S25x3x128.size a
  inb_S1x68x68x3_S1x64x64x3_0_1_2_0 : ∀ a, (![0, 1, 2, 0] : Fin 4 → Nat) a + S1x64x64x3.size a ≤ S1x68x68x3.size a
  inb_S25x3x128_S1x3x128_7_0_0 : ∀ a, (![7, 0, 0] : Fin 3 → Nat) a + S1x3x128.size a ≤ S25x3x128.size a
  inb_S1x68x68x3_S1x64x64x3_0_1_3_0 : ∀ a, (![0, 1, 3, 0] : Fin 4 → Nat) a + S1x64x64x3.size a ≤ S1x68x68x3.size a
  inb_S25x3x128_S1x3x128_8_0_0 : ∀ a, (![8, 0, 0] : Fin 3 → Nat) a + S1x3x128.size a ≤ S25x3x128.size a
  inb_S1x68x68x3_S1x64x64x3_0_1_4_0 : ∀ a, (![0, 1, 4, 0] : Fin 4 → Nat) a + S1x64x64x3.size a ≤ S1x68x68x3.size a
  inb_S25x3x128_S1x3x128_9_0_0 : ∀ a, (![9, 0, 0] : Fin 3 → Nat) a + S1x3x128.size a ≤ S25x3x128.size a
  inb_S1x68x68x3_S1x64x64x3_0_2_0_0 : ∀ a, (![0, 2, 0, 0] : Fin 4 → Nat) a + S1x64x64x3.size a ≤ S1x68x68x3.size a
  inb_S25x3x128_S1x3x128_10_0_0 : ∀ a, (![10, 0, 0] : Fin 3 → Nat) a + S1x3x128.size a ≤ S25x3x128.size a
  inb_S1x68x68x3_S1x64x64x3_0_2_1_0 : ∀ a, (![0, 2, 1, 0] : Fin 4 → Nat) a + S1x64x64x3.size a ≤ S1x68x68x3.size a
  inb_S25x3x128_S1x3x128_11_0_0 : ∀ a, (![11, 0, 0] : Fin 3 → Nat) a + S1x3x128.size a ≤ S25x3x128.size a
  inb_S1x68x68x3_S1x64x64x3_0_2_2_0 : ∀ a, (![0, 2, 2, 0] : Fin 4 → Nat) a + S1x64x64x3.size a ≤ S1x68x68x3.size a
  inb_S25x3x128_S1x3x128_12_0_0 : ∀ a, (![12, 0, 0] : Fin 3 → Nat) a + S1x3x128.size a ≤ S25x3x128.size a
  inb_S1x68x68x3_S1x64x64x3_0_2_3_0 : ∀ a, (![0, 2, 3, 0] : Fin 4 → Nat) a + S1x64x64x3.size a ≤ S1x68x68x3.size a
  inb_S25x3x128_S1x3x128_13_0_0 : ∀ a, (![13, 0, 0] : Fin 3 → Nat) a + S1x3x128.size a ≤ S25x3x128.size a
  inb_S1x68x68x3_S1x64x64x3_0_2_4_0 : ∀ a, (![0, 2, 4, 0] : Fin 4 → Nat) a + S1x64x64x3.size a ≤ S1x68x68x3.size a
  inb_S25x3x128_S1x3x128_14_0_0 : ∀ a, (![14, 0, 0] : Fin 3 → Nat) a + S1x3x128.size a ≤ S25x3x128.size a
  inb_S1x68x68x3_S1x64x64x3_0_3_0_0 : ∀ a, (![0, 3, 0, 0] : Fin 4 → Nat) a + S1x64x64x3.size a ≤ S1x68x68x3.size a
  inb_S25x3x128_S1x3x128_15_0_0 : ∀ a, (![15, 0, 0] : Fin 3 → Nat) a + S1x3x128.size a ≤ S25x3x128.size a
  inb_S1x68x68x3_S1x64x64x3_0_3_1_0 : ∀ a, (![0, 3, 1, 0] : Fin 4 → Nat) a + S1x64x64x3.size a ≤ S1x68x68x3.size a
  inb_S25x3x128_S1x3x128_16_0_0 : ∀ a, (![16, 0, 0] : Fin 3 → Nat) a + S1x3x128.size a ≤ S25x3x128.size a
  inb_S1x68x68x3_S1x64x64x3_0_3_2_0 : ∀ a, (![0, 3, 2, 0] : Fin 4 → Nat) a + S1x64x64x3.size a ≤ S1x68x68x3.size a
  inb_S25x3x128_S1x3x128_17_0_0 : ∀ a, (![17, 0, 0] : Fin 3 → Nat) a + S1x3x128.size a ≤ S25x3x128.size a
  inb_S1x68x68x3_S1x64x64x3_0_3_3_0 : ∀ a, (![0, 3, 3, 0] : Fin 4 → Nat) a + S1x64x64x3.size a ≤ S1x68x68x3.size a
  inb_S25x3x128_S1x3x128_18_0_0 : ∀ a, (![18, 0, 0] : Fin 3 → Nat) a + S1x3x128.size a ≤ S25x3x128.size a
  inb_S1x68x68x3_S1x64x64x3_0_3_4_0 : ∀ a, (![0, 3, 4, 0] : Fin 4 → Nat) a + S1x64x64x3.size a ≤ S1x68x68x3.size a
  inb_S25x3x128_S1x3x128_19_0_0 : ∀ a, (![19, 0, 0] : Fin 3 → Nat) a + S1x3x128.size a ≤ S25x3x128.size a
  inb_S1x68x68x3_S1x64x64x3_0_4_0_0 : ∀ a, (![0, 4, 0, 0] : Fin 4 → Nat) a + S1x64x64x3.size a ≤ S1x68x68x3.size a
  inb_S25x3x128_S1x3x128_20_0_0 : ∀ a, (![20, 0, 0] : Fin 3 → Nat) a + S1x3x128.size a ≤ S25x3x128.size a
  inb_S1x68x68x3_S1x64x64x3_0_4_1_0 : ∀ a, (![0, 4, 1, 0] : Fin 4 → Nat) a + S1x64x64x3.size a ≤ S1x68x68x3.size a
  inb_S25x3x128_S1x3x128_21_0_0 : ∀ a, (![21, 0, 0] : Fin 3 → Nat) a + S1x3x128.size a ≤ S25x3x128.size a
  inb_S1x68x68x3_S1x64x64x3_0_4_2_0 : ∀ a, (![0, 4, 2, 0] : Fin 4 → Nat) a + S1x64x64x3.size a ≤ S1x68x68x3.size a
  inb_S25x3x128_S1x3x128_22_0_0 : ∀ a, (![22, 0, 0] : Fin 3 → Nat) a + S1x3x128.size a ≤ S25x3x128.size a
  inb_S1x68x68x3_S1x64x64x3_0_4_3_0 : ∀ a, (![0, 4, 3, 0] : Fin 4 → Nat) a + S1x64x64x3.size a ≤ S1x68x68x3.size a
  inb_S25x3x128_S1x3x128_23_0_0 : ∀ a, (![23, 0, 0] : Fin 3 → Nat) a + S1x3x128.size a ≤ S25x3x128.size a
  inb_S1x68x68x3_S1x64x64x3_0_4_4_0 : ∀ a, (![0, 4, 4, 0] : Fin 4 → Nat) a + S1x64x64x3.size a ≤ S1x68x68x3.size a
  inb_S25x3x128_S1x3x128_24_0_0 : ∀ a, (![24, 0, 0] : Fin 3 → Nat) a + S1x3x128.size a ≤ S25x3x128.size a
  inb_S3x128_S1x128_0_0 : ∀ a, (![0, 0] : Fin 2 → Nat) a + S1x128.size a ≤ S3x128.size a
  h_S1x128 : 0 < S1x128.numel
  broadcasts_S1x128_S4096x128 : S1x128.Broadcasts S4096x128
  inb_S3x128_S1x128_1_0 : ∀ a, (![1, 0] : Fin 2 → Nat) a + S1x128.size a ≤ S3x128.size a
  inb_S3x128_S1x128_2_0 : ∀ a, (![2, 0] : Fin 2 → Nat) a + S1x128.size a ≤ S3x128.size a
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  packedbf16_S1x4096x128_S1x4096x128_0_0_0 : (Rect.unit (s := S1x4096x128) ![0, 0, 0] S1x4096x128.size inb_S1x4096x128_S1x4096x128_0_0_0).PackedRows (EltTy.packing .bf16)
  shapeCasts_S64x4096x128_S64x64x64x128 : S64x4096x128.ShapeCasts S64x64x64x128
  shapeCasts_S64x64x64x128_S2048x2x32x256 : S64x64x64x128.ShapeCasts S2048x2x32x256
  inb_S512x2x32x256_S512x1x32x256_0_0_0_0 : ∀ a, (![0, 0, 0, 0] : Fin 4 → Nat) a + S512x1x32x256.size a ≤ S512x2x32x256.size a
  h_S512x1x32x256 : 0 < S512x1x32x256.numel
  shapeCasts_S512x1x32x256_S512x32x256 : S512x1x32x256.ShapeCasts S512x32x256
  inb_S512x2x32x256_S512x1x32x256_0_1_0_0 : ∀ a, (![0, 1, 0, 0] : Fin 4 → Nat) a + S512x1x32x256.size a ≤ S512x2x32x256.size a
  slices_S512x32x256_o0_0_0_S512x32x128 : S512x32x256.Slices ![0, 0, 0] S512x32x128
  slices_S512x32x256_o0_0_128_S512x32x128 : S512x32x256.Slices ![0, 0, 128] S512x32x128
  inb_S512x32x128_S512x32x128_0_0_0 : ∀ a, (![0, 0, 0] : Fin 3 → Nat) a + S512x32x128.size a ≤ S512x32x128.size a
  h_S512x32x128 : 0 < S512x32x128.numel
  packedbf16_S512x32x128_S512x32x128_0_0_0 : (Rect.unit (s := S512x32x128) ![0, 0, 0] S512x32x128.size inb_S512x32x128_S512x32x128_0_0_0).PackedRows (EltTy.packing .bf16)
  shapeCasts_S2048x32x128_S64x32x32x128 : S2048x32x128.ShapeCasts S64x32x32x128
  pads_S64x32x32x128_S64x36x36x128_000_220_220_000 : S64x32x32x128.Pads (![0, 2, 2, 0] : Fin 4 → Nat) ![0, 2, 2, 0] ![0, 0, 0, 0] S64x36x36x128
  inb_S1x36x36x128_S1x32x32x128_0_0_0_0 : ∀ a, (![0, 0, 0, 0] : Fin 4 → Nat) a + S1x32x32x128.size a ≤ S1x36x36x128.size a
  h_S1x32x32x128 : 0 < S1x32x32x128.numel
  shapeCasts_S1x32x32x128_S32x32x128 : S1x32x32x128.ShapeCasts S32x32x128
  shapeCasts_S32x32x128_S1024x128 : S32x32x128.ShapeCasts S1024x128
  inb_S25x128x128_S1x128x128_0_0_0 : ∀ a, (![0, 0, 0] : Fin 3 → Nat) a + S1x128x128.size a ≤ S25x128x128.size a
  h_S1x128x128 : 0 < S1x128x128.numel
  shapeCasts_S1x128x128_S128x128 : S1x128x128.ShapeCasts S128x128
  inb_S1x36x36x128_S1x32x32x128_0_0_1_0 : ∀ a, (![0, 0, 1, 0] : Fin 4 → Nat) a + S1x32x32x128.size a ≤ S1x36x36x128.size a
  inb_S25x128x128_S1x128x128_1_0_0 : ∀ a, (![1, 0, 0] : Fin 3 → Nat) a + S1x128x128.size a ≤ S25x128x128.size a
  inb_S1x36x36x128_S1x32x32x128_0_0_2_0 : ∀ a, (![0, 0, 2, 0] : Fin 4 → Nat) a + S1x32x32x128.size a ≤ S1x36x36x128.size a
  inb_S25x128x128_S1x128x128_2_0_0 : ∀ a, (![2, 0, 0] : Fin 3 → Nat) a + S1x128x128.size a ≤ S25x128x128.size a
  inb_S1x36x36x128_S1x32x32x128_0_0_3_0 : ∀ a, (![0, 0, 3, 0] : Fin 4 → Nat) a + S1x32x32x128.size a ≤ S1x36x36x128.size a
  inb_S25x128x128_S1x128x128_3_0_0 : ∀ a, (![3, 0, 0] : Fin 3 → Nat) a + S1x128x128.size a ≤ S25x128x128.size a
  inb_S1x36x36x128_S1x32x32x128_0_0_4_0 : ∀ a, (![0, 0, 4, 0] : Fin 4 → Nat) a + S1x32x32x128.size a ≤ S1x36x36x128.size a
  inb_S25x128x128_S1x128x128_4_0_0 : ∀ a, (![4, 0, 0] : Fin 3 → Nat) a + S1x128x128.size a ≤ S25x128x128.size a
  inb_S1x36x36x128_S1x32x32x128_0_1_0_0 : ∀ a, (![0, 1, 0, 0] : Fin 4 → Nat) a + S1x32x32x128.size a ≤ S1x36x36x128.size a
  inb_S25x128x128_S1x128x128_5_0_0 : ∀ a, (![5, 0, 0] : Fin 3 → Nat) a + S1x128x128.size a ≤ S25x128x128.size a
  inb_S1x36x36x128_S1x32x32x128_0_1_1_0 : ∀ a, (![0, 1, 1, 0] : Fin 4 → Nat) a + S1x32x32x128.size a ≤ S1x36x36x128.size a
  inb_S25x128x128_S1x128x128_6_0_0 : ∀ a, (![6, 0, 0] : Fin 3 → Nat) a + S1x128x128.size a ≤ S25x128x128.size a
  inb_S1x36x36x128_S1x32x32x128_0_1_2_0 : ∀ a, (![0, 1, 2, 0] : Fin 4 → Nat) a + S1x32x32x128.size a ≤ S1x36x36x128.size a
  inb_S25x128x128_S1x128x128_7_0_0 : ∀ a, (![7, 0, 0] : Fin 3 → Nat) a + S1x128x128.size a ≤ S25x128x128.size a
  inb_S1x36x36x128_S1x32x32x128_0_1_3_0 : ∀ a, (![0, 1, 3, 0] : Fin 4 → Nat) a + S1x32x32x128.size a ≤ S1x36x36x128.size a
  inb_S25x128x128_S1x128x128_8_0_0 : ∀ a, (![8, 0, 0] : Fin 3 → Nat) a + S1x128x128.size a ≤ S25x128x128.size a
  inb_S1x36x36x128_S1x32x32x128_0_1_4_0 : ∀ a, (![0, 1, 4, 0] : Fin 4 → Nat) a + S1x32x32x128.size a ≤ S1x36x36x128.size a
  inb_S25x128x128_S1x128x128_9_0_0 : ∀ a, (![9, 0, 0] : Fin 3 → Nat) a + S1x128x128.size a ≤ S25x128x128.size a
  inb_S1x36x36x128_S1x32x32x128_0_2_0_0 : ∀ a, (![0, 2, 0, 0] : Fin 4 → Nat) a + S1x32x32x128.size a ≤ S1x36x36x128.size a
  inb_S25x128x128_S1x128x128_10_0_0 : ∀ a, (![10, 0, 0] : Fin 3 → Nat) a + S1x128x128.size a ≤ S25x128x128.size a
  inb_S1x36x36x128_S1x32x32x128_0_2_1_0 : ∀ a, (![0, 2, 1, 0] : Fin 4 → Nat) a + S1x32x32x128.size a ≤ S1x36x36x128.size a
  inb_S25x128x128_S1x128x128_11_0_0 : ∀ a, (![11, 0, 0] : Fin 3 → Nat) a + S1x128x128.size a ≤ S25x128x128.size a
  inb_S1x36x36x128_S1x32x32x128_0_2_2_0 : ∀ a, (![0, 2, 2, 0] : Fin 4 → Nat) a + S1x32x32x128.size a ≤ S1x36x36x128.size a
  inb_S25x128x128_S1x128x128_12_0_0 : ∀ a, (![12, 0, 0] : Fin 3 → Nat) a + S1x128x128.size a ≤ S25x128x128.size a
  inb_S1x36x36x128_S1x32x32x128_0_2_3_0 : ∀ a, (![0, 2, 3, 0] : Fin 4 → Nat) a + S1x32x32x128.size a ≤ S1x36x36x128.size a
  inb_S25x128x128_S1x128x128_13_0_0 : ∀ a, (![13, 0, 0] : Fin 3 → Nat) a + S1x128x128.size a ≤ S25x128x128.size a
  inb_S1x36x36x128_S1x32x32x128_0_2_4_0 : ∀ a, (![0, 2, 4, 0] : Fin 4 → Nat) a + S1x32x32x128.size a ≤ S1x36x36x128.size a
  inb_S25x128x128_S1x128x128_14_0_0 : ∀ a, (![14, 0, 0] : Fin 3 → Nat) a + S1x128x128.size a ≤ S25x128x128.size a
  inb_S1x36x36x128_S1x32x32x128_0_3_0_0 : ∀ a, (![0, 3, 0, 0] : Fin 4 → Nat) a + S1x32x32x128.size a ≤ S1x36x36x128.size a
  inb_S25x128x128_S1x128x128_15_0_0 : ∀ a, (![15, 0, 0] : Fin 3 → Nat) a + S1x128x128.size a ≤ S25x128x128.size a
  inb_S1x36x36x128_S1x32x32x128_0_3_1_0 : ∀ a, (![0, 3, 1, 0] : Fin 4 → Nat) a + S1x32x32x128.size a ≤ S1x36x36x128.size a
  inb_S25x128x128_S1x128x128_16_0_0 : ∀ a, (![16, 0, 0] : Fin 3 → Nat) a + S1x128x128.size a ≤ S25x128x128.size a
  inb_S1x36x36x128_S1x32x32x128_0_3_2_0 : ∀ a, (![0, 3, 2, 0] : Fin 4 → Nat) a + S1x32x32x128.size a ≤ S1x36x36x128.size a
  inb_S25x128x128_S1x128x128_17_0_0 : ∀ a, (![17, 0, 0] : Fin 3 → Nat) a + S1x128x128.size a ≤ S25x128x128.size a
  inb_S1x36x36x128_S1x32x32x128_0_3_3_0 : ∀ a, (![0, 3, 3, 0] : Fin 4 → Nat) a + S1x32x32x128.size a ≤ S1x36x36x128.size a
  inb_S25x128x128_S1x128x128_18_0_0 : ∀ a, (![18, 0, 0] : Fin 3 → Nat) a + S1x128x128.size a ≤ S25x128x128.size a
  inb_S1x36x36x128_S1x32x32x128_0_3_4_0 : ∀ a, (![0, 3, 4, 0] : Fin 4 → Nat) a + S1x32x32x128.size a ≤ S1x36x36x128.size a
  inb_S25x128x128_S1x128x128_19_0_0 : ∀ a, (![19, 0, 0] : Fin 3 → Nat) a + S1x128x128.size a ≤ S25x128x128.size a
  inb_S1x36x36x128_S1x32x32x128_0_4_0_0 : ∀ a, (![0, 4, 0, 0] : Fin 4 → Nat) a + S1x32x32x128.size a ≤ S1x36x36x128.size a
  inb_S25x128x128_S1x128x128_20_0_0 : ∀ a, (![20, 0, 0] : Fin 3 → Nat) a + S1x128x128.size a ≤ S25x128x128.size a
  inb_S1x36x36x128_S1x32x32x128_0_4_1_0 : ∀ a, (![0, 4, 1, 0] : Fin 4 → Nat) a + S1x32x32x128.size a ≤ S1x36x36x128.size a
  inb_S25x128x128_S1x128x128_21_0_0 : ∀ a, (![21, 0, 0] : Fin 3 → Nat) a + S1x128x128.size a ≤ S25x128x128.size a
  inb_S1x36x36x128_S1x32x32x128_0_4_2_0 : ∀ a, (![0, 4, 2, 0] : Fin 4 → Nat) a + S1x32x32x128.size a ≤ S1x36x36x128.size a
  inb_S25x128x128_S1x128x128_22_0_0 : ∀ a, (![22, 0, 0] : Fin 3 → Nat) a + S1x128x128.size a ≤ S25x128x128.size a
  inb_S1x36x36x128_S1x32x32x128_0_4_3_0 : ∀ a, (![0, 4, 3, 0] : Fin 4 → Nat) a + S1x32x32x128.size a ≤ S1x36x36x128.size a
  inb_S25x128x128_S1x128x128_23_0_0 : ∀ a, (![23, 0, 0] : Fin 3 → Nat) a + S1x128x128.size a ≤ S25x128x128.size a
  inb_S1x36x36x128_S1x32x32x128_0_4_4_0 : ∀ a, (![0, 4, 4, 0] : Fin 4 → Nat) a + S1x32x32x128.size a ≤ S1x36x36x128.size a
  inb_S25x128x128_S1x128x128_24_0_0 : ∀ a, (![24, 0, 0] : Fin 3 → Nat) a + S1x128x128.size a ≤ S25x128x128.size a
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S64x1024x128_S64x32x32x128 : S64x1024x128.ShapeCasts S64x32x32x128
  shapeCasts_S64x32x32x128_S1024x2x16x256 : S64x32x32x128.ShapeCasts S1024x2x16x256
  inb_S256x2x16x256_S256x1x16x256_0_0_0_0 : ∀ a, (![0, 0, 0, 0] : Fin 4 → Nat) a + S256x1x16x256.size a ≤ S256x2x16x256.size a
  h_S256x1x16x256 : 0 < S256x1x16x256.numel
  shapeCasts_S256x1x16x256_S256x16x256 : S256x1x16x256.ShapeCasts S256x16x256
  inb_S256x2x16x256_S256x1x16x256_0_1_0_0 : ∀ a, (![0, 1, 0, 0] : Fin 4 → Nat) a + S256x1x16x256.size a ≤ S256x2x16x256.size a
  slices_S256x16x256_o0_0_0_S256x16x128 : S256x16x256.Slices ![0, 0, 0] S256x16x128
  slices_S256x16x256_o0_0_128_S256x16x128 : S256x16x256.Slices ![0, 0, 128] S256x16x128
  inb_S256x16x128_S256x16x128_0_0_0 : ∀ a, (![0, 0, 0] : Fin 3 → Nat) a + S256x16x128.size a ≤ S256x16x128.size a
  h_S256x16x128 : 0 < S256x16x128.numel
  packedbf16_S256x16x128_S256x16x128_0_0_0 : (Rect.unit (s := S256x16x128) ![0, 0, 0] S256x16x128.size inb_S256x16x128_S256x16x128_0_0_0).PackedRows (EltTy.packing .bf16)
  shapeCasts_S1024x16x128_S64x16x16x128 : S1024x16x128.ShapeCasts S64x16x16x128
  pads_S64x16x16x128_S64x18x18x128_000_110_110_000 : S64x16x16x128.Pads (![0, 1, 1, 0] : Fin 4 → Nat) ![0, 1, 1, 0] ![0, 0, 0, 0] S64x18x18x128
  inb_S1x18x18x128_S1x16x16x128_0_0_0_0 : ∀ a, (![0, 0, 0, 0] : Fin 4 → Nat) a + S1x16x16x128.size a ≤ S1x18x18x128.size a
  h_S1x16x16x128 : 0 < S1x16x16x128.numel
  shapeCasts_S1x16x16x128_S16x16x128 : S1x16x16x128.ShapeCasts S16x16x128
  shapeCasts_S16x16x128_S256x128 : S16x16x128.ShapeCasts S256x128
  inb_S9x128x256_S1x128x256_0_0_0 : ∀ a, (![0, 0, 0] : Fin 3 → Nat) a + S1x128x256.size a ≤ S9x128x256.size a
  h_S1x128x256 : 0 < S1x128x256.numel
  shapeCasts_S1x128x256_S128x256 : S1x128x256.ShapeCasts S128x256
  inb_S1x18x18x128_S1x16x16x128_0_0_1_0 : ∀ a, (![0, 0, 1, 0] : Fin 4 → Nat) a + S1x16x16x128.size a ≤ S1x18x18x128.size a
  inb_S9x128x256_S1x128x256_1_0_0 : ∀ a, (![1, 0, 0] : Fin 3 → Nat) a + S1x128x256.size a ≤ S9x128x256.size a
  inb_S1x18x18x128_S1x16x16x128_0_0_2_0 : ∀ a, (![0, 0, 2, 0] : Fin 4 → Nat) a + S1x16x16x128.size a ≤ S1x18x18x128.size a
  inb_S9x128x256_S1x128x256_2_0_0 : ∀ a, (![2, 0, 0] : Fin 3 → Nat) a + S1x128x256.size a ≤ S9x128x256.size a
  inb_S1x18x18x128_S1x16x16x128_0_1_0_0 : ∀ a, (![0, 1, 0, 0] : Fin 4 → Nat) a + S1x16x16x128.size a ≤ S1x18x18x128.size a
  inb_S9x128x256_S1x128x256_3_0_0 : ∀ a, (![3, 0, 0] : Fin 3 → Nat) a + S1x128x256.size a ≤ S9x128x256.size a
  inb_S1x18x18x128_S1x16x16x128_0_1_1_0 : ∀ a, (![0, 1, 1, 0] : Fin 4 → Nat) a + S1x16x16x128.size a ≤ S1x18x18x128.size a
  inb_S9x128x256_S1x128x256_4_0_0 : ∀ a, (![4, 0, 0] : Fin 3 → Nat) a + S1x128x256.size a ≤ S9x128x256.size a
  inb_S1x18x18x128_S1x16x16x128_0_1_2_0 : ∀ a, (![0, 1, 2, 0] : Fin 4 → Nat) a + S1x16x16x128.size a ≤ S1x18x18x128.size a
  inb_S9x128x256_S1x128x256_5_0_0 : ∀ a, (![5, 0, 0] : Fin 3 → Nat) a + S1x128x256.size a ≤ S9x128x256.size a
  inb_S1x18x18x128_S1x16x16x128_0_2_0_0 : ∀ a, (![0, 2, 0, 0] : Fin 4 → Nat) a + S1x16x16x128.size a ≤ S1x18x18x128.size a
  inb_S9x128x256_S1x128x256_6_0_0 : ∀ a, (![6, 0, 0] : Fin 3 → Nat) a + S1x128x256.size a ≤ S9x128x256.size a
  inb_S1x18x18x128_S1x16x16x128_0_2_1_0 : ∀ a, (![0, 2, 1, 0] : Fin 4 → Nat) a + S1x16x16x128.size a ≤ S1x18x18x128.size a
  inb_S9x128x256_S1x128x256_7_0_0 : ∀ a, (![7, 0, 0] : Fin 3 → Nat) a + S1x128x256.size a ≤ S9x128x256.size a
  inb_S1x18x18x128_S1x16x16x128_0_2_2_0 : ∀ a, (![0, 2, 2, 0] : Fin 4 → Nat) a + S1x16x16x128.size a ≤ S1x18x18x128.size a
  inb_S9x128x256_S1x128x256_8_0_0 : ∀ a, (![8, 0, 0] : Fin 3 → Nat) a + S1x128x256.size a ≤ S9x128x256.size a
  inb_S3x256_S1x256_0_0 : ∀ a, (![0, 0] : Fin 2 → Nat) a + S1x256.size a ≤ S3x256.size a
  h_S1x256 : 0 < S1x256.numel
  broadcasts_S1x256_S256x256 : S1x256.Broadcasts S256x256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  shapeCasts_S64x256x256_S64x16x16x256 : S64x256x256.ShapeCasts S64x16x16x256
  shapeCasts_S64x16x16x256_S512x2x8x512 : S64x16x16x256.ShapeCasts S512x2x8x512
  inb_S128x2x8x512_S128x1x8x512_0_0_0_0 : ∀ a, (![0, 0, 0, 0] : Fin 4 → Nat) a + S128x1x8x512.size a ≤ S128x2x8x512.size a
  h_S128x1x8x512 : 0 < S128x1x8x512.numel
  shapeCasts_S128x1x8x512_S128x8x512 : S128x1x8x512.ShapeCasts S128x8x512
  inb_S128x2x8x512_S128x1x8x512_0_1_0_0 : ∀ a, (![0, 1, 0, 0] : Fin 4 → Nat) a + S128x1x8x512.size a ≤ S128x2x8x512.size a
  slices_S128x8x512_o0_0_0_S128x8x256 : S128x8x512.Slices ![0, 0, 0] S128x8x256
  slices_S128x8x512_o0_0_256_S128x8x256 : S128x8x512.Slices ![0, 0, 256] S128x8x256
  inb_S128x8x256_S128x8x256_0_0_0 : ∀ a, (![0, 0, 0] : Fin 3 → Nat) a + S128x8x256.size a ≤ S128x8x256.size a
  h_S128x8x256 : 0 < S128x8x256.numel
  packedbf16_S128x8x256_S128x8x256_0_0_0 : (Rect.unit (s := S128x8x256) ![0, 0, 0] S128x8x256.size inb_S128x8x256_S128x8x256_0_0_0).PackedRows (EltTy.packing .bf16)
  shapeCasts_S512x8x256_S64x8x8x256 : S512x8x256.ShapeCasts S64x8x8x256
  pads_S64x8x8x256_S64x10x10x256_000_110_110_000 : S64x8x8x256.Pads (![0, 1, 1, 0] : Fin 4 → Nat) ![0, 1, 1, 0] ![0, 0, 0, 0] S64x10x10x256
  inb_S1x10x10x256_S1x8x8x256_0_0_0_0 : ∀ a, (![0, 0, 0, 0] : Fin 4 → Nat) a + S1x8x8x256.size a ≤ S1x10x10x256.size a
  h_S1x8x8x256 : 0 < S1x8x8x256.numel
  shapeCasts_S1x8x8x256_S8x8x256 : S1x8x8x256.ShapeCasts S8x8x256
  shapeCasts_S8x8x256_S64x256 : S8x8x256.ShapeCasts S64x256
  inb_S9x256x512_S1x256x512_0_0_0 : ∀ a, (![0, 0, 0] : Fin 3 → Nat) a + S1x256x512.size a ≤ S9x256x512.size a
  h_S1x256x512 : 0 < S1x256x512.numel
  shapeCasts_S1x256x512_S256x512 : S1x256x512.ShapeCasts S256x512
  inb_S1x10x10x256_S1x8x8x256_0_0_1_0 : ∀ a, (![0, 0, 1, 0] : Fin 4 → Nat) a + S1x8x8x256.size a ≤ S1x10x10x256.size a
  inb_S9x256x512_S1x256x512_1_0_0 : ∀ a, (![1, 0, 0] : Fin 3 → Nat) a + S1x256x512.size a ≤ S9x256x512.size a
  inb_S1x10x10x256_S1x8x8x256_0_0_2_0 : ∀ a, (![0, 0, 2, 0] : Fin 4 → Nat) a + S1x8x8x256.size a ≤ S1x10x10x256.size a
  inb_S9x256x512_S1x256x512_2_0_0 : ∀ a, (![2, 0, 0] : Fin 3 → Nat) a + S1x256x512.size a ≤ S9x256x512.size a
  inb_S1x10x10x256_S1x8x8x256_0_1_0_0 : ∀ a, (![0, 1, 0, 0] : Fin 4 → Nat) a + S1x8x8x256.size a ≤ S1x10x10x256.size a
  inb_S9x256x512_S1x256x512_3_0_0 : ∀ a, (![3, 0, 0] : Fin 3 → Nat) a + S1x256x512.size a ≤ S9x256x512.size a
  inb_S1x10x10x256_S1x8x8x256_0_1_1_0 : ∀ a, (![0, 1, 1, 0] : Fin 4 → Nat) a + S1x8x8x256.size a ≤ S1x10x10x256.size a
  inb_S9x256x512_S1x256x512_4_0_0 : ∀ a, (![4, 0, 0] : Fin 3 → Nat) a + S1x256x512.size a ≤ S9x256x512.size a
  inb_S1x10x10x256_S1x8x8x256_0_1_2_0 : ∀ a, (![0, 1, 2, 0] : Fin 4 → Nat) a + S1x8x8x256.size a ≤ S1x10x10x256.size a
  inb_S9x256x512_S1x256x512_5_0_0 : ∀ a, (![5, 0, 0] : Fin 3 → Nat) a + S1x256x512.size a ≤ S9x256x512.size a
  inb_S1x10x10x256_S1x8x8x256_0_2_0_0 : ∀ a, (![0, 2, 0, 0] : Fin 4 → Nat) a + S1x8x8x256.size a ≤ S1x10x10x256.size a
  inb_S9x256x512_S1x256x512_6_0_0 : ∀ a, (![6, 0, 0] : Fin 3 → Nat) a + S1x256x512.size a ≤ S9x256x512.size a
  inb_S1x10x10x256_S1x8x8x256_0_2_1_0 : ∀ a, (![0, 2, 1, 0] : Fin 4 → Nat) a + S1x8x8x256.size a ≤ S1x10x10x256.size a
  inb_S9x256x512_S1x256x512_7_0_0 : ∀ a, (![7, 0, 0] : Fin 3 → Nat) a + S1x256x512.size a ≤ S9x256x512.size a
  inb_S1x10x10x256_S1x8x8x256_0_2_2_0 : ∀ a, (![0, 2, 2, 0] : Fin 4 → Nat) a + S1x8x8x256.size a ≤ S1x10x10x256.size a
  inb_S9x256x512_S1x256x512_8_0_0 : ∀ a, (![8, 0, 0] : Fin 3 → Nat) a + S1x256x512.size a ≤ S9x256x512.size a
  inb_S3x512_S1x512_0_0 : ∀ a, (![0, 0] : Fin 2 → Nat) a + S1x512.size a ≤ S3x512.size a
  h_S1x512 : 0 < S1x512.numel
  broadcasts_S1x512_S64x512 : S1x512.Broadcasts S64x512
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  packedbf16_S1x64x512_S1x64x512_0_0_0 : (Rect.unit (s := S1x64x512) ![0, 0, 0] S1x64x512.size inb_S1x64x512_S1x64x512_0_0_0).PackedRows (EltTy.packing .bf16)
  shapeCasts_S64x64x512_S64x8x8x512 : S64x64x512.ShapeCasts S64x8x8x512
  shapeCasts_S64x8x8x512_S64x32768 : S64x8x8x512.ShapeCasts S64x32768
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x1024_S4096x1024_0_0 : ∀ a, (![0, 0] : Fin 2 → Nat) a + S4096x1024.size a ≤ S4096x1024.size a
  h_S4096x1024 : 0 < S4096x1024.numel
  inb_S3x1024_S1x1024_0_0 : ∀ a, (![0, 0] : Fin 2 → Nat) a + S1x1024.size a ≤ S3x1024.size a
  h_S1x1024 : 0 < S1x1024.numel
  broadcasts_S1x1024_S64x1024 : S1x1024.Broadcasts S64x1024
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  slices_S64x1024_o0_0_S32x1024 : S64x1024.Slices ![0, 0] S32x1024
  slices_S64x1024_o32_0_S32x1024 : S64x1024.Slices ![32, 0] S32x1024
  inb_S2048x256_S1024x256_0_0 : ∀ a, (![0, 0] : Fin 2 → Nat) a + S1024x256.size a ≤ S2048x256.size a
  h_S1024x256 : 0 < S1024x256.numel
  inb_S2048x256_S1024x256_1024_0 : ∀ a, (![1024, 0] : Fin 2 → Nat) a + S1024x256.size a ≤ S2048x256.size a
  inb_S1x256_S1x256_0_0 : ∀ a, (![0, 0] : Fin 2 → Nat) a + S1x256.size a ≤ S1x256.size a
  broadcasts_S1x256_S32x256 : S1x256.Broadcasts S32x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  broadcasts_S1x2_S32x2 : S1x2.Broadcasts S32x2
  inb_S32x2_S32x2_0_0 : ∀ a, (![0, 0] : Fin 2 → Nat) a + S32x2.size a ≤ S32x2.size a
  h_S32x2 : 0 < S32x2.numel
  dot_S4096x3_S3x128_S4096x128_1_0_0_1_n_n_wf : DotDims.WF S4096x3 S3x128 S4096x128 [1] [0] [0] [1] [] []
  dot_S1024x128_S128x128_S1024x128_1_0_0_1_n_n_wf : DotDims.WF S1024x128 S128x128 S1024x128 [1] [0] [0] [1] [] []
  dot_S256x128_S128x256_S256x256_1_0_0_1_n_n_wf : DotDims.WF S256x128 S128x256 S256x256 [1] [0] [0] [1] [] []
  dot_S64x256_S256x512_S64x512_1_0_0_1_n_n_wf : DotDims.WF S64x256 S256x512 S64x512 [1] [0] [0] [1] [] []
  dot_S64x4096_S4096x1024_S64x1024_1_0_0_1_n_n_wf : DotDims.WF S64x4096 S4096x1024 S64x1024 [1] [0] [0] [1] [] []
  dot_S32x1024_S1024x256_S32x256_1_0_0_1_n_n_wf : DotDims.WF S32x1024 S1024x256 S32x256 [1] [0] [0] [1] [] []
  dot_S32x256_S256x2_S32x2_1_0_0_1_n_n_wf : DotDims.WF S32x256 S256x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x68x68x3.size a ≤ S64x68x68x3.size a
  hwx0_0 : ∀ i : grid0.Coords, EltTy.bits .bf16 = 32 ∨ (Rect.block (s := S64x68x68x3) S1x68x68x3.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x3x128.size a ≤ S25x3x128.size a
  hwx0_1 : ∀ i : grid0.Coords, EltTy.bits .bf16 = 32 ∨ (Rect.block (s := S25x3x128) S25x3x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S64x4096x128.size a
  hwx0_3 : ∀ i : grid0.Coords, EltTy.bits .bf16 = 32 ∨ (Rect.block (s := S64x4096x128) S1x4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2x32x256.size a ≤ S2048x2x32x256.size a
  hwx1_0 : ∀ i : grid1.Coords, EltTy.bits .bf16 = 32 ∨ (Rect.block (s := S2048x2x32x256) S512x2x32x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x32x128.size a ≤ S2048x32x128.size a
  hwx1_1 : ∀ i : grid1.Coords, EltTy.bits .bf16 = 32 ∨ (Rect.block (s := S2048x32x128) S512x32x128.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x36x36x128.size a ≤ S64x36x36x128.size a
  hwx2_0 : ∀ i : grid2.Coords, EltTy.bits .bf16 = 32 ∨ (Rect.block (s := S64x36x36x128) S1x36x36x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S25x128x128.size a ≤ S25x128x128.size a
  hwx2_1 : ∀ i : grid2.Coords, EltTy.bits .bf16 = 32 ∨ (Rect.block (s := S25x128x128) S25x128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128.size a ≤ S3x128.size a
  hwx2_2 : ∀ i : grid2.Coords, EltTy.bits .f32 = 32 ∨ (Rect.block (s := S3x128) S3x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x128.size a ≤ S64x1024x128.size a
  hwx2_3 : ∀ i : grid2.Coords, EltTy.bits .bf16 = 32 ∨ (Rect.block (s := S64x1024x128) S1x1024x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x2x16x256.size a ≤ S1024x2x16x256.size a
  hwx3_0 : ∀ i : grid3.Coords, EltTy.bits .bf16 = 32 ∨ (Rect.block (s := S1024x2x16x256) S256x2x16x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x16x128.size a ≤ S1024x16x128.size a
  hwx3_1 : ∀ i : grid3.Coords, EltTy.bits .bf16 = 32 ∨ (Rect.block (s := S1024x16x128) S256x16x128.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x18x18x128.size a ≤ S64x18x18x128.size a
  hwx4_0 : ∀ i : grid4.Coords, EltTy.bits .bf16 = 32 ∨ (Rect.block (s := S64x18x18x128) S1x18x18x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S9x128x256.size a ≤ S9x128x256.size a
  hwx4_1 : ∀ i : grid4.Coords, EltTy.bits .bf16 = 32 ∨ (Rect.block (s := S9x128x256) S9x128x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x256.size a ≤ S3x256.size a
  hwx4_2 : ∀ i : grid4.Coords, EltTy.bits .f32 = 32 ∨ (Rect.block (s := S3x256) S3x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x256x256.size a ≤ S64x256x256.size a
  hwx4_3 : ∀ i : grid4.Coords, EltTy.bits .bf16 = 32 ∨ (Rect.block (s := S64x256x256) S1x256x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x2x8x512.size a ≤ S512x2x8x512.size a
  hwx5_0 : ∀ i : grid5.Coords, EltTy.bits .bf16 = 32 ∨ (Rect.block (s := S512x2x8x512) S128x2x8x512.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x8x256.size a ≤ S512x8x256.size a
  hwx5_1 : ∀ i : grid5.Coords, EltTy.bits .bf16 = 32 ∨ (Rect.block (s := S512x8x256) S128x8x256.size (cc5_transform_1 i) (hinb5_1 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x10x10x256.size a ≤ S64x10x10x256.size a
  hwx6_0 : ∀ i : grid6.Coords, EltTy.bits .bf16 = 32 ∨ (Rect.block (s := S64x10x10x256) S1x10x10x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S9x256x512.size a ≤ S9x256x512.size a
  hwx6_1 : ∀ i : grid6.Coords, EltTy.bits .bf16 = 32 ∨ (Rect.block (s := S9x256x512) S9x256x512.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3x512.size a ≤ S3x512.size a
  hwx6_2 : ∀ i : grid6.Coords, EltTy.bits .f32 = 32 ∨ (Rect.block (s := S3x512) S3x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x64x512.size a ≤ S64x64x512.size a
  hwx6_3 : ∀ i : grid6.Coords, EltTy.bits .bf16 = 32 ∨ (Rect.block (s := S64x64x512) S1x64x512.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x4096.size a ≤ S64x32768.size a
  hwx7_0 : ∀ i : grid7.Coords, EltTy.bits .bf16 = 32 ∨ (Rect.block (s := S64x32768) S64x4096.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x1024.size a ≤ S32768x1024.size a
  hwx7_1 : ∀ i : grid7.Coords, EltTy.bits .bf16 = 32 ∨ (Rect.block (s := S32768x1024) S4096x1024.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S3x1024.size a ≤ S3x1024.size a
  hwx7_2 : ∀ i : grid7.Coords, EltTy.bits .f32 = 32 ∨ (Rect.block (s := S3x1024) S3x1024.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2048x256.size a ≤ S2048x256.size a
  hwx7_3 : ∀ i : grid7.Coords, EltTy.bits .bf16 = 32 ∨ (Rect.block (s := S2048x256) S2048x256.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x2.size a ≤ S256x2.size a
  hwx7_5 : ∀ i : grid7.Coords, EltTy.bits .bf16 = 32 ∨ (Rect.block (s := S256x2) S256x2.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x2.size a ≤ S1x2.size a
  hwx7_6 : ∀ i : grid7.Coords, EltTy.bits .f32 = 32 ∨ (Rect.block (s := S1x2) S1x2.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S32x2.size a ≤ S32x2.size a
  hwx7_7 : ∀ i : grid7.Coords, EltTy.bits .f32 = 32 ∨ (Rect.block (s := S32x2) S32x2.size (cc7_transform_7 i) (hinb7_7 i)).WholeWords (EltTy.packing .f32)

variable [Facts₀]

def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S64x256_S256x512_S64x512_1_0_0_1_n_n : DotDims S64x256 S256x512 S64x512 where
  lhsContracting := [1]
  rhsContracting := [0]
  lhsNonContracting := [0]
  rhsNonContracting := [1]
  lhsBatch := []
  rhsBatch := []
  wf := dot_S64x256_S256x512_S64x512_1_0_0_1_n_n_wf
def dot_S64x4096_S4096x1024_S64x1024_1_0_0_1_n_n : DotDims S64x4096 S4096x1024 S64x1024 where
  lhsContracting := [1]
  rhsContracting := [0]
  lhsNonContracting := [0]
  rhsNonContracting := [1]
  lhsBatch := []
  rhsBatch := []
  wf := dot_S64x4096_S4096x1024_S64x1024_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf
def dot_S32x256_S256x2_S32x2_1_0_0_1_n_n : DotDims S32x256 S256x2 S32x2 where
  lhsContracting := [1]
  rhsContracting := [0]
  lhsNonContracting := [0]
  rhsNonContracting := [1]
  lhsBatch := []
  rhsBatch := []
  wf := dot_S32x256_S256x2_S32x2_1_0_0_1_n_n_wf

abbrev win0_0 : Pipeline.Window sig grid0 :=
  Pipeline.Window.ofSpec (Memref.whole main_v5) S1x68x68x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S512x2x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x32x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v11) S1x36x36x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S25x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S3x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v14) S256x2x16x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S256x16x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v17) S1x18x18x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S9x128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S3x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S1x256x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v20) S128x2x8x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S128x8x256.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v23) S1x10x10x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S9x256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S3x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v24) S1x64x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v26) S64x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S4096x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S3x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S2048x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg13) S256x2.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg14) S1x2.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v27) S32x2.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun _ => false | 7 => fun i => !(k7_cond2 i == 1#1) | ⟨_ + 8, h⟩ => absurd h (Nat.not_lt.2 (Nat.le_add_left _ _))

class Facts : Prop extends Facts₀ where

variable [Facts]
-- ==== Proof.BR0Body.lean ====
import proofs.«182102_g2000302601656725_pallasbulk_822_2_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

abbrev r0_a1 : Rect S1x68x68x4 := .unit _ _ inb_S1x68x68x4_S1x68x68x4_0_0_0_0
abbrev r0_a2_0 : Rect S5x20x128 := .unit _ _ inb_S5x20x128_S1x20x128_0_0_0
abbrev r0_a2_1 : Rect S5x20x128 := .unit _ _ inb_S5x20x128_S1x20x128_1_0_0
abbrev r0_a2_2 : Rect S5x20x128 := .unit _ _ inb_S5x20x128_S1x20x128_2_0_0
abbrev r0_a2_3 : Rect S5x20x128 := .unit _ _ inb_S5x20x128_S1x20x128_3_0_0
abbrev r0_a2_4 : Rect S5x20x128 := .unit _ _ inb_S5x20x128_S1x20x128_4_0_0
abbrev r0_a3_0 : Rect S3x128 := .unit _ _ inb_S3x128_S1x128_0_0
abbrev r0_a3_1 : Rect S3x128 := .unit _ _ inb_S3x128_S1x128_1_0
abbrev r0_a3_2 : Rect S3x128 := .unit _ _ inb_S3x128_S1x128_2_0
abbrev r0_a4_0 : Rect S25x128x128 := .unit _ _ inb_S25x128x128_S1x128x128_0_0_0
abbrev r0_a4_1 : Rect S25x128x128 := .unit _ _ inb_S25x128x128_S1x128x128_1_0_0
abbrev r0_a4_2 : Rect S25x128x128 := .unit _ _ inb_S25x128x128_S1x128x128_2_0_0
abbrev r0_a4_3 : Rect S25x128x128 := .unit _ _ inb_S25x128x128_S1x128x128_3_0_0
abbrev r0_a4_4 : Rect S25x128x128 := .unit _ _ inb_S25x128x128_S1x128x128_4_0_0
abbrev r0_a4_5 : Rect S25x128x128 := .unit _ _ inb_S25x128x128_S1x128x128_5_0_0
abbrev r0_a4_6 : Rect S25x128x128 := .unit _ _ inb_S25x128x128_S1x128x128_6_0_0
abbrev r0_a4_7 : Rect S25x128x128 := .unit _ _ inb_S25x128x128_S1x128x128_7_0_0
abbrev r0_a4_8 : Rect S25x128x128 := .unit _ _ inb_S25x128x128_S1x128x128_8_0_0
abbrev r0_a4_9 : Rect S25x128x128 := .unit _ _ inb_S25x128x128_S1x128x128_9_0_0
abbrev r0_a4_10 : Rect S25x128x128 := .unit _ _ inb_S25x128x128_S1x128x128_10_0_0
abbrev r0_a4_11 : Rect S25x128x128 := .unit _ _ inb_S25x128x128_S1x128x128_11_0_0
abbrev r0_a4_12 : Rect S25x128x128 := .unit _ _ inb_S25x128x128_S1x128x128_12_0_0
abbrev r0_a4_13 : Rect S25x128x128 := .unit _ _ inb_S25x128x128_S1x128x128_13_0_0
abbrev r0_a4_14 : Rect S25x128x128 := .unit _ _ inb_S25x128x128_S1x128x128_14_0_0
abbrev r0_a4_15 : Rect S25x128x128 := .unit _ _ inb_S25x128x128_S1x128x128_15_0_0
abbrev r0_a4_16 : Rect S25x128x128 := .unit _ _ inb_S25x128x128_S1x128x128_16_0_0
abbrev r0_a4_17 : Rect S25x128x128 := .unit _ _ inb_S25x128x128_S1x128x128_17_0_0
abbrev r0_a4_18 : Rect S25x128x128 := .unit _ _ inb_S25x128x128_S1x128x128_18_0_0
abbrev r0_a4_19 : Rect S25x128x128 := .unit _ _ inb_S25x128x128_S1x128x128_19_0_0
abbrev r0_a4_20 : Rect S25x128x128 := .unit _ _ inb_S25x128x128_S1x128x128_20_0_0
abbrev r0_a4_21 : Rect S25x128x128 := .unit _ _ inb_S25x128x128_S1x128x128_21_0_0
abbrev r0_a4_22 : Rect S25x128x128 := .unit _ _ inb_S25x128x128_S1x128x128_22_0_0
abbrev r0_a4_23 : Rect S25x128x128 := .unit _ _ inb_S25x128x128_S1x128x128_23_0_0
abbrev r0_a4_24 : Rect S25x128x128 := .unit _ _ inb_S25x128x128_S1x128x128_24_0_0
abbrev r0_a5_0 : Rect S3x128 := .unit _ _ inb_S3x128_S1x128_0_0
abbrev r0_a5_1 : Rect S3x128 := .unit _ _ inb_S3x128_S1x128_1_0
abbrev r0_a5_2 : Rect S3x128 := .unit _ _ inb_S3x128_S1x128_2_0
abbrev r0_a6_0 : Rect S9x128x256 := .unit _ _ inb_S9x128x256_S1x128x256_0_0_0
abbrev r0_a6_1 : Rect S9x128x256 := .unit _ _ inb_S9x128x256_S1x128x256_1_0_0
abbrev r0_a6_2 : Rect S9x128x256 := .unit _ _ inb_S9x128x256_S1x128x256_2_0_0
abbrev r0_a6_3 : Rect S9x128x256 := .unit _ _ inb_S9x128x256_S1x128x256_3_0_0
abbrev r0_a6_4 : Rect S9x128x256 := .unit _ _ inb_S9x128x256_S1x128x256_4_0_0
abbrev r0_a6_5 : Rect S9x128x256 := .unit _ _ inb_S9x128x256_S1x128x256_5_0_0
abbrev r0_a6_6 : Rect S9x128x256 := .unit _ _ inb_S9x128x256_S1x128x256_6_0_0
abbrev r0_a6_7 : Rect S9x128x256 := .unit _ _ inb_S9x128x256_S1x128x256_7_0_0
abbrev r0_a6_8 : Rect S9x128x256 := .unit _ _ inb_S9x128x256_S1x128x256_8_0_0
abbrev r0_a7_0 : Rect S3x256 := .unit _ _ inb_S3x256_S1x256_0_0
abbrev r0_a7_1 : Rect S3x256 := .unit _ _ inb_S3x256_S1x256_1_0
abbrev r0_a7_2 : Rect S3x256 := .unit _ _ inb_S3x256_S1x256_2_0
abbrev r0_a8_0 : Rect S9x256x512 := .unit _ _ inb_S9x256x512_S1x256x512_0_0_0
abbrev r0_a8_1 : Rect S9x256x512 := .unit _ _ inb_S9x256x512_S1x256x512_1_0_0
abbrev r0_a8_2 : Rect S9x256x512 := .unit _ _ inb_S9x256x512_S1x256x512_2_0_0
abbrev r0_a8_3 : Rect S9x256x512 := .unit _ _ inb_S9x256x512_S1x256x512_3_0_0
abbrev r0_a8_4 : Rect S9x256x512 := .unit _ _ inb_S9x256x512_S1x256x512_4_0_0
abbrev r0_a8_5 : Rect S9x256x512 := .unit _ _ inb_S9x256x512_S1x256x512_5_0_0
abbrev r0_a8_6 : Rect S9x256x512 := .unit _ _ inb_S9x256x512_S1x256x512_6_0_0
abbrev r0_a8_7 : Rect S9x256x512 := .unit _ _ inb_S9x256x512_S1x256x512_7_0_0
abbrev r0_a8_8 : Rect S9x256x512 := .unit _ _ inb_S9x256x512_S1x256x512_8_0_0
abbrev r0_a9_0 : Rect S3x512 := .unit _ _ inb_S3x512_S1x512_0_0
abbrev r0_a9_1 : Rect S3x512 := .unit _ _ inb_S3x512_S1x512_1_0
abbrev r0_a9_2 : Rect S3x512 := .unit _ _ inb_S3x512_S1x512_2_0
abbrev r0_a10 : Rect S1x64x512 := .unit _ _ inb_S1x64x512_S1x64x512_0_0_0

noncomputable def body0 (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) : FVec F S1x64x512 .bf16 :=
  let v0 := View.ld x0 r0_a1
  let v32 := k0_pay3 v0 (View.ld x1 r0_a2_0) (View.ld x1 r0_a2_1) (View.ld x1 r0_a2_2) (View.ld x1 r0_a2_3)
  let v34 := k0_pay4 v0
  let v69 := k0_pay5 v32 v34 (View.ld x1 r0_a2_4) (View.ld x2 r0_a3_0) (View.ld x2 r0_a3_1) (View.ld x2 r0_a3_2)
  let v76 := k0_pay6 v32 v34 (View.ld x1 r0_a2_4) (View.ld x2 r0_a3_0) (View.ld x2 r0_a3_1) (View.ld x2 r0_a3_2) (View.ld x3 r0_a4_0)
  let v78 := k0_pay7 v32 v34 (View.ld x1 r0_a2_4) (View.ld x2 r0_a3_0) (View.ld x2 r0_a3_1) (View.ld x2 r0_a3_2)
  let v112 := k0_pay8 v69 v76 v78 (View.ld x3 r0_a4_1) (View.ld x3 r0_a4_2) (View.ld x3 r0_a4_3) (View.ld x3 r0_a4_4) (View.ld x3 r0_a4_5) (View.ld x3 r0_a4_6)
  let v114 := k0_pay9 v69
  let v148 := k0_pay10 v69 v112 v114 (View.ld x3 r0_a4_7) (View.ld x3 r0_a4_8) (View.ld x3 r0_a4_9) (View.ld x3 r0_a4_10) (View.ld x3 r0_a4_11) (View.ld x3 r0_a4_12)
  let v150 := k0_pay11 v69
  let v184 := k0_pay12 v69 v148 v150 (View.ld x3 r0_a4_13) (View.ld x3 r0_a4_14) (View.ld x3 r0_a4_15) (View.ld x3 r0_a4_16) (View.ld x3 r0_a4_17) (View.ld x3 r0_a4_18)
  let v186 := k0_pay13 v69
  let v220 := k0_pay14 v69 v184 v186 (View.ld x3 r0_a4_19) (View.ld x3 r0_a4_20) (View.ld x3 r0_a4_21) (View.ld x3 r0_a4_22) (View.ld x3 r0_a4_23) (View.ld x3 r0_a4_24)
  let v222 := k0_pay15 (View.ld x4 r0_a5_0)
  let v251 := k0_pay16 v220 v222 (View.ld x4 r0_a5_1) (View.ld x4 r0_a5_2)
  let v264 := k0_pay17 v220 v222 (View.ld x4 r0_a5_1) (View.ld x4 r0_a5_2) (View.ld x5 r0_a6_0) (View.ld x5 r0_a6_1)
  let v266 := k0_pay18 v220 v222 (View.ld x4 r0_a5_1) (View.ld x4 r0_a5_2)
  let v300 := k0_pay19 v251 v264 v266 (View.ld x5 r0_a6_2) (View.ld x5 r0_a6_3) (View.ld x5 r0_a6_4) (View.ld x5 r0_a6_5) (View.ld x5 r0_a6_6) (View.ld x5 r0_a6_7)
  let v302 := k0_pay20 v251
  let v337 := k0_pay21 v300 v302 (View.ld x5 r0_a6_8) (View.ld x6 r0_a7_0) (View.ld x6 r0_a7_1) (View.ld x6 r0_a7_2)
  let v344 := k0_pay22 v300 v302 (View.ld x5 r0_a6_8) (View.ld x6 r0_a7_0) (View.ld x6 r0_a7_1) (View.ld x6 r0_a7_2) (View.ld x7 r0_a8_0)
  let v346 := k0_pay23 v300 v302 (View.ld x5 r0_a6_8) (View.ld x6 r0_a7_0) (View.ld x6 r0_a7_1) (View.ld x6 r0_a7_2)
  let v380 := k0_pay24 v337 v344 v346 (View.ld x7 r0_a8_1) (View.ld x7 r0_a8_2) (View.ld x7 r0_a8_3) (View.ld x7 r0_a8_4) (View.ld x7 r0_a8_5) (View.ld x7 r0_a8_6)
  let v382 := k0_pay25 v337
  k0_pay1 v337 v380 v382 (View.ld x7 r0_a8_7) (View.ld x7 r0_a8_8) (View.ld x8 r0_a9_0) (View.ld x8 r0_a9_1) (View.ld x8 r0_a9_2)

end Cert.Kernel.Hand

end
-- ==== Proof.LibFrame.lean ====
import Idealize.SL.Sem.Prog
import Idealize.SL.ProofMode

namespace Cert.LibFrame

open Idealize.SL Idealize.SL.RA Idealize.SL.BI
open scoped Idealize.SL.BI
open Idealize.SL.BI.BIBase Idealize.SL.ProofMode Idealize.SL.Sem

universe u v w

variable {Ef : Type → Type v} {M : Type u} [URA M] {Mask : Sort w}
variable {Fr : Mask → sProp M} {wpE : Mask → ∀ ⦃β : Type⦄, Ef β → sWPT M β} {E : Mask}

/-- Two resources a program does not read pass around it: its triple on the rest `R`, stated for every continuation, gives the triple with both carried along. -/
theorem wp_pass {P Q R R' : sProp M} {p : Prog Ef PUnit}
    (h : ∀ K : PUnit → sProp M, iprop(R ∗ (R' -∗ K ⟨⟩)) ⊢ wp Fr wpE E p K) :
    iprop(P ∗ Q ∗ R) ⊢ wp Fr wpE E p fun _ => iprop(P ∗ Q ∗ R') := by
  iintro ⟨HP, HQ, HR⟩
  iapply h
  isplitl [HR]; · iexact HR
  iintro HR'
  isplitl [HP]; · iexact HP
  isplitl [HQ]; · iexact HQ
  iexact HR'

end Cert.LibFrame
-- ==== Proof.BR0Frame.lean ====
import proofs.«182102_g2000302601656725_pallasbulk_822_2_alg».proof.Proof.Gen.Kernel.Launch
import proofs.«182102_g2000302601656725_pallasbulk_822_2_alg».proof.Proof.Gen.Kernel.Skeleton
import proofs.«182102_g2000302601656725_pallasbulk_822_2_alg».proof.Proof.Gen.Kernel.Points
import proofs.«182102_g2000302601656725_pallasbulk_822_2_alg».proof.Proof.BR0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«182102_g2000302601656725_pallasbulk_822_2_alg».proof.Proof.LibFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibFrame

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_9 (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) : Vec F S1x64x512 .bf16 :=
  View.canon [⟨r0_a10, body0 x0 x1 x2 x3 x4 x5 x6 x7 x8⟩]

set_option maxHeartbeats 0 in
theorem sound_kernel0 (c : Dev nD) (E : Set ℕ) (i : grid0.Coords) (arg1 : Memref sig .tc .vmem S1x68x68x4 .bf16) (harg1 : arg1.IsWhole) (arg2 : Memref sig .tc .vmem S5x20x128 .bf16) (harg2 : arg2.IsWhole) (arg3 : Memref sig .tc .vmem S3x128 .f32) (harg3 : arg3.IsWhole) (arg4 : Memref sig .tc .vmem S25x128x128 .bf16) (harg4 : arg4.IsWhole) (arg5 : Memref sig .tc .vmem S3x128 .f32) (harg5 : arg5.IsWhole) (arg6 : Memref sig .tc .vmem S9x128x256 .bf16) (harg6 : arg6.IsWhole) (arg7 : Memref sig .tc .vmem S3x256 .f32) (harg7 : arg7.IsWhole) (arg8 : Memref sig .tc .vmem S9x256x512 .bf16) (harg8 : arg8.IsWhole) (arg9 : Memref sig .tc .vmem S3x512 .f32) (harg9 : arg9.IsWhole) (arg10 : Memref sig .tc .vmem S1x64x512 .bf16) (harg10 : arg10.IsWhole)
    (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out0_9 x0 x1 x2 x3 x4 x5 x6 x7 x8)) -∗ K ⟨⟩))
      ⊢ wp frame (wpE (defs₀ (F := F)) Variants.none c none) E (cc0__extractor_kernel i arg1 harg1 arg2 harg2 arg3 harg3 arg4 harg4 arg5 harg5 arg6 harg6 arg7 harg7 arg8 harg8 arg9 harg9 arg10 harg10) K := by
  simp only [cc0__extractor_kernel_eq_skeleton]; unfold cc0__extractor_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H8]; · iexists f8; iframe; ipureintro; rfl
  iexists _; iframe; ipureintro
  try dsimp only
  exact View.read_writes_eq_canon _ _ _ (View.cover_of_tiled _ S1x64x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := rfl

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ ∀ d, (dat0 V c).before 8 t d = iblk0 V c 8 t := by
  refine ⟨?_, ?_, ?_, ?_, ?_, ?_, ?_, ?_, ?_⟩ <;> exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0]; simp only [before0 V c t]; dsimp only [dat0]
  refine wp_pass (p := bodyAt0 t) fun K => ?_
  iintro ⟨⟨⟨%_, H0⟩, ⟨%_, H1⟩, ⟨%_, H2⟩, ⟨%_, H3⟩, ⟨%_, H4⟩, ⟨%_, H5⟩, ⟨%_, H6⟩, ⟨%_, H7⟩, ⟨%_, H8⟩, %_, H9⟩, Hk⟩
  iapply (sound_kernel0 c Set.univ _ _ _ _ _ _ _ _ _ _ _ _ _ _ _ _ _ _ _ _ _ _ _ _ _ _ _ _ _ _ K)
  iframe H0 H1 H2 H3 H4 H5 H6 H7 H8 Hk
  iexists _; iexact H9

end Cert.Kernel.Hand

end
-- ==== Proof.BR1Body.lean ====
import proofs.«182102_g2000302601656725_pallasbulk_822_2_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

abbrev r1_0 : Rect S64x4096 := .unit _ _ inb_S64x4096_S64x4096_0_0
abbrev r1_1 : Rect S4096x512 := .unit _ _ inb_S4096x512_S4096x512_0_0
abbrev r1_2 : Rect S3x512 := .unit _ _ inb_S3x512_S3x512_0_0
abbrev r1_3 : Rect S64x512 := .unit _ _ inb_S64x512_S64x512_0_0

def zero1 : FVec F S64x512 .f32 := k1_pay1

def step1 (s : Vec F S64x512 .f32) (x0 : Vec F S64x4096 .bf16) (x1 : Vec F S4096x512 .bf16) : FVec F S64x512 .f32 :=
  k1_pay2 (View.ld s r1_3) (View.ld x0 r1_0) (View.ld x1 r1_1)

def body1 (s : Vec F S64x512 .f32) (x2 : Vec F S3x512 .f32) : FVec F S64x512 .bf16 :=
  k1_pay3 (View.ld s r1_3) (View.ld x2 r1_2)

end Cert.Kernel.Hand

end
-- ==== Proof.BR1Frame.lean ====
import proofs.«182102_g2000302601656725_pallasbulk_822_2_alg».proof.Proof.Gen.Kernel.Launch
import proofs.«182102_g2000302601656725_pallasbulk_822_2_alg».proof.Proof.Gen.Kernel.Skeleton
import proofs.«182102_g2000302601656725_pallasbulk_822_2_alg».proof.Proof.Gen.Kernel.Points
import proofs.«182102_g2000302601656725_pallasbulk_822_2_alg».proof.Proof.BR1Body
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

def out1_3 (s : Vec F S64x512 .f32) (x2 : Vec F S3x512 .f32) : Vec F S64x512 .bf16 :=
  View.canon [⟨r1_3, body1 s x2⟩]

theorem zeros2' : (![0, 0] : Fin 2 → ℕ) = fun _ => 0 := by
  funext a; fin_cases a <;> rfl

theorem cover1_3 {e : EltTy} (p0 : Vec F S64x512 e) (L : List (View.Piece (Elt F) S64x512 e)) (y : S64x512.Idx) :
    ∃ pc ∈ ((⟨r1_3, p0⟩ : View.Piece (Elt F) S64x512 e) :: L), y ∈ pc.1.set :=
  ⟨_, List.mem_cons_self, View.mem_set_unit_zero zeros2' inb_S64x512_S64x512_0_0 y⟩

section Kernel

variable (c : Dev nD) (E : Set ℕ) (i : grid1.Coords) (arg2 : Memref sig .tc .vmem S64x4096 .bf16) (harg2 : arg2.IsWhole) (arg3 : Memref sig .tc .vmem S4096x512 .bf16) (harg3 : arg3.IsWhole)
    (arg4 : Memref sig .tc .vmem S3x512 .f32) (harg4 : arg4.IsWhole) (arg5 : Memref sig .tc .vmem S64x512 .bf16) (harg5 : arg5.IsWhole)
    (arg6 : Memref sig .tc .vmem S64x512 .f32) (harg6 : arg6.IsWhole)

set_option maxHeartbeats 4000000 in
theorem sound_kernel1_A (hc0 : cond1_0 i) (hc1 : ¬cond1_1 i) (x0 : Vec F S64x4096 .bf16) (x1 : Vec F S4096x512 .bf16) (K : PUnit → sProp 𝕄) :
    iprop(owns c arg2 fullShare x0 ∗ owns c arg3 fullShare x1 ∗ (∃ d, owns c arg6 fullShare d)
        ∗ (iprop(owns c arg2 fullShare x0 ∗ owns c arg3 fullShare x1
            ∗ owns c arg6 fullShare (step1 zero1 x0 x1)) -∗ K ⟨⟩))
      ⊢ wp frame (wpE (defs₀ (F := F)) Variants.none c none) E (cc1__fc5_kernel i arg2 harg2 arg3 harg3 arg4 harg4 arg5 harg5 arg6 harg6) K := by
  simp only [cc1__fc5_kernel_eq_skeleton]; unfold cc1__fc5_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]; · iexists f0; iframe; ipureintro; rfl
  isplitl [H1]; · iexists f1; iframe; ipureintro; rfl
  iexists _; iframe; ipureintro
  unfold sound_kernel1_A.sl.v3 sound_kernel1_A.sl.H6_1
  rw [View.read_writes_eq_canon _ _ _ (cover1_3 _ _), View.canon_cons_unit_zero zeros2', View.readCov_unit_zero _ zeros2']
  unfold step1 zero1
  rw [View.ld_unit_zero (Val := Elt F) (e := .f32) zeros2' inb_S64x512_S64x512_0_0 k1_pay1]
  rfl

set_option maxHeartbeats 4000000 in
theorem sound_kernel1_B (hc0 : ¬cond1_0 i) (hc1 : ¬cond1_1 i) (x0 : Vec F S64x4096 .bf16) (x1 : Vec F S4096x512 .bf16) (s : Vec F S64x512 .f32) (K : PUnit → sProp 𝕄) :
    iprop(owns c arg2 fullShare x0 ∗ owns c arg3 fullShare x1 ∗ owns c arg6 fullShare s
        ∗ (iprop(owns c arg2 fullShare x0 ∗ owns c arg3 fullShare x1
            ∗ owns c arg6 fullShare (step1 s x0 x1)) -∗ K ⟨⟩))
      ⊢ wp frame (wpE (defs₀ (F := F)) Variants.none c none) E (cc1__fc5_kernel i arg2 harg2 arg3 harg3 arg4 harg4 arg5 harg5 arg6 harg6) K := by
  simp only [cc1__fc5_kernel_eq_skeleton]; unfold cc1__fc5_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]; · iexists f0; iframe; ipureintro; rfl
  isplitl [H1]; · iexists f1; iframe; ipureintro; rfl
  iexists _; iframe; ipureintro
  rw [View.read_writes_eq_canon _ _ _ (cover1_3 _ _), View.canon_cons_unit_zero zeros2']
  rfl

set_option maxHeartbeats 4000000 in
theorem sound_kernel1_C (hc0 : ¬cond1_0 i) (hc1 : cond1_1 i) (x0 : Vec F S64x4096 .bf16) (x1 : Vec F S4096x512 .bf16) (x2 : Vec F S3x512 .f32)
    (s : Vec F S64x512 .f32) (K : PUnit → sProp 𝕄) :
    iprop(owns c arg2 fullShare x0 ∗ owns c arg3 fullShare x1 ∗ owns c arg4 fullShare x2
        ∗ (∃ d, owns c arg5 fullShare d) ∗ owns c arg6 fullShare s
        ∗ (iprop(owns c arg2 fullShare x0 ∗ owns c arg3 fullShare x1 ∗ owns c arg4 fullShare x2
            ∗ owns c arg5 fullShare (out1_3 (step1 s x0 x1) x2)
            ∗ owns c arg6 fullShare (step1 s x0 x1)) -∗ K ⟨⟩))
      ⊢ wp frame (wpE (defs₀ (F := F)) Variants.none c none) E (cc1__fc5_kernel i arg2 harg2 arg3 harg3 arg4 harg4 arg5 harg5 arg6 harg6) K := by
  simp only [cc1__fc5_kernel_eq_skeleton]; unfold cc1__fc5_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H5]
  · iexists _; isplitr
    swap; · iexact H5
    ipureintro
    unfold sound_kernel1_C.sl.v15 sound_kernel1_C.sl.H6_1
    rw [View.read_writes_eq_canon _ _ _ (cover1_3 _ _), View.readCov_unit_zero (S := S64x512) _ zeros2']
    unfold out1_3 body1
    rw [View.ld_unit_zero (Val := Elt F) (e := .f32) zeros2' inb_S64x512_S64x512_0_0 (step1 _ _ _)]
    rfl
  iexists _; iframe; ipureintro
  unfold sound_kernel1_C.sl.H6_1
  rw [View.read_writes_eq_canon _ _ _ (cover1_3 _ _), View.canon_cons_unit_zero zeros2']
  rfl

end Kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def scr1 (c : Dev nD) : (n : ℕ) → n < cfg1.N → Vec F S64x512 .f32
  | 0, hn => step1 zero1 (iblk1 V c 0 ⟨0, hn⟩) (iblk1 V c 1 ⟨0, hn⟩)
  | n + 1, hn =>
    if (n + 1) % 8 = 0 then step1 zero1 (iblk1 V c 0 ⟨n + 1, hn⟩) (iblk1 V c 1 ⟨n + 1, hn⟩)
    else step1 (scr1 c n (Nat.lt_of_succ_lt hn)) (iblk1 V c 0 ⟨n + 1, hn⟩) (iblk1 V c 1 ⟨n + 1, hn⟩)

theorem scr1_first (c : Dev nD) (t : Fin cfg1.N) (h : t.val % 8 = 0) :
    scr1 V c t.val t.isLt = step1 zero1 (iblk1 V c 0 t) (iblk1 V c 1 t) := by
  obtain ⟨n, hn⟩ := t
  cases n with
  | zero => rfl
  | succ n => exact if_pos h

theorem scr1_next (c : Dev nD) (t : Fin cfg1.N) (h : ¬t.val % 8 = 0) :
    scr1 V c t.val t.isLt = step1 (scr1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

abbrev scM1 : Memref sig .tc .vmem S64x512 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(iprop((∃ d, owns c scM1 fullShare d) ∗ rest1 c) ∗ (∃ r, prngReg c r)) := by
  unfold Pipeline.ΦA; rw [Pipeline.scopedRest_split_of_list spec1 c [cc1_scratch0] (by decide) (by decide)]; simp only [scM1, owns_whole]; rfl

def PhiS (c : Dev nD) : (n : ℕ) → n ≤ cfg1.N → sProp 𝕄
  | 0, _ => Pipeline.ΦA spec1 c
  | n + 1, hn => iprop(iprop(owns c scM1 fullShare (scr1 V c n hn) ∗ rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns c scM1 fullShare (scr1 V c n hn) ∗ rest1 c) ∗ (∃ r, prngReg c r)) := rfl

theorem PhiS_pos (c : Dev nD) (n : ℕ) (h : n ≤ cfg1.N) (hz : n ≠ 0) :
    PhiS V c n h = iprop(iprop(owns c scM1 fullShare (scr1 V c (n - 1) (by omega)) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scr1 V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_3 (c : Dev nD) (t : Fin cfg1.N) : (dat1 V c).after 3 t = out1_3 (scr1 V c t.val t.isLt) (iblk1 V c 2 t) := by dsimp only [dat1]

theorem before1 (c : Dev nD) (t : Fin cfg1.N) :
    (∀ d, (dat1 V c).before 0 t d = iblk1 V c 0 t) ∧ (∀ d, (dat1 V c).before 1 t d = iblk1 V c 1 t) ∧ ∀ d, (dat1 V c).before 2 t d = iblk1 V c 2 t := by
  refine ⟨?_, ?_, ?_⟩ <;> exact (dat1 V c).before_in_eq_fetched _ rfl (fun _ => rfl) (fun _ _ _ => rfl) (fun _ => rfl) t

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns c (st1_0 t) fullShare (iblk1 V c 0 t) from rfl,
    show (dat1 V c).leavesExact 1 t = owns c (st1_1 t) fullShare (iblk1 V c 1 t) from rfl,
    show (dat1 V c).leavesExact 2 t = owns c (st1_2 t) fullShare (iblk1 V c 2 t) from rfl]
  have hN : t.val < 16 := lt_of_lt_of_eq t.isLt (show cfg1.N = 16 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scr1_first V c t h0]
    by_cases hz : t.val = 0
    · rw [PhiS_castSucc V c t, PhiS_zero V c _ _ hz, PhiA1_eq]
      iintro ⟨⟨⟨HS, Hr⟩, Hg⟩, Ho, ⟨%d0, H0⟩, ⟨%d1, H1⟩, ⟨%d2, H2⟩, H3⟩
      iapply (sound_kernel1_A c Set.univ _ (st1_0 t) _ (st1_1 t) _ _ _ _ _ scM1 _ hc0 hc1 _ _ _)
      iframe H0 H1 HS
      iintro ⟨H0, H1, HS⟩
      iframe
    · rw [PhiS_castSucc V c t, PhiS_pos V c _ _ hz]
      iintro ⟨⟨⟨HS, Hr⟩, Hg⟩, Ho, ⟨%d0, H0⟩, ⟨%d1, H1⟩, ⟨%d2, H2⟩, H3⟩
      iapply (sound_kernel1_A c Set.univ _ (st1_0 t) _ (st1_1 t) _ _ _ _ _ scM1 _ hc0 hc1 _ _ _)
      iframe H0 H1
      isplitl [HS]; · iexists _; iexact HS
      iintro ⟨H0, H1, HS⟩
      iframe
  · have hz : t.val ≠ 0 := fun h => h0 (by rw [h])
    have hc0 : ¬cond1_0 (grid1.coords t) := fun h => h0 ((hcond1_0 t).mp h)
    rw [scr1_next V c t h0]
    rw [PhiS_castSucc V c t, PhiS_pos V c _ _ hz]
    by_cases h1 : t.val % 8 = 7
    · have hc1 : cond1_1 (grid1.coords t) := (hcond1_1 t).mpr h1
      rw [show (dat1 V c).leavesExact 3 t = owns c (st1_3 t) fullShare ((dat1 V c).after 3 t) from by
        unfold Dat.leavesExact; rw [liveAt1_3 t hc1], after1_3, scr1_next V c t h0]
      iintro ⟨⟨⟨HS, Hr⟩, Hg⟩, Ho, ⟨%d0, H0⟩, ⟨%d1, H1⟩, ⟨%d2, H2⟩, ⟨%d3, H3⟩⟩
      iapply (sound_kernel1_C c Set.univ _ (st1_0 t) _ (st1_1 t) _ (st1_2 t) _ (st1_3 t) _ scM1 _ hc0 hc1 _ _ _ _ _)
      iframe H0 H1 H2 HS
      isplitl [H3]; · iexists _; iexact H3
      iintro ⟨H0, H1, H2, H3, HS⟩
      iframe
    · have hc1 : ¬cond1_1 (grid1.coords t) := fun h => h1 ((hcond1_1 t).mp h)
      rw [Dat.leavesExact_idle (dat1 V c) 3 t (idleAt1_3 t hc1) (noFlush1_3 t hc1)]
      iintro ⟨⟨⟨HS, Hr⟩, Hg⟩, Ho, ⟨%d0, H0⟩, ⟨%d1, H1⟩, ⟨%d2, H2⟩, H3⟩
      iapply (sound_kernel1_B c Set.univ _ (st1_0 t) _ (st1_1 t) _ _ _ _ _ scM1 _ hc0 hc1 _ _ _ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨HS, Hr⟩, Hg⟩
  isplitl [HS Hr]
  · isplitl [HS]
    · iexists _; iexact HS
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 16 := N_1; omega)

end Cert.Kernel.Hand

end
-- ==== Proof.BR2Body.lean ====
import proofs.«182102_g2000302601656725_pallasbulk_822_2_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

abbrev r2_0 : Rect S64x1024 := .unit _ _ inb_S64x1024_S64x1024_0_0
abbrev r2_1 : Rect S2048x256 := .unit _ _ inb_S2048x256_S1024x256_0_0
abbrev r2_2 : Rect S2048x256 := .unit _ _ inb_S2048x256_S1024x256_1024_0
abbrev r2_3 : Rect S1x256 := .unit _ _ inb_S1x256_S1x256_0_0
abbrev r2_4 : Rect S256x2 := .unit _ _ inb_S256x2_S256x2_0_0
abbrev r2_5 : Rect S1x2 := .unit _ _ inb_S1x2_S1x2_0_0
abbrev r2_6 : Rect S32x2 := .unit _ _ inb_S32x2_S32x2_0_0

def body2 (x0 : Vec F S64x1024 .bf16) (x1 : Vec F S2048x256 .bf16) (x2 : Vec F S1x256 .f32) (x3 : Vec F S256x2 .bf16)
    (x4 : Vec F S1x2 .f32) : FVec F S32x2 .f32 :=
  k2_pay1 (View.ld x0 r2_0) (View.ld x1 r2_1) (View.ld x1 r2_2) (View.ld x2 r2_3) (View.ld x3 r2_4) (View.ld x4 r2_5)

end Cert.Kernel.Hand

end
-- ==== Proof.BR2Frame.lean ====
import proofs.«182102_g2000302601656725_pallasbulk_822_2_alg».proof.Proof.Gen.Kernel.Launch
import proofs.«182102_g2000302601656725_pallasbulk_822_2_alg».proof.Proof.Gen.Kernel.Skeleton
import proofs.«182102_g2000302601656725_pallasbulk_822_2_alg».proof.Proof.Gen.Kernel.Points
import proofs.«182102_g2000302601656725_pallasbulk_822_2_alg».proof.Proof.BR2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«182102_g2000302601656725_pallasbulk_822_2_alg».proof.Proof.LibFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibFrame

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 : Vec F S64x1024 .bf16) (x1 : Vec F S2048x256 .bf16) (x2 : Vec F S1x256 .f32) (x3 : Vec F S256x2 .bf16) (x4 : Vec F S1x2 .f32) : Vec F S32x2 .f32 :=
  View.canon [⟨r2_6, body2 x0 x1 x2 x3 x4⟩]

set_option maxHeartbeats 4000000 in
theorem sound_kernel2 (c : Dev nD) (E : Set ℕ) (i : grid2.Coords)
    (arg1 : Memref sig .tc .vmem S64x1024 .bf16) (harg1 : arg1.IsWhole) (arg2 : Memref sig .tc .vmem S2048x256 .bf16) (harg2 : arg2.IsWhole)
    (arg3 : Memref sig .tc .vmem S1x256 .f32) (harg3 : arg3.IsWhole) (arg4 : Memref sig .tc .vmem S256x2 .bf16) (harg4 : arg4.IsWhole)
    (arg5 : Memref sig .tc .vmem S1x2 .f32) (harg5 : arg5.IsWhole) (arg6 : Memref sig .tc .vmem S32x2 .f32) (harg6 : arg6.IsWhole)
    (x0 : Vec F S64x1024 .bf16) (x1 : Vec F S2048x256 .bf16) (x2 : Vec F S1x256 .f32) (x3 : Vec F S256x2 .bf16) (x4 : Vec F S1x2 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  iexists _; iframe; ipureintro
  exact View.read_writes_eq_canon _ _ _ (View.cover_of_tiled _ S32x2.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := rfl

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ ∀ d, (dat2 V c).before 4 t d = iblk2 V c 4 t := by
  refine ⟨?_, ?_, ?_, ?_, ?_⟩ <;> exact (dat2 V c).before_in_eq_fetched _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2]; simp only [before2 V c t]; dsimp only [dat2]
  refine wp_pass (p := bodyAt2 t) fun K => ?_
  iintro ⟨⟨⟨%_, H0⟩, ⟨%_, H1⟩, ⟨%_, H2⟩, ⟨%_, H3⟩, ⟨%_, H4⟩, %_, H5⟩, Hk⟩
  iapply (sound_kernel2 c Set.univ _ _ _ _ _ _ _ _ _ _ _ _ _ _ _ _ _ _ K)
  iframe H0 H1 H2 H3 H4 Hk
  iexists _; iexact H5

end Cert.Kernel.Hand

end
-- ==== Proof.LibRegion.lean ====
import Idealize.ShloMosaic.Lib.Pipeline.FrameBody
import Idealize.ShloMosaic.Lib.Pipeline.RegionsLoop
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation pin arrRef)

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- The state beside the buffers between two items: some generator state, nothing owed. -/
abbrev Rest (c : Dev nD) : sProp 𝕄 := iprop((∃ r, prngReg c r) ∗ ∃ W, owes (c : Thread nD τ) (0 : CellTallies nD τ sig Unit) W)

variable (pcs : P → Pipeline.PCfg sig Λ₀ Val) (a : (p : P) → (pcs p).Adm)
  (pd : (p : P) → (c : Dev nD) → Dat τ Val Unit ℕ U ℕ (pin pcs a p) c)
  (defs₀ : Defs nD τ sig Val Λ₀) (L : GSem nD τ sig → Finset Unit) (lv : GSem nD τ sig → Unit → ℕ)

/-- `V` with pipeline `p`'s output array `o` at its contents after the last grid point. -/
def out (p : P) (o : Fin (pin pcs a p).W) (V : Dev nD → Valuation τ sig Val) (c : Dev nD) : Valuation τ sig Val :=
  Function.update (V c) (arrRef (pin pcs a p).spec o) ((pd p c).arrAt o (pin pcs a p).N)

set_option backward.isDefEq.respectTransparency.types false in
/-- A region that owes nothing, with one output array `o`, is a segment from the buffers at `V` to `out … V`: the arrays are distinct and only `o` changes. -/
def regOf (p : P) (lf : Pipeline.LaunchFacts (nD := nD) (τ := τ) (pin pcs a) p) (V : Dev nD → Valuation τ sig Val)
    (o : Fin (pin pcs a p).W) (hio : ∀ w, w ≠ o → ((pin pcs a p).win w).isOut = false)
    (hbody : ∀ c, BodyObligation (pd p c) defs₀ Variants.none () Set.univ)
    (hA : ∀ c w, (pd p c).A w = V c (arrRef (pin pcs a p).spec w))
    (hΦin : ∀ c, (Pipeline.ΦA (pin pcs a p).spec c : sProp 𝕄) ⊢ (pd p c).Φ 0 := by exact fun _ => .rfl)
    (hΦout : ∀ c, (pd p c).Φ (Fin.last (pin pcs a p).N) ⊢ (Pipeline.ΦA (pin pcs a p).spec c : sProp 𝕄) := by exact fun _ => .rfl)
    (hK : (pcs p).pre.K = 0 := by rfl)
    (hq : ∀ c w, (pd p c).q w = fullShare := by exact fun _ _ => rfl)
    (howed : ∀ c t, (pd p c).owed t = 0 := by exact fun _ _ => rfl)
    (hrec : ∀ c, (pd p c).recorded 0 = Set.univ := by exact fun _ => rfl) :
    Pipeline.RegionSeg pcs a pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Rest c)
  post c := iprop(StableHlo.held (c : Thread nD τ) (Pipeline.ucRefs τ sig) (out pcs a pd p o V c) ∗ Rest c)
  X c := iprop(∃ r, prngReg c r)
  Y c := iprop(∃ r, prngReg c r)
  Z c := Pipeline.unscopedRest (Ix := Unit) (Name := ℕ) (U := U) (Lvl := ℕ) (pin pcs a p).spec c (fun b => V c b)
  hentry c := by
    haveI : IsEmpty (Fin (pcs p).pre.K) := by rw [hK]; infer_instance
    rw [Pipeline.ownSems0_none]
    have hsplit := Pipeline.arrays_of_unscopedBufs (p := p) pcs a pd lf.win lf.arr_whole c ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) pcs a (Ix := Unit) (Name := ℕ) (U := U) (Lvl := ℕ)
      lf.win lf.arr_whole c pd ((pd p c).share_full (hq c)) (fun b => V c b) (fun b => out pcs a pd p o V c b) ((pd p c).arrAt · (pin pcs a p).N)
      (fun w => by
        unfold out
        by_cases hw : w = o
        · subst hw; exact Eq.symm (Function.update_self ..)
        · rw [(pd p c).arrAt_in w (hio w hw), hA]
          exact Eq.symm (Function.update_of_ne (StableHlo.devRef_ne_of_ne fun e => hw (lf.win.arr_inj e)) _ _))
      (fun b hb => Function.update_of_ne (StableHlo.devRef_ne_of_ne fun e =>
        hb (Finset.mem_image.mpr ⟨o, Finset.mem_univ _, e.symm⟩)) _ _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- Updating at `b` by what an update of an equal valuation at `b` holds there. -/
theorem update_self_congr {V W : Valuation τ sig Val} (e : V = W) (b : DevRef τ sig) (x : b.ty.Contents Val) :
    Function.update V b (Function.update W b x b) = Function.update W b x := by rw [e, Function.update_self]

/-- Equal valuations hold the same buffers. -/
theorem held_congr {V W : Valuation τ sig Val} (e : V = W) (c : Dev nD) (R : sProp 𝕄) :
    iprop(StableHlo.held (c : Thread nD τ) (Pipeline.ucRefs τ sig) V ∗ R)
      ⊢ iprop(StableHlo.held (c : Thread nD τ) (Pipeline.ucRefs τ sig) W ∗ R) := e ▸ .rfl

/-- Every unscoped buffer of a core read against a final state. -/
theorem held_read (c : Dev nD) (V : Valuation τ sig Val) (s' : Phys nD τ sig Val) (Q : Prop)
    (h : (∀ b : Ref sig .tc, ¬ (Proc.devRef (τ := τ) .tc b).isScoped → s'.mem.mem ((c.tc : Thread nD τ).loc b) = V b) → Q) :
    iprop(StableHlo.held (c : Thread nD τ) (Pipeline.ucRefs τ sig) V ∗ SI s') ⊢ (|={Set.univ}=> iprop(⌜Q⌝ ∗ SI s') : sProp 𝕄) := by
  unfold StableHlo.held
  iintro ⟨Hh, HSI⟩
  ihave Hr := (pointsTo_read_all (Pipeline.ucRefs τ sig) (fun b => ((c : Thread nD τ).1, b)) V s') $$ [Hh HSI]
  · isplitl [Hh] <;> iassumption
  icases Hr with ⟨%h', HSI⟩
  imodintro
  isplitr
  · ipureintro; exact h fun b hb => h' _ (Finset.mem_filter.mpr ⟨StableHlo.devRef_mem_tcRefs b, hb⟩)
  · iexact HSI

/-- The launch leaves every core its unscoped buffers at the launch memory beside `Rest`. -/
theorem launch (m : (ℓ : Loc nD τ sig) → Buf Val ℓ) (ρ : Dev nD → PrngReg) :
    (iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv) : sProp 𝕄)
      ⊢ |={Set.univ}=> bigSep Finset.univ fun c : Dev nD =>
        iprop(StableHlo.held (c : Thread nD τ) (Pipeline.ucRefs τ sig) (fun b => m (c, b)) ∗ Rest c) := by
  refine Pipeline.initEach L lv fun c => ?_
  rw [← Pipeline.unscopedBufs_held (Ix := Unit) (Name := ℕ) (U := U) (Lvl := ℕ) c (fun b => m (c, b))]
  iintro ⟨⟨Hh, -, HO, -, Hp, -⟩, -⟩
  imodintro
  isplitl [Hh]; · iexact Hh
  isplitl [Hp]; · iexists _; iexact Hp
  iexists ∅; iexact HO

theorem launch_own (u : U) :
    (ownU u : sProp 𝕄) ⊢ |={Set.univ}=> iprop(BI.own ((emb₁ : Emb U 𝕄) u) ∗ bigSep Finset.univ fun _ : Dev nD => (BI.emp : sProp 𝕄)) := by
  rw [BI.bigSep_emp_const]
  iintro Hu; imodintro
  isplitl [Hu]
  · iapply (show (ownU u : sProp 𝕄) ⊢ BI.own ((emb₁ : Emb U 𝕄) u) from .rfl); iexact Hu
  iempintro

end Cert.LibRegion
end
-- ==== Proof.BRun.lean ====
import proofs.«182102_g2000302601656725_pallasbulk_822_2_alg».proof.Proof.Gen.Kernel.Regions
import proofs.«182102_g2000302601656725_pallasbulk_822_2_alg».proof.Proof.BR0Frame
import proofs.«182102_g2000302601656725_pallasbulk_822_2_alg».proof.Proof.BR1Frame
import proofs.«182102_g2000302601656725_pallasbulk_822_2_alg».proof.Proof.BR2Frame
import proofs.«182102_g2000302601656725_pallasbulk_822_2_alg».proof.Proof.LibRegion

noncomputable section

namespace Cert.Kernel.Hand

open Cert.Kernel Cert.Kernel.Gen Cert.LibRegion
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat Seg)

variable {F : FTy → Type} [FloatOps F]

variable (m : (ℓ : Loc nD τ sig) → Buf (Elt F) ℓ)

abbrev entry0 : (c : Dev nD) → (b : Ref sig .tc) → Buf (Elt F) ((c : Thread nD τ).loc b) := fun c b => V5 m c b
def res0 (c : Dev nD) : Buf (Elt F) ((c : Thread nD τ).loc main_v9) := (dat0 (entry0 m) c).arrAt 9 cfg0.N
def mid6 (c : Dev nD) : Valuation τ sig (Elt F) := Function.update (V5 m c) main_v9 (res0 m c)
def mid7 (c : Dev nD) : Valuation τ sig (Elt F) := StableHlo.after hostOps1 (mid6 m c)
abbrev entry1 : (c : Dev nD) → (b : Ref sig .tc) → Buf (Elt F) ((c : Thread nD τ).loc b) := fun c b => mid7 m c b
def res1 (c : Dev nD) : Buf (Elt F) ((c : Thread nD τ).loc main_v11) := (dat1 (entry1 m) c).arrAt 3 cfg1.N
def mid8 (c : Dev nD) : Valuation τ sig (Elt F) := Function.update (mid7 m c) main_v11 (res1 m c)
abbrev entry2 : (c : Dev nD) → (b : Ref sig .tc) → Buf (Elt F) ((c : Thread nD τ).loc b) := fun c b => mid8 m c b
def res2 (c : Dev nD) : Buf (Elt F) ((c : Thread nD τ).loc main_v12) := (dat2 (entry2 m) c).arrAt 5 cfg2.N
def mid9 (c : Dev nD) : Valuation τ sig (Elt F) := Function.update (mid8 m c) main_v12 (res2 m c)

/-- What each region leaves, indexed by the item after it. -/
def outs : Outs (F := F) := fun J r c => if J = 6 then mid6 m c r else if J = 8 then mid8 m c r else mid9 m c r

theorem outs_6 (c : Dev nD) : outs m 6 main_v9 c = res0 m c := by
  unfold outs mid6; rw [if_pos rfl]; exact Function.update_self ..

theorem V6_outs (c : Dev nD) : V6 m (outs m) c = mid6 m c := update_self_congr (Eq.refl (V5 m c)) main_v9 (res0 m c)
theorem V7_outs (c : Dev nD) : V7 m (outs m) c = mid7 m c := congrArg (StableHlo.after hostOps1) (V6_outs m c)
theorem V8_outs (c : Dev nD) : V8 m (outs m) c = mid8 m c := update_self_congr (V7_outs m c) main_v11 (res1 m c)
theorem V9_outs (c : Dev nD) : V9 m (outs m) c = mid9 m c := update_self_congr (V8_outs m c) main_v12 (res2 m c)

def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

abbrev Lz : GSem nD τ sig → Finset Unit := fun _ => ∅
abbrev lvz : GSem nD τ sig → Unit → ℕ := fun _ _ => 0

set_option backward.isDefEq.respectTransparency.types false in
/-- The program's run: it terminates, the result buffer ends at what the last region leaves, the arguments as launched. -/
theorem run (ρ : Dev nD → PrngReg) : θ_run defs (onTc (τ := τ) (main (F := F))) ⟨m, fun _ => 0, ρ⟩ (fun r => ∀ c : Dev nD,
      r.2.mem ((c.tc : Thread nD τ).loc main_v12) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (pdats m) () cellOf_inj emb₁ defs₀ Variants.none Lz lvz m ρ main
    (segs m (outs m) Variants.none Lz lvz (fun _ c => Rest c) () (pdats m)
      (regOf pcfgs adm (pdats m) defs₀ Lz lvz 0 launch0 (V5 m) 9 (show ∀ w : Fin cfg0.W, w ≠ 9 → (cfg0.win w).isOut = false by decide)
        (body_obligation0 (entry0 m)) (A_eq0 (entry0 m)))
      (regOf pcfgs adm (pdats m) defs₀ Lz lvz 1 launch1 (mid7 m) 3 (show ∀ w : Fin cfg1.W, w ≠ 3 → (cfg1.win w).isOut = false by decide)
        (body_obligation1 (entry1 m)) (A_eq1 (entry1 m)) (hin1 (entry1 m)) (hout1 (entry1 m)))
      (regOf pcfgs adm (pdats m) defs₀ Lz lvz 2 launch2 (mid8 m) 5 (show ∀ w : Fin cfg2.W, w ≠ 5 → (cfg2.win w).isOut = false by decide)
        (body_obligation2 (entry2 m)) (A_eq2 (entry2 m))))
    (fun c Q => by rewrite [main_chain c, Seg.run_eq_chain]; exact .rfl)
    (fun c => by simp only [segs, Seg.pipes_host, Seg.pipes_region, Seg.pipes_nil]; decide)
    0 (fun _ _ => rfl) (fun _ => iprop(emp)) _ (launch_own _)
    (hch := fun c => ⟨.rfl, .rfl, .rfl, .rfl, .rfl, .rfl, held_congr (V6_outs m c).symm c _, held_congr (V7_outs m c) c _, .rfl,
      (held_congr (V9_outs m c).symm c _).trans (sep_mono .rfl (by iintro ⟨-, H⟩; iexact H))⟩)
    (hinit := launch Lz lvz m ρ) (hfin := fun c s' => ?_) (hQ := fun _ h => h)
  exact held_read c _ s' _ fun h => ⟨(h main_v12 (by decide)).trans ((congrFun (V9_outs m c) _).trans (by unfold mid9; exact Function.update_self ..)),
    (h main_arg0 (by decide)).trans (V9_main_arg0 m _ c),
    (h main_arg1 (by decide)).trans (V9_main_arg1 m _ c),
    (h main_arg2 (by decide)).trans (V9_main_arg2 m _ c),
    (h main_arg3 (by decide)).trans (V9_main_arg3 m _ c),
    (h main_arg4 (by decide)).trans (V9_main_arg4 m _ c),
    (h main_arg5 (by decide)).trans (V9_main_arg5 m _ c),
    (h main_arg6 (by decide)).trans (V9_main_arg6 m _ c),
    (h main_arg7 (by decide)).trans (V9_main_arg7 m _ c),
    (h main_arg8 (by decide)).trans (V9_main_arg8 m _ c),
    (h main_arg9 (by decide)).trans (V9_main_arg9 m _ c),
    (h main_arg10 (by decide)).trans (V9_main_arg10 m _ c),
    (h main_arg11 (by decide)).trans (V9_main_arg11 m _ c),
    (h main_arg12 (by decide)).trans (V9_main_arg12 m _ c),
    (h main_arg13 (by decide)).trans (V9_main_arg13 m _ c),
    (h main_arg14 (by decide)).trans (V9_main_arg14 m _ c)⟩

end Cert.Kernel.Hand
end
-- ==== Proof.KR0Body.lean ====
import proofs.«182102_g2000302601656725_pallasbulk_822_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

abbrev r0_a1 : Rect S1x68x68x4 := .unit _ _ inb_S1x68x68x4_S1x68x68x4_0_0_0_0
abbrev r0_a2_0 : Rect S5x20x128 := .unit _ _ inb_S5x20x128_S1x20x128_0_0_0
abbrev r0_a2_1 : Rect S5x20x128 := .unit _ _ inb_S5x20x128_S1x20x128_1_0_0
abbrev r0_a2_2 : Rect S5x20x128 := .unit _ _ inb_S5x20x128_S1x20x128_2_0_0
abbrev r0_a2_3 : Rect S5x20x128 := .unit _ _ inb_S5x20x128_S1x20x128_3_0_0
abbrev r0_a2_4 : Rect S5x20x128 := .unit _ _ inb_S5x20x128_S1x20x128_4_0_0
abbrev r0_a3_0 : Rect S3x128 := .unit _ _ inb_S3x128_S1x128_0_0
abbrev r0_a3_1 : Rect S3x128 := .unit _ _ inb_S3x128_S1x128_1_0
abbrev r0_a3_2 : Rect S3x128 := .unit _ _ inb_S3x128_S1x128_2_0
abbrev r0_a4_0 : Rect S25x128x128 := .unit _ _ inb_S25x128x128_S1x128x128_0_0_0
abbrev r0_a4_1 : Rect S25x128x128 := .unit _ _ inb_S25x128x128_S1x128x128_1_0_0
abbrev r0_a4_2 : Rect S25x128x128 := .unit _ _ inb_S25x128x128_S1x128x128_2_0_0
abbrev r0_a4_3 : Rect S25x128x128 := .unit _ _ inb_S25x128x128_S1x128x128_3_0_0
abbrev r0_a4_4 : Rect S25x128x128 := .unit _ _ inb_S25x128x128_S1x128x128_4_0_0
abbrev r0_a4_5 : Rect S25x128x128 := .unit _ _ inb_S25x128x128_S1x128x128_5_0_0
abbrev r0_a4_6 : Rect S25x128x128 := .unit _ _ inb_S25x128x128_S1x128x128_6_0_0
abbrev r0_a4_7 : Rect S25x128x128 := .unit _ _ inb_S25x128x128_S1x128x128_7_0_0
abbrev r0_a4_8 : Rect S25x128x128 := .unit _ _ inb_S25x128x128_S1x128x128_8_0_0
abbrev r0_a4_9 : Rect S25x128x128 := .unit _ _ inb_S25x128x128_S1x128x128_9_0_0
abbrev r0_a4_10 : Rect S25x128x128 := .unit _ _ inb_S25x128x128_S1x128x128_10_0_0
abbrev r0_a4_11 : Rect S25x128x128 := .unit _ _ inb_S25x128x128_S1x128x128_11_0_0
abbrev r0_a4_12 : Rect S25x128x128 := .unit _ _ inb_S25x128x128_S1x128x128_12_0_0
abbrev r0_a4_13 : Rect S25x128x128 := .unit _ _ inb_S25x128x128_S1x128x128_13_0_0
abbrev r0_a4_14 : Rect S25x128x128 := .unit _ _ inb_S25x128x128_S1x128x128_14_0_0
abbrev r0_a4_15 : Rect S25x128x128 := .unit _ _ inb_S25x128x128_S1x128x128_15_0_0
abbrev r0_a4_16 : Rect S25x128x128 := .unit _ _ inb_S25x128x128_S1x128x128_16_0_0
abbrev r0_a4_17 : Rect S25x128x128 := .unit _ _ inb_S25x128x128_S1x128x128_17_0_0
abbrev r0_a4_18 : Rect S25x128x128 := .unit _ _ inb_S25x128x128_S1x128x128_18_0_0
abbrev r0_a4_19 : Rect S25x128x128 := .unit _ _ inb_S25x128x128_S1x128x128_19_0_0
abbrev r0_a4_20 : Rect S25x128x128 := .unit _ _ inb_S25x128x128_S1x128x128_20_0_0
abbrev r0_a4_21 : Rect S25x128x128 := .unit _ _ inb_S25x128x128_S1x128x128_21_0_0
abbrev r0_a4_22 : Rect S25x128x128 := .unit _ _ inb_S25x128x128_S1x128x128_22_0_0
abbrev r0_a4_23 : Rect S25x128x128 := .unit _ _ inb_S25x128x128_S1x128x128_23_0_0
abbrev r0_a4_24 : Rect S25x128x128 := .unit _ _ inb_S25x128x128_S1x128x128_24_0_0
abbrev r0_a5_0 : Rect S3x128 := .unit _ _ inb_S3x128_S1x128_0_0
abbrev r0_a5_1 : Rect S3x128 := .unit _ _ inb_S3x128_S1x128_1_0
abbrev r0_a5_2 : Rect S3x128 := .unit _ _ inb_S3x128_S1x128_2_0
abbrev r0_a6_0 : Rect S9x128x256 := .unit _ _ inb_S9x128x256_S1x128x256_0_0_0
abbrev r0_a6_1 : Rect S9x128x256 := .unit _ _ inb_S9x128x256_S1x128x256_1_0_0
abbrev r0_a6_2 : Rect S9x128x256 := .unit _ _ inb_S9x128x256_S1x128x256_2_0_0
abbrev r0_a6_3 : Rect S9x128x256 := .unit _ _ inb_S9x128x256_S1x128x256_3_0_0
abbrev r0_a6_4 : Rect S9x128x256 := .unit _ _ inb_S9x128x256_S1x128x256_4_0_0
abbrev r0_a6_5 : Rect S9x128x256 := .unit _ _ inb_S9x128x256_S1x128x256_5_0_0
abbrev r0_a6_6 : Rect S9x128x256 := .unit _ _ inb_S9x128x256_S1x128x256_6_0_0
abbrev r0_a6_7 : Rect S9x128x256 := .unit _ _ inb_S9x128x256_S1x128x256_7_0_0
abbrev r0_a6_8 : Rect S9x128x256 := .unit _ _ inb_S9x128x256_S1x128x256_8_0_0
abbrev r0_a7_0 : Rect S3x256 := .unit _ _ inb_S3x256_S1x256_0_0
abbrev r0_a7_1 : Rect S3x256 := .unit _ _ inb_S3x256_S1x256_1_0
abbrev r0_a7_2 : Rect S3x256 := .unit _ _ inb_S3x256_S1x256_2_0
abbrev r0_a8_0 : Rect S9x256x512 := .unit _ _ inb_S9x256x512_S1x256x512_0_0_0
abbrev r0_a8_1 : Rect S9x256x512 := .unit _ _ inb_S9x256x512_S1x256x512_1_0_0
abbrev r0_a8_2 : Rect S9x256x512 := .unit _ _ inb_S9x256x512_S1x256x512_2_0_0
abbrev r0_a8_3 : Rect S9x256x512 := .unit _ _ inb_S9x256x512_S1x256x512_3_0_0
abbrev r0_a8_4 : Rect S9x256x512 := .unit _ _ inb_S9x256x512_S1x256x512_4_0_0
abbrev r0_a8_5 : Rect S9x256x512 := .unit _ _ inb_S9x256x512_S1x256x512_5_0_0
abbrev r0_a8_6 : Rect S9x256x512 := .unit _ _ inb_S9x256x512_S1x256x512_6_0_0
abbrev r0_a8_7 : Rect S9x256x512 := .unit _ _ inb_S9x256x512_S1x256x512_7_0_0
abbrev r0_a8_8 : Rect S9x256x512 := .unit _ _ inb_S9x256x512_S1x256x512_8_0_0
abbrev r0_a9_0 : Rect S3x512 := .unit _ _ inb_S3x512_S1x512_0_0
abbrev r0_a9_1 : Rect S3x512 := .unit _ _ inb_S3x512_S1x512_1_0
abbrev r0_a9_2 : Rect S3x512 := .unit _ _ inb_S3x512_S1x512_2_0
abbrev r0_a10 : Rect S1x64x512 := .unit _ _ inb_S1x64x512_S1x64x512_0_0_0

noncomputable def body0 (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) : FVec F S1x64x512 .bf16 :=
  let v0 := View.ld x0 r0_a1
  let v32 := k0_pay3 v0 (View.ld x1 r0_a2_0) (View.ld x1 r0_a2_1) (View.ld x1 r0_a2_2) (View.ld x1 r0_a2_3)
  let v34 := k0_pay4 v0
  let v69 := k0_pay5 v32 v34 (View.ld x1 r0_a2_4) (View.ld x2 r0_a3_0) (View.ld x2 r0_a3_1) (View.ld x2 r0_a3_2)
  let v76 := k0_pay6 v32 v34 (View.ld x1 r0_a2_4) (View.ld x2 r0_a3_0) (View.ld x2 r0_a3_1) (View.ld x2 r0_a3_2) (View.ld x3 r0_a4_0)
  let v78 := k0_pay7 v32 v34 (View.ld x1 r0_a2_4) (View.ld x2 r0_a3_0) (View.ld x2 r0_a3_1) (View.ld x2 r0_a3_2)
  let v112 := k0_pay8 v69 v76 v78 (View.ld x3 r0_a4_1) (View.ld x3 r0_a4_2) (View.ld x3 r0_a4_3) (View.ld x3 r0_a4_4) (View.ld x3 r0_a4_5) (View.ld x3 r0_a4_6)
  let v114 := k0_pay9 v69
  let v148 := k0_pay10 v69 v112 v114 (View.ld x3 r0_a4_7) (View.ld x3 r0_a4_8) (View.ld x3 r0_a4_9) (View.ld x3 r0_a4_10) (View.ld x3 r0_a4_11) (View.ld x3 r0_a4_12)
  let v150 := k0_pay11 v69
  let v184 := k0_pay12 v69 v148 v150 (View.ld x3 r0_a4_13) (View.ld x3 r0_a4_14) (View.ld x3 r0_a4_15) (View.ld x3 r0_a4_16) (View.ld x3 r0_a4_17) (View.ld x3 r0_a4_18)
  let v186 := k0_pay13 v69
  let v220 := k0_pay14 v69 v184 v186 (View.ld x3 r0_a4_19) (View.ld x3 r0_a4_20) (View.ld x3 r0_a4_21) (View.ld x3 r0_a4_22) (View.ld x3 r0_a4_23) (View.ld x3 r0_a4_24)
  let v222 := k0_pay15 (View.ld x4 r0_a5_0)
  let v251 := k0_pay16 v220 v222 (View.ld x4 r0_a5_1) (View.ld x4 r0_a5_2)
  let v264 := k0_pay17 v220 v222 (View.ld x4 r0_a5_1) (View.ld x4 r0_a5_2) (View.ld x5 r0_a6_0) (View.ld x5 r0_a6_1)
  let v266 := k0_pay18 v220 v222 (View.ld x4 r0_a5_1) (View.ld x4 r0_a5_2)
  let v300 := k0_pay19 v251 v264 v266 (View.ld x5 r0_a6_2) (View.ld x5 r0_a6_3) (View.ld x5 r0_a6_4) (View.ld x5 r0_a6_5) (View.ld x5 r0_a6_6) (View.ld x5 r0_a6_7)
  let v302 := k0_pay20 v251
  let v337 := k0_pay21 v300 v302 (View.ld x5 r0_a6_8) (View.ld x6 r0_a7_0) (View.ld x6 r0_a7_1) (View.ld x6 r0_a7_2)
  let v344 := k0_pay22 v300 v302 (View.ld x5 r0_a6_8) (View.ld x6 r0_a7_0) (View.ld x6 r0_a7_1) (View.ld x6 r0_a7_2) (View.ld x7 r0_a8_0)
  let v346 := k0_pay23 v300 v302 (View.ld x5 r0_a6_8) (View.ld x6 r0_a7_0) (View.ld x6 r0_a7_1) (View.ld x6 r0_a7_2)
  let v380 := k0_pay24 v337 v344 v346 (View.ld x7 r0_a8_1) (View.ld x7 r0_a8_2) (View.ld x7 r0_a8_3) (View.ld x7 r0_a8_4) (View.ld x7 r0_a8_5) (View.ld x7 r0_a8_6)
  let v382 := k0_pay25 v337
  k0_pay1 v337 v380 v382 (View.ld x7 r0_a8_7) (View.ld x7 r0_a8_8) (View.ld x8 r0_a9_0) (View.ld x8 r0_a9_1) (View.ld x8 r0_a9_2)

end Cert.KernelIdeal.Hand

end
-- ==== Proof.KR0Frame.lean ====
import proofs.«182102_g2000302601656725_pallasbulk_822_2_alg».proof.Proof.Gen.KernelIdeal.Launch
import proofs.«182102_g2000302601656725_pallasbulk_822_2_alg».proof.Proof.Gen.KernelIdeal.Skeleton
import proofs.«182102_g2000302601656725_pallasbulk_822_2_alg».proof.Proof.Gen.KernelIdeal.Points
import proofs.«182102_g2000302601656725_pallasbulk_822_2_alg».proof.Proof.KR0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«182102_g2000302601656725_pallasbulk_822_2_alg».proof.Proof.LibFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibFrame

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_9 (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) : Vec F S1x64x512 .bf16 :=
  View.canon [⟨r0_a10, body0 x0 x1 x2 x3 x4 x5 x6 x7 x8⟩]

set_option maxHeartbeats 0 in
theorem sound_kernel0 (c : Dev nD) (E : Set ℕ) (i : grid0.Coords) (arg1 : Memref sig .tc .vmem S1x68x68x4 .bf16) (harg1 : arg1.IsWhole) (arg2 : Memref sig .tc .vmem S5x20x128 .bf16) (harg2 : arg2.IsWhole) (arg3 : Memref sig .tc .vmem S3x128 .f32) (harg3 : arg3.IsWhole) (arg4 : Memref sig .tc .vmem S25x128x128 .bf16) (harg4 : arg4.IsWhole) (arg5 : Memref sig .tc .vmem S3x128 .f32) (harg5 : arg5.IsWhole) (arg6 : Memref sig .tc .vmem S9x128x256 .bf16) (harg6 : arg6.IsWhole) (arg7 : Memref sig .tc .vmem S3x256 .f32) (harg7 : arg7.IsWhole) (arg8 : Memref sig .tc .vmem S9x256x512 .bf16) (harg8 : arg8.IsWhole) (arg9 : Memref sig .tc .vmem S3x512 .f32) (harg9 : arg9.IsWhole) (arg10 : Memref sig .tc .vmem S1x64x512 .bf16) (harg10 : arg10.IsWhole)
    (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ (∃ d, owns c arg10 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare (out0_9 x0 x1 x2 x3 x4 x5 x6 x7 x8)) -∗ K ⟨⟩))
      ⊢ wp frame (wpE (defs₀ (F := F)) Variants.none c none) E (cc0__extractor_kernel i arg1 harg1 arg2 harg2 arg3 harg3 arg4 harg4 arg5 harg5 arg6 harg6 arg7 harg7 arg8 harg8 arg9 harg9 arg10 harg10) K := by
  simp only [cc0__extractor_kernel_eq_skeleton]; unfold cc0__extractor_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H8]; · iexists f8; iframe; ipureintro; rfl
  iexists _; iframe; ipureintro
  try dsimp only
  exact View.read_writes_eq_canon _ _ _ (View.cover_of_tiled _ S1x64x512.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := rfl

theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) ∧ (∀ d, (dat0 V c).before 6 t d = iblk0 V c 6 t) ∧ (∀ d, (dat0 V c).before 7 t d = iblk0 V c 7 t) ∧ ∀ d, (dat0 V c).before 8 t d = iblk0 V c 8 t := by
  refine ⟨?_, ?_, ?_, ?_, ?_, ?_, ?_, ?_, ?_⟩ <;> exact (dat0 V c).before_in_eq_fetched _ rfl (fun _ => rfl) (fun _ _ _ => rfl) (fun _ => rfl) t

theorem body_obligation0 (c : Dev nD) : BodyObligation (dat0 (F := F) V c) (defs₀ (F := F)) Variants.none () Set.univ := fun t => by
  rw [bigSep_W0, bigSep_W0]; simp only [before0 V c t]; dsimp only [dat0]
  refine wp_pass (p := bodyAt0 t) fun K => ?_
  iintro ⟨⟨⟨%_, H0⟩, ⟨%_, H1⟩, ⟨%_, H2⟩, ⟨%_, H3⟩, ⟨%_, H4⟩, ⟨%_, H5⟩, ⟨%_, H6⟩, ⟨%_, H7⟩, ⟨%_, H8⟩, %_, H9⟩, Hk⟩
  iapply (sound_kernel0 c Set.univ _ _ _ _ _ _ _ _ _ _ _ _ _ _ _ _ _ _ _ _ _ _ _ _ _ _ _ _ _ _ K)
  iframe H0 H1 H2 H3 H4 H5 H6 H7 H8 Hk
  iexists _; iexact H9

end Cert.KernelIdeal.Hand

end
-- ==== Proof.KR1Body.lean ====
import proofs.«182102_g2000302601656725_pallasbulk_822_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

abbrev r1_0 : Rect S64x4096 := .unit _ _ inb_S64x4096_S64x4096_0_0
abbrev r1_1 : Rect S4096x512 := .unit _ _ inb_S4096x512_S4096x512_0_0
abbrev r1_2 : Rect S3x512 := .unit _ _ inb_S3x512_S3x512_0_0
abbrev r1_3 : Rect S64x512 := .unit _ _ inb_S64x512_S64x512_0_0

def zero1 : FVec F S64x512 .f32 := k1_pay1

def step1 (s : Vec F S64x512 .f32) (x0 : Vec F S64x4096 .bf16) (x1 : Vec F S4096x512 .bf16) : FVec F S64x512 .f32 :=
  k1_pay2 (View.ld s r1_3) (View.ld x0 r1_0) (View.ld x1 r1_1)

def body1 (s : Vec F S64x512 .f32) (x2 : Vec F S3x512 .f32) : FVec F S64x512 .bf16 :=
  k1_pay3 (View.ld s r1_3) (View.ld x2 r1_2)

end Cert.KernelIdeal.Hand

end
-- ==== Proof.KR1Frame.lean ====
import proofs.«182102_g2000302601656725_pallasbulk_822_2_alg».proof.Proof.Gen.KernelIdeal.Launch
import proofs.«182102_g2000302601656725_pallasbulk_822_2_alg».proof.Proof.Gen.KernelIdeal.Skeleton
import proofs.«182102_g2000302601656725_pallasbulk_822_2_alg».proof.Proof.Gen.KernelIdeal.Points
import proofs.«182102_g2000302601656725_pallasbulk_822_2_alg».proof.Proof.KR1Body
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

def out1_3 (s : Vec F S64x512 .f32) (x2 : Vec F S3x512 .f32) : Vec F S64x512 .bf16 :=
  View.canon [⟨r1_3, body1 s x2⟩]

theorem zeros2' : (![0, 0] : Fin 2 → ℕ) = fun _ => 0 := by
  funext a; fin_cases a <;> rfl

theorem cover1_3 {e : EltTy} (p0 : Vec F S64x512 e) (L : List (View.Piece (Elt F) S64x512 e)) (y : S64x512.Idx) :
    ∃ pc ∈ ((⟨r1_3, p0⟩ : View.Piece (Elt F) S64x512 e) :: L), y ∈ pc.1.set :=
  ⟨_, List.mem_cons_self, View.mem_set_unit_zero zeros2' inb_S64x512_S64x512_0_0 y⟩

section Kernel

variable (c : Dev nD) (E : Set ℕ) (i : grid1.Coords) (arg2 : Memref sig .tc .vmem S64x4096 .bf16) (harg2 : arg2.IsWhole) (arg3 : Memref sig .tc .vmem S4096x512 .bf16) (harg3 : arg3.IsWhole)
    (arg4 : Memref sig .tc .vmem S3x512 .f32) (harg4 : arg4.IsWhole) (arg5 : Memref sig .tc .vmem S64x512 .bf16) (harg5 : arg5.IsWhole)
    (arg6 : Memref sig .tc .vmem S64x512 .f32) (harg6 : arg6.IsWhole)

set_option maxHeartbeats 4000000 in
theorem sound_kernel1_A (hc0 : cond1_0 i) (hc1 : ¬cond1_1 i) (x0 : Vec F S64x4096 .bf16) (x1 : Vec F S4096x512 .bf16) (K : PUnit → sProp 𝕄) :
    iprop(owns c arg2 fullShare x0 ∗ owns c arg3 fullShare x1 ∗ (∃ d, owns c arg6 fullShare d)
        ∗ (iprop(owns c arg2 fullShare x0 ∗ owns c arg3 fullShare x1
            ∗ owns c arg6 fullShare (step1 zero1 x0 x1)) -∗ K ⟨⟩))
      ⊢ wp frame (wpE (defs₀ (F := F)) Variants.none c none) E (cc1__fc5_kernel i arg2 harg2 arg3 harg3 arg4 harg4 arg5 harg5 arg6 harg6) K := by
  simp only [cc1__fc5_kernel_eq_skeleton]; unfold cc1__fc5_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]; · iexists f0; iframe; ipureintro; rfl
  isplitl [H1]; · iexists f1; iframe; ipureintro; rfl
  iexists _; iframe; ipureintro
  unfold sound_kernel1_A.sl.v3 sound_kernel1_A.sl.H6_1
  rw [View.read_writes_eq_canon _ _ _ (cover1_3 _ _), View.canon_cons_unit_zero zeros2', View.readCov_unit_zero _ zeros2']
  unfold step1 zero1
  rw [View.ld_unit_zero (Val := Elt F) (e := .f32) zeros2' inb_S64x512_S64x512_0_0 k1_pay1]
  rfl

set_option maxHeartbeats 4000000 in
theorem sound_kernel1_B (hc0 : ¬cond1_0 i) (hc1 : ¬cond1_1 i) (x0 : Vec F S64x4096 .bf16) (x1 : Vec F S4096x512 .bf16) (s : Vec F S64x512 .f32) (K : PUnit → sProp 𝕄) :
    iprop(owns c arg2 fullShare x0 ∗ owns c arg3 fullShare x1 ∗ owns c arg6 fullShare s
        ∗ (iprop(owns c arg2 fullShare x0 ∗ owns c arg3 fullShare x1
            ∗ owns c arg6 fullShare (step1 s x0 x1)) -∗ K ⟨⟩))
      ⊢ wp frame (wpE (defs₀ (F := F)) Variants.none c none) E (cc1__fc5_kernel i arg2 harg2 arg3 harg3 arg4 harg4 arg5 harg5 arg6 harg6) K := by
  simp only [cc1__fc5_kernel_eq_skeleton]; unfold cc1__fc5_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]; · iexists f0; iframe; ipureintro; rfl
  isplitl [H1]; · iexists f1; iframe; ipureintro; rfl
  iexists _; iframe; ipureintro
  rw [View.read_writes_eq_canon _ _ _ (cover1_3 _ _), View.canon_cons_unit_zero zeros2']
  rfl

set_option maxHeartbeats 4000000 in
theorem sound_kernel1_C (hc0 : ¬cond1_0 i) (hc1 : cond1_1 i) (x0 : Vec F S64x4096 .bf16) (x1 : Vec F S4096x512 .bf16) (x2 : Vec F S3x512 .f32)
    (s : Vec F S64x512 .f32) (K : PUnit → sProp 𝕄) :
    iprop(owns c arg2 fullShare x0 ∗ owns c arg3 fullShare x1 ∗ owns c arg4 fullShare x2
        ∗ (∃ d, owns c arg5 fullShare d) ∗ owns c arg6 fullShare s
        ∗ (iprop(owns c arg2 fullShare x0 ∗ owns c arg3 fullShare x1 ∗ owns c arg4 fullShare x2
            ∗ owns c arg5 fullShare (out1_3 (step1 s x0 x1) x2)
            ∗ owns c arg6 fullShare (step1 s x0 x1)) -∗ K ⟨⟩))
      ⊢ wp frame (wpE (defs₀ (F := F)) Variants.none c none) E (cc1__fc5_kernel i arg2 harg2 arg3 harg3 arg4 harg4 arg5 harg5 arg6 harg6) K := by
  simp only [cc1__fc5_kernel_eq_skeleton]; unfold cc1__fc5_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]; · iexists f0; iframe; ipureintro; rfl
  isplitl [H1]; · iexists f1; iframe; ipureintro; rfl
  isplitl [H2]; · iexists f2; iframe; ipureintro; rfl
  isplitl [H5]
  · iexists _; isplitr
    swap; · iexact H5
    ipureintro
    unfold sound_kernel1_C.sl.v15 sound_kernel1_C.sl.H6_1
    rw [View.read_writes_eq_canon _ _ _ (cover1_3 _ _), View.readCov_unit_zero (S := S64x512) _ zeros2']
    unfold out1_3 body1
    rw [View.ld_unit_zero (Val := Elt F) (e := .f32) zeros2' inb_S64x512_S64x512_0_0 (step1 _ _ _)]
    rfl
  iexists _; iframe; ipureintro
  unfold sound_kernel1_C.sl.H6_1
  rw [View.read_writes_eq_canon _ _ _ (cover1_3 _ _), View.canon_cons_unit_zero zeros2']
  rfl

end Kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def scr1 (c : Dev nD) : (n : ℕ) → n < cfg1.N → Vec F S64x512 .f32
  | 0, hn => step1 zero1 (iblk1 V c 0 ⟨0, hn⟩) (iblk1 V c 1 ⟨0, hn⟩)
  | n + 1, hn =>
    if (n + 1) % 8 = 0 then step1 zero1 (iblk1 V c 0 ⟨n + 1, hn⟩) (iblk1 V c 1 ⟨n + 1, hn⟩)
    else step1 (scr1 c n (Nat.lt_of_succ_lt hn)) (iblk1 V c 0 ⟨n + 1, hn⟩) (iblk1 V c 1 ⟨n + 1, hn⟩)

theorem scr1_first (c : Dev nD) (t : Fin cfg1.N) (h : t.val % 8 = 0) :
    scr1 V c t.val t.isLt = step1 zero1 (iblk1 V c 0 t) (iblk1 V c 1 t) := by
  obtain ⟨n, hn⟩ := t
  cases n with
  | zero => rfl
  | succ n => exact if_pos h

theorem scr1_next (c : Dev nD) (t : Fin cfg1.N) (h : ¬t.val % 8 = 0) :
    scr1 V c t.val t.isLt = step1 (scr1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

abbrev scM1 : Memref sig .tc .vmem S64x512 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(iprop((∃ d, owns c scM1 fullShare d) ∗ rest1 c) ∗ (∃ r, prngReg c r)) := by
  unfold Pipeline.ΦA; rw [Pipeline.scopedRest_split_of_list spec1 c [cc1_scratch0] (by decide) (by decide)]; simp only [scM1, owns_whole]; rfl

def PhiS (c : Dev nD) : (n : ℕ) → n ≤ cfg1.N → sProp 𝕄
  | 0, _ => Pipeline.ΦA spec1 c
  | n + 1, hn => iprop(iprop(owns c scM1 fullShare (scr1 V c n hn) ∗ rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns c scM1 fullShare (scr1 V c n hn) ∗ rest1 c) ∗ (∃ r, prngReg c r)) := rfl

theorem PhiS_pos (c : Dev nD) (n : ℕ) (h : n ≤ cfg1.N) (hz : n ≠ 0) :
    PhiS V c n h = iprop(iprop(owns c scM1 fullShare (scr1 V c (n - 1) (by omega)) ∗ rest1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (scr1 V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_3 (c : Dev nD) (t : Fin cfg1.N) : (dat1 V c).after 3 t = out1_3 (scr1 V c t.val t.isLt) (iblk1 V c 2 t) := by dsimp only [dat1]

theorem before1 (c : Dev nD) (t : Fin cfg1.N) :
    (∀ d, (dat1 V c).before 0 t d = iblk1 V c 0 t) ∧ (∀ d, (dat1 V c).before 1 t d = iblk1 V c 1 t) ∧ ∀ d, (dat1 V c).before 2 t d = iblk1 V c 2 t := by
  refine ⟨?_, ?_, ?_⟩ <;> exact (dat1 V c).before_in_eq_fetched _ rfl (fun _ => rfl) (fun _ _ _ => rfl) (fun _ => rfl) t

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1 V c t]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns c (st1_0 t) fullShare (iblk1 V c 0 t) from rfl,
    show (dat1 V c).leavesExact 1 t = owns c (st1_1 t) fullShare (iblk1 V c 1 t) from rfl,
    show (dat1 V c).leavesExact 2 t = owns c (st1_2 t) fullShare (iblk1 V c 2 t) from rfl]
  have hN : t.val < 16 := lt_of_lt_of_eq t.isLt (show cfg1.N = 16 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [scr1_first V c t h0]
    by_cases hz : t.val = 0
    · rw [PhiS_castSucc V c t, PhiS_zero V c _ _ hz, PhiA1_eq]
      iintro ⟨⟨⟨HS, Hr⟩, Hg⟩, Ho, ⟨%d0, H0⟩, ⟨%d1, H1⟩, ⟨%d2, H2⟩, H3⟩
      iapply (sound_kernel1_A c Set.univ _ (st1_0 t) _ (st1_1 t) _ _ _ _ _ scM1 _ hc0 hc1 _ _ _)
      iframe H0 H1 HS
      iintro ⟨H0, H1, HS⟩
      iframe
    · rw [PhiS_castSucc V c t, PhiS_pos V c _ _ hz]
      iintro ⟨⟨⟨HS, Hr⟩, Hg⟩, Ho, ⟨%d0, H0⟩, ⟨%d1, H1⟩, ⟨%d2, H2⟩, H3⟩
      iapply (sound_kernel1_A c Set.univ _ (st1_0 t) _ (st1_1 t) _ _ _ _ _ scM1 _ hc0 hc1 _ _ _)
      iframe H0 H1
      isplitl [HS]; · iexists _; iexact HS
      iintro ⟨H0, H1, HS⟩
      iframe
  · have hz : t.val ≠ 0 := fun h => h0 (by rw [h])
    have hc0 : ¬cond1_0 (grid1.coords t) := fun h => h0 ((hcond1_0 t).mp h)
    rw [scr1_next V c t h0]
    rw [PhiS_castSucc V c t, PhiS_pos V c _ _ hz]
    by_cases h1 : t.val % 8 = 7
    · have hc1 : cond1_1 (grid1.coords t) := (hcond1_1 t).mpr h1
      rw [show (dat1 V c).leavesExact 3 t = owns c (st1_3 t) fullShare ((dat1 V c).after 3 t) from by
        unfold Dat.leavesExact; rw [liveAt1_3 t hc1], after1_3, scr1_next V c t h0]
      iintro ⟨⟨⟨HS, Hr⟩, Hg⟩, Ho, ⟨%d0, H0⟩, ⟨%d1, H1⟩, ⟨%d2, H2⟩, ⟨%d3, H3⟩⟩
      iapply (sound_kernel1_C c Set.univ _ (st1_0 t) _ (st1_1 t) _ (st1_2 t) _ (st1_3 t) _ scM1 _ hc0 hc1 _ _ _ _ _)
      iframe H0 H1 H2 HS
      isplitl [H3]; · iexists _; iexact H3
      iintro ⟨H0, H1, H2, H3, HS⟩
      iframe
    · have hc1 : ¬cond1_1 (grid1.coords t) := fun h => h1 ((hcond1_1 t).mp h)
      rw [Dat.leavesExact_idle (dat1 V c) 3 t (idleAt1_3 t hc1) (noFlush1_3 t hc1)]
      iintro ⟨⟨⟨HS, Hr⟩, Hg⟩, Ho, ⟨%d0, H0⟩, ⟨%d1, H1⟩, ⟨%d2, H2⟩, H3⟩
      iapply (sound_kernel1_B c Set.univ _ (st1_0 t) _ (st1_1 t) _ _ _ _ _ scM1 _ hc0 hc1 _ _ _ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ (Pipeline.ΦA spec1 c : sProp 𝕄) := by
  rw [show (dat1 V c).Φ t = PhiS V c t.val (Nat.le_of_lt_succ t.isLt) from rfl, PhiS_pos V c _ _ ht, PhiA1_eq]
  iintro ⟨⟨HS, Hr⟩, Hg⟩
  isplitl [HS Hr]
  · isplitl [HS]
    · iexists _; iexact HS
    iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 16 := N_1; omega)

end Cert.KernelIdeal.Hand

end
-- ==== Proof.KR2Body.lean ====
import proofs.«182102_g2000302601656725_pallasbulk_822_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

abbrev r2_0 : Rect S64x1024 := .unit _ _ inb_S64x1024_S64x1024_0_0
abbrev r2_1 : Rect S2048x256 := .unit _ _ inb_S2048x256_S1024x256_0_0
abbrev r2_2 : Rect S2048x256 := .unit _ _ inb_S2048x256_S1024x256_1024_0
abbrev r2_3 : Rect S1x256 := .unit _ _ inb_S1x256_S1x256_0_0
abbrev r2_4 : Rect S256x2 := .unit _ _ inb_S256x2_S256x2_0_0
abbrev r2_5 : Rect S1x2 := .unit _ _ inb_S1x2_S1x2_0_0
abbrev r2_6 : Rect S32x2 := .unit _ _ inb_S32x2_S32x2_0_0

def body2 (x0 : Vec F S64x1024 .bf16) (x1 : Vec F S2048x256 .bf16) (x2 : Vec F S1x256 .f32) (x3 : Vec F S256x2 .bf16)
    (x4 : Vec F S1x2 .f32) : FVec F S32x2 .f32 :=
  k2_pay1 (View.ld x0 r2_0) (View.ld x1 r2_1) (View.ld x1 r2_2) (View.ld x2 r2_3) (View.ld x3 r2_4) (View.ld x4 r2_5)

end Cert.KernelIdeal.Hand

end
-- ==== Proof.KR2Frame.lean ====
import proofs.«182102_g2000302601656725_pallasbulk_822_2_alg».proof.Proof.Gen.KernelIdeal.Launch
import proofs.«182102_g2000302601656725_pallasbulk_822_2_alg».proof.Proof.Gen.KernelIdeal.Skeleton
import proofs.«182102_g2000302601656725_pallasbulk_822_2_alg».proof.Proof.Gen.KernelIdeal.Points
import proofs.«182102_g2000302601656725_pallasbulk_822_2_alg».proof.Proof.KR2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«182102_g2000302601656725_pallasbulk_822_2_alg».proof.Proof.LibFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibFrame

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 : Vec F S64x1024 .bf16) (x1 : Vec F S2048x256 .bf16) (x2 : Vec F S1x256 .f32) (x3 : Vec F S256x2 .bf16) (x4 : Vec F S1x2 .f32) : Vec F S32x2 .f32 :=
  View.canon [⟨r2_6, body2 x0 x1 x2 x3 x4⟩]

set_option maxHeartbeats 4000000 in
theorem sound_kernel2 (c : Dev nD) (E : Set ℕ) (i : grid2.Coords)
    (arg1 : Memref sig .tc .vmem S64x1024 .bf16) (harg1 : arg1.IsWhole) (arg2 : Memref sig .tc .vmem S2048x256 .bf16) (harg2 : arg2.IsWhole)
    (arg3 : Memref sig .tc .vmem S1x256 .f32) (harg3 : arg3.IsWhole) (arg4 : Memref sig .tc .vmem S256x2 .bf16) (harg4 : arg4.IsWhole)
    (arg5 : Memref sig .tc .vmem S1x2 .f32) (harg5 : arg5.IsWhole) (arg6 : Memref sig .tc .vmem S32x2 .f32) (harg6 : arg6.IsWhole)
    (x0 : Vec F S64x1024 .bf16) (x1 : Vec F S2048x256 .bf16) (x2 : Vec F S1x256 .f32) (x3 : Vec F S256x2 .bf16) (x4 : Vec F S1x2 .f32) (K : PUnit → sProp 𝕄) :
    iprop(owns c arg1 fullShare x0 ∗ owns c arg2 fullShare x1 ∗ owns c arg3 fullShare x2
        ∗ owns c arg4 fullShare x3 ∗ owns c arg5 fullShare x4 ∗ (∃ d, owns c arg6 fullShare d)
        ∗ (iprop(owns c arg1 fullShare x0 ∗ owns c arg2 fullShare x1 ∗ owns c arg3 fullShare x2
            ∗ owns c arg4 fullShare x3 ∗ owns c arg5 fullShare x4
            ∗ owns c arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  iexists _; iframe; ipureintro
  exact View.read_writes_eq_canon _ _ _ (View.cover_of_tiled _ S32x2.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem after2_5 (c : Dev nD) (t : Fin cfg2.N) : (dat2 V c).after 5 t = out2_5 (iblk2 V c 0 t) (iblk2 V c 1 t) (iblk2 V c 2 t) (iblk2 V c 3 t) (iblk2 V c 4 t) := rfl

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ ∀ d, (dat2 V c).before 4 t d = iblk2 V c 4 t := by
  refine ⟨?_, ?_, ?_, ?_, ?_⟩ <;> exact (dat2 V c).before_in_eq_fetched _ rfl (fun _ => rfl) (fun _ _ _ => rfl) (fun _ => rfl) t

theorem body_obligation2 (c : Dev nD) : BodyObligation (dat2 (F := F) V c) (defs₀ (F := F)) Variants.none () Set.univ := fun t => by
  rw [bigSep_W2, bigSep_W2]; simp only [before2 V c t]; dsimp only [dat2]
  refine wp_pass (p := bodyAt2 t) fun K => ?_
  iintro ⟨⟨⟨%_, H0⟩, ⟨%_, H1⟩, ⟨%_, H2⟩, ⟨%_, H3⟩, ⟨%_, H4⟩, %_, H5⟩, Hk⟩
  iapply (sound_kernel2 c Set.univ _ _ _ _ _ _ _ _ _ _ _ _ _ _ _ _ _ _ K)
  iframe H0 H1 H2 H3 H4 Hk
  iexists _; iexact H5

end Cert.KernelIdeal.Hand

end
-- ==== Proof.KRun.lean ====
import proofs.«182102_g2000302601656725_pallasbulk_822_2_alg».proof.Proof.Gen.KernelIdeal.Regions
import proofs.«182102_g2000302601656725_pallasbulk_822_2_alg».proof.Proof.KR0Frame
import proofs.«182102_g2000302601656725_pallasbulk_822_2_alg».proof.Proof.KR1Frame
import proofs.«182102_g2000302601656725_pallasbulk_822_2_alg».proof.Proof.KR2Frame
import proofs.«182102_g2000302601656725_pallasbulk_822_2_alg».proof.Proof.LibRegion

noncomputable section

namespace Cert.KernelIdeal.Hand

open Cert.KernelIdeal Cert.KernelIdeal.Gen Cert.LibRegion
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat Seg)

variable {F : FTy → Type} [FloatOps F]

variable (m : (ℓ : Loc nD τ sig) → Buf (Elt F) ℓ)

abbrev entry0 : (c : Dev nD) → (b : Ref sig .tc) → Buf (Elt F) ((c : Thread nD τ).loc b) := fun c b => V5 m c b
def res0 (c : Dev nD) : Buf (Elt F) ((c : Thread nD τ).loc main_v9) := (dat0 (entry0 m) c).arrAt 9 cfg0.N
def mid6 (c : Dev nD) : Valuation τ sig (Elt F) := Function.update (V5 m c) main_v9 (res0 m c)
def mid7 (c : Dev nD) : Valuation τ sig (Elt F) := StableHlo.after hostOps1 (mid6 m c)
abbrev entry1 : (c : Dev nD) → (b : Ref sig .tc) → Buf (Elt F) ((c : Thread nD τ).loc b) := fun c b => mid7 m c b
def res1 (c : Dev nD) : Buf (Elt F) ((c : Thread nD τ).loc main_v11) := (dat1 (entry1 m) c).arrAt 3 cfg1.N
def mid8 (c : Dev nD) : Valuation τ sig (Elt F) := Function.update (mid7 m c) main_v11 (res1 m c)
abbrev entry2 : (c : Dev nD) → (b : Ref sig .tc) → Buf (Elt F) ((c : Thread nD τ).loc b) := fun c b => mid8 m c b
def res2 (c : Dev nD) : Buf (Elt F) ((c : Thread nD τ).loc main_v12) := (dat2 (entry2 m) c).arrAt 5 cfg2.N
def mid9 (c : Dev nD) : Valuation τ sig (Elt F) := Function.update (mid8 m c) main_v12 (res2 m c)

/-- What each region leaves, indexed by the item after it. -/
def outs : Outs (F := F) := fun J r c => if J = 6 then mid6 m c r else if J = 8 then mid8 m c r else mid9 m c r

theorem outs_6 (c : Dev nD) : outs m 6 main_v9 c = res0 m c := by
  unfold outs mid6; rw [if_pos rfl]; exact Function.update_self ..

theorem V6_outs (c : Dev nD) : V6 m (outs m) c = mid6 m c := update_self_congr (Eq.refl (V5 m c)) main_v9 (res0 m c)
theorem V7_outs (c : Dev nD) : V7 m (outs m) c = mid7 m c := congrArg (StableHlo.after hostOps1) (V6_outs m c)
theorem V8_outs (c : Dev nD) : V8 m (outs m) c = mid8 m c := update_self_congr (V7_outs m c) main_v11 (res1 m c)
theorem V9_outs (c : Dev nD) : V9 m (outs m) c = mid9 m c := update_self_congr (V8_outs m c) main_v12 (res2 m c)

def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

abbrev Lz : GSem nD τ sig → Finset Unit := fun _ => ∅
abbrev lvz : GSem nD τ sig → Unit → ℕ := fun _ _ => 0

set_option backward.isDefEq.respectTransparency.types false in
/-- The program's run: it terminates, the result buffer ends at what the last region leaves, the arguments as launched. -/
theorem run (ρ : Dev nD → PrngReg) : θ_run defs (onTc (τ := τ) (main (F := F))) ⟨m, fun _ => 0, ρ⟩ (fun r => ∀ c : Dev nD,
      r.2.mem ((c.tc : Thread nD τ).loc main_v12) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (pdats m) () cellOf_inj emb₁ defs₀ Variants.none Lz lvz m ρ main
    (segs m (outs m) Variants.none Lz lvz (fun _ c => Rest c) () (pdats m)
      (regOf pcfgs adm (pdats m) defs₀ Lz lvz 0 launch0 (V5 m) 9 (show ∀ w : Fin cfg0.W, w ≠ 9 → (cfg0.win w).isOut = false by decide)
        (body_obligation0 (entry0 m)) (A_eq0 (entry0 m)))
      (regOf pcfgs adm (pdats m) defs₀ Lz lvz 1 launch1 (mid7 m) 3 (show ∀ w : Fin cfg1.W, w ≠ 3 → (cfg1.win w).isOut = false by decide)
        (body_obligation1 (entry1 m)) (A_eq1 (entry1 m)) (hin1 (entry1 m)) (hout1 (entry1 m)))
      (regOf pcfgs adm (pdats m) defs₀ Lz lvz 2 launch2 (mid8 m) 5 (show ∀ w : Fin cfg2.W, w ≠ 5 → (cfg2.win w).isOut = false by decide)
        (body_obligation2 (entry2 m)) (A_eq2 (entry2 m))))
    (fun c Q => by rewrite [main_chain c, Seg.run_eq_chain]; exact .rfl)
    (fun c => by simp only [segs, Seg.pipes_host, Seg.pipes_region, Seg.pipes_nil]; decide)
    0 (fun _ _ => rfl) (fun _ => iprop(emp)) _ (launch_own _)
    (hch := fun c => ⟨.rfl, .rfl, .rfl, .rfl, .rfl, .rfl, held_congr (V6_outs m c).symm c _, held_congr (V7_outs m c) c _, .rfl,
      (held_congr (V9_outs m c).symm c _).trans (sep_mono .rfl (by iintro ⟨-, H⟩; iexact H))⟩)
    (hinit := launch Lz lvz m ρ) (hfin := fun c s' => ?_) (hQ := fun _ h => h)
  exact held_read c _ s' _ fun h => ⟨(h main_v12 (by decide)).trans ((congrFun (V9_outs m c) _).trans (by unfold mid9; exact Function.update_self ..)),
    (h main_arg0 (by decide)).trans (V9_main_arg0 m _ c),
    (h main_arg1 (by decide)).trans (V9_main_arg1 m _ c),
    (h main_arg2 (by decide)).trans (V9_main_arg2 m _ c),
    (h main_arg3 (by decide)).trans (V9_main_arg3 m _ c),
    (h main_arg4 (by decide)).trans (V9_main_arg4 m _ c),
    (h main_arg5 (by decide)).trans (V9_main_arg5 m _ c),
    (h main_arg6 (by decide)).trans (V9_main_arg6 m _ c),
    (h main_arg7 (by decide)).trans (V9_main_arg7 m _ c),
    (h main_arg8 (by decide)).trans (V9_main_arg8 m _ c),
    (h main_arg9 (by decide)).trans (V9_main_arg9 m _ c),
    (h main_arg10 (by decide)).trans (V9_main_arg10 m _ c),
    (h main_arg11 (by decide)).trans (V9_main_arg11 m _ c),
    (h main_arg12 (by decide)).trans (V9_main_arg12 m _ c),
    (h main_arg13 (by decide)).trans (V9_main_arg13 m _ c),
    (h main_arg14 (by decide)).trans (V9_main_arg14 m _ c)⟩

end Cert.KernelIdeal.Hand
end
-- ==== Proof.Spec.lean ====
import Idealize.ShloMosaic.Lib.ValueIdx
import Idealize.ShloMosaic.PureOps.Ideal

noncomputable section

open scoped BigOperators

namespace Cert.Spec

open Idealize.ShloMosaic Idealize.ShloMosaic.ValueIdx

-- The network's fifteen input and parameter arrays.
structure Args where
  x   : FVec Ideal ⟨4, ![32, 6, 64, 64]⟩ .f32
  w1  : FVec Ideal ⟨3, ![25, 3, 128]⟩ .bf16
  b1  : FVec Ideal ⟨2, ![3, 128]⟩ .f32
  w2  : FVec Ideal ⟨3, ![25, 128, 128]⟩ .bf16
  b2  : FVec Ideal ⟨2, ![3, 128]⟩ .f32
  w3  : FVec Ideal ⟨3, ![9, 128, 256]⟩ .bf16
  b3  : FVec Ideal ⟨2, ![3, 256]⟩ .f32
  w4  : FVec Ideal ⟨3, ![9, 256, 512]⟩ .bf16
  b4  : FVec Ideal ⟨2, ![3, 512]⟩ .f32
  w5  : FVec Ideal ⟨2, ![32768, 1024]⟩ .bf16
  b5  : FVec Ideal ⟨2, ![3, 1024]⟩ .f32
  wf1 : FVec Ideal ⟨2, ![2048, 256]⟩ .bf16
  bf1 : FVec Ideal ⟨2, ![1, 256]⟩ .f32
  wf2 : FVec Ideal ⟨2, ![256, 2]⟩ .bf16
  bf2 : FVec Ideal ⟨2, ![1, 2]⟩ .f32

-- `y` with `k` zero rows and columns added on every side.
def padz (k : ℕ) {H W C Hp Wp : ℕ} (y : Fin H → Fin W → Fin C → EReal) : Fin Hp → Fin Wp → Fin C → EReal :=
  fun r s c =>
    if h : k ≤ r.val ∧ r.val < H + k ∧ k ≤ s.val ∧ s.val < W + k then
      y ⟨r.val - k, by omega⟩ ⟨s.val - k, by omega⟩ c
    else 0

-- A 5 x 5 convolution: tap (i, j) uses weight matrix `i * 5 + j`.
def conv5 {H W Hp Wp Cin Cout : ℕ} (hH : H + 4 ≤ Hp) (hW : W + 4 ≤ Wp)
    (p : Fin Hp → Fin Wp → Fin Cin → EReal) (wt : Fin 25 → Fin Cin → Fin Cout → EReal) :
    Fin H → Fin W → Fin Cout → EReal :=
  fun h w o => ∑ i : Fin 5, ∑ j : Fin 5, ∑ c : Fin Cin,
    p ⟨h.val + i.val, by omega⟩ ⟨w.val + j.val, by omega⟩ c
      * wt ⟨i.val * 5 + j.val, by omega⟩ c o

-- A 3 x 3 convolution: tap (i, j) uses weight matrix `i * 3 + j`.
def conv3 {H W Hp Wp Cin Cout : ℕ} (hH : H + 2 ≤ Hp) (hW : W + 2 ≤ Wp)
    (p : Fin Hp → Fin Wp → Fin Cin → EReal) (wt : Fin 9 → Fin Cin → Fin Cout → EReal) :
    Fin H → Fin W → Fin Cout → EReal :=
  fun h w o => ∑ i : Fin 3, ∑ j : Fin 3, ∑ c : Fin Cin,
    p ⟨h.val + i.val, by omega⟩ ⟨w.val + j.val, by omega⟩ c
      * wt ⟨i.val * 3 + j.val, by omega⟩ c o

-- Bias, clamp at zero, then an affine map per channel.
def affA {C : ℕ} (b : Fin 3 → Fin C → EReal) (y : EReal) (o : Fin C) : EReal := max (y + b 0 o) 0 * b 1 o + b 2 o

-- Bias, an affine map per channel, then clamp at zero.
def affB {C : ℕ} (b : Fin 3 → Fin C → EReal) (y : EReal) (o : Fin C) : EReal := max ((y + b 0 o) * b 1 o + b 2 o) 0

-- The maximum over each 2 x 2 square.
def pool {H W H2 W2 C : ℕ} (hH : 2 * H ≤ H2) (hW : 2 * W ≤ W2) (y : Fin H2 → Fin W2 → Fin C → EReal) :
    Fin H → Fin W → Fin C → EReal :=
  fun h w o =>
    max (max (y ⟨2 * h.val, by omega⟩ ⟨2 * w.val, by omega⟩ o)
             (y ⟨2 * h.val + 1, by omega⟩ ⟨2 * w.val, by omega⟩ o))
        (max (y ⟨2 * h.val, by omega⟩ ⟨2 * w.val + 1, by omega⟩ o)
             (y ⟨2 * h.val + 1, by omega⟩ ⟨2 * w.val + 1, by omega⟩ o))

abbrev a2 {n0 n1 : ℕ} (A : (⟨2, ![n0, n1]⟩ : Shape).Idx → EReal) : Fin n0 → Fin n1 → EReal := fun i j => A (ix2 i j)
abbrev a3 {n0 n1 n2 : ℕ} (A : (⟨3, ![n0, n1, n2]⟩ : Shape).Idx → EReal) : Fin n0 → Fin n1 → Fin n2 → EReal :=
  fun i j k => A (ix3 i j k)

variable (a : Args)

-- The 64 three-channel images: image `n` is channels `3 (n / 32)` onward of input `n mod 32`.
def X (n : Fin 64) : Fin 64 → Fin 64 → Fin 3 → EReal :=
  fun h w c => a.x (ix4 ⟨n.val % 32, by omega⟩ ⟨c.val + 3 * (n.val / 32), by omega⟩ h w)

def C1 (n : Fin 64) : Fin 64 → Fin 64 → Fin 128 → EReal :=
  fun h w o => affA (a2 a.b1) (conv5 (Hp := 68) (Wp := 68) (by norm_num) (by norm_num) (padz 2 (X a n)) (a3 a.w1) h w o) o
def P1 (n : Fin 64) : Fin 32 → Fin 32 → Fin 128 → EReal := pool (by norm_num) (by norm_num) (C1 a n)
def C2 (n : Fin 64) : Fin 32 → Fin 32 → Fin 128 → EReal :=
  fun h w o => affA (a2 a.b2) (conv5 (Hp := 36) (Wp := 36) (by norm_num) (by norm_num) (padz 2 (P1 a n)) (a3 a.w2) h w o) o
def P2 (n : Fin 64) : Fin 16 → Fin 16 → Fin 128 → EReal := pool (by norm_num) (by norm_num) (C2 a n)
def C3 (n : Fin 64) : Fin 16 → Fin 16 → Fin 256 → EReal :=
  fun h w o => affA (a2 a.b3) (conv3 (Hp := 18) (Wp := 18) (by norm_num) (by norm_num) (padz 1 (P2 a n)) (a3 a.w3) h w o) o
def P3 (n : Fin 64) : Fin 8 → Fin 8 → Fin 256 → EReal := pool (by norm_num) (by norm_num) (C3 a n)
def C4 (n : Fin 64) : Fin 8 → Fin 8 → Fin 512 → EReal :=
  fun h w o => affB (a2 a.b4) (conv3 (Hp := 10) (Wp := 10) (by norm_num) (by norm_num) (padz 1 (P3 a n)) (a3 a.w4) h w o) o

-- Image `n`'s last feature map as one row, pixel-major, then channel.
def flat (n : Fin 64) (q : Fin 32768) : EReal :=
  C4 a n ⟨q.val / 4096, by omega⟩ ⟨q.val / 512 % 8, by omega⟩ ⟨q.val % 512, by omega⟩

-- The wide layer's dot product, split in eight chunks of 4096 terms.
def acc5 (n : Fin 64) (u : Fin 1024) : EReal :=
  ∑ j : Fin 8, ∑ k : Fin 4096,
    flat a n ⟨j.val * 4096 + k.val, by omega⟩
      * a.w5 (ix2 ⟨j.val * 4096 + k.val, by omega⟩ u)

def fv (n : Fin 64) (u : Fin 1024) : EReal := affA (a2 a.b5) (acc5 a n u) u

-- The hidden layer of the head, fed by the features of images `r` and `r + 32`.
def hid (r : Fin 32) (t : Fin 256) : EReal :=
  max ((∑ u : Fin 1024, fv a ⟨r.val, by omega⟩ u * a.wf1 (ix2 ⟨u.val, by omega⟩ t))
        + (∑ u : Fin 1024, fv a ⟨r.val + 32, by omega⟩ u * a.wf1 (ix2 ⟨u.val + 1024, by omega⟩ t))
        + a.bf1 (ix2 0 t)) 0

def out (r : Fin 32) (v : Fin 2) : EReal := (∑ t : Fin 256, hid a r t * a.wf2 (ix2 t v)) + a.bf2 (ix2 0 v)

end Cert.Spec

end
-- ==== Proof.KHostVal.lean ====
import proofs.«182102_g2000302601656725_pallasbulk_822_2_alg».proof.Proof.Gen.KernelIdeal.Regions
import proofs.«182102_g2000302601656725_pallasbulk_822_2_alg».proof.Proof.Spec
import Idealize.ShloMosaic.Lib.Pipeline.Value
import Idealize.ShloMosaic.Lib.KernelVsHost
import Idealize.ShloMosaic.Lib.ValueIdx

set_option maxRecDepth 16384

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ) (outs : Outs (F := Ideal))

def imgPad (x : FVec Ideal S32x6x64x64 .f32) : FVec Ideal S64x68x68x4 .bf16 :=
  pad S64x68x68x4 ![0, 2, 2, 0] ![0, 2, 2, 1] ![0, 0, 0, 0]
    (truncf (F := Ideal) .bf16 (transpose S64x64x64x3 [0, 2, 3, 1]
      (concatenate S64x3x64x64 0
        [⟨S32x3x64x64, extractStridedSlice S32x3x64x64 ![0, 0, 0, 0] x slices_S32x6x64x64_S32x3x64x64_0_0_0_0⟩,
         ⟨S32x3x64x64, extractStridedSlice S32x3x64x64 ![0, 3, 0, 0] x slices_S32x6x64x64_S32x3x64x64_0_3_0_0⟩]
        concatenates_S32x3x64x64_S32x3x64x64_S64x3x64x64_d0)
      transposes_S64x3x64x64_S64x64x64x3_0_2_3_1) bitsLt_bf16_f32)
    (sitofp (F := Ideal) .bf16 (constantI S_ 32 0#32)) pads_S64x64x64x3_S64x68x68x4_000_220_220_010 h_S_

theorem padValue_zero : (sitofp (F := Ideal) .bf16 (constantI S_ 32 0#32)) (Shape.Idx.first h_S_) = (0 : EReal) :=
  sitofp_zero (φ := .bf16)

theorem V5_main_v5 (c : Dev nD) :
    (V5 m c main_v5 : S64x68x68x4.Idx → EReal) = imgPad (m ((c : Thread nD τ).loc main_arg0)) := by
  refine (V5_of m c main_v5 (by decide)).trans <| (V4_of m c main_v5 (by decide)).trans <| (V3_of m c main_v5 (by decide)).trans ?_
  show StableHlo.after hostOps0_1 (V1 m c) (Proc.devRef .tc main_v5) = _
  after_results
  rfl

/-- The padded array at an index: the specification's bordered image on the first three channels, zero on the fourth. -/
theorem imgPad_apply (a : Cert.Spec.Args) (n : Fin 64) (r s : Fin 68) (q : Fin 4) :
    imgPad a.x (ix4 n r s q) = if h : q.val < 3 then Cert.Spec.padz 2 (Cert.Spec.X a n) r s ⟨q.val, h⟩ else 0 := by
  unfold imgPad Cert.Spec.padz Cert.Spec.X
  by_cases hq : q.val < 3
  · rw [dif_pos hq]
    by_cases hb : 2 ≤ r.val ∧ r.val < 64 + 2 ∧ 2 ≤ s.val ∧ s.val < 64 + 2
    · rw [dif_pos hb]
      obtain ⟨hr1, hr2, hs1, hs2⟩ := hb
      refine (pad_apply_of_inside _ _ _ _ _ _ h_S_ (ix4 n r s q)
        (ix4 n (⟨r.val - 2, by omega⟩ : Fin 64) (⟨s.val - 2, by omega⟩ : Fin 64) (⟨q.val, hq⟩ : Fin 3)) (fun a => ?_)).trans ?_
      · match a with
        | ⟨0, _⟩ => show n.val = 0 + n.val * (0 + 1); omega
        | ⟨1, _⟩ => show r.val = 2 + (r.val - 2) * (0 + 1); omega
        | ⟨2, _⟩ => show s.val = 2 + (s.val - 2) * (0 + 1); omega
        | ⟨3, _⟩ => show q.val = 0 + q.val * (0 + 1); omega
      · refine (truncf_apply (ψ := .bf16) _ bitsLt_bf16_f32 _).trans ?_
        refine (transpose_apply _ _ _ _
          (ix4 n (⟨q.val, hq⟩ : Fin 3) (⟨r.val - 2, by omega⟩ : Fin 64) (⟨s.val - 2, by omega⟩ : Fin 64)) (fun b => ?_)).trans ?_
        · match b with | ⟨0, _⟩ | ⟨1, _⟩ | ⟨2, _⟩ | ⟨3, _⟩ => rfl
        · by_cases hn : n.val < 32
          · refine (concatenate_pair_apply_left (t := S64x3x64x64) (s₁ := S32x3x64x64) (s₂ := S32x3x64x64) 0 _ _ concatenates_S32x3x64x64_S32x3x64x64_S64x3x64x64_d0 _ rfl
              (ix4 (⟨n.val, hn⟩ : Fin 32) (⟨q.val, hq⟩ : Fin 3) (⟨r.val - 2, by omega⟩ : Fin 64) (⟨s.val - 2, by omega⟩ : Fin 64)) (fun b => ?_)).trans ?_
            · match b with | ⟨0, _⟩ | ⟨1, _⟩ | ⟨2, _⟩ | ⟨3, _⟩ => rfl
            · refine extractStridedSlice_apply _ _ _ _ _ (fun b => ?_)
              match b with
              | ⟨0, _⟩ => show n.val % 32 = 0 + n.val; omega
              | ⟨1, _⟩ => show q.val + 3 * (n.val / 32) = 0 + q.val; omega
              | ⟨2, _⟩ => show r.val - 2 = 0 + (r.val - 2); omega
              | ⟨3, _⟩ => show s.val - 2 = 0 + (s.val - 2); omega
          · have hn' : n.val < 64 := n.isLt
            refine (concatenate_pair_apply_right (t := S64x3x64x64) (s₁ := S32x3x64x64) (s₂ := S32x3x64x64) 0 _ _ concatenates_S32x3x64x64_S32x3x64x64_S64x3x64x64_d0 _ rfl rfl
              (ix4 (⟨n.val - 32, by omega⟩ : Fin 32) (⟨q.val, hq⟩ : Fin 3) (⟨r.val - 2, by omega⟩ : Fin 64) (⟨s.val - 2, by omega⟩ : Fin 64)) (fun b hb => ?_) ?_).trans ?_
            · match b with
              | ⟨0, _⟩ => exact absurd rfl hb
              | ⟨1, _⟩ | ⟨2, _⟩ | ⟨3, _⟩ => rfl
            · show n.val - 32 + 32 = n.val; omega
            · refine extractStridedSlice_apply _ _ _ _ _ (fun b => ?_)
              match b with
              | ⟨0, _⟩ => show n.val % 32 = 0 + (n.val - 32); omega
              | ⟨1, _⟩ => show q.val + 3 * (n.val / 32) = 3 + q.val; omega
              | ⟨2, _⟩ => show r.val - 2 = 0 + (r.val - 2); omega
              | ⟨3, _⟩ => show s.val - 2 = 0 + (s.val - 2); omega
    · rw [dif_neg hb]
      by_cases hr : 2 ≤ r.val ∧ r.val < 66
      · refine (pad_apply_of_not_inside _ _ _ _ _ _ h_S_ (ix4 n r s q) (⟨2, by decide⟩ : Fin 4) (fun hin => ?_)).trans padValue_zero
        have hin' : 2 ≤ s.val ∧ (s.val - 2) % (0 + 1) = 0 ∧ (s.val - 2) / (0 + 1) < 64 := hin
        omega
      · refine (pad_apply_of_not_inside _ _ _ _ _ _ h_S_ (ix4 n r s q) (⟨1, by decide⟩ : Fin 4) (fun hin => ?_)).trans padValue_zero
        have hin' : 2 ≤ r.val ∧ (r.val - 2) % (0 + 1) = 0 ∧ (r.val - 2) / (0 + 1) < 64 := hin
        omega
  · rw [dif_neg hq]
    refine (pad_apply_of_not_inside _ _ _ _ _ _ h_S_ (ix4 n r s q) (⟨3, by decide⟩ : Fin 4) (fun hin => ?_)).trans padValue_zero
    have hin' : 0 ≤ q.val ∧ (q.val - 0) % (0 + 1) = 0 ∧ (q.val - 0) / (0 + 1) < 3 := hin
    omega

def w1Pad (w : FVec Ideal S25x3x128 .bf16) : FVec Ideal S5x20x128 .bf16 :=
  shapeCast S5x20x128
    (pad S5x5x4x128 ![0, 0, 0, 0] ![0, 0, 1, 0] ![0, 0, 0, 0] (shapeCast S5x5x3x128 w shapeCasts_S25x3x128_S5x5x3x128)
      (sitofp (F := Ideal) .bf16 (constantI S_ 32 0#32)) pads_S5x5x3x128_S5x5x4x128_000_000_010_000 h_S_)
    shapeCasts_S5x5x4x128_S5x20x128

theorem V5_main_v8 (c : Dev nD) :
    (V5 m c main_v8 : S5x20x128.Idx → EReal) = w1Pad (m ((c : Thread nD τ).loc main_arg1)) := by
  show StableHlo.after hostOps0_4 (V4 m c) (Proc.devRef .tc main_v8) = _
  after_results
  rfl

theorem w1Pad_apply (w : FVec Ideal S25x3x128 .bf16) (i : Fin 5) (k : Fin 20) (o : Fin 128) :
    w1Pad w (ix3 i k o)
      = if h : k.val % 4 < 3 then
          w (ix3 ⟨i.val * 5 + k.val / 4, by have := i.isLt; have := k.isLt; omega⟩ ⟨k.val % 4, h⟩ o)
        else 0 := by
  unfold w1Pad
  have hi := i.isLt
  have hk := k.isLt
  refine (shapeCast_apply _ _ (ix3 i k o)
    (ix4 i (⟨k.val / 4, by omega⟩ : Fin 5) (⟨k.val % 4, by omega⟩ : Fin 4) o) ?_).trans ?_
  · rw [Shape.rowMajor_val_four, Shape.rowMajor_val_three]
    show ((i.val * 5 + k.val / 4) * 4 + k.val % 4) * 128 + o.val = (i.val * 20 + k.val) * 128 + o.val
    omega
  · by_cases h : k.val % 4 < 3
    · rw [dif_pos h]
      refine (pad_apply_of_inside _ _ _ _ _ _ h_S_ _
        (ix4 i (⟨k.val / 4, by omega⟩ : Fin 5) (⟨k.val % 4, h⟩ : Fin 3) o) (fun a => ?_)).trans ?_
      · match a with
        | ⟨0, _⟩ => show i.val = 0 + i.val * (0 + 1); omega
        | ⟨1, _⟩ => show k.val / 4 = 0 + k.val / 4 * (0 + 1); omega
        | ⟨2, _⟩ => show k.val % 4 = 0 + k.val % 4 * (0 + 1); omega
        | ⟨3, _⟩ => show o.val = 0 + o.val * (0 + 1); omega
      · refine shapeCast_apply _ _ _ _ ?_
        rw [Shape.rowMajor_val_three, Shape.rowMajor_val_four]
        show ((i.val * 5 + k.val / 4) * 3 + k.val % 4) * 128 + o.val = ((i.val * 5 + k.val / 4) * 3 + k.val % 4) * 128 + o.val
        rfl
    · rw [dif_neg h]
      refine (pad_apply_of_not_inside _ _ _ _ _ _ h_S_ _ (⟨2, by decide⟩ : Fin 4) (fun hin => ?_)).trans padValue_zero
      have hin' : 0 ≤ k.val % 4 ∧ (k.val % 4 - 0) % (0 + 1) = 0 ∧ (k.val % 4 - 0) / (0 + 1) < 3 := hin
      omega

theorem V7_main_v10 (c : Dev nD) :
    (V7 m outs c main_v10 : S64x32768.Idx → EReal)
      = shapeCast S64x32768 (V6 m outs c main_v9 : S64x64x512.Idx → EReal) shapeCasts_S64x64x512_S64x32768 := by
  show StableHlo.after hostOps1 (V6 m outs c) (Proc.devRef .tc main_v10) = _
  after_results
  rfl

theorem main_v10_apply (c : Dev nD) (n : Fin 64) (q : Fin 32768) :
    (V7 m outs c main_v10 : S64x32768.Idx → EReal) (ix2 n q)
      = (V6 m outs c main_v9 : S64x64x512.Idx → EReal) (ix3 n ⟨q.val / 512, by have := q.isLt; omega⟩ ⟨q.val % 512, by omega⟩) := by
  rw [V7_main_v10]
  have hn := n.isLt
  have hq := q.isLt
  refine shapeCast_apply (s := S64x64x512) (t := S64x32768) _ _ _ _ ?_
  show (S64x64x512.rowMajor (ix3 n ⟨q.val / 512, by omega⟩ ⟨q.val % 512, by omega⟩)).val = (S64x32768.rowMajor (ix2 n q)).val
  rw [Shape.rowMajor_val_three, Shape.rowMajor_val_two]
  show (n.val * 64 + q.val / 512) * 512 + q.val % 512 = n.val * 32768 + q.val
  omega

theorem V6_main_v9 (c : Dev nD) : V6 m outs c main_v9 = outs 6 main_v9 c := by
  simp only [V6, Function.update_self]

/-- The references assigned anywhere before the last region. -/
abbrev written : List (Ref sig .tc) :=
  hostOps0_W ++ hostOps0_1_W ++ hostOps0_2_W ++ hostOps0_3_W ++ hostOps0_4_W ++ [main_v9] ++ hostOps1_W ++ [main_v11]

/-- A reference outside that list has its initial value at the three later valuations: each step changes only what it assigns. -/
theorem arg_keep (c : Dev nD) (r : Ref sig .tc) (h : r ∉ written) :
    V5 m c r = m ((c : Thread nD τ).loc r) ∧ V7 m outs c r = m ((c : Thread nD τ).loc r)
      ∧ V8 m outs c r = m ((c : Thread nD τ).loc r) := by
  simp only [written, List.mem_append, not_or] at h
  obtain ⟨⟨⟨⟨⟨⟨⟨h0, h1⟩, h2⟩, h3⟩, h4⟩, h5⟩, h6⟩, h7⟩ := h
  have e5 : V5 m c r = m ((c : Thread nD τ).loc r) :=
    (V5_of m c r h4).trans <| (V4_of m c r h3).trans <| (V3_of m c r h2).trans <| (V2_of m c r h1).trans <| V1_of m c r h0
  have e7 := (V7_of m outs c r h6).trans <| (V6_of m outs c r h5).trans e5
  exact ⟨e5, e7, (V8_of m outs c r h7).trans e7⟩

end Cert.KernelIdeal.Hand

end
-- ==== Proof.KStageA.lean ====
import proofs.«182102_g2000302601656725_pallasbulk_822_2_alg».proof.Proof.KR0Body

noncomputable section

namespace Cert.KernelIdeal.Hand

open Idealize.ShloMosaic Idealize.SL.Sem
open Cert.KernelIdeal Cert.KernelIdeal.Gen

variable {F : FTy → Type} [FloatOps F]

-- The bordered first-layer image from the padded image block, the five weight matrices and the three rows.
def stA (x0 : Vec F S1x68x68x4 .bf16) (x1 : Vec F S5x20x128 .bf16) (x2 : Vec F S3x128 .f32) : FVec F S36x36x128 .bf16 :=
  k0_pay5
    (k0_pay3 (View.ld x0 r0_a1) (View.ld x1 r0_a2_0) (View.ld x1 r0_a2_1) (View.ld x1 r0_a2_2) (View.ld x1 r0_a2_3))
    (k0_pay4 (View.ld x0 r0_a1))
    (View.ld x1 r0_a2_4) (View.ld x2 r0_a3_0) (View.ld x2 r0_a3_1) (View.ld x2 r0_a3_2)

end Cert.KernelIdeal.Hand

end
-- ==== Proof.KStageB.lean ====
import proofs.«182102_g2000302601656725_pallasbulk_822_2_alg».proof.Proof.KR0Body

noncomputable section

namespace Cert.KernelIdeal.Hand

open Idealize.ShloMosaic Idealize.SL.Sem
open Cert.KernelIdeal Cert.KernelIdeal.Gen

variable {F : FTy → Type} [FloatOps F]

-- The window of the bordered first-layer image at the offsets off, as 1024 rows.
def winB (v : FVec F S36x36x128 .bf16) (off : Fin 3 → ℕ) (hs : S36x36x128.Slices off S32x32x128) : FVec F S1024x128 .bf16 :=
  shapeCast S1024x128 (extractStridedSlice S32x32x128 off v hs) shapeCasts_S32x32x128_S1024x128

-- The first tap on a zero start.
def stBacc0 (v : FVec F S36x36x128 .bf16) (w : Vec F S1x128x128 .bf16) : FVec F S1024x128 .f32 :=
  addf (broadcast S1024x128 (Scalar.ofBits .f32 0x00000000#32))
    (matmul dot_S1024x128_S128x128_S1024x128_1_0_0_1_n_n none (winB v ![0, 0, 0] slices_S36x36x128_o0_0_0_S32x32x128)
      (shapeCast S128x128 w shapeCasts_S1x128x128_S128x128) (constant S1024x128 .f32 0x00000000#32))

-- The twenty-five taps, added in four groups of six after the first.
def stBacc (v : FVec F S36x36x128 .bf16) (x3 : Vec F S25x128x128 .bf16) : FVec F S1024x128 .f32 :=
  k0_pay14 v
    (k0_pay12 v
      (k0_pay10 v
        (k0_pay8 v (stBacc0 v (View.ld x3 r0_a4_0)) (winB v ![0, 1, 0] slices_S36x36x128_o0_1_0_S32x32x128)
          (View.ld x3 r0_a4_1) (View.ld x3 r0_a4_2) (View.ld x3 r0_a4_3) (View.ld x3 r0_a4_4) (View.ld x3 r0_a4_5) (View.ld x3 r0_a4_6))
        (k0_pay9 v) (View.ld x3 r0_a4_7) (View.ld x3 r0_a4_8) (View.ld x3 r0_a4_9) (View.ld x3 r0_a4_10) (View.ld x3 r0_a4_11) (View.ld x3 r0_a4_12))
      (k0_pay11 v) (View.ld x3 r0_a4_13) (View.ld x3 r0_a4_14) (View.ld x3 r0_a4_15) (View.ld x3 r0_a4_16) (View.ld x3 r0_a4_17) (View.ld x3 r0_a4_18))
    (k0_pay13 v) (View.ld x3 r0_a4_19) (View.ld x3 r0_a4_20) (View.ld x3 r0_a4_21) (View.ld x3 r0_a4_22) (View.ld x3 r0_a4_23) (View.ld x3 r0_a4_24)

-- The bordered second-layer image from the bordered first-layer image, the twenty-five weight matrices and the three rows.
def stB (v : FVec F S36x36x128 .bf16) (x3 : Vec F S25x128x128 .bf16) (x4 : Vec F S3x128 .f32) : FVec F S18x18x128 .bf16 :=
  k0_pay16 (stBacc v x3) (k0_pay15 (View.ld x4 r0_a5_0)) (View.ld x4 r0_a5_1) (View.ld x4 r0_a5_2)

end Cert.KernelIdeal.Hand

end
-- ==== Proof.KStageC.lean ====
import proofs.«182102_g2000302601656725_pallasbulk_822_2_alg».proof.Proof.KR0Body

noncomputable section

namespace Cert.KernelIdeal.Hand

open Idealize.ShloMosaic Idealize.SL.Sem
open Cert.KernelIdeal Cert.KernelIdeal.Gen

variable {F : FTy → Type} [FloatOps F]

-- The window of the bordered second-layer image at the offsets off, as 256 rows.
def winC (v : FVec F S18x18x128 .bf16) (off : Fin 3 → ℕ) (hs : S18x18x128.Slices off S16x16x128) : FVec F S256x128 .bf16 :=
  shapeCast S256x128 (extractStridedSlice S16x16x128 off v hs) shapeCasts_S16x16x128_S256x128

-- A window times a weight matrix into a zero start.
def mmC (A : FVec F S256x128 .bf16) (w : Vec F S1x128x256 .bf16) : FVec F S256x256 .f32 :=
  matmul dot_S256x128_S128x256_S256x256_1_0_0_1_n_n none A (shapeCast S128x256 w shapeCasts_S1x128x256_S128x256)
    (constant S256x256 .f32 0x00000000#32)

-- Taps 0 to 7.
def stC_acc (v : FVec F S18x18x128 .bf16) (x5 : Vec F S9x128x256 .bf16) : FVec F S256x256 .f32 :=
  k0_pay19 v
    (addf (addf (broadcast S256x256 (Scalar.ofBits .f32 0x00000000#32))
      (mmC (winC v ![0, 0, 0] slices_S18x18x128_o0_0_0_S16x16x128) (View.ld x5 r0_a6_0)))
      (mmC (winC v ![0, 1, 0] slices_S18x18x128_o0_1_0_S16x16x128) (View.ld x5 r0_a6_1)))
    (winC v ![0, 2, 0] slices_S18x18x128_o0_2_0_S16x16x128)
    (View.ld x5 r0_a6_2) (View.ld x5 r0_a6_3) (View.ld x5 r0_a6_4) (View.ld x5 r0_a6_5) (View.ld x5 r0_a6_6) (View.ld x5 r0_a6_7)

-- The bordered third-layer image from the bordered second-layer image, the nine weight matrices and the three rows.
def stC (v : FVec F S18x18x128 .bf16) (x5 : Vec F S9x128x256 .bf16) (x6 : Vec F S3x256 .f32) : FVec F S10x10x256 .bf16 :=
  k0_pay21 (stC_acc v x5) (k0_pay20 v) (View.ld x5 r0_a6_8) (View.ld x6 r0_a7_0) (View.ld x6 r0_a7_1) (View.ld x6 r0_a7_2)

end Cert.KernelIdeal.Hand

end
-- ==== Proof.KStageD.lean ====
import proofs.«182102_g2000302601656725_pallasbulk_822_2_alg».proof.Proof.KR0Body

noncomputable section

namespace Cert.KernelIdeal.Hand

open Idealize.ShloMosaic Idealize.SL.Sem
open Cert.KernelIdeal Cert.KernelIdeal.Gen

variable {F : FTy → Type} [FloatOps F]

-- The window of the bordered third-layer image at the offsets off, as 64 rows.
def winD (v : FVec F S10x10x256 .bf16) (off : Fin 3 → ℕ) (hs : S10x10x256.Slices off S8x8x256) : FVec F S64x256 .bf16 :=
  shapeCast S64x256 (extractStridedSlice S8x8x256 off v hs) shapeCasts_S8x8x256_S64x256

-- The first tap on a zero start.
def stD_acc0 (v : FVec F S10x10x256 .bf16) (w : Vec F S1x256x512 .bf16) : FVec F S64x512 .f32 :=
  addf (broadcast S64x512 (Scalar.ofBits .f32 0x00000000#32))
    (matmul dot_S64x256_S256x512_S64x512_1_0_0_1_n_n none (winD v ![0, 0, 0] slices_S10x10x256_o0_0_0_S8x8x256)
      (shapeCast S256x512 w shapeCasts_S1x256x512_S256x512) (constant S64x512 .f32 0x00000000#32))

-- Taps 0 to 6.
def stD_acc (v : FVec F S10x10x256 .bf16) (x7 : Vec F S9x256x512 .bf16) : FVec F S64x512 .f32 :=
  k0_pay24 v (stD_acc0 v (View.ld x7 r0_a8_0)) (winD v ![0, 1, 0] slices_S10x10x256_o0_1_0_S8x8x256)
    (View.ld x7 r0_a8_1) (View.ld x7 r0_a8_2) (View.ld x7 r0_a8_3) (View.ld x7 r0_a8_4) (View.ld x7 r0_a8_5) (View.ld x7 r0_a8_6)

-- The fourth layer's stored block from the bordered third-layer image, the nine weight matrices and the three rows.
def stD (v : FVec F S10x10x256 .bf16) (x7 : Vec F S9x256x512 .bf16) (x8 : Vec F S3x512 .f32) : FVec F S1x64x512 .bf16 :=
  k0_pay1 v (stD_acc v x7) (k0_pay25 v) (View.ld x7 r0_a8_7) (View.ld x7 r0_a8_8) (View.ld x8 r0_a9_0) (View.ld x8 r0_a9_1) (View.ld x8 r0_a9_2)

end Cert.KernelIdeal.Hand

end
-- ==== Proof.KR0Stages.lean ====
import proofs.«182102_g2000302601656725_pallasbulk_822_2_alg».proof.Proof.KStageA
import proofs.«182102_g2000302601656725_pallasbulk_822_2_alg».proof.Proof.KStageB
import proofs.«182102_g2000302601656725_pallasbulk_822_2_alg».proof.Proof.KStageC
import proofs.«182102_g2000302601656725_pallasbulk_822_2_alg».proof.Proof.KStageD

set_option maxRecDepth 16384

noncomputable section

namespace Cert.KernelIdeal.Hand

open Cert.KernelIdeal Cert.KernelIdeal.Gen
open Idealize.ShloMosaic Idealize.SL.Sem

variable {F : FTy → Type} [FloatOps F]

-- Both sides unfold to the same payloads applied to the same loads.
theorem body0_eq_stages (x0 : Vec F S1x68x68x4 .bf16) (x1 : Vec F S5x20x128 .bf16) (x2 : Vec F S3x128 .f32) (x3 : Vec F S25x128x128 .bf16) (x4 : Vec F S3x128 .f32) (x5 : Vec F S9x128x256 .bf16) (x6 : Vec F S3x256 .f32) (x7 : Vec F S9x256x512 .bf16) (x8 : Vec F S3x512 .f32) :
    body0 x0 x1 x2 x3 x4 x5 x6 x7 x8 = stD (stC (stB (stA x0 x1 x2) x3 x4) x5 x6) x7 x8 := rfl

end Cert.KernelIdeal.Hand

end
-- ==== Proof.KR0Val.lean ====
import proofs.«182102_g2000302601656725_pallasbulk_822_2_alg».proof.Proof.KR0Frame
import proofs.«182102_g2000302601656725_pallasbulk_822_2_alg».proof.Proof.KR0Stages
import proofs.«182102_g2000302601656725_pallasbulk_822_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

structure StageValues (a : Cert.Spec.Args) : Prop where
  stageA : ∀ (n : Fin 64) (x0 : Vec Ideal S1x68x68x4 .bf16) (x1 : Vec Ideal S5x20x128 .bf16) (x2 : Vec Ideal S3x128 .f32),
    (∀ (r s : Fin 68) (q : Fin 4), x0 (ix4 0 r s q) = if h : q.val < 3 then Cert.Spec.padz 2 (Cert.Spec.X a n) r s ⟨q.val, h⟩ else 0) →
    (∀ (i : Fin 5) (k : Fin 20) (o : Fin 128), x1 (ix3 i k o) = if h : k.val % 4 < 3 then a.w1 (ix3 ⟨i.val * 5 + k.val / 4, by have := i.isLt; have := k.isLt; omega⟩ ⟨k.val % 4, h⟩ o) else 0) →
    x2 = a.b1 → ∀ (r s : Fin 36) (ch : Fin 128), stA x0 x1 x2 (ix3 r s ch) = Cert.Spec.padz 2 (Cert.Spec.P1 a n) r s ch
  stageB : ∀ (n : Fin 64) (v69 : FVec Ideal S36x36x128 .bf16) (x3 : Vec Ideal S25x128x128 .bf16) (x4 : Vec Ideal S3x128 .f32),
    (∀ (r s : Fin 36) (ch : Fin 128), v69 (ix3 r s ch) = Cert.Spec.padz 2 (Cert.Spec.P1 a n) r s ch) → x3 = a.w2 → x4 = a.b2 →
    ∀ (r s : Fin 18) (ch : Fin 128), stB v69 x3 x4 (ix3 r s ch) = Cert.Spec.padz 1 (Cert.Spec.P2 a n) r s ch
  stageC : ∀ (n : Fin 64) (v251 : FVec Ideal S18x18x128 .bf16) (x5 : Vec Ideal S9x128x256 .bf16) (x6 : Vec Ideal S3x256 .f32),
    (∀ (r s : Fin 18) (ch : Fin 128), v251 (ix3 r s ch) = Cert.Spec.padz 1 (Cert.Spec.P2 a n) r s ch) → x5 = a.w3 → x6 = a.b3 →
    ∀ (r s : Fin 10) (ch : Fin 256), stC v251 x5 x6 (ix3 r s ch) = Cert.Spec.padz 1 (Cert.Spec.P3 a n) r s ch
  stageD : ∀ (n : Fin 64) (v337 : FVec Ideal S10x10x256 .bf16) (x7 : Vec Ideal S9x256x512 .bf16) (x8 : Vec Ideal S3x512 .f32),
    (∀ (r s : Fin 10) (ch : Fin 256), v337 (ix3 r s ch) = Cert.Spec.padz 1 (Cert.Spec.P3 a n) r s ch) → x7 = a.w4 → x8 = a.b4 →
    ∀ (hw : Fin 64) (o : Fin 512), stD v337 x7 x8 (ix3 0 hw o) = Cert.Spec.C4 a n ⟨hw.val / 8, by have := hw.isLt; omega⟩ ⟨hw.val % 8, by omega⟩ o

def feat (a : Cert.Spec.Args) : FVec Ideal S64x64x512 .bf16 := fun i =>
  Cert.Spec.C4 a ⟨(i 0).val, (i 0).isLt⟩ ⟨(i 1).val / 8, by have : (i 1).val < 64 := (i 1).isLt; omega⟩ ⟨(i 1).val % 8, by omega⟩ ⟨(i 2).val, (i 2).isLt⟩

theorem hz3 : (![0, 0, 0] : Fin 3 → Nat) = fun _ => 0 := funext fun a => by fin_cases a <;> rfl

theorem idx_facts0 : ∀ t : Fin cfg0.N,
    (win0_0.index t (0 : Fin 4) = t.val ∧ win0_0.index t (1 : Fin 4) = 0 ∧ win0_0.index t (2 : Fin 4) = 0 ∧ win0_0.index t (3 : Fin 4) = 0)
    ∧ (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0)
    ∧ win0_9.index t (0 : Fin 3) = t.val ∧ win0_9.index t (1 : Fin 3) = 0 ∧ win0_9.index t (2 : Fin 3) = 0 :=
  (by decide +kernel : ∀ t : Fin grid0.N, _)

/-- A function read through a map that keeps every coordinate is the function. -/
theorem read_id {S : Shape} {α : Type} (X : S.Idx → α) (f : S.Idx → S.Idx) (h : ∀ j b, ((f j b : Fin _) : ℕ) = j b) :
    (fun j => X (f j)) = X :=
  funext fun j => congrArg X (funext fun b => Fin.ext (h j b))

/-- Image `n` of the feature array lies in the block of point `n`. -/
theorem cover9 (i : S64x64x512.Idx) :
    ∃ t : Fin cfg0.N, (cfg0.win 9).flush t = true ∧ i ∈ ((cfg0.win 9).blk t).view.set := by
  have h0 : (i 0).val < 64 := (i 0).isLt
  have h1 : (i 1).val < 64 := (i 1).isLt
  have h2 : (i 2).val < 512 := (i 2).isLt
  have ht : (i 0).val < cfg0.N := lt_of_lt_of_eq h0 N_0.symm
  obtain ⟨-, -, -, -, -, -, -, -, -, e0, e1, e2⟩ := idx_facts0 ⟨_, ht⟩
  have e0 : win0_9.index ⟨(i 0).val, ht⟩ (0 : Fin 3) = (i 0).val := e0
  refine ⟨⟨_, ht⟩, flush0_9 _, ?_⟩
  show i ∈ ((View.whole main_v9).slice (win0_9.rect ⟨(i 0).val, ht⟩)).set
  rw [View.set_slice_whole, Rect.mem_set_unit]
  intro b
  match b with
  | ⟨0, _⟩ => show win0_9.index _ (0 : Fin 3) * 1 ≤ (i 0).val ∧ (i 0).val < win0_9.index _ (0 : Fin 3) * 1 + 1; rw [e0]; omega
  | ⟨1, _⟩ => show win0_9.index _ (1 : Fin 3) * 64 ≤ (i 1).val ∧ (i 1).val < win0_9.index _ (1 : Fin 3) * 64 + 64; rw [e1]; omega
  | ⟨2, _⟩ => show win0_9.index _ (2 : Fin 3) * 512 ≤ (i 2).val ∧ (i 2).val < win0_9.index _ (2 : Fin 3) * 512 + 512; rw [e2]; omega

variable (V : (c : Dev nD) → (b : Ref sig .tc) → Buf (Elt Ideal) ((c : Thread nD τ).loc b)) (c : Dev nD) (a : Cert.Spec.Args)
  (hS : StageValues a)
  (H0 : ∀ (n : Fin 64) (r s : Fin 68) (q : Fin 4), (V c main_v5 : S64x68x68x4.Idx → EReal) (ix4 n r s q) = if h : q.val < 3 then Cert.Spec.padz 2 (Cert.Spec.X a n) r s ⟨q.val, h⟩ else 0)
  (H1 : ∀ (i : Fin 5) (k : Fin 20) (o : Fin 128), (V c main_v8 : S5x20x128.Idx → EReal) (ix3 i k o) = if h : k.val % 4 < 3 then a.w1 (ix3 ⟨i.val * 5 + k.val / 4, by have := i.isLt; have := k.isLt; omega⟩ ⟨k.val % 4, h⟩ o) else 0)
  (H2 : (V c main_arg2 : S3x128.Idx → EReal) = a.b1) (H3 : (V c main_arg3 : S25x128x128.Idx → EReal) = a.w2)
  (H4 : (V c main_arg4 : S3x128.Idx → EReal) = a.b2) (H5 : (V c main_arg5 : S9x128x256.Idx → EReal) = a.w3)
  (H6 : (V c main_arg6 : S3x256.Idx → EReal) = a.b3) (H7 : (V c main_arg7 : S9x256x512.Idx → EReal) = a.w4)
  (H8 : (V c main_arg8 : S3x512.Idx → EReal) = a.b4)
include hS H0 H1 H2 H3 H4 H5 H6 H7 H8

/-- Each stage's value feeds the next, so what point `t` writes back is block `t` of the feature array. -/
theorem flushed0_eq (t : Fin cfg0.N) :
    (dat0 V c).flushed 9 t = ((cfg0.win 9).blk t).view.read (Elt Ideal) (feat a) := by
  obtain ⟨⟨d0, d1, d2, d3⟩, z1, z2, z3, z4, z5, z6, z7, z8, e0, e1, e2⟩ := idx_facts0 t
  have ht : t.val < 64 := lt_of_lt_of_eq t.isLt N_0
  show (cfg0.win 9).cut (grid0.coords t) ((dat0 V c).after 9 t) = _
  rw [after0_9]
  unfold out0_9
  rw [View.canon_unit_zero hz3, body0_eq_stages]
  funext j
  obtain ⟨z, hw, o, rfl⟩ : ∃ (z : Fin 1) (hw : Fin 64) (o : Fin 512), j = ix3 z hw o := ⟨j 0, j 1, j 2, eq_ix3 j⟩
  obtain rfl : z = 0 := Subsingleton.elim _ _
  refine (hS.stageD ⟨t.val, ht⟩ _ _ _ (hS.stageC _ _ _ _ (hS.stageB _ _ _ _ (hS.stageA _ _ _ _ (fun r s q => ?_)
    (fun i k o => (congrFun (read_id _ _ fun j b => win0_1.rect_emb_val_of_index_zero t b (z1 b) j) _).trans (H1 i k o))
    ((read_id _ _ fun j b => win0_2.rect_emb_val_of_index_zero t b (z2 b) j).trans H2))
    ((read_id _ _ fun j b => win0_3.rect_emb_val_of_index_zero t b (z3 b) j).trans H3)
    ((read_id _ _ fun j b => win0_4.rect_emb_val_of_index_zero t b (z4 b) j).trans H4))
    ((read_id _ _ fun j b => win0_5.rect_emb_val_of_index_zero t b (z5 b) j).trans H5)
    ((read_id _ _ fun j b => win0_6.rect_emb_val_of_index_zero t b (z6 b) j).trans H6))
    ((read_id _ _ fun j b => win0_7.rect_emb_val_of_index_zero t b (z7 b) j).trans H7)
    ((read_id _ _ fun j b => win0_8.rect_emb_val_of_index_zero t b (z8 b) j).trans H8) hw o).trans ?_
  · refine (congrArg (V c main_v5 : S64x68x68x4.Idx → EReal) (funext fun b => Fin.ext ?_)).trans (H0 ⟨t.val, ht⟩ r s q)
    match b with
    | ⟨0, _⟩ => show win0_0.index t (0 : Fin 4) * 1 + 1 * 0 = t.val; omega
    | ⟨1, _⟩ => show win0_0.index t (1 : Fin 4) * 68 + 1 * r.val = r.val; omega
    | ⟨2, _⟩ => show win0_0.index t (2 : Fin 4) * 68 + 1 * s.val = s.val; omega
    | ⟨3, _⟩ => show win0_0.index t (3 : Fin 4) * 4 + 1 * q.val = q.val; omega
  · refine congr (congr (congr (congrArg (Cert.Spec.C4 a) (Fin.ext ?_)) (Fin.ext ?_)) (Fin.ext ?_)) (Fin.ext ?_)
    · show t.val = win0_9.index t (0 : Fin 3) * 1 + 1 * 0; omega
    · show hw.val / 8 = (win0_9.index t (1 : Fin 3) * 64 + 1 * hw.val) / 8; rw [e1]; omega
    · show hw.val % 8 = (win0_9.index t (1 : Fin 3) * 64 + 1 * hw.val) % 8; rw [e1]; omega
    · show o.val = win0_9.index t (2 : Fin 3) * 512 + 1 * o.val; omega

/-- The blocks cover the array, so it ends holding the feature array whatever it held before. -/
theorem value0_arr : (dat0 V c).arrAt 9 cfg0.N = feat a :=
  (dat0 V c).arrAt_eq_of_cover 9 (feat a) (fun t _ => flushed0_eq V c a hS H0 H1 H2 H3 H4 H5 H6 H7 H8 t) cover9

theorem value0_of (n : Fin 64) (hw : Fin 64) (o : Fin 512) :
    ((dat0 V c).arrAt 9 cfg0.N : S64x64x512.Idx → EReal) (ix3 n hw o)
      = Cert.Spec.C4 a n ⟨hw.val / 8, by have := hw.isLt; omega⟩ ⟨hw.val % 8, by omega⟩ o :=
  congrFun (value0_arr V c a hS H0 H1 H2 H3 H4 H5 H6 H7 H8) (ix3 n hw o)

end Cert.KernelIdeal.Hand

end
-- ==== Proof.LibPlainDot.lean ====
import Idealize.ShloMosaic.PureOps.Ideal.Laws
import Idealize.ShloMosaic.Lib.ValueIdx

noncomputable section

open scoped BigOperators

namespace Cert.LibPlainDot

open Idealize.ShloMosaic Idealize.ShloMosaic.ValueIdx

theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

-- A plain matrix product into a zero accumulator, at one entry: the sum over the contracted coordinate.
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

end Cert.LibPlainDot

end
-- ==== Proof.LibStage.lean ====
import proofs.«182102_g2000302601656725_pallasbulk_822_2_alg».proof.Proof.LibPlainDot
import Idealize.ShloMosaic.Lib.ValueLayout
import Idealize.ShloMosaic.Lib.KernelVsHost
import Mathlib.Algebra.BigOperators.Fin
import Mathlib.Tactic.Ring

noncomputable section

open scoped BigOperators

namespace Cert.LibStage

open Idealize.ShloMosaic Idealize.ShloMosaic.ValueIdx

theorem add_lt_of_slice {n m o : ℕ} (x : Fin m) (h : o + m ≤ n) : x.val + o < n := by have := x.isLt; omega

theorem zero_f32 : (Scalar.ofBits (F := Ideal) .f32 0x00000000#32) = 0 := Ideal.ofBits_zero_f32

section Loads
variable {Val : EltTy → Type} {e : EltTy}

-- Matrix k of a stack, loaded as a stack of one and read as a matrix, is the stack at k.
theorem wld_apply {K A B : ℕ} (x : (⟨3, ![K, A, B]⟩ : Shape).Idx → Val e) (k : ℕ)
    (inb : ∀ a, (![k, 0, 0] : Fin 3 → ℕ) a + (⟨3, ![1, A, B]⟩ : Shape).size a ≤ (⟨3, ![K, A, B]⟩ : Shape).size a)
    (hc : (⟨3, ![1, A, B]⟩ : Shape).ShapeCasts ⟨2, ![A, B]⟩) (c : Fin A) (o : Fin B) :
    shapeCast ⟨2, ![A, B]⟩ (View.ld x (Rect.unit (s := ⟨3, ![K, A, B]⟩) ![k, 0, 0] (⟨3, ![1, A, B]⟩ : Shape).size inb)) hc (ix2 c o)
      = x (ix3 ⟨k, inb 0⟩ c o) := by
  refine (shapeCast_1ab_ab_apply _ hc c o).trans ?_
  show x _ = x _
  congr 1; funext a; apply Fin.ext
  match a with
  | ⟨0, _⟩ => show k + 1 * 0 = k; omega
  | ⟨1, _⟩ => show 0 + 1 * c.val = c.val; omega
  | ⟨2, _⟩ => show 0 + 1 * o.val = o.val; omega

-- Row k of a matrix, loaded as a matrix of one row and spread over N rows, is the matrix's row k.
theorem bld_apply {K N B : ℕ} (x : (⟨2, ![K, B]⟩ : Shape).Idx → Val e) (k : ℕ)
    (inb : ∀ a, (![k, 0] : Fin 2 → ℕ) a + (⟨2, ![1, B]⟩ : Shape).size a ≤ (⟨2, ![K, B]⟩ : Shape).size a)
    (hb : (⟨2, ![1, B]⟩ : Shape).Broadcasts ⟨2, ![N, B]⟩) (p : Fin N) (o : Fin B) :
    broadcastTo ⟨2, ![N, B]⟩ (View.ld x (Rect.unit (s := ⟨2, ![K, B]⟩) ![k, 0] (⟨2, ![1, B]⟩ : Shape).size inb)) hb (ix2 p o)
      = x (ix2 ⟨k, inb 0⟩ o) := by
  refine (broadcastTo_1b_ab_apply _ hb p o).trans ?_
  show x _ = x _
  congr 1; funext a; apply Fin.ext
  match a with
  | ⟨0, _⟩ => show k + 1 * 0 = k; omega
  | ⟨1, _⟩ => show 0 + 1 * o.val = o.val; omega

end Loads

-- A window with corner (i, j), as rows of pixels, times matrix k: at pixel (h, w) the channel sum at (h + i, w + j).
theorem tap_apply {Hp Wp H W Ci Co K N : ℕ} (d : DotDims ⟨2, ![N, Ci]⟩ ⟨2, ![Ci, Co]⟩ ⟨2, ![N, Co]⟩)
    (hd : d = DotDims.plain N Ci Co) (v : FVec Ideal ⟨3, ![Hp, Wp, Ci]⟩ .bf16) (x : Vec Ideal ⟨3, ![K, Ci, Co]⟩ .bf16)
    (i j k : ℕ) (hs : (⟨3, ![Hp, Wp, Ci]⟩ : Shape).Slices ![i, j, 0] ⟨3, ![H, W, Ci]⟩)
    (hc : (⟨3, ![H, W, Ci]⟩ : Shape).ShapeCasts ⟨2, ![N, Ci]⟩)
    (inb : ∀ a, (![k, 0, 0] : Fin 3 → ℕ) a + (⟨3, ![1, Ci, Co]⟩ : Shape).size a ≤ (⟨3, ![K, Ci, Co]⟩ : Shape).size a)
    (hc' : (⟨3, ![1, Ci, Co]⟩ : Shape).ShapeCasts ⟨2, ![Ci, Co]⟩)
    (h : Fin H) (w : Fin W) (hp : h.val * W + w.val < N) (o : Fin Co) :
    matmul (φ₁ := .bf16) (φ₂ := .bf16) d none
        (shapeCast ⟨2, ![N, Ci]⟩ (extractStridedSlice ⟨3, ![H, W, Ci]⟩ ![i, j, 0] v hs) hc)
        (shapeCast ⟨2, ![Ci, Co]⟩ (View.ld x (Rect.unit (s := ⟨3, ![K, Ci, Co]⟩) ![k, 0, 0] (⟨3, ![1, Ci, Co]⟩ : Shape).size inb) : FVec Ideal ⟨3, ![1, Ci, Co]⟩ .bf16) hc')
        (constant ⟨2, ![N, Co]⟩ .f32 0x00000000#32) (ix2 ⟨h.val * W + w.val, hp⟩ o)
      = ∑ c : Fin Ci, v (ix3 ⟨h.val + i, add_lt_of_slice h (hs.2 0)⟩ ⟨w.val + j, add_lt_of_slice w (hs.2 1)⟩ c)
          * x (ix3 ⟨k, inb 0⟩ c o) := by
  subst hd
  refine (Cert.LibPlainDot.matmul_plain_apply N Ci Co none _ _ _ o).trans (Finset.sum_congr rfl fun c _ => ?_)
  rw [wld_apply x k inb hc' c o]
  congr 1
  refine (shapeCast_apply _ hc _ (ix3 h w c) (by rw [Shape.rowMajor_val_three, Shape.rowMajor_val_two]; rfl)).trans ?_
  exact extractStridedSlice_apply _ v hs _ _ (fun a => match a with
    | ⟨0, _⟩ => Nat.add_comm _ _
    | ⟨1, _⟩ => Nat.add_comm _ _
    | ⟨2, _⟩ => (Nat.zero_add _).symm)

section Layout
variable {α : Type}

-- Two pieces side by side along the middle axis.
theorem cat1_apply {a b1 b2 b c : ℕ} (A : (⟨3, ![a, b1, c]⟩ : Shape).Idx → α) (B : (⟨3, ![a, b2, c]⟩ : Shape).Idx → α)
    (h : Shape.Concatenates [(⟨3, ![a, b1, c]⟩ : Shape), ⟨3, ![a, b2, c]⟩] ⟨3, ![a, b, c]⟩ 1) (hb : b = b1 + b2)
    (r : Fin a) (s : Fin b) (o : Fin c) :
    concatenate ⟨3, ![a, b, c]⟩ 1 [⟨⟨3, ![a, b1, c]⟩, A⟩, ⟨⟨3, ![a, b2, c]⟩, B⟩] h (ix3 r s o)
      = if hs : s.val < b1 then A (ix3 r ⟨s.val, hs⟩ o) else B (ix3 r ⟨s.val - b1, by have := s.isLt; omega⟩ o) := by
  by_cases hs : s.val < b1
  · rw [dif_pos hs]
    exact concatenate_pair_apply_left 1 A B h (ix3 r s o) rfl (ix3 r ⟨s.val, hs⟩ o)
      (fun d => match d with | ⟨0, _⟩ => rfl | ⟨1, _⟩ => rfl | ⟨2, _⟩ => rfl)
  · rw [dif_neg hs]
    exact concatenate_pair_apply_right 1 A B h (ix3 r s o) rfl rfl (ix3 r ⟨s.val - b1, by have := s.isLt; omega⟩ o)
      (fun d hd => match d, hd with | ⟨0, _⟩, _ => rfl | ⟨1, _⟩, hd => absurd rfl hd | ⟨2, _⟩, _ => rfl)
      (by show (s.val - b1) + b1 = s.val; omega)

-- Two pieces one above the other along the first axis.
theorem cat0_apply {a1 a2 a b c : ℕ} (A : (⟨3, ![a1, b, c]⟩ : Shape).Idx → α) (B : (⟨3, ![a2, b, c]⟩ : Shape).Idx → α)
    (h : Shape.Concatenates [(⟨3, ![a1, b, c]⟩ : Shape), ⟨3, ![a2, b, c]⟩] ⟨3, ![a, b, c]⟩ 0) (ha : a = a1 + a2)
    (r : Fin a) (s : Fin b) (o : Fin c) :
    concatenate ⟨3, ![a, b, c]⟩ 0 [⟨⟨3, ![a1, b, c]⟩, A⟩, ⟨⟨3, ![a2, b, c]⟩, B⟩] h (ix3 r s o)
      = if hr : r.val < a1 then A (ix3 ⟨r.val, hr⟩ s o) else B (ix3 ⟨r.val - a1, by have := r.isLt; omega⟩ s o) := by
  by_cases hr : r.val < a1
  · rw [dif_pos hr]
    exact concatenate_pair_apply_left 0 A B h (ix3 r s o) rfl (ix3 ⟨r.val, hr⟩ s o)
      (fun d => match d with | ⟨0, _⟩ => rfl | ⟨1, _⟩ => rfl | ⟨2, _⟩ => rfl)
  · rw [dif_neg hr]
    exact concatenate_pair_apply_right 0 A B h (ix3 r s o) rfl rfl (ix3 ⟨r.val - a1, by have := r.isLt; omega⟩ s o)
      (fun d hd => match d, hd with | ⟨0, _⟩, hd => absurd rfl hd | ⟨1, _⟩, _ => rfl | ⟨2, _⟩, _ => rfl)
      (by show (r.val - a1) + a1 = r.val; omega)

-- An image with k rows of z above and below, then k columns of z left and right: the image inside, z on the border.
theorem border_apply {H W C k Hk Hp Wk Wp : ℕ} (Y : (⟨3, ![H, W, C]⟩ : Shape).Idx → α) (z : α)
    (h1 : Shape.Concatenates [(⟨3, ![k, W, C]⟩ : Shape), ⟨3, ![H, W, C]⟩] ⟨3, ![Hk, W, C]⟩ 0)
    (h2 : Shape.Concatenates [(⟨3, ![Hk, W, C]⟩ : Shape), ⟨3, ![k, W, C]⟩] ⟨3, ![Hp, W, C]⟩ 0)
    (h3 : Shape.Concatenates [(⟨3, ![Hp, k, C]⟩ : Shape), ⟨3, ![Hp, W, C]⟩] ⟨3, ![Hp, Wk, C]⟩ 1)
    (h4 : Shape.Concatenates [(⟨3, ![Hp, Wk, C]⟩ : Shape), ⟨3, ![Hp, k, C]⟩] ⟨3, ![Hp, Wp, C]⟩ 1)
    (e1 : Hk = k + H) (e2 : Hp = Hk + k) (e3 : Wk = k + W) (e4 : Wp = Wk + k) (r : Fin Hp) (s : Fin Wp) (o : Fin C) :
    concatenate ⟨3, ![Hp, Wp, C]⟩ 1
        [⟨⟨3, ![Hp, Wk, C]⟩, concatenate ⟨3, ![Hp, Wk, C]⟩ 1
          [⟨⟨3, ![Hp, k, C]⟩, broadcast ⟨3, ![Hp, k, C]⟩ z⟩,
           ⟨⟨3, ![Hp, W, C]⟩, concatenate ⟨3, ![Hp, W, C]⟩ 0
             [⟨⟨3, ![Hk, W, C]⟩, concatenate ⟨3, ![Hk, W, C]⟩ 0 [⟨⟨3, ![k, W, C]⟩, broadcast ⟨3, ![k, W, C]⟩ z⟩, ⟨⟨3, ![H, W, C]⟩, Y⟩] h1⟩,
              ⟨⟨3, ![k, W, C]⟩, broadcast ⟨3, ![k, W, C]⟩ z⟩] h2⟩] h3⟩,
         ⟨⟨3, ![Hp, k, C]⟩, broadcast ⟨3, ![Hp, k, C]⟩ z⟩] h4 (ix3 r s o)
      = if h : k ≤ r.val ∧ r.val < H + k ∧ k ≤ s.val ∧ s.val < W + k then
          Y (ix3 ⟨r.val - k, by omega⟩ ⟨s.val - k, by omega⟩ o) else z := by
  have hr := r.isLt
  have hs := s.isLt
  rw [cat1_apply _ _ h4 e4]
  by_cases c1 : s.val < Wk
  · rw [dif_pos c1, cat1_apply _ _ h3 e3]
    by_cases c2 : s.val < k
    · rw [dif_pos c2, dif_neg (by omega)]; rfl
    · rw [dif_neg c2, cat0_apply _ _ h2 e2]
      by_cases c3 : r.val < Hk
      · rw [dif_pos c3, cat0_apply _ _ h1 e1]
        by_cases c4 : r.val < k
        · rw [dif_pos c4, dif_neg (by omega)]; rfl
        · rw [dif_neg c4, dif_pos (by omega)]
      · rw [dif_neg c3, dif_neg (by omega)]; rfl
  · rw [dif_neg c1, dif_neg (by omega)]; rfl

end Layout

section Pool
variable {N C H2 H W W2 C2 : ℕ} (Y : FVec Ideal ⟨2, ![N, C]⟩ .f32)
  (sc1 : (⟨2, ![N, C]⟩ : Shape).ShapeCasts ⟨3, ![H2, W, C2]⟩) (sc2 : (⟨3, ![H2, W, C2]⟩ : Shape).ShapeCasts ⟨4, ![H, 2, W, C2]⟩)
  (sc3 : (⟨4, ![H, 1, W, C2]⟩ : Shape).ShapeCasts ⟨3, ![H, W, C2]⟩) (hH : H2 = 2 * H) (hW : W2 = 2 * W) (hC : C2 = 2 * C)
  (hN : ∀ (r : Fin H2) (s : Fin W2), r.val * W2 + s.val < N)

include hH hW hC in
-- Member d of row pair h, lane ε C + o of pixel pair w: pixel (2 h + d, 2 w + ε), channel o.
theorem pair_apply (d : ℕ) (sl : (⟨4, ![H, 2, W, C2]⟩ : Shape).Slices ![0, d, 0, 0] ⟨4, ![H, 1, W, C2]⟩)
    (h : Fin H) (w : Fin W) (q : Fin C2) (ε : ℕ) (o : Fin C) (hq : q.val = ε * C + o.val)
    (hd : d < 2) (hε : ε < 2) :
    shapeCast ⟨3, ![H, W, C2]⟩ (extractStridedSlice ⟨4, ![H, 1, W, C2]⟩ ![0, d, 0, 0]
        (shapeCast ⟨4, ![H, 2, W, C2]⟩ (shapeCast ⟨3, ![H2, W, C2]⟩ Y sc1) sc2) sl) sc3 (ix3 h w q)
      = Y (ix2 ⟨(2 * h.val + d) * W2 + (2 * w.val + ε), hN ⟨2 * h.val + d, by omega⟩ ⟨2 * w.val + ε, by omega⟩⟩ o) := by
  subst hH hW hC
  refine (shapeCast_apply _ sc3 _ (ix4 h (0 : Fin 1) w q) (by
    rw [Shape.rowMajor_val_four, Shape.rowMajor_val_three]
    show ((h.val * 1 + 0) * W + w.val) * (2 * C) + q.val = (h.val * W + w.val) * (2 * C) + q.val
    rw [Nat.mul_one, Nat.add_zero])).trans ?_
  refine (slice4_axis1_apply d _ sl h (0 : Fin 1) w q ⟨d, hd⟩ rfl).trans ?_
  refine (shapeCast_apply _ sc2 _ (ix3 ⟨2 * h.val + d, by omega⟩ w q) (by
    rw [Shape.rowMajor_val_three, Shape.rowMajor_val_four]
    show ((2 * h.val + d) * W + w.val) * (2 * C) + q.val = ((h.val * 2 + d) * W + w.val) * (2 * C) + q.val
    rw [Nat.mul_comm h.val 2])).trans ?_
  exact shapeCast_apply _ sc1 _ _ (by
    rw [Shape.rowMajor_val_two, Shape.rowMajor_val_three]
    show ((2 * h.val + d) * (2 * W) + (2 * w.val + ε)) * C + o.val = ((2 * h.val + d) * W + w.val) * (2 * C) + q.val
    rw [hq]; ring)

include hH hW hC in
-- The larger of each two rows, then of the two halves of the lanes: the largest of the two-by-two square of pixels.
theorem pool_apply (sl0 : (⟨4, ![H, 2, W, C2]⟩ : Shape).Slices ![0, 0, 0, 0] ⟨4, ![H, 1, W, C2]⟩)
    (sl1 : (⟨4, ![H, 2, W, C2]⟩ : Shape).Slices ![0, 1, 0, 0] ⟨4, ![H, 1, W, C2]⟩)
    (l0 : (⟨3, ![H, W, C2]⟩ : Shape).Slices ![0, 0, 0] ⟨3, ![H, W, C]⟩)
    (l1 : (⟨3, ![H, W, C2]⟩ : Shape).Slices ![0, 0, C] ⟨3, ![H, W, C]⟩) (hb : FTy.bf16.bits < FTy.f32.bits)
    (h : Fin H) (w : Fin W) (o : Fin C) (g : Fin H2 → Fin W2 → EReal)
    (hg : ∀ (r : Fin H2) (s : Fin W2), Y (ix2 ⟨r.val * W2 + s.val, hN r s⟩ o) = g r s) :
    truncf .bf16 (maximumf
        (extractStridedSlice ⟨3, ![H, W, C]⟩ ![0, 0, 0] (maximumf
          (shapeCast ⟨3, ![H, W, C2]⟩ (extractStridedSlice ⟨4, ![H, 1, W, C2]⟩ ![0, 0, 0, 0]
            (shapeCast ⟨4, ![H, 2, W, C2]⟩ (shapeCast ⟨3, ![H2, W, C2]⟩ Y sc1) sc2) sl0) sc3)
          (shapeCast ⟨3, ![H, W, C2]⟩ (extractStridedSlice ⟨4, ![H, 1, W, C2]⟩ ![0, 1, 0, 0]
            (shapeCast ⟨4, ![H, 2, W, C2]⟩ (shapeCast ⟨3, ![H2, W, C2]⟩ Y sc1) sc2) sl1) sc3)) l0)
        (extractStridedSlice ⟨3, ![H, W, C]⟩ ![0, 0, C] (maximumf
          (shapeCast ⟨3, ![H, W, C2]⟩ (extractStridedSlice ⟨4, ![H, 1, W, C2]⟩ ![0, 0, 0, 0]
            (shapeCast ⟨4, ![H, 2, W, C2]⟩ (shapeCast ⟨3, ![H2, W, C2]⟩ Y sc1) sc2) sl0) sc3)
          (shapeCast ⟨3, ![H, W, C2]⟩ (extractStridedSlice ⟨4, ![H, 1, W, C2]⟩ ![0, 1, 0, 0]
            (shapeCast ⟨4, ![H, 2, W, C2]⟩ (shapeCast ⟨3, ![H2, W, C2]⟩ Y sc1) sc2) sl1) sc3)) l1)) hb (ix3 h w o)
      = max (max (g ⟨2 * h.val + 0, by omega⟩ ⟨2 * w.val + 0, by omega⟩) (g ⟨2 * h.val + 1, by omega⟩ ⟨2 * w.val + 0, by omega⟩))
            (max (g ⟨2 * h.val + 0, by omega⟩ ⟨2 * w.val + 1, by omega⟩) (g ⟨2 * h.val + 1, by omega⟩ ⟨2 * w.val + 1, by omega⟩)) := by
  have key : ∀ (e ε : ℕ) (l : (⟨3, ![H, W, C2]⟩ : Shape).Slices ![0, 0, e] ⟨3, ![H, W, C]⟩) (he : e = ε * C) (hε : ε < 2),
      extractStridedSlice ⟨3, ![H, W, C]⟩ ![0, 0, e] (maximumf
          (shapeCast ⟨3, ![H, W, C2]⟩ (extractStridedSlice ⟨4, ![H, 1, W, C2]⟩ ![0, 0, 0, 0]
            (shapeCast ⟨4, ![H, 2, W, C2]⟩ (shapeCast ⟨3, ![H2, W, C2]⟩ Y sc1) sc2) sl0) sc3)
          (shapeCast ⟨3, ![H, W, C2]⟩ (extractStridedSlice ⟨4, ![H, 1, W, C2]⟩ ![0, 1, 0, 0]
            (shapeCast ⟨4, ![H, 2, W, C2]⟩ (shapeCast ⟨3, ![H2, W, C2]⟩ Y sc1) sc2) sl1) sc3)) l (ix3 h w o)
        = max (g ⟨2 * h.val + 0, by omega⟩ ⟨2 * w.val + ε, by omega⟩) (g ⟨2 * h.val + 1, by omega⟩ ⟨2 * w.val + ε, by omega⟩) := by
    intro e ε l he hε
    have hl : e + C ≤ C2 := l.2 2
    refine (extractStridedSlice_apply _ _ l _ (ix3 h w ⟨e + o.val, by omega⟩) (fun a => match a with
      | ⟨0, _⟩ => (Nat.zero_add _).symm
      | ⟨1, _⟩ => (Nat.zero_add _).symm
      | ⟨2, _⟩ => rfl)).trans ?_
    exact congrArg₂ max ((pair_apply Y sc1 sc2 sc3 hH hW hC hN 0 sl0 h w _ ε o (congrArg (· + o.val) he) (by omega) hε).trans (hg ⟨_, by omega⟩ ⟨_, by omega⟩))
      ((pair_apply Y sc1 sc2 sc3 hH hW hC hN 1 sl1 h w _ ε o (congrArg (· + o.val) he) (by omega) hε).trans (hg ⟨_, by omega⟩ ⟨_, by omega⟩))
  exact congrArg₂ max (key 0 0 l0 (Nat.zero_mul _).symm (by omega)) (key C 1 l1 (Nat.one_mul _).symm (by omega))

end Pool

end Cert.LibStage

end
-- ==== Proof.KStageAVal.lean ====
import proofs.«182102_g2000302601656725_pallasbulk_822_2_alg».proof.Proof.Spec
import proofs.«182102_g2000302601656725_pallasbulk_822_2_alg».proof.Proof.LibStage
import proofs.«182102_g2000302601656725_pallasbulk_822_2_alg».proof.Proof.KStageA
import Mathlib.Logic.Equiv.Fin.Basic

set_option maxRecDepth 16384

noncomputable section

open scoped BigOperators

namespace Cert.KernelIdeal.Hand

open Idealize.ShloMosaic Idealize.ShloMosaic.ValueIdx
open Cert.KernelIdeal Cert.KernelIdeal.Gen

namespace StageA

-- Five pieces of four channels side by side: entry k of the twenty is entry k % 4 of piece k / 4.
theorem cat5_apply {α : Type} (p : Fin 5 → (S68x64x4.Idx → α))
    (h : Shape.Concatenates [S68x64x4, S68x64x4, S68x64x4, S68x64x4, S68x64x4] S68x64x20 2)
    (r : Fin 68) (s : Fin 64) (k : Fin 20) :
    concatenate S68x64x20 2 [⟨S68x64x4, p 0⟩, ⟨S68x64x4, p 1⟩, ⟨S68x64x4, p 2⟩, ⟨S68x64x4, p 3⟩, ⟨S68x64x4, p 4⟩] h (ix3 r s k)
      = p ⟨k.val / 4, by omega⟩ (ix3 r s ⟨k.val % 4, by omega⟩) :=
  concatenate_ofFn_apply (t := S68x64x20) (s₁ := S68x64x4) 2 p h rfl 4 rfl (ix3 r s k)
    ⟨k.val / 4, by omega⟩ rfl (ix3 r s ⟨k.val % 4, by omega⟩) rfl
    (fun b hb => match b with
      | ⟨0, _⟩ => rfl
      | ⟨1, _⟩ => rfl
      | ⟨2, _⟩ => absurd rfl hb)

-- Piece j of the width-unrolled image is the image shifted j columns.
theorem pay2_apply (v0 : Vec Ideal S1x68x68x4 .bf16) (r : Fin 68) (s : Fin 64) (k : Fin 20) :
    k0_pay2 v0 (ix3 r s k) = v0 (ix4 (0 : Fin 1) r ⟨s.val + k.val / 4, by omega⟩ ⟨k.val % 4, by omega⟩) := by
  have piece : ∀ (j : ℕ) (hj : S68x68x4.Slices ![0, j, 0] S68x64x4) (c : Fin 4) (hjs : s.val + j < 68),
      extractStridedSlice S68x64x4 ![0, j, 0] (shapeCast S68x68x4 v0 shapeCasts_S1x68x68x4_S68x68x4) hj (ix3 r s c)
        = v0 (ix4 (0 : Fin 1) r ⟨s.val + j, hjs⟩ c) := fun j hj c hjs =>
    (slice3_axis1_apply j _ hj r s c ⟨s.val + j, hjs⟩ (Nat.add_comm _ _)).trans (shapeCast_1abc_abc_apply v0 _ r _ c)
  unfold k0_pay2
  refine (cat5_apply (fun j : Fin 5 => match j with
      | 0 => extractStridedSlice S68x64x4 ![0, 0, 0] (shapeCast S68x68x4 v0 shapeCasts_S1x68x68x4_S68x68x4) slices_S68x68x4_o0_0_0_S68x64x4
      | 1 => extractStridedSlice S68x64x4 ![0, 1, 0] (shapeCast S68x68x4 v0 shapeCasts_S1x68x68x4_S68x68x4) slices_S68x68x4_o0_1_0_S68x64x4
      | 2 => extractStridedSlice S68x64x4 ![0, 2, 0] (shapeCast S68x68x4 v0 shapeCasts_S1x68x68x4_S68x68x4) slices_S68x68x4_o0_2_0_S68x64x4
      | 3 => extractStridedSlice S68x64x4 ![0, 3, 0] (shapeCast S68x68x4 v0 shapeCasts_S1x68x68x4_S68x68x4) slices_S68x68x4_o0_3_0_S68x64x4
      | 4 => extractStridedSlice S68x64x4 ![0, 4, 0] (shapeCast S68x68x4 v0 shapeCasts_S1x68x68x4_S68x68x4) slices_S68x68x4_o0_4_0_S68x64x4)
    concatenates_S68x64x4_S68x64x4_S68x64x4_S68x64x4_S68x64x4_S68x64x20_d2 r s k).trans ?_
  have h5 : k.val / 4 = 0 ∨ k.val / 4 = 1 ∨ k.val / 4 = 2 ∨ k.val / 4 = 3 ∨ k.val / 4 = 4 := by omega
  rcases h5 with h | h | h | h | h
  · rw [show (⟨k.val / 4, by omega⟩ : Fin 5) = 0 from Fin.ext h]
    refine (piece 0 _ _ (by omega)).trans ?_
    congr 2; exact Fin.ext (by show s.val + 0 = s.val + k.val / 4; omega)
  · rw [show (⟨k.val / 4, by omega⟩ : Fin 5) = 1 from Fin.ext h]
    refine (piece 1 _ _ (by omega)).trans ?_
    congr 2; exact Fin.ext (by show s.val + 1 = s.val + k.val / 4; omega)
  · rw [show (⟨k.val / 4, by omega⟩ : Fin 5) = 2 from Fin.ext h]
    refine (piece 2 _ _ (by omega)).trans ?_
    congr 2; exact Fin.ext (by show s.val + 2 = s.val + k.val / 4; omega)
  · rw [show (⟨k.val / 4, by omega⟩ : Fin 5) = 3 from Fin.ext h]
    refine (piece 3 _ _ (by omega)).trans ?_
    congr 2; exact Fin.ext (by show s.val + 3 = s.val + k.val / 4; omega)
  · rw [show (⟨k.val / 4, by omega⟩ : Fin 5) = 4 from Fin.ext h]
    refine (piece 4 _ _ (by omega)).trans ?_
    congr 2; exact Fin.ext (by show s.val + 4 = s.val + k.val / 4; omega)

theorem ld_x (x0 : Vec Ideal S1x68x68x4 .bf16) : View.ld x0 r0_a1 = x0 :=
  View.ld_unit_zero (S := S1x68x68x4) (funext fun a => by fin_cases a <;> rfl) _ x0

theorem sum_fin20 {M : Type*} [AddCommMonoid M] (f : Fin 20 → M) :
    ∑ k : Fin 20, f k = ∑ j : Fin 5, ∑ c : Fin 4, f ⟨4 * j.val + c.val, by omega⟩ := by
  rw [← (finProdFinEquiv (m := 5) (n := 4)).sum_comp f, Fintype.sum_prod_type]
  refine Finset.sum_congr rfl fun j _ => Finset.sum_congr rfl fun c _ => ?_
  exact congrArg f (Fin.ext (by show c.val + 4 * j.val = 4 * j.val + c.val; omega))

private theorem fin3_congr {α : Sort _} {n1 n2 n3 : ℕ} (f : Fin n1 → Fin n2 → Fin n3 → α) {a a' : Fin n1} {b b' : Fin n2}
    {c c' : Fin n3} (ha : a.val = a'.val) (hb : b.val = b'.val) (hc : c.val = c'.val) : f a b c = f a' b' c' := by
  rw [Fin.ext ha, Fin.ext hb, Fin.ext hc]

section Value

variable (a : Cert.Spec.Args) (n : Fin 64)
  (x0 : Vec Ideal S1x68x68x4 .bf16) (x1 : Vec Ideal S5x20x128 .bf16)
  (h0 : ∀ (r s : Fin 68) (q : Fin 4), x0 (ix4 (0 : Fin 1) r s q)
    = if h : q.val < 3 then Spec.padz 2 (Spec.X a n) r s ⟨q.val, h⟩ else 0)
  (h1 : ∀ (i : Fin 5) (k : Fin 20) (o : Fin 128), x1 (ix3 i k o)
    = if h : k.val % 4 < 3 then a.w1 (ix3 ⟨i.val * 5 + k.val / 4, by have := i.isLt; have := k.isLt; omega⟩ ⟨k.val % 4, h⟩ o) else 0)

include h0 h1 in
-- One of the twenty products is width tap j, channel c; the fourth channel is zero on both sides.
theorem tap_term (i j : Fin 5) (r : Fin 68) (w : Fin 64) (o : Fin 128) (c : Fin 4) (k : Fin 20) (hk : k.val = 4 * j.val + c.val) :
    x0 (ix4 (0 : Fin 1) r ⟨w.val + k.val / 4, by omega⟩ ⟨k.val % 4, by omega⟩) * x1 (ix3 i k o)
      = if hc : c.val < 3 then
          Spec.padz 2 (Spec.X a n) r (⟨w.val + j.val, by omega⟩ : Fin 68) ⟨c.val, hc⟩
            * Spec.a3 a.w1 ⟨i.val * 5 + j.val, by omega⟩ ⟨c.val, hc⟩ o
        else 0 := by
  have e2 : k.val % 4 = c.val := by omega
  rw [h0, h1]
  by_cases hc : c.val < 3
  · rw [dif_pos (show k.val % 4 < 3 by omega), dif_pos (show k.val % 4 < 3 by omega), dif_pos hc]
    congr 1
    · exact fin3_congr (Spec.padz 2 (Spec.X a n)) rfl (by show w.val + k.val / 4 = w.val + j.val; omega) e2
    · exact fin3_congr (fun A B C => a.w1 (ix3 A B C)) (by show i.val * 5 + k.val / 4 = i.val * 5 + j.val; omega) e2 rfl
  · rw [dif_neg (show ¬ k.val % 4 < 3 by omega), dif_neg (show ¬ k.val % 4 < 3 by omega), dif_neg hc, zero_mul]

include h0 h1 in
-- Height tap i read at row r and column w: its twenty products are the five width taps over three channels.
theorem tap_value (i : Fin 5) (r : Fin 68) (w : Fin 64) (o : Fin 128) :
    (∑ k : Fin 20, k0_pay2 x0 (ix3 r w k) * x1 (ix3 i k o))
      = ∑ j : Fin 5, ∑ c : Fin 3,
          Spec.padz 2 (Spec.X a n) r (⟨w.val + j.val, by omega⟩ : Fin 68) c * Spec.a3 a.w1 ⟨i.val * 5 + j.val, by omega⟩ c o := by
  simp only [pay2_apply]
  rw [sum_fin20]
  refine Finset.sum_congr rfl fun j _ => ?_
  rw [Fin.sum_univ_castSucc, tap_term a n x0 x1 h0 h1 i j r w o (Fin.last 3) _ rfl, dif_neg (by show ¬ 3 < 3; omega), add_zero]
  refine Finset.sum_congr rfl fun c _ => ?_
  rw [tap_term a n x0 x1 h0 h1 i j r w o c.castSucc _ rfl, dif_pos (show c.castSucc.val < 3 from c.isLt)]
  rfl

end Value

end StageA

open StageA

-- The border, then the maximum over two-by-two squares, then at each pixel the five height taps and the affine step.
theorem stA_val (a : Cert.Spec.Args) (n : Fin 64)
    (x0 : Vec Ideal S1x68x68x4 .bf16) (x1 : Vec Ideal S5x20x128 .bf16) (x2 : Vec Ideal S3x128 .f32)
    (h0 : ∀ (r s : Fin 68) (q : Fin 4), x0 (ix4 (0 : Fin 1) r s q)
      = if h : q.val < 3 then Spec.padz 2 (Spec.X a n) r s ⟨q.val, h⟩ else 0)
    (h1 : ∀ (i : Fin 5) (k : Fin 20) (o : Fin 128), x1 (ix3 i k o)
      = if h : k.val % 4 < 3 then a.w1 (ix3 ⟨i.val * 5 + k.val / 4, by have := i.isLt; have := k.isLt; omega⟩ ⟨k.val % 4, h⟩ o) else 0)
    (h2 : x2 = a.b1) :
    ∀ (r s : Fin 36) (ch : Fin 128), stA x0 x1 x2 (ix3 r s ch) = Spec.padz 2 (Spec.P1 a n) r s ch := by
  intro r s ch
  subst h2
  unfold stA k0_pay5
  refine (LibStage.border_apply _ _ concatenates_S2x32x128_S32x32x128_S34x32x128_d0 concatenates_S34x32x128_S2x32x128_S36x32x128_d0
    concatenates_S36x2x128_S36x32x128_S36x34x128_d1 concatenates_S36x34x128_S36x2x128_S36x36x128_d1 rfl rfl rfl rfl r s ch).trans ?_
  unfold Spec.padz
  refine dite_congr rfl (fun hc => ?_) (fun _ => sitofp_zero)
  refine LibStage.pool_apply (W2 := 64) _ shapeCasts_S4096x128_S64x32x256 shapeCasts_S64x32x256_S32x2x32x256
    shapeCasts_S32x1x32x256_S32x32x256 rfl rfl rfl (fun r s => by omega) slices_S32x2x32x256_o0_0_0_0_S32x1x32x256 slices_S32x2x32x256_o0_1_0_0_S32x1x32x256
    slices_S32x32x256_o0_0_0_S32x32x128 slices_S32x32x256_o0_0_128_S32x32x128 bitsLt_bf16_f32 _ _ ch (fun h w => Spec.C1 a n h w ch)
    fun h w => ?_
  unfold k0_pay3 k0_pay4 Spec.C1 Spec.affA Spec.conv5
  simp only [maximumf_apply, addf_apply, mulf_apply, broadcast_apply,
    LibStage.tap_apply dot_S4096x20_S20x128_S4096x128_1_0_0_1_n_n rfl, LibStage.bld_apply, LibStage.zero_f32, ld_x,
    tap_value a n x0 x1 h0 h1, Fin.sum_univ_five, zero_add, add_assoc]
  rfl

end Cert.KernelIdeal.Hand

end
-- ==== Proof.KStageBVal.lean ====
import proofs.«182102_g2000302601656725_pallasbulk_822_2_alg».proof.Proof.Spec
import proofs.«182102_g2000302601656725_pallasbulk_822_2_alg».proof.Proof.LibStage
import proofs.«182102_g2000302601656725_pallasbulk_822_2_alg».proof.Proof.KStageB

set_option maxRecDepth 16384

noncomputable section

open scoped BigOperators

namespace Cert.KernelIdeal.Hand

open Idealize.ShloMosaic Idealize.ShloMosaic.ValueIdx Idealize.SL.Sem
open Cert.KernelIdeal Cert.KernelIdeal.Gen

-- The border, then the maximum over two-by-two squares, then at each pixel the twenty-five taps in reading order and the affine step.
theorem stB_val (a : Cert.Spec.Args) (n : Fin 64) (v69 : FVec Ideal S36x36x128 .bf16) (x3 : Vec Ideal S25x128x128 .bf16)
    (x4 : Vec Ideal S3x128 .f32) (hv : ∀ r s ch, v69 (ix3 r s ch) = Spec.padz 2 (Spec.P1 a n) r s ch)
    (h3 : x3 = a.w2) (h4 : x4 = a.b2) :
    ∀ (r s : Fin 18) (ch : Fin 128), stB v69 x3 x4 (ix3 r s ch) = Spec.padz 1 (Spec.P2 a n) r s ch := by
  intro r s ch
  subst h3 h4
  unfold stB k0_pay16
  refine (LibStage.border_apply _ _ concatenates_S1x16x128_S16x16x128_S17x16x128_d0 concatenates_S17x16x128_S1x16x128_S18x16x128_d0
    concatenates_S18x1x128_S18x16x128_S18x17x128_d1 concatenates_S18x17x128_S18x1x128_S18x18x128_d1 rfl rfl rfl rfl r s ch).trans ?_
  unfold Spec.padz
  refine dite_congr rfl (fun hc => ?_) (fun _ => sitofp_zero)
  refine LibStage.pool_apply (W2 := 32) _ shapeCasts_S1024x128_S32x16x256 shapeCasts_S32x16x256_S16x2x16x256
    shapeCasts_S16x1x16x256_S16x16x256 rfl rfl rfl (fun r s => by omega) slices_S16x2x16x256_o0_0_0_0_S16x1x16x256 slices_S16x2x16x256_o0_1_0_0_S16x1x16x256
    slices_S16x16x256_o0_0_0_S16x16x128 slices_S16x16x256_o0_0_128_S16x16x128 bitsLt_bf16_f32 _ _ ch (fun h w => Spec.C2 a n h w ch)
    fun h w => ?_
  unfold stBacc k0_pay14 k0_pay12 k0_pay10 k0_pay8 k0_pay9 k0_pay11 k0_pay13 k0_pay15 stBacc0 winB Spec.C2 Spec.affA Spec.conv5
  simp only [maximumf_apply, addf_apply, mulf_apply, broadcast_apply,
    LibStage.tap_apply dot_S1024x128_S128x128_S1024x128_1_0_0_1_n_n rfl, LibStage.bld_apply, LibStage.zero_f32, hv,
    Fin.sum_univ_five, zero_add, add_assoc]
  rfl

end Cert.KernelIdeal.Hand

end
-- ==== Proof.KStageCVal.lean ====
import proofs.«182102_g2000302601656725_pallasbulk_822_2_alg».proof.Proof.Spec
import proofs.«182102_g2000302601656725_pallasbulk_822_2_alg».proof.Proof.LibStage
import proofs.«182102_g2000302601656725_pallasbulk_822_2_alg».proof.Proof.KStageC

set_option maxRecDepth 16384

noncomputable section

open scoped BigOperators

namespace Cert.KernelIdeal.Hand

open Idealize.ShloMosaic Idealize.ShloMosaic.ValueIdx Idealize.SL.Sem
open Cert.KernelIdeal Cert.KernelIdeal.Gen

-- The border, then the maximum over two-by-two squares, then at each pixel the nine taps in reading order and the affine step.
theorem stC_val (a : Spec.Args) (n : Fin 64) (v251 : FVec Ideal S18x18x128 .bf16) (x5 : Vec Ideal S9x128x256 .bf16)
    (x6 : Vec Ideal S3x256 .f32) (hv : ∀ r s ch, v251 (ix3 r s ch) = Spec.padz 1 (Spec.P2 a n) r s ch)
    (h5 : x5 = a.w3) (h6 : x6 = a.b3) :
    ∀ (r s : Fin 10) (ch : Fin 256), stC v251 x5 x6 (ix3 r s ch) = Spec.padz 1 (Spec.P3 a n) r s ch := by
  intro r s ch
  subst h5 h6
  unfold stC k0_pay21
  refine (LibStage.border_apply _ _ concatenates_S1x8x256_S8x8x256_S9x8x256_d0 concatenates_S9x8x256_S1x8x256_S10x8x256_d0
    concatenates_S10x1x256_S10x8x256_S10x9x256_d1 concatenates_S10x9x256_S10x1x256_S10x10x256_d1 rfl rfl rfl rfl r s ch).trans ?_
  unfold Spec.padz
  refine dite_congr rfl (fun hc => ?_) (fun _ => sitofp_zero)
  refine LibStage.pool_apply (W2 := 16) _ shapeCasts_S256x256_S16x8x512 shapeCasts_S16x8x512_S8x2x8x512
    shapeCasts_S8x1x8x512_S8x8x512 rfl rfl rfl (fun r s => by omega) slices_S8x2x8x512_o0_0_0_0_S8x1x8x512 slices_S8x2x8x512_o0_1_0_0_S8x1x8x512
    slices_S8x8x512_o0_0_0_S8x8x256 slices_S8x8x512_o0_0_256_S8x8x256 bitsLt_bf16_f32 _ _ ch (fun h w => Spec.C3 a n h w ch)
    fun h w => ?_
  unfold stC_acc k0_pay19 k0_pay20 mmC winC Spec.C3 Spec.affA Spec.conv3
  simp only [maximumf_apply, addf_apply, mulf_apply, broadcast_apply,
    LibStage.tap_apply dot_S256x128_S128x256_S256x256_1_0_0_1_n_n rfl, LibStage.bld_apply, LibStage.zero_f32, hv,
    Fin.sum_univ_three, zero_add, add_assoc]
  rfl

end Cert.KernelIdeal.Hand

end
-- ==== Proof.KStageDVal.lean ====
import proofs.«182102_g2000302601656725_pallasbulk_822_2_alg».proof.Proof.Spec
import proofs.«182102_g2000302601656725_pallasbulk_822_2_alg».proof.Proof.LibStage
import proofs.«182102_g2000302601656725_pallasbulk_822_2_alg».proof.Proof.KStageD

set_option maxRecDepth 16384

noncomputable section

open scoped BigOperators

namespace Cert.KernelIdeal.Hand

open Idealize.ShloMosaic Idealize.ShloMosaic.ValueIdx Idealize.SL.Sem
open Cert.KernelIdeal Cert.KernelIdeal.Gen

-- Each product at row h * 8 + w is one tap of the convolution at pixel (h, w); added in reading order they are its double sum.
theorem stD_at (a : Spec.Args) (n : Fin 64) (v : FVec Ideal S10x10x256 .bf16)
    (hv : ∀ r s ch, v (ix3 r s ch) = Spec.padz 1 (Spec.P3 a n) r s ch) (h w : Fin 8) (o : Fin 512) :
    stD v a.w4 a.b4 (ix3 0 ⟨h.val * 8 + w.val, by omega⟩ o) = Spec.C4 a n h w o := by
  unfold stD k0_pay1 stD_acc k0_pay24 k0_pay25 stD_acc0 winD Spec.C4 Spec.affB Spec.conv3
  simp only [shapeCast_ab_1ab_apply, truncf_apply, maximumf_apply, addf_apply, mulf_apply, broadcast_apply,
    LibStage.tap_apply dot_S64x256_S256x512_S64x512_1_0_0_1_n_n rfl, LibStage.bld_apply, LibStage.zero_f32, hv,
    Fin.sum_univ_three, zero_add, add_assoc]
  rfl

theorem stD_val (a : Spec.Args) (n : Fin 64) (v337 : FVec Ideal S10x10x256 .bf16) (x7 : Vec Ideal S9x256x512 .bf16)
    (x8 : Vec Ideal S3x512 .f32) (hv : ∀ r s ch, v337 (ix3 r s ch) = Spec.padz 1 (Spec.P3 a n) r s ch)
    (h7 : x7 = a.w4) (h8 : x8 = a.b4) :
    ∀ (hw : Fin 64) (o : Fin 512), stD v337 x7 x8 (ix3 0 hw o)
      = Spec.C4 a n ⟨hw.val / 8, by have := hw.isLt; omega⟩ ⟨hw.val % 8, by omega⟩ o := by
  intro hw o
  subst h7 h8
  have e : hw = (⟨hw.val / 8 * 8 + hw.val % 8, by have := hw.isLt; omega⟩ : Fin 64) := Fin.ext (by show hw.val = hw.val / 8 * 8 + hw.val % 8; omega)
  exact (congrArg (fun q => stD v337 a.w4 a.b4 (ix3 0 q o)) e).trans
    (stD_at a n v337 hv ⟨hw.val / 8, by have := hw.isLt; omega⟩ ⟨hw.val % 8, by omega⟩ o)

end Cert.KernelIdeal.Hand

end
-- ==== Proof.KR0Value.lean ====
import proofs.«182102_g2000302601656725_pallasbulk_822_2_alg».proof.Proof.KR0Val
import proofs.«182102_g2000302601656725_pallasbulk_822_2_alg».proof.Proof.KStageAVal
import proofs.«182102_g2000302601656725_pallasbulk_822_2_alg».proof.Proof.KStageBVal
import proofs.«182102_g2000302601656725_pallasbulk_822_2_alg».proof.Proof.KStageCVal
import proofs.«182102_g2000302601656725_pallasbulk_822_2_alg».proof.Proof.KStageDVal

set_option maxRecDepth 16384

noncomputable section

namespace Cert.KernelIdeal.Hand

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

-- The four stage values, put together, are what the region's array-level statement asks.
theorem value0 (c : Dev nD) (a : Cert.Spec.Args)
    (h0 : ∀ (n : Fin 64) (r s : Fin 68) (q : Fin 4), (V c main_v5 : S64x68x68x4.Idx → EReal) (ix4 n r s q) = if h : q.val < 3 then Cert.Spec.padz 2 (Cert.Spec.X a n) r s ⟨q.val, h⟩ else 0)
    (h1 : ∀ (i : Fin 5) (k : Fin 20) (o : Fin 128), (V c main_v8 : S5x20x128.Idx → EReal) (ix3 i k o) = if h : k.val % 4 < 3 then a.w1 (ix3 ⟨i.val * 5 + k.val / 4, by have := i.isLt; have := k.isLt; omega⟩ ⟨k.val % 4, h⟩ o) else 0)
    (h2 : (V c main_arg2 : S3x128.Idx → EReal) = a.b1) (h3 : (V c main_arg3 : S25x128x128.Idx → EReal) = a.w2)
    (h4 : (V c main_arg4 : S3x128.Idx → EReal) = a.b2) (h5 : (V c main_arg5 : S9x128x256.Idx → EReal) = a.w3)
    (h6 : (V c main_arg6 : S3x256.Idx → EReal) = a.b3) (h7 : (V c main_arg7 : S9x256x512.Idx → EReal) = a.w4)
    (h8 : (V c main_arg8 : S3x512.Idx → EReal) = a.b4)
    (n : Fin 64) (hw : Fin 64) (o : Fin 512) :
    ((dat0 V c).arrAt 9 cfg0.N : S64x64x512.Idx → EReal) (ix3 n hw o)
      = Cert.Spec.C4 a n ⟨hw.val / 8, by have := hw.isLt; omega⟩ ⟨hw.val % 8, by omega⟩ o :=
  value0_of V c a ⟨fun n => stA_val a n, fun n => stB_val a n, fun n => stC_val a n, fun n => stD_val a n⟩ h0 h1 h2 h3 h4 h5 h6 h7 h8 n hw o

end Cert.KernelIdeal.Hand

end
-- ==== Proof.KR1Pay.lean ====
import proofs.«182102_g2000302601656725_pallasbulk_822_2_alg».proof.Proof.Gen.KernelIdeal.Skeleton
import proofs.«182102_g2000302601656725_pallasbulk_822_2_alg».proof.Proof.LibPlainDot
import proofs.«182102_g2000302601656725_pallasbulk_822_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx Idealize.ShloMosaic.Pipeline
open Cert.KernelIdeal Cert.KernelIdeal.Gen Cert.Spec

theorem fc5_clear_apply (n : Fin 64) (u : Fin 512) : (k1_pay1 (F := Ideal)) (ix2 n u) = 0 := by
  unfold k1_pay1
  rw [shapeCast_self]
  exact Ideal.ofBits_zero_f32

theorem fc5_row_of3 (b : Vec Ideal S3x512 .f32) (r : Fin 3) (off : Fin 2 → Nat) (hoff : off = ![r.val, 0])
    (hs : S3x512.Slices off S1x512) (hb : S1x512.Broadcasts S64x512) (n : Fin 64) (u : Fin 512) :
    broadcastTo S64x512 (extractStridedSlice S1x512 off b hs) hb (ix2 n u) = b (ix2 r u) := by
  subst hoff
  refine (broadcastTo_apply _ hb (ix2 n u) (ix2 (0 : Fin 1) u) ?_).trans ?_
  · intro a
    match a with
    | ⟨0, _⟩ | ⟨1, _⟩ => rfl
  · refine extractStridedSlice_apply _ b hs (ix2 (0 : Fin 1) u) (ix2 r u) ?_
    intro a
    match a with
    | ⟨0, _⟩ => show r.val = r.val + 0; omega
    | ⟨1, _⟩ => show u.val = 0 + u.val; omega

def fc5_chunk (a : Args) (n : Fin 64) (u : Fin 1024) (c : Fin 8) : EReal :=
  ∑ q : Fin 4096,
    flat a n ⟨c.val * 4096 + q.val, by have := c.isLt; have := q.isLt; omega⟩
      * a.w5 (ix2 ⟨c.val * 4096 + q.val, by have := c.isLt; have := q.isLt; omega⟩ u)

def fc5_psum (a : Args) (n : Fin 64) (u : Fin 1024) : (k : ℕ) → k < 8 → EReal
  | 0, h => 0 + fc5_chunk a n u ⟨0, h⟩
  | k + 1, h => fc5_psum a n u k (Nat.lt_of_succ_lt h) + fc5_chunk a n u ⟨k + 1, h⟩

theorem fc5_psum_last (a : Args) (n : Fin 64) (u : Fin 1024) : fc5_psum a n u 7 (by decide) = acc5 a n u := by
  simp only [fc5_psum]
  rw [zero_add]
  show _ = ∑ j : Fin 8, fc5_chunk a n u j
  rw [Fin.sum_univ_eight]
  rfl

/-- One accumulation over the two blocks of point (j, k) adds chunk `k` of the sum for column block `j`. -/
theorem fc5_acc_step (a : Args) (j : Fin 2) (k : Fin 8) (s : Vec Ideal S64x512 .f32) (x : Vec Ideal S64x4096 .bf16)
    (w : Vec Ideal S4096x512 .bf16)
    (hx : ∀ (n : Fin 64) (q : Fin 4096), x (ix2 n q)
      = flat a n ⟨k.val * 4096 + q.val, by have := k.isLt; have := q.isLt; omega⟩)
    (hw : ∀ (q : Fin 4096) (u : Fin 512), w (ix2 q u)
      = a.w5 (ix2 ⟨k.val * 4096 + q.val, by have := k.isLt; have := q.isLt; omega⟩
          ⟨512 * j.val + u.val, by have := j.isLt; have := u.isLt; omega⟩))
    (n : Fin 64) (u : Fin 512) :
    k1_pay2 s x w (ix2 n u)
      = s (ix2 n u) + fc5_chunk a n ⟨512 * j.val + u.val, by have := j.isLt; have := u.isLt; omega⟩ k := by
  unfold k1_pay2
  rw [shapeCast_self, shapeCast_self]
  refine congrArg (s (ix2 n u) + ·)
    ((Cert.LibPlainDot.matmul_plain_apply (φ₁ := .bf16) (φ₂ := .bf16) 64 4096 512 none x w n u).trans ?_)
  exact Finset.sum_congr rfl fun q _ => by rw [hx, hw]

/-- The last point of a column block stores the whole sum shifted by table row 0, clamped at zero, scaled by row 1 and shifted by row 2. -/
theorem fc5_fv_of_acc (a : Args) (j : Fin 2) (s : Vec Ideal S64x512 .f32) (b : Vec Ideal S3x512 .f32)
    (hs : ∀ (n : Fin 64) (u : Fin 512), s (ix2 n u)
      = acc5 a n ⟨512 * j.val + u.val, by have := j.isLt; have := u.isLt; omega⟩)
    (hb : ∀ (r : Fin 3) (u : Fin 512), b (ix2 r u)
      = a.b5 (ix2 r ⟨512 * j.val + u.val, by have := j.isLt; have := u.isLt; omega⟩))
    (n : Fin 64) (u : Fin 512) :
    k1_pay3 s b (ix2 n u) = fv a n ⟨512 * j.val + u.val, by have := j.isLt; have := u.isLt; omega⟩ := by
  unfold k1_pay3 fv
  refine (truncf_apply (φ := .f32) (ψ := .bf16) _ bitsLt_bf16_f32 (ix2 n u)).trans ?_
  refine (addf_apply _ _ _).trans (congrArg₂ (· + ·) ?_ ((fc5_row_of3 b 2 _ rfl _ _ n u).trans (hb 2 u)))
  refine (mulf_apply _ _ _).trans (congrArg₂ (· * ·) ?_ ((fc5_row_of3 b 1 _ rfl _ _ n u).trans (hb 1 u)))
  refine (maximumf_apply _ _ _).trans (congrArg₂ max ?_ Ideal.ofBits_zero_f32)
  exact (addf_apply _ _ _).trans (congrArg₂ (· + ·) (hs n u) ((fc5_row_of3 b 0 _ rfl _ _ n u).trans (hb 0 u)))

end Cert.KernelIdeal.Hand

end
-- ==== Proof.KR1Val.lean ====
import proofs.«182102_g2000302601656725_pallasbulk_822_2_alg».proof.Proof.KR1Frame
import proofs.«182102_g2000302601656725_pallasbulk_822_2_alg».proof.Proof.KR1Pay
import proofs.«182102_g2000302601656725_pallasbulk_822_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b)) (c : Dev nD) (a : Cert.Spec.Args)

theorem idx_facts1 : ∀ t : Fin cfg1.N,
    win1_0.index t (0 : Fin 2) = 0 ∧ win1_0.index t (1 : Fin 2) = t.val % 8
    ∧ win1_1.index t (0 : Fin 2) = t.val % 8 ∧ win1_1.index t (1 : Fin 2) = t.val / 8
    ∧ win1_2.index t (0 : Fin 2) = 0 ∧ win1_2.index t (1 : Fin 2) = t.val / 8
    ∧ win1_3.index t (0 : Fin 2) = 0 ∧ win1_3.index t (1 : Fin 2) = t.val / 8 :=
  (by decide +kernel : ∀ t : Fin grid1.N, _)

abbrev xblk (t : Fin cfg1.N) : Vec Ideal S64x4096 .bf16 := iblk1 V c 0 t
abbrev wblk (t : Fin cfg1.N) : Vec Ideal S4096x512 .bf16 := iblk1 V c 1 t
abbrev bblk (t : Fin cfg1.N) : Vec Ideal S3x512 .f32 := iblk1 V c 2 t
abbrev xarr : Vec Ideal S64x32768 .bf16 := V c main_v10
abbrev warr : Vec Ideal S32768x1024 .bf16 := V c main_arg9
abbrev barr : Vec Ideal S3x1024 .f32 := V c main_arg10

theorem xblk_apply (t : Fin cfg1.N) (k : ℕ) (hk : t.val % 8 = k) (n : Fin 64) (q : Fin 4096) :
    xblk V c t (ix2 n q) = xarr V c (ix2 n ⟨k * 4096 + q.val, by have := q.isLt; omega⟩) := by
  subst hk
  obtain ⟨e0, e1, -⟩ := idx_facts1 t
  refine congrArg (xarr V c) (Shape.idx_ext₂ ?_ ?_)
  · show win1_0.index t (0 : Fin 2) * 64 + 1 * n.val = n.val; rw [e0]; omega
  · show win1_0.index t (1 : Fin 2) * 4096 + 1 * q.val = t.val % 8 * 4096 + q.val; rw [e1]; omega

theorem wblk_apply (t : Fin cfg1.N) (k : ℕ) (hk : t.val % 8 = k) (j : Fin 2) (hj : t.val / 8 = j.val) (q : Fin 4096) (u : Fin 512) :
    wblk V c t (ix2 q u) = warr V c (ix2 ⟨k * 4096 + q.val, by have := q.isLt; omega⟩
      ⟨512 * j.val + u.val, by have := j.isLt; have := u.isLt; omega⟩) := by
  subst hk
  obtain ⟨-, -, e2, e3, -⟩ := idx_facts1 t
  refine congrArg (warr V c) (Shape.idx_ext₂ ?_ ?_)
  · show win1_1.index t (0 : Fin 2) * 4096 + 1 * q.val = t.val % 8 * 4096 + q.val; rw [e2]; omega
  · show win1_1.index t (1 : Fin 2) * 512 + 1 * u.val = 512 * j.val + u.val; rw [e3, hj]; omega

theorem bblk_apply (t : Fin cfg1.N) (j : Fin 2) (hj : t.val / 8 = j.val) (r : Fin 3) (u : Fin 512) :
    bblk V c t (ix2 r u) = barr V c (ix2 r ⟨512 * j.val + u.val, by have := j.isLt; have := u.isLt; omega⟩) := by
  obtain ⟨-, -, -, -, e4, e5, -⟩ := idx_facts1 t
  refine congrArg (barr V c) (Shape.idx_ext₂ ?_ ?_)
  · show win1_2.index t (0 : Fin 2) * 3 + 1 * r.val = r.val; rw [e4]; omega
  · show win1_2.index t (1 : Fin 2) * 512 + 1 * u.val = 512 * j.val + u.val; rw [e5, hj]; omega

theorem step1_eq (s : Vec Ideal S64x512 .f32) (x : Vec Ideal S64x4096 .bf16) (w : Vec Ideal S4096x512 .bf16) :
    step1 s x w = k1_pay2 s x w := by
  unfold step1
  rw [View.ld_unit_zero zeros2', View.ld_unit_zero zeros2', View.ld_unit_zero zeros2']

theorem out1_3_eq (s : Vec Ideal S64x512 .f32) (x2 : Vec Ideal S3x512 .f32) : out1_3 s x2 = k1_pay3 s x2 := by
  unfold out1_3
  rw [View.canon_unit_zero zeros2']
  unfold body1
  rw [View.ld_unit_zero zeros2', View.ld_unit_zero zeros2']

variable (h0 : ∀ (n : Fin 64) (q : Fin 32768), xarr V c (ix2 n q) = Cert.Spec.flat a n q) (h1 : warr V c = a.w5)
include h0 h1

/-- Induction on the chunk number: each point adds its chunk to what the point before left. -/
theorem scr1_eq (j : Fin 2) :
    ∀ (k : ℕ) (hk : k < 8) (t : Fin cfg1.N), t.val % 8 = k → t.val / 8 = j.val → ∀ (n : Fin 64) (u : Fin 512),
      scr1 V c t.val t.isLt (ix2 n u)
        = fc5_psum a n ⟨512 * j.val + u.val, by have := j.isLt; have := u.isLt; omega⟩ k hk
  | 0, hk, t, hm, hd, n, u => by
    refine (congrFun (scr1_first V c t hm) (ix2 n u)).trans ?_
    rw [step1_eq]
    exact (fc5_acc_step a j ⟨0, hk⟩ _ _ _ (fun n q => (xblk_apply V c t 0 hm n q).trans (h0 n _))
      (fun q u => (wblk_apply V c t 0 hm j hd q u).trans (congrFun h1 _)) n u).trans
      (congrArg (· + _) (fc5_clear_apply n u))
  | k + 1, hk, t, hm, hd, n, u => by
    refine (congrFun (scr1_next V c t (by omega)) (ix2 n u)).trans ?_
    rw [step1_eq]
    exact (fc5_acc_step a j ⟨k + 1, hk⟩ _ _ _ (fun n q => (xblk_apply V c t (k + 1) hm n q).trans (h0 n _))
      (fun q u => (wblk_apply V c t (k + 1) hm j hd q u).trans (congrFun h1 _)) n u).trans
      (congrArg (· + _) (scr1_eq j k (Nat.lt_of_succ_lt hk) ⟨t.val - 1, by have := t.isLt; omega⟩
        (by show (t.val - 1) % 8 = k; omega) (by show (t.val - 1) / 8 = j.val; omega) n u))

abbrev G1 : Buf (Elt Ideal) ((c : Thread nD τ).loc main_v11) :=
  fun i => Cert.Spec.fv a ⟨(i 0).val, (i 0).isLt⟩ ⟨(i 1).val, (i 1).isLt⟩

variable (h2 : barr V c = a.b5)
include h2

/-- At remainder 7 the running sum is the whole sum, so what is stored there is the layer's output. -/
theorem flushed1_eq (t : Fin cfg1.N) (hf : (cfg1.win 3).flush t = true) :
    (dat1 V c).flushed 3 t = ((cfg1.win 3).blk t).view.read (Elt Ideal) (G1 c a) := by
  have h7 : t.val % 8 = 7 := (flush1_3 t).mp hf
  have hN : t.val < 16 := lt_of_lt_of_eq t.isLt (show cfg1.N = 16 from N_1)
  obtain ⟨-, -, -, -, -, -, e6, e7⟩ := idx_facts1 t
  show (cfg1.win 3).cut (grid1.coords t) ((dat1 V c).after 3 t) = _
  rw [after1_3, out1_3_eq]
  funext y
  obtain ⟨n, u, rfl⟩ : ∃ (n : Fin 64) (u : Fin 512), y = ix2 n u := ⟨y 0, y 1, eq_ix2 y⟩
  refine (fc5_fv_of_acc a ⟨t.val / 8, by omega⟩ (scr1 V c t.val t.isLt) (bblk V c t) (fun n u => ?_)
    (fun r u => by rw [bblk_apply V c t ⟨t.val / 8, by omega⟩ rfl r u, h2]) n u).trans ?_
  · rw [scr1_eq V c a h0 h1 ⟨t.val / 8, by omega⟩ 7 (by decide) t h7 rfl n u, fc5_psum_last]
  · refine congrArg₂ (Cert.Spec.fv a) (Fin.ext ?_) (Fin.ext ?_)
    · show n.val = win1_3.index t (0 : Fin 2) * 64 + 1 * n.val; rw [e6]; omega
    · show 512 * (t.val / 8) + u.val = win1_3.index t (1 : Fin 2) * 512 + 1 * u.val; rw [e7]; omega

/-- Column `u` of the result lies in the block of the last point of column block `u / 512`, so the array ends holding `G1`. -/
theorem final1 : (dat1 V c).arrAt 3 cfg1.N = G1 c a :=
  (dat1 V c).arrAt_eq_of_cover 3 (G1 c a) (flushed1_eq V c a h0 h1 h2) fun (i : S64x1024.Idx) => by
    have hi0 : (i 0).val < 64 := (i 0).isLt
    have hi1 : (i 1).val < 1024 := (i 1).isLt
    have hj : (i 1).val / 512 < 2 := by omega
    have ht : 8 * ((i 1).val / 512) + 7 < cfg1.N := by rw [show cfg1.N = 16 from N_1]; omega
    refine ⟨⟨_, ht⟩, (flush1_3 _).mpr (by show (8 * ((i 1).val / 512) + 7) % 8 = 7; omega), ?_⟩
    obtain ⟨-, -, -, -, -, -, e6, e7⟩ := idx_facts1 ⟨_, ht⟩
    show i ∈ ((View.whole main_v11).slice (win1_3.rect ⟨_, ht⟩)).set
    rw [View.set_slice_whole, Rect.mem_set_unit]
    intro b
    match b with
    | ⟨0, _⟩ =>
      show win1_3.index _ (0 : Fin 2) * 64 ≤ (i 0).val ∧ (i 0).val < win1_3.index _ (0 : Fin 2) * 64 + 64
      rw [e6]; omega
    | ⟨1, _⟩ =>
      show win1_3.index _ (1 : Fin 2) * 512 ≤ (i 1).val ∧ (i 1).val < win1_3.index _ (1 : Fin 2) * 512 + 512
      rw [e7]; show (8 * ((i 1).val / 512) + 7) / 8 * 512 ≤ (i 1).val ∧ (i 1).val < (8 * ((i 1).val / 512) + 7) / 8 * 512 + 512
      omega

theorem value1 (n : Fin 64) (u : Fin 1024) :
    ((dat1 V c).arrAt 3 cfg1.N : S64x1024.Idx → EReal) (ix2 n u) = Cert.Spec.fv a n u :=
  congrFun (final1 V c a h0 h1 h2) (ix2 n u)

end Cert.KernelIdeal.Hand

end
-- ==== Proof.KR2Pay.lean ====
import proofs.«182102_g2000302601656725_pallasbulk_822_2_alg».proof.Proof.Gen.KernelIdeal.Skeleton
import proofs.«182102_g2000302601656725_pallasbulk_822_2_alg».proof.Proof.LibPlainDot
import proofs.«182102_g2000302601656725_pallasbulk_822_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx Idealize.ShloMosaic.Pipeline
open Cert.KernelIdeal Cert.KernelIdeal.Gen Cert.Spec

theorem mlp_row_of1 {R C : Nat} (b : FVec Ideal ⟨2, ![1, C]⟩ .f32) (hb : (⟨2, ![1, C]⟩ : Shape).Broadcasts ⟨2, ![R, C]⟩)
    (hC : C ≠ 1) (r : Fin R) (t : Fin C) :
    broadcastTo ⟨2, ![R, C]⟩ b hb (ix2 r t) = b (ix2 0 t) := by
  refine broadcastTo_apply _ hb (ix2 r t) (ix2 (0 : Fin 1) t) ?_
  intro a
  match a with
  | ⟨0, _⟩ => rfl
  | ⟨1, _⟩ => show t.val = if C = 1 then 0 else t.val; rw [if_neg hC]

theorem mlp_rows_from (x : Vec Ideal S64x1024 .bf16) (o : Nat) (off : Fin 2 → Nat) (hoff : off = ![o, 0])
    (hs : S64x1024.Slices off S32x1024) (r : Fin 32) (u : Fin 1024) (ho : r.val + o < 64) :
    extractStridedSlice S32x1024 off x hs (ix2 r u) = x (ix2 ⟨r.val + o, ho⟩ u) := by
  subst hoff
  refine extractStridedSlice_apply _ x hs (ix2 r u) (ix2 ⟨r.val + o, ho⟩ u) ?_
  intro a
  match a with
  | ⟨0, _⟩ => show r.val + o = o + r.val; omega
  | ⟨1, _⟩ => show u.val = 0 + u.val; omega

/-- With the features at the wide layer's output and the first weight matrix read through its two halves, the stored entry is the specification's result. -/
theorem mlp_out_of_blocks (a : Args) (f : Vec Ideal S64x1024 .bf16) (wu wl : Vec Ideal S1024x256 .bf16)
    (hf : ∀ (n : Fin 64) (u : Fin 1024), f (ix2 n u) = fv a n u)
    (hwu : ∀ (u : Fin 1024) (t : Fin 256), wu (ix2 u t) = a.wf1 (ix2 ⟨u.val, by have := u.isLt; omega⟩ t))
    (hwl : ∀ (u : Fin 1024) (t : Fin 256), wl (ix2 u t) = a.wf1 (ix2 ⟨u.val + 1024, by have := u.isLt; omega⟩ t))
    (r : Fin 32) (v : Fin 2) :
    k2_pay1 f wu wl a.bf1 a.wf2 a.bf2 (ix2 r v) = out a r v := by
  unfold k2_pay1 out hid
  rw [shapeCast_self]
  refine (addf_apply _ _ _).trans (congrArg₂ (· + ·) ?_ (mlp_row_of1 (R := 32) (C := 2) a.bf2 _ (by decide) r v))
  refine (Cert.LibPlainDot.matmul_plain_apply (φ₁ := .bf16) (φ₂ := .bf16) 32 256 2 none _ a.wf2 r v).trans ?_
  refine Finset.sum_congr rfl fun t _ => congrArg (· * a.wf2 (ix2 t v)) ?_
  refine (truncf_apply (φ := .f32) (ψ := .bf16) _ bitsLt_bf16_f32 (ix2 r t)).trans ?_
  refine (maximumf_apply _ _ _).trans (congrArg₂ max ?_ Ideal.ofBits_zero_f32)
  refine (addf_apply _ _ _).trans (congrArg₂ (· + ·) ?_ (mlp_row_of1 (R := 32) (C := 256) a.bf1 _ (by decide) r t))
  refine (addf_apply _ _ _).trans (congrArg₂ (· + ·) ?_ ?_)
  · refine (Cert.LibPlainDot.matmul_plain_apply (φ₁ := .bf16) (φ₂ := .bf16) 32 1024 256 none _ wu r t).trans ?_
    exact Finset.sum_congr rfl fun u _ => congrArg₂ (· * ·)
      ((mlp_rows_from f 0 _ rfl _ r u (by have := r.isLt; omega)).trans (hf _ u)) (hwu u t)
  · refine (Cert.LibPlainDot.matmul_plain_apply (φ₁ := .bf16) (φ₂ := .bf16) 32 1024 256 none _ wl r t).trans ?_
    exact Finset.sum_congr rfl fun u _ => congrArg₂ (· * ·)
      ((mlp_rows_from f 32 _ rfl _ r u (by have := r.isLt; omega)).trans (hf _ u)) (hwl u t)

end Cert.KernelIdeal.Hand

end
-- ==== Proof.KR2Val.lean ====
import proofs.«182102_g2000302601656725_pallasbulk_822_2_alg».proof.Proof.KR2Frame
import proofs.«182102_g2000302601656725_pallasbulk_822_2_alg».proof.Proof.KR2Pay
import proofs.«182102_g2000302601656725_pallasbulk_822_2_alg».proof.Proof.Spec
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem mlp_hz : (![0, 0] : Fin 2 → Nat) = fun _ => 0 := funext fun a => by fin_cases a <;> rfl

theorem mlp_idx_zero : ∀ t : Fin cfg2.N,
    (∀ a, win2_0.index t a = 0) ∧ (∀ a, win2_1.index t a = 0) ∧ (∀ a, win2_2.index t a = 0)
    ∧ (∀ a, win2_3.index t a = 0) ∧ (∀ a, win2_4.index t a = 0) ∧ (∀ a, win2_5.index t a = 0) :=
  (by decide +kernel : ∀ t : Fin grid2.N, _)

/-- A function read through a map that keeps every coordinate is the function. -/
private theorem read_id {S : Shape} {α : Type} (X : S.Idx → α) (f : S.Idx → S.Idx) (h : ∀ j b, ((f j b : Fin _) : ℕ) = j b) :
    (fun j => X (f j)) = X :=
  funext fun j => congrArg X (funext fun b => Fin.ext (h j b))

theorem mlp_cover (i : S32x2.Idx) :
    ∃ t : Fin cfg2.N, (cfg2.win 5).flush t = true ∧ i ∈ ((cfg2.win 5).blk t).view.set := by
  refine ⟨t2_0, flush2_5 t2_0, ?_⟩
  show i ∈ ((View.whole main_v12).slice (win2_5.rect t2_0)).set
  rw [View.set_slice_whole, Rect.mem_set_unit]
  intro b
  have hb := (i b).isLt
  show win2_5.index t2_0 b * S32x2.size b ≤ (i b).val ∧ (i b).val < win2_5.index t2_0 b * S32x2.size b + S32x2.size b
  rw [(mlp_idx_zero t2_0).2.2.2.2.2 b]
  omega

abbrev mlp_G (a : Args) : S32x2.Idx → Ideal .f32 := fun i => out a (i 0) (i 1)

variable (V : (c : Dev nD) → (b : Ref sig .tc) → Buf (Elt Ideal) ((c : Thread nD τ).loc b)) (c : Dev nD) (a : Args)
  (h0 : ∀ (n : Fin 64) (u : Fin 1024), (V c main_v11 : S64x1024.Idx → EReal) (ix2 n u) = fv a n u)
  (h1 : (V c main_arg11 : S2048x256.Idx → EReal) = a.wf1) (h2 : (V c main_arg12 : S1x256.Idx → EReal) = a.bf1)
  (h3 : (V c main_arg13 : S256x2.Idx → EReal) = a.wf2) (h4 : (V c main_arg14 : S1x2.Idx → EReal) = a.bf2)
include h0 h1 h2 h3 h4

/-- The body's inputs are the whole arrays, and its value on them is the specification's result. -/
theorem mlp_flushed (t : Fin cfg2.N) :
    (dat2 V c).flushed 5 t = ((cfg2.win 5).blk t).view.read (Elt Ideal) (mlp_G a) := by
  obtain ⟨z0, z1, z2, z3, z4, z5⟩ := mlp_idx_zero t
  show (cfg2.win 5).cut (grid2.coords t) ((dat2 V c).after 5 t) = _
  rw [after2_5, show iblk2 V c 0 t = V c main_v11 from read_id _ _ fun j b => win2_0.rect_emb_val_of_index_zero t b (z0 b) j,
    show iblk2 V c 1 t = a.wf1 from (read_id _ _ fun j b => win2_1.rect_emb_val_of_index_zero t b (z1 b) j).trans h1,
    show iblk2 V c 2 t = a.bf1 from (read_id _ _ fun j b => win2_2.rect_emb_val_of_index_zero t b (z2 b) j).trans h2,
    show iblk2 V c 3 t = a.wf2 from (read_id _ _ fun j b => win2_3.rect_emb_val_of_index_zero t b (z3 b) j).trans h3,
    show iblk2 V c 4 t = a.bf2 from (read_id _ _ fun j b => win2_4.rect_emb_val_of_index_zero t b (z4 b) j).trans h4]
  unfold out2_5 body2
  rw [View.canon_unit_zero mlp_hz, View.ld_unit_zero mlp_hz, View.ld_unit_zero mlp_hz, View.ld_unit_zero mlp_hz,
    View.ld_unit_zero mlp_hz]
  funext j
  rw [View.read_apply]
  show k2_pay1 _ _ _ _ _ _ ((cfg2.win 5).xinj (grid2.coords t) j) = mlp_G a _
  rw [eq_ix2 ((cfg2.win 5).xinj (grid2.coords t) j)]
  refine (mlp_out_of_blocks a _ _ _ h0
    (fun u q => congrArg a.wf1 (Shape.idx_ext₂ (by show 0 + 1 * u.val = u.val; omega) (by show 0 + 1 * q.val = q.val; omega)))
    (fun u q => congrArg a.wf1 (Shape.idx_ext₂ (by show 1024 + 1 * u.val = u.val + 1024; omega) (by show 0 + 1 * q.val = q.val; omega)))
    _ _).trans ?_
  exact congrArg₂ (out a) (Fin.ext (win2_5.rect_emb_val_of_index_zero t 0 (z5 0) j).symm)
    (Fin.ext (win2_5.rect_emb_val_of_index_zero t 1 (z5 1) j).symm)

/-- Covered by that one block, the result array is the specification's result. -/
theorem value2 (r : Fin 32) (v : Fin 2) : ((dat2 V c).arrAt 5 cfg2.N : S32x2.Idx → EReal) (ix2 r v) = out a r v :=
  congrFun ((dat2 V c).arrAt_eq_of_cover 5 (mlp_G a) (fun t _ => mlp_flushed V c a h0 h1 h2 h3 h4 t) mlp_cover) (ix2 r v)

end Cert.KernelIdeal.Hand

end
-- ==== Proof.KChain.lean ====
import proofs.«182102_g2000302601656725_pallasbulk_822_2_alg».proof.Proof.KRun
import proofs.«182102_g2000302601656725_pallasbulk_822_2_alg».proof.Proof.KHostVal
import proofs.«182102_g2000302601656725_pallasbulk_822_2_alg».proof.Proof.KR0Value
import proofs.«182102_g2000302601656725_pallasbulk_822_2_alg».proof.Proof.KR1Val
import proofs.«182102_g2000302601656725_pallasbulk_822_2_alg».proof.Proof.KR2Val
import proofs.«182102_g2000302601656725_pallasbulk_822_2_alg».proof.Proof.Spec
import Idealize.ShloMosaic.Lib.ValueIdx

set_option maxRecDepth 16384

noncomputable section

namespace Cert.KernelIdeal.Hand

open Idealize.ShloMosaic Idealize.ShloMosaic.ValueIdx Idealize.ShloMosaic.TcCoe
open Cert.KernelIdeal Cert.KernelIdeal.Gen

variable (m : (ℓ : Loc nD τ sig) → Buf (Elt Ideal) ℓ)

def args (c : Dev nD) : Cert.Spec.Args where
  x := m ((c : Thread nD τ).loc main_arg0)
  w1 := m ((c : Thread nD τ).loc main_arg1)
  b1 := m ((c : Thread nD τ).loc main_arg2)
  w2 := m ((c : Thread nD τ).loc main_arg3)
  b2 := m ((c : Thread nD τ).loc main_arg4)
  w3 := m ((c : Thread nD τ).loc main_arg5)
  b3 := m ((c : Thread nD τ).loc main_arg6)
  w4 := m ((c : Thread nD τ).loc main_arg7)
  b4 := m ((c : Thread nD τ).loc main_arg8)
  w5 := m ((c : Thread nD τ).loc main_arg9)
  b5 := m ((c : Thread nD τ).loc main_arg10)
  wf1 := m ((c : Thread nD τ).loc main_arg11)
  bf1 := m ((c : Thread nD τ).loc main_arg12)
  wf2 := m ((c : Thread nD τ).loc main_arg13)
  bf2 := m ((c : Thread nD τ).loc main_arg14)

/-- The three entry valuations agree with the initial one on a reference outside the assigned list. -/
theorem entry_arg (c : Dev nD) (r : Ref sig .tc) (h : r ∉ written) :
    entry0 m c r = m ((c : Thread nD τ).loc r) ∧ entry1 m c r = m ((c : Thread nD τ).loc r)
      ∧ entry2 m c r = m ((c : Thread nD τ).loc r) := by
  have := arg_keep m (outs m) c r h
  rwa [V7_outs, V8_outs] at this

theorem res0_apply (c : Dev nD) (n : Fin 64) (hw : Fin 64) (o : Fin 512) :
    (res0 m c : S64x64x512.Idx → EReal) (ix3 n hw o)
      = Cert.Spec.C4 (args m c) n ⟨hw.val / 8, by have := hw.isLt; omega⟩ ⟨hw.val % 8, by omega⟩ o := by
  unfold res0
  exact value0 (entry0 m) c (args m c)
    (fun n r s q => (congrFun (V5_main_v5 m c) _).trans (imgPad_apply (args m c) n r s q))
    (fun i k o => (congrFun (V5_main_v8 m c) _).trans (w1Pad_apply _ i k o))
    (entry_arg m c _ (by decide)).1 (entry_arg m c _ (by decide)).1 (entry_arg m c _ (by decide)).1 (entry_arg m c _ (by decide)).1
    (entry_arg m c _ (by decide)).1 (entry_arg m c _ (by decide)).1 (entry_arg m c _ (by decide)).1 n hw o

theorem entry1_main_v10 (c : Dev nD) (n : Fin 64) (q : Fin 32768) :
    (entry1 m c main_v10 : S64x32768.Idx → EReal) (ix2 n q) = Cert.Spec.flat (args m c) n q := by
  have hq := q.isLt
  have e : (entry1 m c main_v10 : S64x32768.Idx → EReal) = (V7 m (outs m) c main_v10 : S64x32768.Idx → EReal) := by
    show (mid7 m c main_v10 : S64x32768.Idx → EReal) = _; rw [V7_outs]
  have e9 : (V6 m (outs m) c main_v9 : S64x64x512.Idx → EReal) = (res0 m c : S64x64x512.Idx → EReal) := by
    rw [V6_main_v9, outs_6]
  rw [e, main_v10_apply m (outs m) c n q, e9, res0_apply]
  unfold Cert.Spec.flat
  refine congr (congr (congrArg _ (Fin.ext ?_)) rfl) rfl
  show q.val / 512 / 8 = q.val / 4096
  omega

theorem res1_apply (c : Dev nD) (n : Fin 64) (u : Fin 1024) :
    (res1 m c : S64x1024.Idx → EReal) (ix2 n u) = Cert.Spec.fv (args m c) n u := by
  unfold res1
  exact value1 (entry1 m) c (args m c) (entry1_main_v10 m c) (entry_arg m c _ (by decide)).2.1
    (entry_arg m c _ (by decide)).2.1 n u

theorem entry2_main_v11 (c : Dev nD) (n : Fin 64) (u : Fin 1024) :
    (entry2 m c main_v11 : S64x1024.Idx → EReal) (ix2 n u) = Cert.Spec.fv (args m c) n u := by
  have e : (entry2 m c main_v11 : S64x1024.Idx → EReal) = (res1 m c : S64x1024.Idx → EReal) := by
    show (mid8 m c main_v11 : S64x1024.Idx → EReal) = _; unfold mid8; exact Function.update_self ..
  rw [e, res1_apply]

theorem result_eq (c : Dev nD) (r : Fin 32) (v : Fin 2) :
    (res2 m c : S32x2.Idx → EReal) (ix2 r v) = Cert.Spec.out (args m c) r v := by
  unfold res2
  exact value2 (entry2 m) c (args m c) (entry2_main_v11 m c) (entry_arg m c _ (by decide)).2.2 (entry_arg m c _ (by decide)).2.2
    (entry_arg m c _ (by decide)).2.2 (entry_arg m c _ (by decide)).2.2 r v

theorem res2_eq (c : Dev nD) :
    (res2 m c : S32x2.Idx → EReal) = fun i => Cert.Spec.out (args m c) (i 0) (i 1) :=
  funext fun i => by
    obtain ⟨r, v, rfl⟩ : ∃ (r : Fin 32) (v : Fin 2), i = ix2 r v := ⟨i 0, i 1, eq_ix2 i⟩
    exact result_eq m c r v

end Cert.KernelIdeal.Hand
end
-- ==== Proof.RR0Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Cert.ReferenceIdeal Cert.ReferenceIdeal.Gen
open Idealize.ShloMosaic

variable {F : FTy → Type} [FloatOps F]

abbrev r0_3_0_0_0 : Rect S1x4096x128 := Rect.unit (s := S1x4096x128) ![0, 0, 0] S1x4096x128.size inb_S1x4096x128_S1x4096x128_0_0_0

noncomputable def body0_v27 (x0 : Vec F S1x68x68x3 .bf16) (x1 : Vec F S25x3x128 .bf16) (x2 : Vec F S3x128 .f32) : FVec F S4096x128 .f32 :=
  k0_pay2 (View.ld x0 (Rect.unit (s := S1x68x68x3) ![0, 0, 0, 0] S1x64x64x3.size inb_S1x68x68x3_S1x64x64x3_0_0_0_0)) (View.ld x1 (Rect.unit (s := S25x3x128) ![0, 0, 0] S1x3x128.size inb_S25x3x128_S1x3x128_0_0_0)) (View.ld x0 (Rect.unit (s := S1x68x68x3) ![0, 0, 1, 0] S1x64x64x3.size inb_S1x68x68x3_S1x64x64x3_0_0_1_0)) (View.ld x1 (Rect.unit (s := S25x3x128) ![1, 0, 0] S1x3x128.size inb_S25x3x128_S1x3x128_1_0_0)) (View.ld x0 (Rect.unit (s := S1x68x68x3) ![0, 0, 2, 0] S1x64x64x3.size inb_S1x68x68x3_S1x64x64x3_0_0_2_0)) (View.ld x1 (Rect.unit (s := S25x3x128) ![2, 0, 0] S1x3x128.size inb_S25x3x128_S1x3x128_2_0_0))

noncomputable def body0_v29 (x0 : Vec F S1x68x68x3 .bf16) (x1 : Vec F S25x3x128 .bf16) (x2 : Vec F S3x128 .f32) : FVec F S64x64x3 .bf16 :=
  k0_pay3 (View.ld x0 (Rect.unit (s := S1x68x68x3) ![0, 0, 3, 0] S1x64x64x3.size inb_S1x68x68x3_S1x64x64x3_0_0_3_0))

noncomputable def body0_v54 (x0 : Vec F S1x68x68x3 .bf16) (x1 : Vec F S25x3x128 .bf16) (x2 : Vec F S3x128 .f32) : FVec F S4096x128 .f32 :=
  k0_pay4 (body0_v27 x0 x1 x2) (body0_v29 x0 x1 x2) (View.ld x1 (Rect.unit (s := S25x3x128) ![3, 0, 0] S1x3x128.size inb_S25x3x128_S1x3x128_3_0_0)) (View.ld x0 (Rect.unit (s := S1x68x68x3) ![0, 0, 4, 0] S1x64x64x3.size inb_S1x68x68x3_S1x64x64x3_0_0_4_0)) (View.ld x1 (Rect.unit (s := S25x3x128) ![4, 0, 0] S1x3x128.size inb_S25x3x128_S1x3x128_4_0_0)) (View.ld x0 (Rect.unit (s := S1x68x68x3) ![0, 1, 0, 0] S1x64x64x3.size inb_S1x68x68x3_S1x64x64x3_0_1_0_0)) (View.ld x1 (Rect.unit (s := S25x3x128) ![5, 0, 0] S1x3x128.size inb_S25x3x128_S1x3x128_5_0_0))

noncomputable def body0_v59 (x0 : Vec F S1x68x68x3 .bf16) (x1 : Vec F S25x3x128 .bf16) (x2 : Vec F S3x128 .f32) : FVec F S4096x3 .bf16 :=
  k0_pay5 (View.ld x0 (Rect.unit (s := S1x68x68x3) ![0, 1, 1, 0] S1x64x64x3.size inb_S1x68x68x3_S1x64x64x3_0_1_1_0))

noncomputable def body0_v61 (x0 : Vec F S1x68x68x3 .bf16) (x1 : Vec F S25x3x128 .bf16) (x2 : Vec F S3x128 .f32) : FVec F S3x128 .bf16 :=
  k0_pay6 (View.ld x1 (Rect.unit (s := S25x3x128) ![6, 0, 0] S1x3x128.size inb_S25x3x128_S1x3x128_6_0_0))

noncomputable def body0_cst_48 (x0 : Vec F S1x68x68x3 .bf16) (x1 : Vec F S25x3x128 .bf16) (x2 : Vec F S3x128 .f32) : FVec F S4096x128 .f32 :=
  (constant S4096x128 .f32 0x00000000#32)

noncomputable def body0_v90 (x0 : Vec F S1x68x68x3 .bf16) (x1 : Vec F S25x3x128 .bf16) (x2 : Vec F S3x128 .f32) : FVec F S4096x128 .f32 :=
  k0_pay7 (body0_v54 x0 x1 x2) (body0_v59 x0 x1 x2) (body0_v61 x0 x1 x2) (body0_cst_48 x0 x1 x2) (View.ld x0 (Rect.unit (s := S1x68x68x3) ![0, 1, 2, 0] S1x64x64x3.size inb_S1x68x68x3_S1x64x64x3_0_1_2_0)) (View.ld x1 (Rect.unit (s := S25x3x128) ![7, 0, 0] S1x3x128.size inb_S25x3x128_S1x3x128_7_0_0)) (View.ld x0 (Rect.unit (s := S1x68x68x3) ![0, 1, 3, 0] S1x64x64x3.size inb_S1x68x68x3_S1x64x64x3_0_1_3_0)) (View.ld x1 (Rect.unit (s := S25x3x128) ![8, 0, 0] S1x3x128.size inb_S25x3x128_S1x3x128_8_0_0)) (View.ld x0 (Rect.unit (s := S1x68x68x3) ![0, 1, 4, 0] S1x64x64x3.size inb_S1x68x68x3_S1x64x64x3_0_1_4_0)) (View.ld x1 (Rect.unit (s := S25x3x128) ![9, 0, 0] S1x3x128.size inb_S25x3x128_S1x3x128_9_0_0))

noncomputable def body0_v93 (x0 : Vec F S1x68x68x3 .bf16) (x1 : Vec F S25x3x128 .bf16) (x2 : Vec F S3x128 .f32) : FVec F S64x64x3 .f32 :=
  k0_pay8 (View.ld x0 (Rect.unit (s := S1x68x68x3) ![0, 2, 0, 0] S1x64x64x3.size inb_S1x68x68x3_S1x64x64x3_0_2_0_0))

noncomputable def body0_v117 (x0 : Vec F S1x68x68x3 .bf16) (x1 : Vec F S25x3x128 .bf16) (x2 : Vec F S3x128 .f32) : FVec F S4096x128 .f32 :=
  k0_pay9 (body0_v90 x0 x1 x2) (body0_v93 x0 x1 x2) (View.ld x1 (Rect.unit (s := S25x3x128) ![10, 0, 0] S1x3x128.size inb_S25x3x128_S1x3x128_10_0_0)) (View.ld x0 (Rect.unit (s := S1x68x68x3) ![0, 2, 1, 0] S1x64x64x3.size inb_S1x68x68x3_S1x64x64x3_0_2_1_0)) (View.ld x1 (Rect.unit (s := S25x3x128) ![11, 0, 0] S1x3x128.size inb_S25x3x128_S1x3x128_11_0_0)) (View.ld x0 (Rect.unit (s := S1x68x68x3) ![0, 2, 2, 0] S1x64x64x3.size inb_S1x68x68x3_S1x64x64x3_0_2_2_0)) (View.ld x1 (Rect.unit (s := S25x3x128) ![12, 0, 0] S1x3x128.size inb_S25x3x128_S1x3x128_12_0_0))

noncomputable def body0_v125 (x0 : Vec F S1x68x68x3 .bf16) (x1 : Vec F S25x3x128 .bf16) (x2 : Vec F S3x128 .f32) : FVec F S4096x128 .f32 :=
  k0_pay10 (View.ld x0 (Rect.unit (s := S1x68x68x3) ![0, 2, 3, 0] S1x64x64x3.size inb_S1x68x68x3_S1x64x64x3_0_2_3_0)) (View.ld x1 (Rect.unit (s := S25x3x128) ![13, 0, 0] S1x3x128.size inb_S25x3x128_S1x3x128_13_0_0))

noncomputable def body0_v153 (x0 : Vec F S1x68x68x3 .bf16) (x1 : Vec F S25x3x128 .bf16) (x2 : Vec F S3x128 .f32) : FVec F S4096x128 .f32 :=
  k0_pay11 (body0_v117 x0 x1 x2) (body0_v125 x0 x1 x2) (View.ld x0 (Rect.unit (s := S1x68x68x3) ![0, 2, 4, 0] S1x64x64x3.size inb_S1x68x68x3_S1x64x64x3_0_2_4_0)) (View.ld x1 (Rect.unit (s := S25x3x128) ![14, 0, 0] S1x3x128.size inb_S25x3x128_S1x3x128_14_0_0)) (View.ld x0 (Rect.unit (s := S1x68x68x3) ![0, 3, 0, 0] S1x64x64x3.size inb_S1x68x68x3_S1x64x64x3_0_3_0_0)) (View.ld x1 (Rect.unit (s := S25x3x128) ![15, 0, 0] S1x3x128.size inb_S25x3x128_S1x3x128_15_0_0)) (View.ld x0 (Rect.unit (s := S1x68x68x3) ![0, 3, 1, 0] S1x64x64x3.size inb_S1x68x68x3_S1x64x64x3_0_3_1_0)) (View.ld x1 (Rect.unit (s := S25x3x128) ![16, 0, 0] S1x3x128.size inb_S25x3x128_S1x3x128_16_0_0))

noncomputable def body0_v157 (x0 : Vec F S1x68x68x3 .bf16) (x1 : Vec F S25x3x128 .bf16) (x2 : Vec F S3x128 .f32) : FVec F S4096x3 .f32 :=
  k0_pay12 (View.ld x0 (Rect.unit (s := S1x68x68x3) ![0, 3, 2, 0] S1x64x64x3.size inb_S1x68x68x3_S1x64x64x3_0_3_2_0))

noncomputable def body0_v189 (x0 : Vec F S1x68x68x3 .bf16) (x1 : Vec F S25x3x128 .bf16) (x2 : Vec F S3x128 .f32) : FVec F S4096x128 .f32 :=
  k0_pay13 (body0_v153 x0 x1 x2) (body0_v157 x0 x1 x2) (View.ld x1 (Rect.unit (s := S25x3x128) ![17, 0, 0] S1x3x128.size inb_S25x3x128_S1x3x128_17_0_0)) (View.ld x0 (Rect.unit (s := S1x68x68x3) ![0, 3, 3, 0] S1x64x64x3.size inb_S1x68x68x3_S1x64x64x3_0_3_3_0)) (View.ld x1 (Rect.unit (s := S25x3x128) ![18, 0, 0] S1x3x128.size inb_S25x3x128_S1x3x128_18_0_0)) (View.ld x0 (Rect.unit (s := S1x68x68x3) ![0, 3, 4, 0] S1x64x64x3.size inb_S1x68x68x3_S1x64x64x3_0_3_4_0)) (View.ld x1 (Rect.unit (s := S25x3x128) ![19, 0, 0] S1x3x128.size inb_S25x3x128_S1x3x128_19_0_0)) (View.ld x0 (Rect.unit (s := S1x68x68x3) ![0, 4, 0, 0] S1x64x64x3.size inb_S1x68x68x3_S1x64x64x3_0_4_0_0)) (View.ld x1 (Rect.unit (s := S25x3x128) ![20, 0, 0] S1x3x128.size inb_S25x3x128_S1x3x128_20_0_0))

noncomputable def body0_v216 (x0 : Vec F S1x68x68x3 .bf16) (x1 : Vec F S25x3x128 .bf16) (x2 : Vec F S3x128 .f32) : FVec F S4096x128 .f32 :=
  k0_pay14 (body0_v189 x0 x1 x2) (View.ld x0 (Rect.unit (s := S1x68x68x3) ![0, 4, 1, 0] S1x64x64x3.size inb_S1x68x68x3_S1x64x64x3_0_4_1_0)) (View.ld x1 (Rect.unit (s := S25x3x128) ![21, 0, 0] S1x3x128.size inb_S25x3x128_S1x3x128_21_0_0)) (View.ld x0 (Rect.unit (s := S1x68x68x3) ![0, 4, 2, 0] S1x64x64x3.size inb_S1x68x68x3_S1x64x64x3_0_4_2_0)) (View.ld x1 (Rect.unit (s := S25x3x128) ![22, 0, 0] S1x3x128.size inb_S25x3x128_S1x3x128_22_0_0)) (View.ld x0 (Rect.unit (s := S1x68x68x3) ![0, 4, 3, 0] S1x64x64x3.size inb_S1x68x68x3_S1x64x64x3_0_4_3_0)) (View.ld x1 (Rect.unit (s := S25x3x128) ![23, 0, 0] S1x3x128.size inb_S25x3x128_S1x3x128_23_0_0))

noncomputable def body0_v221 (x0 : Vec F S1x68x68x3 .bf16) (x1 : Vec F S25x3x128 .bf16) (x2 : Vec F S3x128 .f32) : FVec F S4096x3 .bf16 :=
  k0_pay15 (View.ld x0 (Rect.unit (s := S1x68x68x3) ![0, 4, 4, 0] S1x64x64x3.size inb_S1x68x68x3_S1x64x64x3_0_4_4_0))

-- what the body stores into the output block, from its input blocks
noncomputable def body0 (x0 : Vec F S1x68x68x3 .bf16) (x1 : Vec F S25x3x128 .bf16) (x2 : Vec F S3x128 .f32) : FVec F S1x4096x128 .bf16 :=
  k0_pay1 (body0_v216 x0 x1 x2) (body0_v221 x0 x1 x2) (View.ld x1 (Rect.unit (s := S25x3x128) ![24, 0, 0] S1x3x128.size inb_S25x3x128_S1x3x128_24_0_0)) (View.ld x2 (Rect.unit (s := S3x128) ![0, 0] S1x128.size inb_S3x128_S1x128_0_0)) (View.ld x2 (Rect.unit (s := S3x128) ![1, 0] S1x128.size inb_S3x128_S1x128_1_0)) (View.ld x2 (Rect.unit (s := S3x128) ![2, 0] S1x128.size inb_S3x128_S1x128_2_0))

end Cert.ReferenceIdeal.Hand

end
-- ==== Proof.RR0Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR0Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- the output block as a function of the input blocks: one store, over the whole block
def out0_3 (x0 : Vec F S1x68x68x3 .bf16) (x1 : Vec F S25x3x128 .bf16) (x2 : Vec F S3x128 .f32) : Vec F S1x4096x128 .bf16 :=
  View.canon [⟨r0_3_0_0_0, body0 x0 x1 x2⟩]

-- the body's triple: the inputs are kept, the output is left at `out0_3` of them
set_option maxHeartbeats 1820000 in
theorem sound_kernel0 (c : Dev nD) (E : Set ℕ) (i : grid0.Coords) (arg1 : Memref sig .tc .vmem S1x68x68x3 .bf16) (harg1 : arg1.IsWhole) (arg2 : Memref sig .tc .vmem S25x3x128 .bf16) (harg2 : arg2.IsWhole) (arg3 : Memref sig .tc .vmem S3x128 .f32) (harg3 : arg3.IsWhole) (arg4 : Memref sig .tc .vmem S1x4096x128 .bf16) (harg4 : arg4.IsWhole)
    (x0 : Vec F S1x68x68x3 .bf16) (x1 : Vec F S25x3x128 .bf16) (x2 : Vec F S3x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv_kernel i arg1 harg1 arg2 harg2 arg3 harg3 arg4 harg4) K := by
  simp only [cc0__conv_kernel_eq_skeleton]; unfold cc0__conv_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x4096x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

-- what the body finds in an input window is that window's block
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

-- at every point the obligation is the body's triple, the invariant and the debts carried around it
theorem body_obligation0 (c : Dev nD) : BodyObligation (dat0 (F := F) V c) (defs₀ (F := F)) Variants.none () Set.univ := fun t => by
  rw [bigSep_W0, bigSep_W0]
  simp only [before0_0, before0_1, before0_2]
  dsimp only [dat0]
  refine wp_pass (p := bodyAt0 t) fun K => ?_
  iintro ⟨⟨⟨%_, H0⟩, ⟨%_, H1⟩, ⟨%_, H2⟩, %_, H3⟩, Hk⟩
  iapply sound_kernel0 (K := K)
  isplitl [H0]; · iexact H0
  isplitl [H1]; · iexact H1
  isplitl [H2]; · iexact H2
  isplitl [H3]; · iexists _; iexact H3
  iexact Hk

end Cert.ReferenceIdeal.Hand

end
-- ==== Proof.RR1Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Idealize.ShloMosaic Cert.ReferenceIdeal Cert.ReferenceIdeal.Gen

variable {F : FTy → Type} [FloatOps F]

abbrev r1_0 : Rect S512x2x32x256 := Rect.unit (s := S512x2x32x256) ![0, 0, 0, 0] S512x1x32x256.size inb_S512x2x32x256_S512x1x32x256_0_0_0_0

abbrev r1_1 : Rect S512x2x32x256 := Rect.unit (s := S512x2x32x256) ![0, 1, 0, 0] S512x1x32x256.size inb_S512x2x32x256_S512x1x32x256_0_1_0_0

abbrev r1_2 : Rect S512x32x128 := Rect.unit (s := S512x32x128) ![0, 0, 0] S512x32x128.size inb_S512x32x128_S512x32x128_0_0_0

-- what the body stores into the output block, from its input block
def body1 (x0 : Vec F S512x2x32x256 .bf16) : FVec F S512x32x128 .bf16 :=
  k1_pay1 (View.ld x0 r1_0) (View.ld x0 r1_1)

end Cert.ReferenceIdeal.Hand

end
-- ==== Proof.RR1Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR1Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- the output block as a function of the input block: one store, over the whole block
def out1_1 (x0 : Vec F S512x2x32x256 .bf16) : Vec F S512x32x128 .bf16 :=
  View.canon [⟨r1_2, body1 x0⟩]

-- the body's triple: the inputs are kept, the output is left at `out1_1` of them
set_option maxHeartbeats 1000000 in
theorem sound_kernel1 (c : Dev nD) (E : Set ℕ) (i : grid1.Coords) (arg0 : Memref sig .tc .vmem S512x2x32x256 .bf16) (harg0 : arg0.IsWhole) (arg1 : Memref sig .tc .vmem S512x32x128 .bf16) (harg1 : arg1.IsWhole)
    (x0 : Vec F S512x2x32x256 .bf16) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__maxpool_kernel i arg0 harg0 arg1 harg1) K := by
  simp only [cc1__maxpool_kernel_eq_skeleton]; unfold cc1__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S512x32x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := rfl

theorem after1_1 (c : Dev nD) (t : Fin cfg1.N) : (dat1 V c).after 1 t = out1_1 (iblk1 V c 0 t) := by dsimp only [dat1]

-- what the body finds in an input window is that window's block
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d

-- at every point the obligation is the body's triple, the invariant and the debts carried around it
theorem body_obligation1 (c : Dev nD) : BodyObligation (dat1 (F := F) V c) (defs₀ (F := F)) Variants.none () Set.univ := fun t => by
  rw [bigSep_W1, bigSep_W1]
  simp only [before1_0]
  dsimp only [dat1]
  refine wp_pass (p := bodyAt1 t) fun K => ?_
  iintro ⟨⟨⟨%_, H0⟩, %_, H1⟩, Hk⟩
  iapply sound_kernel1 (K := K)
  isplitl [H0]; · iexact H0
  isplitl [H1]; · iexists _; iexact H1
  iexact Hk

end Cert.ReferenceIdeal.Hand

end
-- ==== Proof.RR2Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Cert.ReferenceIdeal Cert.ReferenceIdeal.Gen
open Idealize.ShloMosaic

variable {F : FTy → Type} [FloatOps F]

abbrev r2_3_0_0_0 : Rect S1x1024x128 := Rect.unit (s := S1x1024x128) ![0, 0, 0] S1x1024x128.size inb_S1x1024x128_S1x1024x128_0_0_0

noncomputable def body2_v27 (x0 : Vec F S1x36x36x128 .bf16) (x1 : Vec F S25x128x128 .bf16) (x2 : Vec F S3x128 .f32) : FVec F S1024x128 .f32 :=
  k2_pay2 (View.ld x0 (Rect.unit (s := S1x36x36x128) ![0, 0, 0, 0] S1x32x32x128.size inb_S1x36x36x128_S1x32x32x128_0_0_0_0)) (View.ld x1 (Rect.unit (s := S25x128x128) ![0, 0, 0] S1x128x128.size inb_S25x128x128_S1x128x128_0_0_0)) (View.ld x0 (Rect.unit (s := S1x36x36x128) ![0, 0, 1, 0] S1x32x32x128.size inb_S1x36x36x128_S1x32x32x128_0_0_1_0)) (View.ld x1 (Rect.unit (s := S25x128x128) ![1, 0, 0] S1x128x128.size inb_S25x128x128_S1x128x128_1_0_0)) (View.ld x0 (Rect.unit (s := S1x36x36x128) ![0, 0, 2, 0] S1x32x32x128.size inb_S1x36x36x128_S1x32x32x128_0_0_2_0)) (View.ld x1 (Rect.unit (s := S25x128x128) ![2, 0, 0] S1x128x128.size inb_S25x128x128_S1x128x128_2_0_0))

noncomputable def body2_v29 (x0 : Vec F S1x36x36x128 .bf16) (x1 : Vec F S25x128x128 .bf16) (x2 : Vec F S3x128 .f32) : FVec F S32x32x128 .bf16 :=
  k2_pay3 (View.ld x0 (Rect.unit (s := S1x36x36x128) ![0, 0, 3, 0] S1x32x32x128.size inb_S1x36x36x128_S1x32x32x128_0_0_3_0))

noncomputable def body2_v54 (x0 : Vec F S1x36x36x128 .bf16) (x1 : Vec F S25x128x128 .bf16) (x2 : Vec F S3x128 .f32) : FVec F S1024x128 .f32 :=
  k2_pay4 (body2_v27 x0 x1 x2) (body2_v29 x0 x1 x2) (View.ld x1 (Rect.unit (s := S25x128x128) ![3, 0, 0] S1x128x128.size inb_S25x128x128_S1x128x128_3_0_0)) (View.ld x0 (Rect.unit (s := S1x36x36x128) ![0, 0, 4, 0] S1x32x32x128.size inb_S1x36x36x128_S1x32x32x128_0_0_4_0)) (View.ld x1 (Rect.unit (s := S25x128x128) ![4, 0, 0] S1x128x128.size inb_S25x128x128_S1x128x128_4_0_0)) (View.ld x0 (Rect.unit (s := S1x36x36x128) ![0, 1, 0, 0] S1x32x32x128.size inb_S1x36x36x128_S1x32x32x128_0_1_0_0)) (View.ld x1 (Rect.unit (s := S25x128x128) ![5, 0, 0] S1x128x128.size inb_S25x128x128_S1x128x128_5_0_0))

noncomputable def body2_v59 (x0 : Vec F S1x36x36x128 .bf16) (x1 : Vec F S25x128x128 .bf16) (x2 : Vec F S3x128 .f32) : FVec F S1024x128 .bf16 :=
  k2_pay5 (View.ld x0 (Rect.unit (s := S1x36x36x128) ![0, 1, 1, 0] S1x32x32x128.size inb_S1x36x36x128_S1x32x32x128_0_1_1_0))

noncomputable def body2_v61 (x0 : Vec F S1x36x36x128 .bf16) (x1 : Vec F S25x128x128 .bf16) (x2 : Vec F S3x128 .f32) : FVec F S128x128 .bf16 :=
  k2_pay6 (View.ld x1 (Rect.unit (s := S25x128x128) ![6, 0, 0] S1x128x128.size inb_S25x128x128_S1x128x128_6_0_0))

noncomputable def body2_cst_48 (x0 : Vec F S1x36x36x128 .bf16) (x1 : Vec F S25x128x128 .bf16) (x2 : Vec F S3x128 .f32) : FVec F S1024x128 .f32 :=
  (constant S1024x128 .f32 0x00000000#32)

noncomputable def body2_v90 (x0 : Vec F S1x36x36x128 .bf16) (x1 : Vec F S25x128x128 .bf16) (x2 : Vec F S3x128 .f32) : FVec F S1024x128 .f32 :=
  k2_pay7 (body2_v54 x0 x1 x2) (body2_v59 x0 x1 x2) (body2_v61 x0 x1 x2) (body2_cst_48 x0 x1 x2) (View.ld x0 (Rect.unit (s := S1x36x36x128) ![0, 1, 2, 0] S1x32x32x128.size inb_S1x36x36x128_S1x32x32x128_0_1_2_0)) (View.ld x1 (Rect.unit (s := S25x128x128) ![7, 0, 0] S1x128x128.size inb_S25x128x128_S1x128x128_7_0_0)) (View.ld x0 (Rect.unit (s := S1x36x36x128) ![0, 1, 3, 0] S1x32x32x128.size inb_S1x36x36x128_S1x32x32x128_0_1_3_0)) (View.ld x1 (Rect.unit (s := S25x128x128) ![8, 0, 0] S1x128x128.size inb_S25x128x128_S1x128x128_8_0_0)) (View.ld x0 (Rect.unit (s := S1x36x36x128) ![0, 1, 4, 0] S1x32x32x128.size inb_S1x36x36x128_S1x32x32x128_0_1_4_0)) (View.ld x1 (Rect.unit (s := S25x128x128) ![9, 0, 0] S1x128x128.size inb_S25x128x128_S1x128x128_9_0_0))

noncomputable def body2_v93 (x0 : Vec F S1x36x36x128 .bf16) (x1 : Vec F S25x128x128 .bf16) (x2 : Vec F S3x128 .f32) : FVec F S32x32x128 .f32 :=
  k2_pay8 (View.ld x0 (Rect.unit (s := S1x36x36x128) ![0, 2, 0, 0] S1x32x32x128.size inb_S1x36x36x128_S1x32x32x128_0_2_0_0))

noncomputable def body2_v117 (x0 : Vec F S1x36x36x128 .bf16) (x1 : Vec F S25x128x128 .bf16) (x2 : Vec F S3x128 .f32) : FVec F S1024x128 .f32 :=
  k2_pay9 (body2_v90 x0 x1 x2) (body2_v93 x0 x1 x2) (View.ld x1 (Rect.unit (s := S25x128x128) ![10, 0, 0] S1x128x128.size inb_S25x128x128_S1x128x128_10_0_0)) (View.ld x0 (Rect.unit (s := S1x36x36x128) ![0, 2, 1, 0] S1x32x32x128.size inb_S1x36x36x128_S1x32x32x128_0_2_1_0)) (View.ld x1 (Rect.unit (s := S25x128x128) ![11, 0, 0] S1x128x128.size inb_S25x128x128_S1x128x128_11_0_0)) (View.ld x0 (Rect.unit (s := S1x36x36x128) ![0, 2, 2, 0] S1x32x32x128.size inb_S1x36x36x128_S1x32x32x128_0_2_2_0)) (View.ld x1 (Rect.unit (s := S25x128x128) ![12, 0, 0] S1x128x128.size inb_S25x128x128_S1x128x128_12_0_0))

noncomputable def body2_v125 (x0 : Vec F S1x36x36x128 .bf16) (x1 : Vec F S25x128x128 .bf16) (x2 : Vec F S3x128 .f32) : FVec F S1024x128 .f32 :=
  k2_pay10 (View.ld x0 (Rect.unit (s := S1x36x36x128) ![0, 2, 3, 0] S1x32x32x128.size inb_S1x36x36x128_S1x32x32x128_0_2_3_0)) (View.ld x1 (Rect.unit (s := S25x128x128) ![13, 0, 0] S1x128x128.size inb_S25x128x128_S1x128x128_13_0_0))

noncomputable def body2_v153 (x0 : Vec F S1x36x36x128 .bf16) (x1 : Vec F S25x128x128 .bf16) (x2 : Vec F S3x128 .f32) : FVec F S1024x128 .f32 :=
  k2_pay11 (body2_v117 x0 x1 x2) (body2_v125 x0 x1 x2) (View.ld x0 (Rect.unit (s := S1x36x36x128) ![0, 2, 4, 0] S1x32x32x128.size inb_S1x36x36x128_S1x32x32x128_0_2_4_0)) (View.ld x1 (Rect.unit (s := S25x128x128) ![14, 0, 0] S1x128x128.size inb_S25x128x128_S1x128x128_14_0_0)) (View.ld x0 (Rect.unit (s := S1x36x36x128) ![0, 3, 0, 0] S1x32x32x128.size inb_S1x36x36x128_S1x32x32x128_0_3_0_0)) (View.ld x1 (Rect.unit (s := S25x128x128) ![15, 0, 0] S1x128x128.size inb_S25x128x128_S1x128x128_15_0_0)) (View.ld x0 (Rect.unit (s := S1x36x36x128) ![0, 3, 1, 0] S1x32x32x128.size inb_S1x36x36x128_S1x32x32x128_0_3_1_0)) (View.ld x1 (Rect.unit (s := S25x128x128) ![16, 0, 0] S1x128x128.size inb_S25x128x128_S1x128x128_16_0_0))

noncomputable def body2_v157 (x0 : Vec F S1x36x36x128 .bf16) (x1 : Vec F S25x128x128 .bf16) (x2 : Vec F S3x128 .f32) : FVec F S1024x128 .f32 :=
  k2_pay12 (View.ld x0 (Rect.unit (s := S1x36x36x128) ![0, 3, 2, 0] S1x32x32x128.size inb_S1x36x36x128_S1x32x32x128_0_3_2_0))

noncomputable def body2_v189 (x0 : Vec F S1x36x36x128 .bf16) (x1 : Vec F S25x128x128 .bf16) (x2 : Vec F S3x128 .f32) : FVec F S1024x128 .f32 :=
  k2_pay13 (body2_v153 x0 x1 x2) (body2_v157 x0 x1 x2) (View.ld x1 (Rect.unit (s := S25x128x128) ![17, 0, 0] S1x128x128.size inb_S25x128x128_S1x128x128_17_0_0)) (View.ld x0 (Rect.unit (s := S1x36x36x128) ![0, 3, 3, 0] S1x32x32x128.size inb_S1x36x36x128_S1x32x32x128_0_3_3_0)) (View.ld x1 (Rect.unit (s := S25x128x128) ![18, 0, 0] S1x128x128.size inb_S25x128x128_S1x128x128_18_0_0)) (View.ld x0 (Rect.unit (s := S1x36x36x128) ![0, 3, 4, 0] S1x32x32x128.size inb_S1x36x36x128_S1x32x32x128_0_3_4_0)) (View.ld x1 (Rect.unit (s := S25x128x128) ![19, 0, 0] S1x128x128.size inb_S25x128x128_S1x128x128_19_0_0)) (View.ld x0 (Rect.unit (s := S1x36x36x128) ![0, 4, 0, 0] S1x32x32x128.size inb_S1x36x36x128_S1x32x32x128_0_4_0_0)) (View.ld x1 (Rect.unit (s := S25x128x128) ![20, 0, 0] S1x128x128.size inb_S25x128x128_S1x128x128_20_0_0))

noncomputable def body2_v216 (x0 : Vec F S1x36x36x128 .bf16) (x1 : Vec F S25x128x128 .bf16) (x2 : Vec F S3x128 .f32) : FVec F S1024x128 .f32 :=
  k2_pay14 (body2_v189 x0 x1 x2) (View.ld x0 (Rect.unit (s := S1x36x36x128) ![0, 4, 1, 0] S1x32x32x128.size inb_S1x36x36x128_S1x32x32x128_0_4_1_0)) (View.ld x1 (Rect.unit (s := S25x128x128) ![21, 0, 0] S1x128x128.size inb_S25x128x128_S1x128x128_21_0_0)) (View.ld x0 (Rect.unit (s := S1x36x36x128) ![0, 4, 2, 0] S1x32x32x128.size inb_S1x36x36x128_S1x32x32x128_0_4_2_0)) (View.ld x1 (Rect.unit (s := S25x128x128) ![22, 0, 0] S1x128x128.size inb_S25x128x128_S1x128x128_22_0_0)) (View.ld x0 (Rect.unit (s := S1x36x36x128) ![0, 4, 3, 0] S1x32x32x128.size inb_S1x36x36x128_S1x32x32x128_0_4_3_0)) (View.ld x1 (Rect.unit (s := S25x128x128) ![23, 0, 0] S1x128x128.size inb_S25x128x128_S1x128x128_23_0_0))

noncomputable def body2_v221 (x0 : Vec F S1x36x36x128 .bf16) (x1 : Vec F S25x128x128 .bf16) (x2 : Vec F S3x128 .f32) : FVec F S1024x128 .bf16 :=
  k2_pay15 (View.ld x0 (Rect.unit (s := S1x36x36x128) ![0, 4, 4, 0] S1x32x32x128.size inb_S1x36x36x128_S1x32x32x128_0_4_4_0))

-- what the body stores into the output block, from its input blocks
noncomputable def body2 (x0 : Vec F S1x36x36x128 .bf16) (x1 : Vec F S25x128x128 .bf16) (x2 : Vec F S3x128 .f32) : FVec F S1x1024x128 .bf16 :=
  k2_pay1 (body2_v216 x0 x1 x2) (body2_v221 x0 x1 x2) (View.ld x1 (Rect.unit (s := S25x128x128) ![24, 0, 0] S1x128x128.size inb_S25x128x128_S1x128x128_24_0_0)) (View.ld x2 (Rect.unit (s := S3x128) ![0, 0] S1x128.size inb_S3x128_S1x128_0_0)) (View.ld x2 (Rect.unit (s := S3x128) ![1, 0] S1x128.size inb_S3x128_S1x128_1_0)) (View.ld x2 (Rect.unit (s := S3x128) ![2, 0] S1x128.size inb_S3x128_S1x128_2_0))

end Cert.ReferenceIdeal.Hand

end
-- ==== Proof.RR2Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR2Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- the output block as a function of the input blocks: one store, over the whole block
def out2_3 (x0 : Vec F S1x36x36x128 .bf16) (x1 : Vec F S25x128x128 .bf16) (x2 : Vec F S3x128 .f32) : Vec F S1x1024x128 .bf16 :=
  View.canon [⟨r2_3_0_0_0, body2 x0 x1 x2⟩]

-- the body's triple: the inputs are kept, the output is left at `out2_3` of them
set_option maxHeartbeats 1820000 in
theorem sound_kernel2 (c : Dev nD) (E : Set ℕ) (i : grid2.Coords) (arg1 : Memref sig .tc .vmem S1x36x36x128 .bf16) (harg1 : arg1.IsWhole) (arg2 : Memref sig .tc .vmem S25x128x128 .bf16) (harg2 : arg2.IsWhole) (arg3 : Memref sig .tc .vmem S3x128 .f32) (harg3 : arg3.IsWhole) (arg4 : Memref sig .tc .vmem S1x1024x128 .bf16) (harg4 : arg4.IsWhole)
    (x0 : Vec F S1x36x36x128 .bf16) (x1 : Vec F S25x128x128 .bf16) (x2 : Vec F S3x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__conv_kernel i arg1 harg1 arg2 harg2 arg3 harg3 arg4 harg4) K := by
  simp only [cc2__conv_kernel_eq_skeleton]; unfold cc2__conv_kernel_skel
  simp only [k2_part1_eq_skeleton]; unfold k2_part1_skel
  simp only [k2_part2_eq_skeleton]; unfold k2_part2_skel
  simp only [k2_part3_eq_skeleton]; unfold k2_part3_skel
  simp only [k2_part4_eq_skeleton]; unfold k2_part4_skel
  simp only [k2_part5_eq_skeleton]; unfold k2_part5_skel
  simp only [k2_part6_eq_skeleton]; unfold k2_part6_skel
  simp only [k2_part7_eq_skeleton]; unfold k2_part7_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x1024x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by dsimp only [dat2]

-- what the body finds in an input window is that window's block
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

-- at every point the obligation is the body's triple, the invariant and the debts carried around it
theorem body_obligation2 (c : Dev nD) : BodyObligation (dat2 (F := F) V c) (defs₀ (F := F)) Variants.none () Set.univ := fun t => by
  rw [bigSep_W2, bigSep_W2]
  simp only [before2_0, before2_1, before2_2]
  dsimp only [dat2]
  refine wp_pass (p := bodyAt2 t) fun K => ?_
  iintro ⟨⟨⟨%_, H0⟩, ⟨%_, H1⟩, ⟨%_, H2⟩, %_, H3⟩, Hk⟩
  iapply sound_kernel2 (K := K)
  isplitl [H0]; · iexact H0
  isplitl [H1]; · iexact H1
  isplitl [H2]; · iexact H2
  isplitl [H3]; · iexists _; iexact H3
  iexact Hk

end Cert.ReferenceIdeal.Hand

end
-- ==== Proof.RR3Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Idealize.ShloMosaic Cert.ReferenceIdeal Cert.ReferenceIdeal.Gen

variable {F : FTy → Type} [FloatOps F]

abbrev r3_0 : Rect S256x2x16x256 := Rect.unit (s := S256x2x16x256) ![0, 0, 0, 0] S256x1x16x256.size inb_S256x2x16x256_S256x1x16x256_0_0_0_0

abbrev r3_1 : Rect S256x2x16x256 := Rect.unit (s := S256x2x16x256) ![0, 1, 0, 0] S256x1x16x256.size inb_S256x2x16x256_S256x1x16x256_0_1_0_0

abbrev r3_2 : Rect S256x16x128 := Rect.unit (s := S256x16x128) ![0, 0, 0] S256x16x128.size inb_S256x16x128_S256x16x128_0_0_0

-- what the body stores into the output block, from its input block
def body3 (x0 : Vec F S256x2x16x256 .bf16) : FVec F S256x16x128 .bf16 :=
  k3_pay1 (View.ld x0 r3_0) (View.ld x0 r3_1)

end Cert.ReferenceIdeal.Hand

end
-- ==== Proof.RR3Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR3Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- the output block as a function of the input block: one store, over the whole block
def out3_1 (x0 : Vec F S256x2x16x256 .bf16) : Vec F S256x16x128 .bf16 :=
  View.canon [⟨r3_2, body3 x0⟩]

-- the body's triple: the inputs are kept, the output is left at `out3_1` of them
set_option maxHeartbeats 1000000 in
theorem sound_kernel3 (c : Dev nD) (E : Set ℕ) (i : grid3.Coords) (arg0 : Memref sig .tc .vmem S256x2x16x256 .bf16) (harg0 : arg0.IsWhole) (arg1 : Memref sig .tc .vmem S256x16x128 .bf16) (harg1 : arg1.IsWhole)
    (x0 : Vec F S256x2x16x256 .bf16) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__maxpool_kernel i arg0 harg0 arg1 harg1) K := by
  simp only [cc3__maxpool_kernel_eq_skeleton]; unfold cc3__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S256x16x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := rfl

theorem after3_1 (c : Dev nD) (t : Fin cfg3.N) : (dat3 V c).after 1 t = out3_1 (iblk3 V c 0 t) := by dsimp only [dat3]

-- what the body finds in an input window is that window's block
theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

-- at every point the obligation is the body's triple, the invariant and the debts carried around it
theorem body_obligation3 (c : Dev nD) : BodyObligation (dat3 (F := F) V c) (defs₀ (F := F)) Variants.none () Set.univ := fun t => by
  rw [bigSep_W3, bigSep_W3]
  simp only [before3_0]
  dsimp only [dat3]
  refine wp_pass (p := bodyAt3 t) fun K => ?_
  iintro ⟨⟨⟨%_, H0⟩, %_, H1⟩, Hk⟩
  iapply sound_kernel3 (K := K)
  isplitl [H0]; · iexact H0
  isplitl [H1]; · iexists _; iexact H1
  iexact Hk

end Cert.ReferenceIdeal.Hand

end
-- ==== Proof.RR4Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Cert.ReferenceIdeal Cert.ReferenceIdeal.Gen
open Idealize.ShloMosaic

variable {F : FTy → Type} [FloatOps F]

abbrev r4_3_0_0_0 : Rect S1x256x256 := Rect.unit (s := S1x256x256) ![0, 0, 0] S1x256x256.size inb_S1x256x256_S1x256x256_0_0_0

noncomputable def body4_v27 (x0 : Vec F S1x18x18x128 .bf16) (x1 : Vec F S9x128x256 .bf16) (x2 : Vec F S3x256 .f32) : FVec F S256x256 .f32 :=
  k4_pay2 (View.ld x0 (Rect.unit (s := S1x18x18x128) ![0, 0, 0, 0] S1x16x16x128.size inb_S1x18x18x128_S1x16x16x128_0_0_0_0)) (View.ld x1 (Rect.unit (s := S9x128x256) ![0, 0, 0] S1x128x256.size inb_S9x128x256_S1x128x256_0_0_0)) (View.ld x0 (Rect.unit (s := S1x18x18x128) ![0, 0, 1, 0] S1x16x16x128.size inb_S1x18x18x128_S1x16x16x128_0_0_1_0)) (View.ld x1 (Rect.unit (s := S9x128x256) ![1, 0, 0] S1x128x256.size inb_S9x128x256_S1x128x256_1_0_0)) (View.ld x0 (Rect.unit (s := S1x18x18x128) ![0, 0, 2, 0] S1x16x16x128.size inb_S1x18x18x128_S1x16x16x128_0_0_2_0)) (View.ld x1 (Rect.unit (s := S9x128x256) ![2, 0, 0] S1x128x256.size inb_S9x128x256_S1x128x256_2_0_0))

noncomputable def body4_v29 (x0 : Vec F S1x18x18x128 .bf16) (x1 : Vec F S9x128x256 .bf16) (x2 : Vec F S3x256 .f32) : FVec F S16x16x128 .bf16 :=
  k4_pay3 (View.ld x0 (Rect.unit (s := S1x18x18x128) ![0, 1, 0, 0] S1x16x16x128.size inb_S1x18x18x128_S1x16x16x128_0_1_0_0))

noncomputable def body4_v54 (x0 : Vec F S1x18x18x128 .bf16) (x1 : Vec F S9x128x256 .bf16) (x2 : Vec F S3x256 .f32) : FVec F S256x256 .f32 :=
  k4_pay4 (body4_v27 x0 x1 x2) (body4_v29 x0 x1 x2) (View.ld x1 (Rect.unit (s := S9x128x256) ![3, 0, 0] S1x128x256.size inb_S9x128x256_S1x128x256_3_0_0)) (View.ld x0 (Rect.unit (s := S1x18x18x128) ![0, 1, 1, 0] S1x16x16x128.size inb_S1x18x18x128_S1x16x16x128_0_1_1_0)) (View.ld x1 (Rect.unit (s := S9x128x256) ![4, 0, 0] S1x128x256.size inb_S9x128x256_S1x128x256_4_0_0)) (View.ld x0 (Rect.unit (s := S1x18x18x128) ![0, 1, 2, 0] S1x16x16x128.size inb_S1x18x18x128_S1x16x16x128_0_1_2_0)) (View.ld x1 (Rect.unit (s := S9x128x256) ![5, 0, 0] S1x128x256.size inb_S9x128x256_S1x128x256_5_0_0))

noncomputable def body4_v59 (x0 : Vec F S1x18x18x128 .bf16) (x1 : Vec F S9x128x256 .bf16) (x2 : Vec F S3x256 .f32) : FVec F S256x128 .bf16 :=
  k4_pay5 (View.ld x0 (Rect.unit (s := S1x18x18x128) ![0, 2, 0, 0] S1x16x16x128.size inb_S1x18x18x128_S1x16x16x128_0_2_0_0))

noncomputable def body4_v61 (x0 : Vec F S1x18x18x128 .bf16) (x1 : Vec F S9x128x256 .bf16) (x2 : Vec F S3x256 .f32) : FVec F S128x256 .bf16 :=
  k4_pay6 (View.ld x1 (Rect.unit (s := S9x128x256) ![6, 0, 0] S1x128x256.size inb_S9x128x256_S1x128x256_6_0_0))

noncomputable def body4_cst_48 (x0 : Vec F S1x18x18x128 .bf16) (x1 : Vec F S9x128x256 .bf16) (x2 : Vec F S3x256 .f32) : FVec F S256x256 .f32 :=
  (constant S256x256 .f32 0x00000000#32)

noncomputable def body4_v93 (x0 : Vec F S1x18x18x128 .bf16) (x1 : Vec F S9x128x256 .bf16) (x2 : Vec F S3x256 .f32) : FVec F S256x256 .bf16 :=
  k4_pay7 (body4_v54 x0 x1 x2) (body4_v59 x0 x1 x2) (body4_v61 x0 x1 x2) (body4_cst_48 x0 x1 x2) (View.ld x0 (Rect.unit (s := S1x18x18x128) ![0, 2, 1, 0] S1x16x16x128.size inb_S1x18x18x128_S1x16x16x128_0_2_1_0)) (View.ld x1 (Rect.unit (s := S9x128x256) ![7, 0, 0] S1x128x256.size inb_S9x128x256_S1x128x256_7_0_0)) (View.ld x0 (Rect.unit (s := S1x18x18x128) ![0, 2, 2, 0] S1x16x16x128.size inb_S1x18x18x128_S1x16x16x128_0_2_2_0)) (View.ld x1 (Rect.unit (s := S9x128x256) ![8, 0, 0] S1x128x256.size inb_S9x128x256_S1x128x256_8_0_0)) (View.ld x2 (Rect.unit (s := S3x256) ![0, 0] S1x256.size inb_S3x256_S1x256_0_0)) (View.ld x2 (Rect.unit (s := S3x256) ![1, 0] S1x256.size inb_S3x256_S1x256_1_0)) (View.ld x2 (Rect.unit (s := S3x256) ![2, 0] S1x256.size inb_S3x256_S1x256_2_0))

-- what the body stores into the output block, from its input blocks
noncomputable def body4 (x0 : Vec F S1x18x18x128 .bf16) (x1 : Vec F S9x128x256 .bf16) (x2 : Vec F S3x256 .f32) : FVec F S1x256x256 .bf16 :=
  k4_pay1 (body4_v93 x0 x1 x2)

end Cert.ReferenceIdeal.Hand

end
-- ==== Proof.RR4Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR4Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- the output block as a function of the input blocks: one store, over the whole block
def out4_3 (x0 : Vec F S1x18x18x128 .bf16) (x1 : Vec F S9x128x256 .bf16) (x2 : Vec F S3x256 .f32) : Vec F S1x256x256 .bf16 :=
  View.canon [⟨r4_3_0_0_0, body4 x0 x1 x2⟩]

-- the body's triple: the inputs are kept, the output is left at `out4_3` of them
set_option maxHeartbeats 1000000 in
theorem sound_kernel4 (c : Dev nD) (E : Set ℕ) (i : grid4.Coords) (arg1 : Memref sig .tc .vmem S1x18x18x128 .bf16) (harg1 : arg1.IsWhole) (arg2 : Memref sig .tc .vmem S9x128x256 .bf16) (harg2 : arg2.IsWhole) (arg3 : Memref sig .tc .vmem S3x256 .f32) (harg3 : arg3.IsWhole) (arg4 : Memref sig .tc .vmem S1x256x256 .bf16) (harg4 : arg4.IsWhole)
    (x0 : Vec F S1x18x18x128 .bf16) (x1 : Vec F S9x128x256 .bf16) (x2 : Vec F S3x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__conv_kernel i arg1 harg1 arg2 harg2 arg3 harg3 arg4 harg4) K := by
  simp only [cc4__conv_kernel_eq_skeleton]; unfold cc4__conv_kernel_skel
  simp only [k4_part1_eq_skeleton]; unfold k4_part1_skel
  simp only [k4_part2_eq_skeleton]; unfold k4_part2_skel
  simp only [k4_part3_eq_skeleton]; unfold k4_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x256x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by dsimp only [dat4]

-- what the body finds in an input window is that window's block
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

-- at every point the obligation is the body's triple, the invariant and the debts carried around it
theorem body_obligation4 (c : Dev nD) : BodyObligation (dat4 (F := F) V c) (defs₀ (F := F)) Variants.none () Set.univ := fun t => by
  rw [bigSep_W4, bigSep_W4]
  simp only [before4_0, before4_1, before4_2]
  dsimp only [dat4]
  refine wp_pass (p := bodyAt4 t) fun K => ?_
  iintro ⟨⟨⟨%_, H0⟩, ⟨%_, H1⟩, ⟨%_, H2⟩, %_, H3⟩, Hk⟩
  iapply sound_kernel4 (K := K)
  isplitl [H0]; · iexact H0
  isplitl [H1]; · iexact H1
  isplitl [H2]; · iexact H2
  isplitl [H3]; · iexists _; iexact H3
  iexact Hk

end Cert.ReferenceIdeal.Hand

end
-- ==== Proof.RR5Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Idealize.ShloMosaic Cert.ReferenceIdeal Cert.ReferenceIdeal.Gen

variable {F : FTy → Type} [FloatOps F]

abbrev r5_0 : Rect S128x2x8x512 := Rect.unit (s := S128x2x8x512) ![0, 0, 0, 0] S128x1x8x512.size inb_S128x2x8x512_S128x1x8x512_0_0_0_0

abbrev r5_1 : Rect S128x2x8x512 := Rect.unit (s := S128x2x8x512) ![0, 1, 0, 0] S128x1x8x512.size inb_S128x2x8x512_S128x1x8x512_0_1_0_0

abbrev r5_2 : Rect S128x8x256 := Rect.unit (s := S128x8x256) ![0, 0, 0] S128x8x256.size inb_S128x8x256_S128x8x256_0_0_0

-- what the body stores into the output block, from its input block
def body5 (x0 : Vec F S128x2x8x512 .bf16) : FVec F S128x8x256 .bf16 :=
  k5_pay1 (View.ld x0 r5_0) (View.ld x0 r5_1)

end Cert.ReferenceIdeal.Hand

end
-- ==== Proof.RR5Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR5Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

-- the output block as a function of the input block: one store, over the whole block
def out5_1 (x0 : Vec F S128x2x8x512 .bf16) : Vec F S128x8x256 .bf16 :=
  View.canon [⟨r5_2, body5 x0⟩]

-- the body's triple: the inputs are kept, the output is left at `out5_1` of them
set_option maxHeartbeats 1000000 in
theorem sound_kernel5 (c : Dev nD) (E : Set ℕ) (i : grid5.Coords) (arg0 : Memref sig .tc .vmem S128x2x8x512 .bf16) (harg0 : arg0.IsWhole) (arg1 : Memref sig .tc .vmem S128x8x256 .bf16) (harg1 : arg1.IsWhole)
    (x0 : Vec F S128x2x8x512 .bf16) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out5_1 x0)) -∗ K ⟨⟩))
      ⊢ wp frame (wpE (defs₀ (F := F)) Variants.none c none) E (cc5__maxpool_kernel i arg0 harg0 arg1 harg1) K := by
  simp only [cc5__maxpool_kernel_eq_skeleton]; unfold cc5__maxpool_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S128x8x256.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => out5_1 (iblk5 V c 0 t)
  Φ _ := Pipeline.ΦA spec5 c
  q _ := fullShare
  owed _ := 0

theorem A_eq5 (c : Dev nD) (w : Fin cfg5.W) : (dat5 V c).A w = V c (Pipeline.arrRef spec5 w) := rfl

theorem after5_1 (c : Dev nD) (t : Fin cfg5.N) : (dat5 V c).after 1 t = out5_1 (iblk5 V c 0 t) := by dsimp only [dat5]

-- what the body finds in an input window is that window's block
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d

-- at every point the obligation is the body's triple, the invariant and the debts carried around it
theorem body_obligation5 (c : Dev nD) : BodyObligation (dat5 (F := F) V c) (defs₀ (F := F)) Variants.none () Set.univ := fun t => by
  rw [bigSep_W5, bigSep_W5]
  simp only [before5_0]
  dsimp only [dat5]
  refine wp_pass (p := bodyAt5 t) fun K => ?_
  iintro ⟨⟨⟨%_, H0⟩, %_, H1⟩, Hk⟩
  iapply sound_kernel5 (K := K)
  isplitl [H0]; · iexact H0
  isplitl [H1]; · iexists _; iexact H1
  iexact Hk

end Cert.ReferenceIdeal.Hand

end
-- ==== Proof.RR6Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Cert.ReferenceIdeal Cert.ReferenceIdeal.Gen
open Idealize.ShloMosaic

variable {F : FTy → Type} [FloatOps F]

abbrev r6_3_0_0_0 : Rect S1x64x512 := Rect.unit (s := S1x64x512) ![0, 0, 0] S1x64x512.size inb_S1x64x512_S1x64x512_0_0_0

noncomputable def body6_v27 (x0 : Vec F S1x10x10x256 .bf16) (x1 : Vec F S9x256x512 .bf16) (x2 : Vec F S3x512 .f32) : FVec F S64x512 .f32 :=
  k6_pay2 (View.ld x0 (Rect.unit (s := S1x10x10x256) ![0, 0, 0, 0] S1x8x8x256.size inb_S1x10x10x256_S1x8x8x256_0_0_0_0)) (View.ld x1 (Rect.unit (s := S9x256x512) ![0, 0, 0] S1x256x512.size inb_S9x256x512_S1x256x512_0_0_0)) (View.ld x0 (Rect.unit (s := S1x10x10x256) ![0, 0, 1, 0] S1x8x8x256.size inb_S1x10x10x256_S1x8x8x256_0_0_1_0)) (View.ld x1 (Rect.unit (s := S9x256x512) ![1, 0, 0] S1x256x512.size inb_S9x256x512_S1x256x512_1_0_0)) (View.ld x0 (Rect.unit (s := S1x10x10x256) ![0, 0, 2, 0] S1x8x8x256.size inb_S1x10x10x256_S1x8x8x256_0_0_2_0)) (View.ld x1 (Rect.unit (s := S9x256x512) ![2, 0, 0] S1x256x512.size inb_S9x256x512_S1x256x512_2_0_0))

noncomputable def body6_v29 (x0 : Vec F S1x10x10x256 .bf16) (x1 : Vec F S9x256x512 .bf16) (x2 : Vec F S3x512 .f32) : FVec F S8x8x256 .bf16 :=
  k6_pay3 (View.ld x0 (Rect.unit (s := S1x10x10x256) ![0, 1, 0, 0] S1x8x8x256.size inb_S1x10x10x256_S1x8x8x256_0_1_0_0))

noncomputable def body6_v54 (x0 : Vec F S1x10x10x256 .bf16) (x1 : Vec F S9x256x512 .bf16) (x2 : Vec F S3x512 .f32) : FVec F S64x512 .f32 :=
  k6_pay4 (body6_v27 x0 x1 x2) (body6_v29 x0 x1 x2) (View.ld x1 (Rect.unit (s := S9x256x512) ![3, 0, 0] S1x256x512.size inb_S9x256x512_S1x256x512_3_0_0)) (View.ld x0 (Rect.unit (s := S1x10x10x256) ![0, 1, 1, 0] S1x8x8x256.size inb_S1x10x10x256_S1x8x8x256_0_1_1_0)) (View.ld x1 (Rect.unit (s := S9x256x512) ![4, 0, 0] S1x256x512.size inb_S9x256x512_S1x256x512_4_0_0)) (View.ld x0 (Rect.unit (s := S1x10x10x256) ![0, 1, 2, 0] S1x8x8x256.size inb_S1x10x10x256_S1x8x8x256_0_1_2_0)) (View.ld x1 (Rect.unit (s := S9x256x512) ![5, 0, 0] S1x256x512.size inb_S9x256x512_S1x256x512_5_0_0))

noncomputable def body6_v59 (x0 : Vec F S1x10x10x256 .bf16) (x1 : Vec F S9x256x512 .bf16) (x2 : Vec F S3x512 .f32) : FVec F S64x256 .bf16 :=
  k6_pay5 (View.ld x0 (Rect.unit (s := S1x10x10x256) ![0, 2, 0, 0] S1x8x8x256.size inb_S1x10x10x256_S1x8x8x256_0_2_0_0))

noncomputable def body6_v61 (x0 : Vec F S1x10x10x256 .bf16) (x1 : Vec F S9x256x512 .bf16) (x2 : Vec F S3x512 .f32) : FVec F S256x512 .bf16 :=
  k6_pay6 (View.ld x1 (Rect.unit (s := S9x256x512) ![6, 0, 0] S1x256x512.size inb_S9x256x512_S1x256x512_6_0_0))

noncomputable def body6_cst_48 (x0 : Vec F S1x10x10x256 .bf16) (x1 : Vec F S9x256x512 .bf16) (x2 : Vec F S3x512 .f32) : FVec F S64x512 .f32 :=
  (constant S64x512 .f32 0x00000000#32)

noncomputable def body6_v93 (x0 : Vec F S1x10x10x256 .bf16) (x1 : Vec F S9x256x512 .bf16) (x2 : Vec F S3x512 .f32) : FVec F S64x512 .bf16 :=
  k6_pay7 (body6_v54 x0 x1 x2) (body6_v59 x0 x1 x2) (body6_v61 x0 x1 x2) (body6_cst_48 x0 x1 x2) (View.ld x0 (Rect.unit (s := S1x10x10x256) ![0, 2, 1, 0] S1x8x8x256.size inb_S1x10x10x256_S1x8x8x256_0_2_1_0)) (View.ld x1 (Rect.unit (s := S9x256x512) ![7, 0, 0] S1x256x512.size inb_S9x256x512_S1x256x512_7_0_0)) (View.ld x0 (Rect.unit (s := S1x10x10x256) ![0, 2, 2, 0] S1x8x8x256.size inb_S1x10x10x256_S1x8x8x256_0_2_2_0)) (View.ld x1 (Rect.unit (s := S9x256x512) ![8, 0, 0] S1x256x512.size inb_S9x256x512_S1x256x512_8_0_0)) (View.ld x2 (Rect.unit (s := S3x512) ![0, 0] S1x512.size inb_S3x512_S1x512_0_0)) (View.ld x2 (Rect.unit (s := S3x512) ![1, 0] S1x512.size inb_S3x512_S1x512_1_0)) (View.ld x2 (Rect.unit (s := S3x512) ![2, 0] S1x512.size inb_S3x512_S1x512_2_0))

-- what the body stores into the output block, from its input blocks
noncomputable def body6 (x0 : Vec F S1x10x10x256 .bf16) (x1 : Vec F S9x256x512 .bf16) (x2 : Vec F S3x512 .f32) : FVec F S1x64x512 .bf16 :=
  k6_pay1 (body6_v93 x0 x1 x2)

end Cert.ReferenceIdeal.Hand

end
-- ==== Proof.RR6Frame.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR6Body
import proofs.«182102_g2000302601656725_pallasbulk_822_2_alg».proof.Proof.LibFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Hand

open Cert.ReferenceIdeal Cert.ReferenceIdeal.Gen Cert.LibFrame
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

-- the output block as a function of the input blocks: one store, over the whole block
def out6_3 (x0 : Vec F S1x10x10x256 .bf16) (x1 : Vec F S9x256x512 .bf16) (x2 : Vec F S3x512 .f32) : Vec F S1x64x512 .bf16 :=
  View.canon [⟨r6_3_0_0_0, body6 x0 x1 x2⟩]

-- the body's triple: the inputs are kept, the output is left at `out6_3` of them
set_option maxHeartbeats 1000000 in
theorem sound_kernel6 (c : Dev nD) (E : Set ℕ) (i : grid6.Coords) (arg1 : Memref sig .tc .vmem S1x10x10x256 .bf16) (harg1 : arg1.IsWhole) (arg2 : Memref sig .tc .vmem S9x256x512 .bf16) (harg2 : arg2.IsWhole) (arg3 : Memref sig .tc .vmem S3x512 .f32) (harg3 : arg3.IsWhole) (arg4 : Memref sig .tc .vmem S1x64x512 .bf16) (harg4 : arg4.IsWhole)
    (x0 : Vec F S1x10x10x256 .bf16) (x1 : Vec F S9x256x512 .bf16) (x2 : Vec F S3x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__conv_kernel i arg1 harg1 arg2 harg2 arg3 harg3 arg4 harg4) K := by
  simp only [cc6__conv_kernel_eq_skeleton]; unfold cc6__conv_kernel_skel
  simp only [k6_part1_eq_skeleton]; unfold k6_part1_skel
  simp only [k6_part2_eq_skeleton]; unfold k6_part2_skel
  simp only [k6_part3_eq_skeleton]; unfold k6_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x64x512.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) : (dat6 V c).after 3 t = out6_3 (iblk6 V c 0 t) (iblk6 V c 1 t) (iblk6 V c 2 t) := by dsimp only [dat6]

-- what the body finds in an input window is that window's block
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

-- at every point the obligation is the body's triple, the invariant and the debts carried around it
theorem body_obligation6 (c : Dev nD) : BodyObligation (dat6 (F := F) V c) (defs₀ (F := F)) Variants.none () Set.univ := fun t => by
  rw [bigSep_W6, bigSep_W6]
  simp only [before6_0, before6_1, before6_2]
  dsimp only [dat6]
  refine wp_pass (p := bodyAt6 t) fun K => ?_
  iintro ⟨⟨⟨%_, H0⟩, ⟨%_, H1⟩, ⟨%_, H2⟩, %_, H3⟩, Hk⟩
  iapply sound_kernel6 (K := K)
  isplitl [H0]; · iexact H0
  isplitl [H1]; · iexact H1
  isplitl [H2]; · iexact H2
  isplitl [H3]; · iexists _; iexact H3
  iexact Hk

end Cert.ReferenceIdeal.Hand

end
-- ==== Proof.RR7Body.lean ====
import proofs.«182102_g2000302601656725_pallasbulk_822_2_alg».proof.Proof.Gen.ReferenceIdeal.Skeleton
import Idealize.ShloMosaic.Lib.Pipeline.FrameBody

noncomputable section

namespace Cert.ReferenceIdeal.Hand

open Idealize.ShloMosaic Cert.ReferenceIdeal Cert.ReferenceIdeal.Gen

variable {F : FTy → Type} [FloatOps F]

abbrev r7_s : Rect S64x1024 := .unit _ _ inb_S64x1024_S64x1024_0_0
abbrev r7_x : Rect S64x4096 := .unit _ _ inb_S64x4096_S64x4096_0_0
abbrev r7_w : Rect S4096x1024 := .unit _ _ inb_S4096x1024_S4096x1024_0_0
abbrev r7_b0 : Rect S3x1024 := .unit _ _ inb_S3x1024_S1x1024_0_0
abbrev r7_b1 : Rect S3x1024 := .unit _ _ inb_S3x1024_S1x1024_1_0
abbrev r7_b2 : Rect S3x1024 := .unit _ _ inb_S3x1024_S1x1024_2_0
abbrev r7_f0 : Rect S2048x256 := .unit _ _ inb_S2048x256_S1024x256_0_0
abbrev r7_f1 : Rect S2048x256 := .unit _ _ inb_S2048x256_S1024x256_1024_0
abbrev r7_fb : Rect S1x256 := .unit _ _ inb_S1x256_S1x256_0_0
abbrev r7_g : Rect S256x2 := .unit _ _ inb_S256x2_S256x2_0_0
abbrev r7_gb : Rect S1x2 := .unit _ _ inb_S1x2_S1x2_0_0
abbrev r7_o : Rect S32x2 := .unit _ _ inb_S32x2_S32x2_0_0

def zero7 : FVec F S64x1024 .f32 := k7_pay1

def step7 (s : Vec F S64x1024 .f32) (x0 : Vec F S64x4096 .bf16) (x1 : Vec F S4096x1024 .bf16) : FVec F S64x1024 .f32 :=
  k7_pay2 (View.ld s r7_s) (View.ld x0 r7_x) (View.ld x1 r7_w)

def body7 (s : Vec F S64x1024 .f32) (x2 : Vec F S3x1024 .f32) (x3 : Vec F S2048x256 .bf16) (x4 : Vec F S1x256 .f32)
    (x5 : Vec F S256x2 .bf16) (x6 : Vec F S1x2 .f32) : FVec F S32x2 .f32 :=
  k7_pay3 (View.ld s r7_s) (View.ld x2 r7_b0) (View.ld x2 r7_b1) (View.ld x2 r7_b2) (View.ld x3 r7_f0) (View.ld x3 r7_f1)
    (View.ld x4 r7_fb) (View.ld x5 r7_g) (View.ld x6 r7_gb)

end Cert.ReferenceIdeal.Hand

end
-- ==== Proof.RR7Runs.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR7Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)

abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

theorem idleAt7_7 : ∀ t : Fin cfg7.N, ¬cond7_1 (grid7.coords t) → cfg7.idle 7 (grid7.coords t) = true := by decide +kernel
theorem noFlush7_7 : ∀ t : Fin cfg7.N, ¬cond7_1 (grid7.coords t) → (cfg7.win 7).flush t = false := by decide +kernel
theorem liveAt7_7 : ∀ t : Fin cfg7.N, cond7_1 (grid7.coords t) → cfg7.idle 7 (grid7.coords t) = false := by decide +kernel

abbrev VO7_7 : View sig .tc .vmem S32x2 .f32 := (Memref.whole cc7_stg7_0 : Memref sig .tc .vmem S32x2 .f32).view
abbrev ms7_0 (t : Fin cfg7.N) : Memref sig .tc .vmem S64x4096 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x1024 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S3x1024 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S2048x256 .bf16 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S256x2 .bf16 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x2 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S32x2 .f32 := win7_7.stage (cfg7.slots t 7)
abbrev hs7_7 (t : Fin cfg7.N) : (ms7_7 t).IsWhole := hstage7_7 ((cfg7.slots t 7).cast nbuf7_7)
abbrev scM7_0 : Memref sig .tc .vmem S64x1024 .f32 := Memref.whole cc7_scratch0
abbrev VS7_0 : View sig .tc .vmem S64x1024 .f32 := scM7_0.view

abbrev rest7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns c scM7_0 fullShare d) ∗ rest7 c) ∗ (∃ r, prngReg c r)) := by
  unfold Pipeline.ΦA; rw [scopedRest7_split]; simp only [scM7_0, owns_whole]; try rfl

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

section Runs

variable (c : Dev nD) (i : grid7.Coords)
  (arg1 : Memref sig .tc .vmem S64x4096 .bf16) (harg1 : arg1.IsWhole) (arg2 : Memref sig .tc .vmem S4096x1024 .bf16) (harg2 : arg2.IsWhole)
  (arg3 : Memref sig .tc .vmem S3x1024 .f32) (harg3 : arg3.IsWhole) (arg4 : Memref sig .tc .vmem S2048x256 .bf16) (harg4 : arg4.IsWhole)
  (arg5 : Memref sig .tc .vmem S1x256 .f32) (harg5 : arg5.IsWhole) (arg6 : Memref sig .tc .vmem S256x2 .bf16) (harg6 : arg6.IsWhole)
  (arg7 : Memref sig .tc .vmem S1x2 .f32) (harg7 : arg7.IsWhole) (arg8 : Memref sig .tc .vmem S32x2 .f32) (harg8 : arg8.IsWhole)
  (arg9 : Memref sig .tc .vmem S64x1024 .f32) (harg9 : arg9.IsWhole)

set_option maxHeartbeats 4000000 in
noncomputable def kernelRun7_A (hc0 : cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) :
    Σ' (L7 : List (View.Piece (Elt F) S32x2 .f32)), { LS0 : List (View.Piece (Elt F) S64x1024 .f32) //
      ∀ (xi7 : Vec F S32x2 .f32) (E : Set ℕ) (K : PUnit → sProp 𝕄),
        iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare xi7 ∗ (∃ d, owns c arg9 fullShare d)
            ∗ (iprop(owns c arg1 fullShare x0 ∗ owns c arg2 fullShare x1 ∗ owns c arg3 fullShare x2
                ∗ owns c arg4 fullShare x3 ∗ owns c arg5 fullShare x4 ∗ owns c arg6 fullShare x5
                ∗ owns c arg7 fullShare x6 ∗ owns c arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E
              (cc7__head_kernel i arg1 harg1 arg2 harg2 arg3 harg3 arg4 harg4 arg5 harg5 arg6 harg6 arg7 harg7 arg8 harg8 arg9 harg9) K } := by
  refine ⟨[], ?_, fun xi7 E K => ?run⟩
  case run =>
    simp only [cc7__head_kernel_eq_skeleton]; unfold cc7__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]; · iexists _; iframe; ipureintro; exact harg1.read_unread _
    isplitl [H1]; · iexists _; iframe; ipureintro; exact harg2.read_unread _
    isplitl [H2]; · iexists _; iframe; ipureintro; exact harg3.read_unread _
    isplitl [H3]; · iexists _; iframe; ipureintro; exact harg4.read_unread _
    isplitl [H4]; · iexists _; iframe; ipureintro; exact harg5.read_unread _
    isplitl [H5]; · iexists _; iframe; ipureintro; exact harg6.read_unread _
    isplitl [H6]; · iexists _; iframe; ipureintro; exact harg7.read_unread _
    isplitl [H7]; · iexists _; iframe; ipureintro; exact harg8.read_unread _
    iexists _; iexact HS0

set_option maxHeartbeats 4000000 in
noncomputable def kernelRun7_B (hc0 : ¬cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) :
    Σ' (L7 : List (View.Piece (Elt F) S32x2 .f32)), { LS0 : List (View.Piece (Elt F) S64x1024 .f32) //
      ∀ (xi7 : Vec F S32x2 .f32) (E : Set ℕ) (K : PUnit → sProp 𝕄),
        iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ owns c arg8 fullShare xi7 ∗ owns c arg9 fullShare xs0
            ∗ (iprop(owns c arg1 fullShare x0 ∗ owns c arg2 fullShare x1 ∗ owns c arg3 fullShare x2
                ∗ owns c arg4 fullShare x3 ∗ owns c arg5 fullShare x4 ∗ owns c arg6 fullShare x5
                ∗ owns c arg7 fullShare x6 ∗ owns c arg8 fullShare xi7
                ∗ (∃ f, arg9.view.loc (c : Thread nD τ) ↦[arg9.view.set]{fullShare} arg9.view.writes (Elt F) f LS0)) -∗ K ⟨⟩))
          ⊢ wp frame (wpE (defs₀ (F := F)) Variants.none c none) E
              (cc7__head_kernel i arg1 harg1 arg2 harg2 arg3 harg3 arg4 harg4 arg5 harg5 arg6 harg6 arg7 harg7 arg8 harg8 arg9 harg9) K } := by
  refine ⟨[], ?_, fun xi7 E K => ?run⟩
  case run =>
    simp only [cc7__head_kernel_eq_skeleton]; unfold cc7__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg9.eq_unread hfs0
    sl_exec (disch := first | exact hc0 | exact hc1)
    sl_step
    iapply Hk
    isplitl [H0]; · iexists _; iframe; ipureintro; exact harg1.read_unread _
    isplitl [H1]; · iexists _; iframe; ipureintro; exact harg2.read_unread _
    isplitl [H2]; · iexists _; iframe; ipureintro; exact harg3.read_unread _
    isplitl [H3]; · iexists _; iframe; ipureintro; exact harg4.read_unread _
    isplitl [H4]; · iexists _; iframe; ipureintro; exact harg5.read_unread _
    isplitl [H5]; · iexists _; iframe; ipureintro; exact harg6.read_unread _
    isplitl [H6]; · iexists _; iframe; ipureintro; exact harg7.read_unread _
    isplitl [H7]; · iexists _; iframe; ipureintro; exact harg8.read_unread _
    iexists _; iexact HS0

set_option maxHeartbeats 4000000 in
noncomputable def kernelRun7_C (hc0 : ¬cond7_0 i) (hc1 : cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) :
    Σ' (L7 : List (View.Piece (Elt F) S32x2 .f32)), { LS0 : List (View.Piece (Elt F) S64x1024 .f32) //
      ∀ (E : Set ℕ) (K : PUnit → sProp 𝕄),
        iprop(owns c arg1 fullShare x0 ∗ owns c arg2 fullShare x1 ∗ owns c arg3 fullShare x2
            ∗ owns c arg4 fullShare x3 ∗ owns c arg5 fullShare x4 ∗ owns c arg6 fullShare x5
            ∗ owns c arg7 fullShare x6 ∗ (∃ d, owns c arg8 fullShare d) ∗ owns c arg9 fullShare xs0
            ∗ (iprop(owns c arg1 fullShare x0 ∗ owns c arg2 fullShare x1 ∗ owns c arg3 fullShare x2
                ∗ owns c arg4 fullShare x3 ∗ owns c arg5 fullShare x4 ∗ owns c arg6 fullShare x5
                ∗ owns c arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)) -∗ K ⟨⟩))
          ⊢ wp frame (wpE (defs₀ (F := F)) Variants.none c none) E
              (cc7__head_kernel i arg1 harg1 arg2 harg2 arg3 harg3 arg4 harg4 arg5 harg5 arg6 harg6 arg7 harg7 arg8 harg8 arg9 harg9) K } := by
  refine ⟨?_, ?_, fun E K => ?run⟩
  case run =>
    simp only [cc7__head_kernel_eq_skeleton]; unfold cc7__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6
    obtain rfl := harg9.eq_unread hfs0
    sl_exec (disch := first | exact hc0 | exact hc1)
    sl_step
    iapply Hk
    isplitl [H0]; · iexists _; iframe; ipureintro; exact harg1.read_unread _
    isplitl [H1]; · iexists _; iframe; ipureintro; exact harg2.read_unread _
    isplitl [H2]; · iexists _; iframe; ipureintro; exact harg3.read_unread _
    isplitl [H3]; · iexists _; iframe; ipureintro; exact harg4.read_unread _
    isplitl [H4]; · iexists _; iframe; ipureintro; exact harg5.read_unread _
    isplitl [H5]; · iexists _; iframe; ipureintro; exact harg6.read_unread _
    isplitl [H6]; · iexists _; iframe; ipureintro; exact harg7.read_unread _
    isplitl [H7]; · iexists _; iexact H7
    iexists _; iexact HS0

def out7_A_7 (hc0 : cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) : Vec F S32x2 .f32 :=
  VO7_7.read (Elt F) (VO7_7.writes (Elt F) VO7_7.junk (kernelRun7_A c i arg1 harg1 arg2 harg2 arg3 harg3 arg4 harg4 arg5 harg5 arg6 harg6 arg7 harg7 arg8 harg8 arg9 harg9 hc0 hc1 x0 x1 x2 x3 x4 x5 x6).1)

theorem scover7_A_0 (hc0 : cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (y : S64x1024.Idx) :
    ∃ pc ∈ (kernelRun7_A c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (kernelRun7_A c i arg1 harg1 arg2 harg2 arg3 harg3 arg4 harg4 arg5 harg5 arg6 harg6 arg7 harg7 arg8 harg8 arg9 harg9 hc0 hc1 x0 x1 x2 x3 x4 x5 x6).2.1 S64x1024.size (by sl_kernel_rfl) y

def sout7_A_0 (hc0 : cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) : Vec F S64x1024 .f32 :=
  VS7_0.read (Elt F) (VS7_0.writes (Elt F) VS7_0.junk (kernelRun7_A c i arg1 harg1 arg2 harg2 arg3 harg3 arg4 harg4 arg5 harg5 arg6 harg6 arg7 harg7 arg8 harg8 arg9 harg9 hc0 hc1 x0 x1 x2 x3 x4 x5 x6).2.1)

def out7_B_7 (hc0 : ¬cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) : Vec F S32x2 .f32 :=
  VO7_7.read (Elt F) (VO7_7.writes (Elt F) VO7_7.junk (kernelRun7_B c i arg1 harg1 arg2 harg2 arg3 harg3 arg4 harg4 arg5 harg5 arg6 harg6 arg7 harg7 arg8 harg8 arg9 harg9 hc0 hc1 x0 x1 x2 x3 x4 x5 x6 xs0).1)

theorem scover7_B_0 (hc0 : ¬cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) (y : S64x1024.Idx) :
    ∃ pc ∈ (kernelRun7_B c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun7_B c i arg1 harg1 arg2 harg2 arg3 harg3 arg4 harg4 arg5 harg5 arg6 harg6 arg7 harg7 arg8 harg8 arg9 harg9 hc0 hc1 x0 x1 x2 x3 x4 x5 x6 xs0).2.1 S64x1024.size (by sl_kernel_rfl) y

def sout7_B_0 (hc0 : ¬cond7_0 i) (hc1 : ¬cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) : Vec F S64x1024 .f32 :=
  VS7_0.read (Elt F) (VS7_0.writes (Elt F) VS7_0.junk (kernelRun7_B c i arg1 harg1 arg2 harg2 arg3 harg3 arg4 harg4 arg5 harg5 arg6 harg6 arg7 harg7 arg8 harg8 arg9 harg9 hc0 hc1 x0 x1 x2 x3 x4 x5 x6 xs0).2.1)

theorem cover7_C_7 (hc0 : ¬cond7_0 i) (hc1 : cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) (y : S32x2.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 x6 xs0).1 S32x2.size (by sl_kernel_rfl) y

def out7_C_7 (hc0 : ¬cond7_0 i) (hc1 : cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) : Vec F S32x2 .f32 :=
  VO7_7.read (Elt F) (VO7_7.writes (Elt F) VO7_7.junk (kernelRun7_C c i arg1 harg1 arg2 harg2 arg3 harg3 arg4 harg4 arg5 harg5 arg6 harg6 arg7 harg7 arg8 harg8 arg9 harg9 hc0 hc1 x0 x1 x2 x3 x4 x5 x6 xs0).1)

theorem scover7_C_0 (hc0 : ¬cond7_0 i) (hc1 : cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) (y : S64x1024.Idx) :
    ∃ pc ∈ (kernelRun7_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun7_C c i arg1 harg1 arg2 harg2 arg3 harg3 arg4 harg4 arg5 harg5 arg6 harg6 arg7 harg7 arg8 harg8 arg9 harg9 hc0 hc1 x0 x1 x2 x3 x4 x5 x6 xs0).2.1 S64x1024.size (by sl_kernel_rfl) y

def sout7_C_0 (hc0 : ¬cond7_0 i) (hc1 : cond7_1 i)
    (x0 : Vec F S64x4096 .bf16) (x1 : Vec F S4096x1024 .bf16) (x2 : Vec F S3x1024 .f32) (x3 : Vec F S2048x256 .bf16)
    (x4 : Vec F S1x256 .f32) (x5 : Vec F S256x2 .bf16) (x6 : Vec F S1x2 .f32) (xs0 : Vec F S64x1024 .f32) : Vec F S64x1024 .f32 :=
  VS7_0.read (Elt F) (VS7_0.writes (Elt F) VS7_0.junk (kernelRun7_C c i arg1 harg1 arg2 harg2 arg3 harg3 arg4 harg4 arg5 harg5 arg6 harg6 arg7 harg7 arg8 harg8 arg9 harg9 hc0 hc1 x0 x1 x2 x3 x4 x5 x6 xs0).2.1)

end Runs

end Cert.ReferenceIdeal.Hand

end
-- ==== Proof.RR7Frame.lean ====
import proofs.«182102_g2000302601656725_pallasbulk_822_2_alg».proof.Proof.RR7Runs

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def outA7 (c : Dev nD) (t : Fin cfg7.N) (hc0 : cond7_0 (grid7.coords t)) (hc1 : ¬cond7_1 (grid7.coords t)) :
    Vec F S32x2 .f32 × Vec F S64x1024 .f32 :=
  (out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) hc0 hc1 (iblk7 V c 0 t) (iblk7 V c 1 t) (iblk7 V c 2 t) (iblk7 V c 3 t) (iblk7 V c 4 t) (iblk7 V c 5 t) (iblk7 V c 6 t),
   sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) hc0 hc1 (iblk7 V c 0 t) (iblk7 V c 1 t) (iblk7 V c 2 t) (iblk7 V c 3 t) (iblk7 V c 4 t) (iblk7 V c 5 t) (iblk7 V c 6 t))

def outB7 (c : Dev nD) (t : Fin cfg7.N) (hc0 : ¬cond7_0 (grid7.coords t)) (hc1 : ¬cond7_1 (grid7.coords t)) (xs0 : Vec F S64x1024 .f32) :
    Vec F S32x2 .f32 × Vec F S64x1024 .f32 :=
  (out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) hc0 hc1 (iblk7 V c 0 t) (iblk7 V c 1 t) (iblk7 V c 2 t) (iblk7 V c 3 t) (iblk7 V c 4 t) (iblk7 V c 5 t) (iblk7 V c 6 t) xs0,
   sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) hc0 hc1 (iblk7 V c 0 t) (iblk7 V c 1 t) (iblk7 V c 2 t) (iblk7 V c 3 t) (iblk7 V c 4 t) (iblk7 V c 5 t) (iblk7 V c 6 t) xs0)

def outC7 (c : Dev nD) (t : Fin cfg7.N) (hc0 : ¬cond7_0 (grid7.coords t)) (hc1 : cond7_1 (grid7.coords t)) (xs0 : Vec F S64x1024 .f32) :
    Vec F S32x2 .f32 × Vec F S64x1024 .f32 :=
  (out7_C_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) hc0 hc1 (iblk7 V c 0 t) (iblk7 V c 1 t) (iblk7 V c 2 t) (iblk7 V c 3 t) (iblk7 V c 4 t) (iblk7 V c 5 t) (iblk7 V c 6 t) xs0,
   sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) scM7_0 (Memref.isWhole_whole _) hc0 hc1 (iblk7 V c 0 t) (iblk7 V c 1 t) (iblk7 V c 2 t) (iblk7 V c 3 t) (iblk7 V c 4 t) (iblk7 V c 5 t) (iblk7 V c 6 t) xs0)

theorem notFirst7 (n : ℕ) (hn : n + 1 < cfg7.N) : ¬cond7_0 (grid7.coords ⟨n + 1, hn⟩) := fun h => by
  have h' := (hcond7_0 ⟨n + 1, hn⟩).mp h
  have hN : n + 1 < 8 := lt_of_lt_of_eq hn (show cfg7.N = 8 from N_7)
  dsimp only at h'; omega

def outsAt7 (c : Dev nD) : (n : ℕ) → n < cfg7.N → Vec F S32x2 .f32 × Vec F S64x1024 .f32
  | 0, hn => outA7 V c ⟨0, hn⟩ ((hcond7_0 ⟨0, hn⟩).mpr (Nat.zero_mod _))
      (fun h => (fun h => by (try dsimp only at h); omega) ((hcond7_1 ⟨0, hn⟩).mp h))
  | n + 1, hn =>
    if h1 : (n + 1) % 8 = 7 then
      outC7 V c ⟨n + 1, hn⟩ (notFirst7 n hn) ((hcond7_1 ⟨n + 1, hn⟩).mpr h1) (outsAt7 c n (Nat.lt_of_succ_lt hn)).2
    else
      outB7 V c ⟨n + 1, hn⟩ (notFirst7 n hn) (fun h => h1 ((hcond7_1 ⟨n + 1, hn⟩).mp h)) (outsAt7 c n (Nat.lt_of_succ_lt hn)).2

theorem outsAt7_A (c : Dev nD) (t : Fin cfg7.N) (hz : t.val = 0) (hc0 : cond7_0 (grid7.coords t)) (hc1 : ¬cond7_1 (grid7.coords t)) :
    outsAt7 V c t.val t.isLt = outA7 V c t hc0 hc1 := by
  obtain ⟨n, hn⟩ := t
  cases n with
  | zero => exact rfl
  | succ n => exact absurd hz (Nat.succ_ne_zero n)

theorem outsAt7_B (c : Dev nD) (t : Fin cfg7.N) (hz : t.val ≠ 0) (h1 : ¬t.val % 8 = 7) (hc0 : ¬cond7_0 (grid7.coords t)) (hc1 : ¬cond7_1 (grid7.coords t)) :
    outsAt7 V c t.val t.isLt = outB7 V c t hc0 hc1 (outsAt7 V c (t.val - 1) (Nat.lt_of_le_of_lt (Nat.sub_le _ _) t.isLt)).2 := by
  obtain ⟨n, hn⟩ := t
  cases n with
  | zero => exact absurd rfl hz
  | succ n => exact (dif_neg h1).trans rfl

theorem outsAt7_C (c : Dev nD) (t : Fin cfg7.N) (hz : t.val ≠ 0) (h1 : t.val % 8 = 7) (hc0 : ¬cond7_0 (grid7.coords t)) (hc1 : cond7_1 (grid7.coords t)) :
    outsAt7 V c t.val t.isLt = outC7 V c t hc0 hc1 (outsAt7 V c (t.val - 1) (Nat.lt_of_le_of_lt (Nat.sub_le _ _) t.isLt)).2 := by
  obtain ⟨n, hn⟩ := t
  cases n with
  | zero => exact absurd rfl hz
  | succ n => exact (dif_pos h1).trans rfl

def PhiS7 (c : Dev nD) : (n : ℕ) → n ≤ cfg7.N → sProp 𝕄
  | 0, _ => Pipeline.ΦA spec7 c
  | n + 1, hn => iprop(iprop(owns c scM7_0 fullShare ((outsAt7 V c n hn).2) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns c scM7_0 fullShare ((outsAt7 V c n hn).2) ∗ rest7 c) ∗ (∃ r, prngReg c r)) := rfl

theorem PhiS7_pos (c : Dev nD) (n : ℕ) (h : n ≤ cfg7.N) (hz : n ≠ 0) :
    PhiS7 V c n h = iprop(iprop(owns c scM7_0 fullShare ((outsAt7 V c (n - 1) (by omega)).2) ∗ rest7 c) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_7 (c : Dev nD) (t : Fin cfg7.N) : (dat7 V c).after 7 t = (outsAt7 V c t.val t.isLt).1 := by dsimp only [dat7]

theorem before7 (c : Dev nD) (t : Fin cfg7.N) :
    (∀ d, (dat7 V c).before 0 t d = iblk7 V c 0 t) ∧ (∀ d, (dat7 V c).before 1 t d = iblk7 V c 1 t) ∧ (∀ d, (dat7 V c).before 2 t d = iblk7 V c 2 t) ∧ (∀ d, (dat7 V c).before 3 t d = iblk7 V c 3 t) ∧ (∀ d, (dat7 V c).before 4 t d = iblk7 V c 4 t) ∧ (∀ d, (dat7 V c).before 5 t d = iblk7 V c 5 t) ∧ ∀ d, (dat7 V c).before 6 t d = iblk7 V c 6 t := by
  refine ⟨?_, ?_, ?_, ?_, ?_, ?_, ?_⟩ <;> exact (dat7 V c).before_in_eq_fetched _ rfl (fun _ => rfl) (fun _ _ _ => rfl) (fun _ => rfl) t

def bodyPre7 (c : Dev nD) (t : Fin cfg7.N) : sProp 𝕄 :=
  iprop((dat7 V c).Φ t.castSucc ∗ (dat7 V c).owesAt () t.castSucc
    ∗ (∃ d, owns c (ms7_0 t) fullShare ((dat7 V c).before 0 t d))
    ∗ (∃ d, owns c (ms7_1 t) fullShare ((dat7 V c).before 1 t d))
    ∗ (∃ d, owns c (ms7_2 t) fullShare ((dat7 V c).before 2 t d))
    ∗ (∃ d, owns c (ms7_3 t) fullShare ((dat7 V c).before 3 t d))
    ∗ (∃ d, owns c (ms7_4 t) fullShare ((dat7 V c).before 4 t d))
    ∗ (∃ d, owns c (ms7_5 t) fullShare ((dat7 V c).before 5 t d))
    ∗ (∃ d, owns c (ms7_6 t) fullShare ((dat7 V c).before 6 t d))
    ∗ (∃ d, owns c (ms7_7 t) fullShare ((dat7 V c).before 7 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 8000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7 V c t]
  rw [show (dat7 V c).owesAt () t.succ = (dat7 V c).owesAt () t.castSucc from rfl,
    show (dat7 V c).Φ t.succ = PhiS7 V c (t.val + 1) t.isLt from rfl, PhiS7_succ,
    show (dat7 V c).leavesExact 0 t = owns c (ms7_0 t) fullShare (iblk7 V c 0 t) from rfl,
    show (dat7 V c).leavesExact 1 t = owns c (ms7_1 t) fullShare (iblk7 V c 1 t) from rfl,
    show (dat7 V c).leavesExact 2 t = owns c (ms7_2 t) fullShare (iblk7 V c 2 t) from rfl,
    show (dat7 V c).leavesExact 3 t = owns c (ms7_3 t) fullShare (iblk7 V c 3 t) from rfl,
    show (dat7 V c).leavesExact 4 t = owns c (ms7_4 t) fullShare (iblk7 V c 4 t) from rfl,
    show (dat7 V c).leavesExact 5 t = owns c (ms7_5 t) fullShare (iblk7 V c 5 t) from rfl,
    show (dat7 V c).leavesExact 6 t = owns c (ms7_6 t) fullShare (iblk7 V c 6 t) from rfl]
  have hN : t.val < 8 := lt_of_lt_of_eq t.isLt (show cfg7.N = 8 from N_7)
  by_cases hz : t.val = 0
  · have hc0 : cond7_0 (grid7.coords t) := (hcond7_0 t).mpr (by omega)
    have hc1 : ¬cond7_1 (grid7.coords t) := fun h => by have := (hcond7_1 t).mp h; omega
    rw [Dat.leavesExact_idle (dat7 V c) 7 t (idleAt7_7 t hc1) (noFlush7_7 t hc1), outsAt7_A V c t hz hc0 hc1]
    unfold outA7 sout7_A_0; (try dsimp only)
    rw [PhiS7_castSucc V c t, PhiS7_zero V c _ _ hz, PhiA7_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c _ _ _ _ _ _ _ _ _ _ _ _ _ _ _ _ _ _ _ hc0 hc1 _ _ _ _ _ _ _).2.2 _ Set.univ _)
    iframe H0 H1 H2 H3 H4 H5 H6 H7 HS0
    iintro ⟨H0, H1, H2, H3, H4, H5, H6, H7, ⟨%es0, HS0⟩⟩
    iframe Hrest Hg Ho H0 H1 H2 H3 H4 H5 H6
    isplitl [HS0]
    · unfold owns; iexists _; iframe; ipureintro
      exact View.read_writes_of_cover _ _ _ _ _ (scover7_A_0 c _ _ _ _ _ _ _ _ _ _ _ _ _ _ _ _ _ _ _ _ _ _ _ _ _ _ _ _)
    iexists _; iexact H7
  · have hc0 : ¬cond7_0 (grid7.coords t) := fun h => by have := (hcond7_0 t).mp h; omega
    rw [PhiS7_castSucc V c t, PhiS7_pos V c _ _ hz]
    by_cases h1 : t.val % 8 = 7
    · have hc1 : cond7_1 (grid7.coords t) := (hcond7_1 t).mpr h1
      rw [show (dat7 V c).leavesExact 7 t = owns c (ms7_7 t) fullShare ((dat7 V c).after 7 t) from by
        unfold Dat.leavesExact; rw [liveAt7_7 t hc1], after7_7, outsAt7_C V c t hz h1 hc0 hc1]
      unfold outC7 out7_C_7 sout7_C_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_C c _ _ _ _ _ _ _ _ _ _ _ _ _ _ _ _ _ _ _ hc0 hc1 _ _ _ _ _ _ _ _).2.2 Set.univ _)
      iframe H0 H1 H2 H3 H4 H5 H6 HS0
      isplitl [H7]; · iexists _; iexact H7
      iintro ⟨H0, H1, H2, H3, H4, H5, H6, ⟨%e7, H7⟩, ⟨%es0, HS0⟩⟩
      iframe Hrest Hg Ho H0 H1 H2 H3 H4 H5 H6
      isplitl [HS0]
      · unfold owns; iexists _; iframe; ipureintro
        exact View.read_writes_of_cover _ _ _ _ _ (scover7_C_0 c _ _ _ _ _ _ _ _ _ _ _ _ _ _ _ _ _ _ _ _ _ _ _ _ _ _ _ _ _)
      unfold owns; iexists _; iframe; ipureintro
      exact View.read_writes_of_cover _ _ _ _ _ (cover7_C_7 c _ _ _ _ _ _ _ _ _ _ _ _ _ _ _ _ _ _ _ _ _ _ _ _ _ _ _ _ _)
    · have hc1 : ¬cond7_1 (grid7.coords t) := fun h => h1 ((hcond7_1 t).mp h)
      rw [Dat.leavesExact_idle (dat7 V c) 7 t (idleAt7_7 t hc1) (noFlush7_7 t hc1), outsAt7_B V c t hz h1 hc0 hc1]
      unfold outB7 sout7_B_0; (try dsimp only)
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun7_B c _ _ _ _ _ _ _ _ _ _ _ _ _ _ _ _ _ _ _ hc0 hc1 _ _ _ _ _ _ _ _).2.2 _ Set.univ _)
      iframe H0 H1 H2 H3 H4 H5 H6 H7 HS0
      iintro ⟨H0, H1, H2, H3, H4, H5, H6, H7, ⟨%es0, HS0⟩⟩
      iframe Hrest Hg Ho H0 H1 H2 H3 H4 H5 H6
      isplitl [HS0]
      · unfold owns; iexists _; iframe; ipureintro
        exact View.read_writes_of_cover _ _ _ _ _ (scover7_B_0 c _ _ _ _ _ _ _ _ _ _ _ _ _ _ _ _ _ _ _ _ _ _ _ _ _ _ _ _ _)
      iexists _; iexact H7

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hrest⟩, Hg⟩
  isplitl [HS0 Hrest]
  · isplitl [HS0]
    · iexists _; iexact HS0
    iexact Hrest
  iexact Hg

theorem hout7 (c : Dev nD) : (dat7 V c).Φ (Fin.last cfg7.N) ⊢ Pipeline.ΦA spec7 c :=
  Phi_out7 V c _ (by rw [Fin.val_last]; have : cfg7.N = 8 := N_7; omega)

end Cert.ReferenceIdeal.Hand

end
-- ==== Proof.RRun.lean ====
import proofs.«182102_g2000302601656725_pallasbulk_822_2_alg».proof.Proof.Gen.ReferenceIdeal.Regions
import proofs.«182102_g2000302601656725_pallasbulk_822_2_alg».proof.Proof.RR0Frame
import proofs.«182102_g2000302601656725_pallasbulk_822_2_alg».proof.Proof.RR1Frame
import proofs.«182102_g2000302601656725_pallasbulk_822_2_alg».proof.Proof.RR2Frame
import proofs.«182102_g2000302601656725_pallasbulk_822_2_alg».proof.Proof.RR3Frame
import proofs.«182102_g2000302601656725_pallasbulk_822_2_alg».proof.Proof.RR4Frame
import proofs.«182102_g2000302601656725_pallasbulk_822_2_alg».proof.Proof.RR5Frame
import proofs.«182102_g2000302601656725_pallasbulk_822_2_alg».proof.Proof.RR6Frame
import proofs.«182102_g2000302601656725_pallasbulk_822_2_alg».proof.Proof.RR7Frame
import proofs.«182102_g2000302601656725_pallasbulk_822_2_alg».proof.Proof.LibRegion

noncomputable section

namespace Cert.ReferenceIdeal.Hand

open Cert.ReferenceIdeal Cert.ReferenceIdeal.Gen Cert.LibRegion
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

variable (m : (ℓ : Loc nD τ sig) → Buf (Elt F) ℓ)

abbrev W0 (c : Dev nD) : Valuation τ sig (Elt F) := Gen.V0 m c
def W1 (c : Dev nD) : Valuation τ sig (Elt F) := StableHlo.after hostOps0 (W0 m c)
def W2 (c : Dev nD) : Valuation τ sig (Elt F) := StableHlo.after hostOps0_1 (W1 m c)
def res0 (c : Dev nD) : Buf (Elt F) ((c : Thread nD τ).loc main_v6) :=
  (dat0 (fun c b => W2 m c b) c).arrAt 3 cfg0.N
def W3 (c : Dev nD) : Valuation τ sig (Elt F) := Function.update (W2 m c) main_v6 (res0 m c)
def W4 (c : Dev nD) : Valuation τ sig (Elt F) := StableHlo.after hostOps1 (W3 m c)
def res1 (c : Dev nD) : Buf (Elt F) ((c : Thread nD τ).loc main_v9) :=
  (dat1 (fun c b => W4 m c b) c).arrAt 1 cfg1.N
def W5 (c : Dev nD) : Valuation τ sig (Elt F) := Function.update (W4 m c) main_v9 (res1 m c)
def W6 (c : Dev nD) : Valuation τ sig (Elt F) := StableHlo.after hostOps2 (W5 m c)
def W7 (c : Dev nD) : Valuation τ sig (Elt F) := StableHlo.after hostOps2_1 (W6 m c)
def res2 (c : Dev nD) : Buf (Elt F) ((c : Thread nD τ).loc main_v12) :=
  (dat2 (fun c b => W7 m c b) c).arrAt 3 cfg2.N
def W8 (c : Dev nD) : Valuation τ sig (Elt F) := Function.update (W7 m c) main_v12 (res2 m c)
def W9 (c : Dev nD) : Valuation τ sig (Elt F) := StableHlo.after hostOps3 (W8 m c)
def res3 (c : Dev nD) : Buf (Elt F) ((c : Thread nD τ).loc main_v15) :=
  (dat3 (fun c b => W9 m c b) c).arrAt 1 cfg3.N
def W10 (c : Dev nD) : Valuation τ sig (Elt F) := Function.update (W9 m c) main_v15 (res3 m c)
def W11 (c : Dev nD) : Valuation τ sig (Elt F) := StableHlo.after hostOps4 (W10 m c)
def W12 (c : Dev nD) : Valuation τ sig (Elt F) := StableHlo.after hostOps4_1 (W11 m c)
def res4 (c : Dev nD) : Buf (Elt F) ((c : Thread nD τ).loc main_v18) :=
  (dat4 (fun c b => W12 m c b) c).arrAt 3 cfg4.N
def W13 (c : Dev nD) : Valuation τ sig (Elt F) := Function.update (W12 m c) main_v18 (res4 m c)
def W14 (c : Dev nD) : Valuation τ sig (Elt F) := StableHlo.after hostOps5 (W13 m c)
def res5 (c : Dev nD) : Buf (Elt F) ((c : Thread nD τ).loc main_v21) :=
  (dat5 (fun c b => W14 m c b) c).arrAt 1 cfg5.N
def W15 (c : Dev nD) : Valuation τ sig (Elt F) := Function.update (W14 m c) main_v21 (res5 m c)
def W16 (c : Dev nD) : Valuation τ sig (Elt F) := StableHlo.after hostOps6 (W15 m c)
def W17 (c : Dev nD) : Valuation τ sig (Elt F) := StableHlo.after hostOps6_1 (W16 m c)
def res6 (c : Dev nD) : Buf (Elt F) ((c : Thread nD τ).loc main_v24) :=
  (dat6 (fun c b => W17 m c b) c).arrAt 3 cfg6.N
def W18 (c : Dev nD) : Valuation τ sig (Elt F) := Function.update (W17 m c) main_v24 (res6 m c)
def W19 (c : Dev nD) : Valuation τ sig (Elt F) := StableHlo.after hostOps7 (W18 m c)
def res7 (c : Dev nD) : Buf (Elt F) ((c : Thread nD τ).loc main_v27) :=
  (dat7 (fun c b => W19 m c b) c).arrAt 7 cfg7.N
def W20 (c : Dev nD) : Valuation τ sig (Elt F) := Function.update (W19 m c) main_v27 (res7 m c)

/-- What each region leaves, indexed by the item after it. -/
def outs : Outs (F := F) := fun J r c => match J with
  | 3 => W3 m c r
  | 5 => W5 m c r
  | 8 => W8 m c r
  | 10 => W10 m c r
  | 13 => W13 m c r
  | 15 => W15 m c r
  | 18 => W18 m c r
  | 20 => W20 m c r
  | _ => W0 m c r

theorem V2_eq (c : Dev nD) : Gen.V2 m c = W2 m c := rfl
theorem V3_eq (c : Dev nD) : Gen.V3 m (outs m) c = W3 m c := update_self_congr (V2_eq m c) main_v6 (res0 m c)
theorem V4_eq (c : Dev nD) : Gen.V4 m (outs m) c = W4 m c := congrArg (StableHlo.after hostOps1) (V3_eq m c)
theorem V5_eq (c : Dev nD) : Gen.V5 m (outs m) c = W5 m c := update_self_congr (V4_eq m c) main_v9 (res1 m c)
theorem V6_eq (c : Dev nD) : Gen.V6 m (outs m) c = W6 m c := congrArg (StableHlo.after hostOps2) (V5_eq m c)
theorem V7_eq (c : Dev nD) : Gen.V7 m (outs m) c = W7 m c := congrArg (StableHlo.after hostOps2_1) (V6_eq m c)
theorem V8_eq (c : Dev nD) : Gen.V8 m (outs m) c = W8 m c := update_self_congr (V7_eq m c) main_v12 (res2 m c)
theorem V9_eq (c : Dev nD) : Gen.V9 m (outs m) c = W9 m c := congrArg (StableHlo.after hostOps3) (V8_eq m c)
theorem V10_eq (c : Dev nD) : Gen.V10 m (outs m) c = W10 m c := update_self_congr (V9_eq m c) main_v15 (res3 m c)
theorem V11_eq (c : Dev nD) : Gen.V11 m (outs m) c = W11 m c := congrArg (StableHlo.after hostOps4) (V10_eq m c)
theorem V12_eq (c : Dev nD) : Gen.V12 m (outs m) c = W12 m c := congrArg (StableHlo.after hostOps4_1) (V11_eq m c)
theorem V13_eq (c : Dev nD) : Gen.V13 m (outs m) c = W13 m c := update_self_congr (V12_eq m c) main_v18 (res4 m c)
theorem V14_eq (c : Dev nD) : Gen.V14 m (outs m) c = W14 m c := congrArg (StableHlo.after hostOps5) (V13_eq m c)
theorem V15_eq (c : Dev nD) : Gen.V15 m (outs m) c = W15 m c := update_self_congr (V14_eq m c) main_v21 (res5 m c)
theorem V16_eq (c : Dev nD) : Gen.V16 m (outs m) c = W16 m c := congrArg (StableHlo.after hostOps6) (V15_eq m c)
theorem V17_eq (c : Dev nD) : Gen.V17 m (outs m) c = W17 m c := congrArg (StableHlo.after hostOps6_1) (V16_eq m c)
theorem V18_eq (c : Dev nD) : Gen.V18 m (outs m) c = W18 m c := update_self_congr (V17_eq m c) main_v24 (res6 m c)
theorem V19_eq (c : Dev nD) : Gen.V19 m (outs m) c = W19 m c := congrArg (StableHlo.after hostOps7) (V18_eq m c)
theorem V20_eq (c : Dev nD) : Gen.V20 m (outs m) c = W20 m c := update_self_congr (V19_eq m c) main_v27 (res7 m c)

def pdats : (p : Fin 8) → (c : Dev nD) → Dat τ (Elt F) Unit ℕ (UR sig nD τ) ℕ (cfgs p) c
  | ⟨0, _⟩ => fun c => dat0 (fun c b => W2 m c b) c
  | ⟨1, _⟩ => fun c => dat1 (fun c b => W4 m c b) c
  | ⟨2, _⟩ => fun c => dat2 (fun c b => W7 m c b) c
  | ⟨3, _⟩ => fun c => dat3 (fun c b => W9 m c b) c
  | ⟨4, _⟩ => fun c => dat4 (fun c b => W12 m c b) c
  | ⟨5, _⟩ => fun c => dat5 (fun c b => W14 m c b) c
  | ⟨6, _⟩ => fun c => dat6 (fun c b => W17 m c b) c
  | ⟨7, _⟩ => fun c => dat7 (fun c b => W19 m c b) c

abbrev L : GSem nD τ sig → Finset Unit := fun _ => ∅
abbrev lv : GSem nD τ sig → Unit → ℕ := fun _ _ => 0

set_option backward.isDefEq.respectTransparency.types false in
/-- The program's run: it terminates, the result buffer ends at what the last region leaves, the arguments as launched. -/
theorem run (ρ : Dev nD → PrngReg) : θ_run defs (onTc (τ := τ) (main (F := F))) ⟨m, fun _ => 0, ρ⟩ (fun r => ∀ c : Dev nD,
      r.2.mem ((c.tc : Thread nD τ).loc main_v27) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm (pdats m) () cellOf_inj emb₁ defs₀ Variants.none L lv m ρ main
    (Gen.segs m (outs m) Variants.none L lv (fun _ c => Rest c) () (pdats m)
      (regOf pcfgs adm (pdats m) defs₀ L lv 0 launch0 (W2 m) 3 (show ∀ w : Fin cfg0.W, w ≠ 3 → (cfg0.win w).isOut = false by decide)
        (body_obligation0 fun c b => W2 m c b) (A_eq0 fun c b => W2 m c b))
      (regOf pcfgs adm (pdats m) defs₀ L lv 1 launch1 (W4 m) 1 (show ∀ w : Fin cfg1.W, w ≠ 1 → (cfg1.win w).isOut = false by decide)
        (body_obligation1 fun c b => W4 m c b) (A_eq1 fun c b => W4 m c b))
      (regOf pcfgs adm (pdats m) defs₀ L lv 2 launch2 (W7 m) 3 (show ∀ w : Fin cfg2.W, w ≠ 3 → (cfg2.win w).isOut = false by decide)
        (body_obligation2 fun c b => W7 m c b) (A_eq2 fun c b => W7 m c b))
      (regOf pcfgs adm (pdats m) defs₀ L lv 3 launch3 (W9 m) 1 (show ∀ w : Fin cfg3.W, w ≠ 1 → (cfg3.win w).isOut = false by decide)
        (body_obligation3 fun c b => W9 m c b) (A_eq3 fun c b => W9 m c b))
      (regOf pcfgs adm (pdats m) defs₀ L lv 4 launch4 (W12 m) 3 (show ∀ w : Fin cfg4.W, w ≠ 3 → (cfg4.win w).isOut = false by decide)
        (body_obligation4 fun c b => W12 m c b) (A_eq4 fun c b => W12 m c b))
      (regOf pcfgs adm (pdats m) defs₀ L lv 5 launch5 (W14 m) 1 (show ∀ w : Fin cfg5.W, w ≠ 1 → (cfg5.win w).isOut = false by decide)
        (body_obligation5 fun c b => W14 m c b) (A_eq5 fun c b => W14 m c b))
      (regOf pcfgs adm (pdats m) defs₀ L lv 6 launch6 (W17 m) 3 (show ∀ w : Fin cfg6.W, w ≠ 3 → (cfg6.win w).isOut = false by decide)
        (body_obligation6 fun c b => W17 m c b) (A_eq6 fun c b => W17 m c b))
      (regOf pcfgs adm (pdats m) defs₀ L lv 7 launch7 (W19 m) 7 (show ∀ w : Fin cfg7.W, w ≠ 7 → (cfg7.win w).isOut = false by decide)
        (body_obligation7 fun c b => W19 m c b) (A_eq7 fun c b => W19 m c b) (hin7 fun c b => W19 m c b) (hout7 fun c b => W19 m c b)))
    (fun c Q => by rewrite [main_chain c, Pipeline.Seg.run_eq_chain]; exact .rfl)
    (fun c => by simp only [Gen.segs, Pipeline.Seg.pipes_host, Pipeline.Seg.pipes_region, Pipeline.Seg.pipes_nil]; decide)
    0 (fun _ _ => rfl) (fun _ => iprop(emp)) _ (launch_own _)
    (hch := fun c => ⟨.rfl,
      .rfl,
      held_congr (V2_eq m c) c _,
      held_congr (V3_eq m c).symm c _,
      held_congr (V4_eq m c) c _,
      held_congr (V5_eq m c).symm c _,
      .rfl,
      held_congr (V7_eq m c) c _,
      held_congr (V8_eq m c).symm c _,
      held_congr (V9_eq m c) c _,
      held_congr (V10_eq m c).symm c _,
      .rfl,
      held_congr (V12_eq m c) c _,
      held_congr (V13_eq m c).symm c _,
      held_congr (V14_eq m c) c _,
      held_congr (V15_eq m c).symm c _,
      .rfl,
      held_congr (V17_eq m c) c _,
      held_congr (V18_eq m c).symm c _,
      held_congr (V19_eq m c) c _,
      (held_congr (V20_eq m c).symm c _).trans (sep_mono .rfl (by iintro ⟨-, H⟩; iexact H))⟩)
    (hinit := launch L lv m ρ) (hfin := fun c s' => ?_) (hQ := fun _ h => h)
  exact held_read c _ s' _ fun h => ⟨(h main_v27 (by decide)).trans ((congrFun (V20_eq m c) _).trans (by unfold W20; exact Function.update_self ..)),
    (h main_arg0 (by decide)).trans (Gen.V20_main_arg0 m _ c),
    (h main_arg1 (by decide)).trans (Gen.V20_main_arg1 m _ c),
    (h main_arg2 (by decide)).trans (Gen.V20_main_arg2 m _ c),
    (h main_arg3 (by decide)).trans (Gen.V20_main_arg3 m _ c),
    (h main_arg4 (by decide)).trans (Gen.V20_main_arg4 m _ c),
    (h main_arg5 (by decide)).trans (Gen.V20_main_arg5 m _ c),
    (h main_arg6 (by decide)).trans (Gen.V20_main_arg6 m _ c),
    (h main_arg7 (by decide)).trans (Gen.V20_main_arg7 m _ c),
    (h main_arg8 (by decide)).trans (Gen.V20_main_arg8 m _ c),
    (h main_arg9 (by decide)).trans (Gen.V20_main_arg9 m _ c),
    (h main_arg10 (by decide)).trans (Gen.V20_main_arg10 m _ c),
    (h main_arg11 (by decide)).trans (Gen.V20_main_arg11 m _ c),
    (h main_arg12 (by decide)).trans (Gen.V20_main_arg12 m _ c),
    (h main_arg13 (by decide)).trans (Gen.V20_main_arg13 m _ c),
    (h main_arg14 (by decide)).trans (Gen.V20_main_arg14 m _ c)⟩

end Cert.ReferenceIdeal.Hand
end
-- ==== Proof.RHostVal.lean ====
import proofs.«182102_g2000302601656725_pallasbulk_822_2_alg».proof.Proof.Gen.ReferenceIdeal.Regions
import proofs.«182102_g2000302601656725_pallasbulk_822_2_alg».proof.Proof.Spec
import Idealize.ShloMosaic.Lib.Pipeline.Value
import Idealize.ShloMosaic.Lib.KernelVsHost

noncomputable section

namespace Cert.ReferenceIdeal.Hand

open Idealize.ShloMosaic Idealize.ShloMosaic.ValueIdx Idealize.ShloMosaic.TcCoe
open Cert.ReferenceIdeal Cert.ReferenceIdeal.Gen

section Layout
variable {α : Type}

theorem ix4_congr {n0 n1 n2 n3 : ℕ} {p p' : Fin n0} {q q' : Fin n1} (r : Fin n2) (s : Fin n3)
    (hp : p.val = p'.val) (hq : q.val = q'.val) : ix4 p q r s = ix4 p' q' r s := by
  rw [Fin.ext hp, Fin.ext hq]

-- Two reshapes in a row keep every entry at its row-major position.
theorem cast2_apply {s t u : Shape} (x : s.Idx → α) (h1 : s.ShapeCasts t) (h2 : t.ShapeCasts u) (j : u.Idx) (k : s.Idx)
    (hk : (s.rowMajor k).val = (u.rowMajor j).val) : shapeCast u (shapeCast t x h1) h2 j = x k :=
  congrArg x (Shape.reshapeEquiv_eq_of_rowMajor h1 (hk.trans (Shape.rowMajor_reshapeEquiv h2 j).symm))

theorem cast34 {n0 n1 n2 k0 k1 k2 k3 : ℕ} (x : (⟨3, ![n0, n1, n2]⟩ : Shape).Idx → α)
    (h : (⟨3, ![n0, n1, n2]⟩ : Shape).ShapeCasts ⟨4, ![k0, k1, k2, k3]⟩)
    (a : Fin k0) (b : Fin k1) (c : Fin k2) (d : Fin k3) (p : Fin n0) (q : Fin n1) (r : Fin n2)
    (hpos : (p.val * n1 + q.val) * n2 + r.val = ((a.val * k1 + b.val) * k2 + c.val) * k3 + d.val) :
    shapeCast (⟨4, ![k0, k1, k2, k3]⟩ : Shape) x h (ix4 a b c d) = x (ix3 p q r) :=
  shapeCast_apply x h _ _ (by rw [Shape.rowMajor_val_three, Shape.rowMajor_val_four]; exact hpos)

theorem cast344 {n0 n1 n2 m0 m1 m2 m3 k0 k1 k2 k3 : ℕ} (x : (⟨3, ![n0, n1, n2]⟩ : Shape).Idx → α)
    (h1 : (⟨3, ![n0, n1, n2]⟩ : Shape).ShapeCasts ⟨4, ![m0, m1, m2, m3]⟩)
    (h2 : (⟨4, ![m0, m1, m2, m3]⟩ : Shape).ShapeCasts ⟨4, ![k0, k1, k2, k3]⟩)
    (a : Fin k0) (b : Fin k1) (c : Fin k2) (d : Fin k3) (p : Fin n0) (q : Fin n1) (r : Fin n2)
    (hpos : (p.val * n1 + q.val) * n2 + r.val = ((a.val * k1 + b.val) * k2 + c.val) * k3 + d.val) :
    shapeCast (⟨4, ![k0, k1, k2, k3]⟩ : Shape) (shapeCast (⟨4, ![m0, m1, m2, m3]⟩ : Shape) x h1) h2 (ix4 a b c d) = x (ix3 p q r) :=
  cast2_apply x h1 h2 _ _ (by rw [Shape.rowMajor_val_three, Shape.rowMajor_val_four]; exact hpos)

theorem cast342 {n0 n1 n2 m0 m1 m2 m3 k0 k1 : ℕ} (x : (⟨3, ![n0, n1, n2]⟩ : Shape).Idx → α)
    (h1 : (⟨3, ![n0, n1, n2]⟩ : Shape).ShapeCasts ⟨4, ![m0, m1, m2, m3]⟩)
    (h2 : (⟨4, ![m0, m1, m2, m3]⟩ : Shape).ShapeCasts ⟨2, ![k0, k1]⟩)
    (a : Fin k0) (b : Fin k1) (p : Fin n0) (q : Fin n1) (r : Fin n2)
    (hpos : (p.val * n1 + q.val) * n2 + r.val = a.val * k1 + b.val) :
    shapeCast (⟨2, ![k0, k1]⟩ : Shape) (shapeCast (⟨4, ![m0, m1, m2, m3]⟩ : Shape) x h1) h2 (ix2 a b) = x (ix3 p q r) :=
  cast2_apply x h1 h2 _ _ (by rw [Shape.rowMajor_val_three, Shape.rowMajor_val_two]; exact hpos)

theorem transpose_0231_apply {N C H W : ℕ} (x : (⟨4, ![N, C, H, W]⟩ : Shape).Idx → α)
    (h : (⟨4, ![N, C, H, W]⟩ : Shape).Transposes [0, 2, 3, 1] ⟨4, ![N, H, W, C]⟩)
    (n : Fin N) (hh : Fin H) (w : Fin W) (ch : Fin C) :
    transpose (⟨4, ![N, H, W, C]⟩ : Shape) [0, 2, 3, 1] x h (ix4 n hh w ch) = x (ix4 n ch hh w) := by
  refine transpose_apply _ x h (ix4 n hh w ch) (ix4 n ch hh w) fun b => ?_
  match b with
  | ⟨0, _⟩ => rfl
  | ⟨1, _⟩ => rfl
  | ⟨2, _⟩ => rfl
  | ⟨3, _⟩ => rfl

theorem slice_channels_apply (off : ℕ) (x : S32x6x64x64.Idx → α) (h : S32x6x64x64.Slices ![0, off, 0, 0] S32x3x64x64)
    (n : Fin 32) (ch : Fin 3) (hh w : Fin 64) (hc : off + ch.val < 6) :
    extractStridedSlice S32x3x64x64 ![0, off, 0, 0] x h (ix4 n ch hh w) = x (ix4 n ⟨off + ch.val, hc⟩ hh w) := by
  refine extractStridedSlice_apply _ x h (ix4 n ch hh w) (ix4 n ⟨off + ch.val, hc⟩ hh w) fun b => ?_
  match b with
  | ⟨0, _⟩ => show n.val = 0 + n.val; omega
  | ⟨1, _⟩ => rfl
  | ⟨2, _⟩ => show hh.val = 0 + hh.val; omega
  | ⟨3, _⟩ => show w.val = 0 + w.val; omega

theorem stack_lo_apply (x₁ x₂ : S32x3x64x64.Idx → α) (h : Shape.Concatenates [S32x3x64x64, S32x3x64x64] S64x3x64x64 0)
    (n : Fin 64) (ch : Fin 3) (hh w : Fin 64) (hn : n.val < 32) :
    concatenate S64x3x64x64 0 [⟨S32x3x64x64, x₁⟩, ⟨S32x3x64x64, x₂⟩] h (ix4 n ch hh w) = x₁ (ix4 ⟨n.val, hn⟩ ch hh w) := by
  refine concatenate_pair_apply_left 0 x₁ x₂ h (ix4 n ch hh w) rfl (ix4 ⟨n.val, hn⟩ ch hh w) fun b => ?_
  match b with
  | ⟨0, _⟩ => rfl
  | ⟨1, _⟩ => rfl
  | ⟨2, _⟩ => rfl
  | ⟨3, _⟩ => rfl

theorem stack_hi_apply (x₁ x₂ : S32x3x64x64.Idx → α) (h : Shape.Concatenates [S32x3x64x64, S32x3x64x64] S64x3x64x64 0)
    (n : Fin 64) (ch : Fin 3) (hh w : Fin 64) (hn : 32 ≤ n.val) :
    concatenate S64x3x64x64 0 [⟨S32x3x64x64, x₁⟩, ⟨S32x3x64x64, x₂⟩] h (ix4 n ch hh w)
      = x₂ (ix4 ⟨n.val - 32, by omega⟩ ch hh w) := by
  refine concatenate_pair_apply_right 0 x₁ x₂ h (ix4 n ch hh w) rfl rfl (ix4 ⟨n.val - 32, by omega⟩ ch hh w) (fun b hb => ?_) ?_
  · match b, hb with
    | ⟨0, _⟩, hb => exact absurd rfl hb
    | ⟨1, _⟩, _ => rfl
    | ⟨2, _⟩, _ => rfl
    | ⟨3, _⟩, _ => rfl
  · show n.val - 32 + 32 = n.val
    omega

end Layout

-- Images padded by `k` rows and columns of a zero value are `Spec.padz k` of the images: inside the frame the image, on it zero.
theorem padz_apply {N H W C Hp Wp : ℕ} (k : ℕ) (x : (⟨4, ![N, H, W, C]⟩ : Shape).Idx → EReal) {u : Shape} (v : u.Idx → EReal)
    (h : (⟨4, ![N, H, W, C]⟩ : Shape).Pads ![0, k, k, 0] ![0, k, k, 0] ![0, 0, 0, 0] ⟨4, ![N, Hp, Wp, C]⟩)
    (hu : 0 < u.numel) (hv : v (Shape.Idx.first hu) = 0) (y : Fin N → Fin H → Fin W → Fin C → EReal)
    (hx : ∀ n r s o, x (ix4 n r s o) = y n r s o) (n : Fin N) (r : Fin Hp) (s : Fin Wp) (o : Fin C) :
    pad (⟨4, ![N, Hp, Wp, C]⟩ : Shape) ![0, k, k, 0] ![0, k, k, 0] ![0, 0, 0, 0] x v h hu (ix4 n r s o)
      = Cert.Spec.padz k (y n) r s o := by
  unfold Cert.Spec.padz
  by_cases hin : k ≤ r.val ∧ r.val < H + k ∧ k ≤ s.val ∧ s.val < W + k
  · rw [dif_pos hin, ← hx]
    refine pad_apply_of_inside _ _ _ x v h hu (ix4 n r s o) _ fun b => ?_
    match b with
    | ⟨0, _⟩ => show n.val = 0 + n.val * 1; omega
    | ⟨1, _⟩ => show r.val = k + (r.val - k) * 1; omega
    | ⟨2, _⟩ => show s.val = k + (s.val - k) * 1; omega
    | ⟨3, _⟩ => show o.val = 0 + o.val * 1; omega
  · rw [dif_neg hin, ← hv]
    by_cases h1 : k ≤ r.val ∧ r.val < H + k
    · refine pad_apply_of_not_inside _ _ _ x v h hu (ix4 n r s o) (⟨2, (by omega : (2 : ℕ) < 4)⟩ : Fin 4) ?_
      show ¬(k ≤ s.val ∧ (s.val - k) % 1 = 0 ∧ (s.val - k) / 1 < W)
      omega
    · refine pad_apply_of_not_inside _ _ _ x v h hu (ix4 n r s o) (⟨1, (by omega : (1 : ℕ) < 4)⟩ : Fin 4) ?_
      show ¬(k ≤ r.val ∧ (r.val - k) % 1 = 0 ∧ (r.val - k) / 1 < H)
      omega

theorem pad_value_zero (hu : 0 < S_.numel) :
    ((sitofp (F := Ideal) .bf16 (constantI S_ 32 0#32) : FVec Ideal S_ .bf16) (Shape.Idx.first hu) : EReal) = 0 := by
  show (((0#32 : BitVec 32).toInt : ℝ) : EReal) = 0
  simp

section Arguments
variable {F : FTy → Type} [FloatOps F] (m : (ℓ : Loc nD τ sig) → Buf (Elt F) ℓ) (outs : Outs (F := F))

abbrev argRefs : List (Ref sig .tc) :=
  [main_arg0, main_arg1, main_arg2, main_arg3, main_arg4, main_arg5, main_arg6, main_arg7, main_arg8, main_arg9,
   main_arg10, main_arg11, main_arg12, main_arg13, main_arg14]

-- Nothing writes an argument, so at the entry of every launch that reads one it still holds its initial contents.
theorem args_V (c : Dev nD) (r : Ref sig .tc) (hr : r ∈ argRefs) :
    V2 m c r = V0 m c r ∧ V7 m outs c r = V0 m c r ∧ V12 m outs c r = V0 m c r ∧ V17 m outs c r = V0 m c r
      ∧ V19 m outs c r = V0 m c r := by
  obtain ⟨a1, a2, a3, a4, a5, a6, a7, a8, a9, a10, a11, a12, a13, a14, a15, a16, a17, a18, a19⟩ :=
    (by decide : ∀ r ∈ argRefs, r ∉ hostOps0_W ∧ r ∉ hostOps0_1_W ∧ r ∉ [main_v6] ∧ r ∉ hostOps1_W ∧ r ∉ [main_v9]
      ∧ r ∉ hostOps2_W ∧ r ∉ hostOps2_1_W ∧ r ∉ [main_v12] ∧ r ∉ hostOps3_W ∧ r ∉ [main_v15] ∧ r ∉ hostOps4_W
      ∧ r ∉ hostOps4_1_W ∧ r ∉ [main_v18] ∧ r ∉ hostOps5_W ∧ r ∉ [main_v21] ∧ r ∉ hostOps6_W ∧ r ∉ hostOps6_1_W
      ∧ r ∉ [main_v24] ∧ r ∉ hostOps7_W) r hr
  have e2 := (V2_of m c r a2).trans (V1_of m c r a1)
  have e7 := (V7_of m outs c r a7).trans ((V6_of m outs c r a6).trans ((V5_of m outs c r a5).trans
    ((V4_of m outs c r a4).trans ((V3_of m outs c r a3).trans e2))))
  have e12 := (V12_of m outs c r a12).trans ((V11_of m outs c r a11).trans ((V10_of m outs c r a10).trans
    ((V9_of m outs c r a9).trans ((V8_of m outs c r a8).trans e7))))
  have e17 := (V17_of m outs c r a17).trans ((V16_of m outs c r a16).trans ((V15_of m outs c r a15).trans
    ((V14_of m outs c r a14).trans ((V13_of m outs c r a13).trans e12))))
  exact ⟨e2, e7, e12, e17, (V19_of m outs c r a19).trans ((V18_of m outs c r a18).trans e17)⟩

end Arguments

variable (a : Cert.Spec.Args) (W : Valuation τ sig (Elt Ideal))

-- The input: the two three-channel halves stacked, channels moved last, padded by two zeros.
theorem host_v5 (hprev : (W main_arg0 : S32x6x64x64.Idx → EReal) = a.x) (n : Fin 64) (r s : Fin 68) (q : Fin 3) :
    (StableHlo.after hostOps0_1 (StableHlo.after hostOps0 W) main_v5 : S64x68x68x3.Idx → EReal) (ix4 n r s q)
      = Cert.Spec.padz 2 (Cert.Spec.X a n) r s q := by
  after_results
  refine padz_apply 2 _ _ pads_S64x64x64x3_S64x68x68x3_000_220_220_000 h_S_ (pad_value_zero h_S_) (Cert.Spec.X a) (fun n hh w q => ?_) n r s q
  refine (truncf_apply (φ := .f32) (ψ := .bf16) _ bitsLt_bf16_f32 _).trans ((transpose_0231_apply _ _ n _ _ q).trans ?_)
  unfold Cert.Spec.X
  by_cases hn : n.val < 32
  · refine (stack_lo_apply _ _ _ n q _ _ hn).trans ((slice_channels_apply 0 _ _ _ q _ _ (by omega)).trans ?_)
    rw [hprev]
    exact congrArg a.x (ix4_congr _ _ (by simp only []; omega) (by simp only []; omega))
  · refine (stack_hi_apply _ _ _ n q _ _ (by omega)).trans ((slice_channels_apply 3 _ _ _ q _ _ (by omega)).trans ?_)
    rw [hprev]
    exact congrArg a.x (ix4_congr _ _ (by simp only []; omega) (by simp only []; omega))

-- A layer's output, image by image in row-major pixels, reread as row pairs of column pairs.
theorem host_v8 (hprev : ∀ (n : Fin 64) (hw : Fin 4096) (o : Fin 128),
      (W main_v6 : S64x4096x128.Idx → EReal) (ix3 n hw o) = Cert.Spec.C1 a n ⟨hw.val / 64, by omega⟩ ⟨hw.val % 64, by omega⟩ o)
    (mm : Fin 2048) (d : Fin 2) (w2 : Fin 32) (q : Fin 256) :
    (StableHlo.after hostOps1 W main_v8 : S2048x2x32x256.Idx → EReal) (ix4 mm d w2 q)
      = Cert.Spec.C1 a ⟨mm.val / 32, by omega⟩ ⟨2 * (mm.val % 32) + d.val, by omega⟩
          ⟨2 * w2.val + q.val / 128, by omega⟩ ⟨q.val % 128, by omega⟩ := by
  after_results
  refine (cast344 _ _ _ mm d w2 q ⟨mm.val / 32, by omega⟩
    ⟨(2 * (mm.val % 32) + d.val) * 64 + (2 * w2.val + q.val / 128), by omega⟩ ⟨q.val % 128, by omega⟩
    (by simp only []; omega)).trans ?_
  rw [hprev]
  congr 1 <;> exact Fin.ext (by simp only []; omega)

-- The pooled maps, row by row, reread as images and padded by zeros.
theorem host_v11 (hprev : ∀ (mm : Fin 2048) (w2 : Fin 32) (o : Fin 128),
      (W main_v9 : S2048x32x128.Idx → EReal) (ix3 mm w2 o) = Cert.Spec.P1 a ⟨mm.val / 32, by omega⟩ ⟨mm.val % 32, by omega⟩ w2 o)
    (n : Fin 64) (r s : Fin 36) (o : Fin 128) :
    (StableHlo.after hostOps2_1 (StableHlo.after hostOps2 W) main_v11 : S64x36x36x128.Idx → EReal) (ix4 n r s o)
      = Cert.Spec.padz 2 (Cert.Spec.P1 a n) r s o := by
  after_results
  refine padz_apply 2 _ _ pads_S64x32x32x128_S64x36x36x128_000_220_220_000 h_S_ (pad_value_zero h_S_) (Cert.Spec.P1 a) (fun n h w o => ?_) n r s o
  refine (cast34 _ _ _ _ _ _ ⟨n.val * 32 + h.val, by omega⟩ w o rfl).trans ?_
  rw [hprev]
  congr 1 <;> exact Fin.ext (by simp only []; omega)

theorem host_v14 (hprev : ∀ (n : Fin 64) (hw : Fin 1024) (o : Fin 128),
      (W main_v12 : S64x1024x128.Idx → EReal) (ix3 n hw o) = Cert.Spec.C2 a n ⟨hw.val / 32, by omega⟩ ⟨hw.val % 32, by omega⟩ o)
    (mm : Fin 1024) (d : Fin 2) (w2 : Fin 16) (q : Fin 256) :
    (StableHlo.after hostOps3 W main_v14 : S1024x2x16x256.Idx → EReal) (ix4 mm d w2 q)
      = Cert.Spec.C2 a ⟨mm.val / 16, by omega⟩ ⟨2 * (mm.val % 16) + d.val, by omega⟩
          ⟨2 * w2.val + q.val / 128, by omega⟩ ⟨q.val % 128, by omega⟩ := by
  after_results
  refine (cast344 _ _ _ mm d w2 q ⟨mm.val / 16, by omega⟩
    ⟨(2 * (mm.val % 16) + d.val) * 32 + (2 * w2.val + q.val / 128), by omega⟩ ⟨q.val % 128, by omega⟩
    (by simp only []; omega)).trans ?_
  rw [hprev]
  congr 1 <;> exact Fin.ext (by simp only []; omega)

theorem host_v17 (hprev : ∀ (mm : Fin 1024) (w2 : Fin 16) (o : Fin 128),
      (W main_v15 : S1024x16x128.Idx → EReal) (ix3 mm w2 o) = Cert.Spec.P2 a ⟨mm.val / 16, by omega⟩ ⟨mm.val % 16, by omega⟩ w2 o)
    (n : Fin 64) (r s : Fin 18) (o : Fin 128) :
    (StableHlo.after hostOps4_1 (StableHlo.after hostOps4 W) main_v17 : S64x18x18x128.Idx → EReal) (ix4 n r s o)
      = Cert.Spec.padz 1 (Cert.Spec.P2 a n) r s o := by
  after_results
  refine padz_apply 1 _ _ pads_S64x16x16x128_S64x18x18x128_000_110_110_000 h_S_ (pad_value_zero h_S_) (Cert.Spec.P2 a) (fun n h w o => ?_) n r s o
  refine (cast34 _ _ _ _ _ _ ⟨n.val * 16 + h.val, by omega⟩ w o rfl).trans ?_
  rw [hprev]
  congr 1 <;> exact Fin.ext (by simp only []; omega)

theorem host_v20 (hprev : ∀ (n : Fin 64) (hw : Fin 256) (o : Fin 256),
      (W main_v18 : S64x256x256.Idx → EReal) (ix3 n hw o) = Cert.Spec.C3 a n ⟨hw.val / 16, by omega⟩ ⟨hw.val % 16, by omega⟩ o)
    (mm : Fin 512) (d : Fin 2) (w2 : Fin 8) (q : Fin 512) :
    (StableHlo.after hostOps5 W main_v20 : S512x2x8x512.Idx → EReal) (ix4 mm d w2 q)
      = Cert.Spec.C3 a ⟨mm.val / 8, by omega⟩ ⟨2 * (mm.val % 8) + d.val, by omega⟩
          ⟨2 * w2.val + q.val / 256, by omega⟩ ⟨q.val % 256, by omega⟩ := by
  after_results
  refine (cast344 _ _ _ mm d w2 q ⟨mm.val / 8, by omega⟩
    ⟨(2 * (mm.val % 8) + d.val) * 16 + (2 * w2.val + q.val / 256), by omega⟩ ⟨q.val % 256, by omega⟩
    (by simp only []; omega)).trans ?_
  rw [hprev]
  congr 1 <;> exact Fin.ext (by simp only []; omega)

theorem host_v23 (hprev : ∀ (mm : Fin 512) (w2 : Fin 8) (o : Fin 256),
      (W main_v21 : S512x8x256.Idx → EReal) (ix3 mm w2 o) = Cert.Spec.P3 a ⟨mm.val / 8, by omega⟩ ⟨mm.val % 8, by omega⟩ w2 o)
    (n : Fin 64) (r s : Fin 10) (o : Fin 256) :
    (StableHlo.after hostOps6_1 (StableHlo.after hostOps6 W) main_v23 : S64x10x10x256.Idx → EReal) (ix4 n r s o)
      = Cert.Spec.padz 1 (Cert.Spec.P3 a n) r s o := by
  after_results
  refine padz_apply 1 _ _ pads_S64x8x8x256_S64x10x10x256_000_110_110_000 h_S_ (pad_value_zero h_S_) (Cert.Spec.P3 a) (fun n h w o => ?_) n r s o
  refine (cast34 _ _ _ _ _ _ ⟨n.val * 8 + h.val, by omega⟩ w o rfl).trans ?_
  rw [hprev]
  congr 1 <;> exact Fin.ext (by simp only []; omega)

-- The last layer's output of an image reread as one row.
theorem host_v26 (hprev : ∀ (n : Fin 64) (hw : Fin 64) (o : Fin 512),
      (W main_v24 : S64x64x512.Idx → EReal) (ix3 n hw o) = Cert.Spec.C4 a n ⟨hw.val / 8, by omega⟩ ⟨hw.val % 8, by omega⟩ o)
    (n : Fin 64) (q : Fin 32768) :
    (StableHlo.after hostOps7 W main_v26 : S64x32768.Idx → EReal) (ix2 n q) = Cert.Spec.flat a n q := by
  after_results
  refine (cast342 _ _ _ n q n ⟨q.val / 4096 * 8 + q.val / 512 % 8, by omega⟩ ⟨q.val % 512, by omega⟩
    (by simp only []; omega)).trans ?_
  rw [hprev]
  unfold Cert.Spec.flat
  congr 1 <;> exact Fin.ext (by simp only []; omega)

end Cert.ReferenceIdeal.Hand

end
-- ==== Proof.LibVal.lean ====
import proofs.«182102_g2000302601656725_pallasbulk_822_2_alg».proof.Proof.LibPlainDot
import Idealize.ShloMosaic.Lib.Pipeline.Value
import Idealize.ShloMosaic.Lib.ValueIdx
import Idealize.ShloMosaic.Lib.ValueLayout

noncomputable section

open scoped BigOperators

namespace Cert.LibVal

open Idealize.ShloMosaic Idealize.ShloMosaic.ValueIdx

-- A load through a unit-stride rectangle reads the array at the rectangle's offsets plus the index.
theorem ld_unit_apply {S : Shape} {Val : EltTy → Type} {e : EltTy} (X : S.Idx → Val e) (off size : Fin S.rank → Nat)
    (inb : ∀ a, off a + size a ≤ S.size a) (y : (Rect.unit (s := S) off size inb).shape.Idx) (k : S.Idx)
    (hk : ∀ a, (k a).val = off a + (y a).val) : View.ld X (Rect.unit (s := S) off size inb) y = X k := by
  show X ((Rect.unit (s := S) off size inb).idx y) = X k
  refine congrArg X (funext fun a => Fin.ext ?_)
  rw [hk a, LoadRect.idx_apply]
  show off a + 1 * (y a).val = _
  omega

-- The same at rank four, three and two, the offsets, the index and the result given coordinate by coordinate.
theorem ld4 {n0 n1 n2 n3 m0 m1 m2 m3 : Nat} {Val : EltTy → Type} {e : EltTy} (X : (⟨4, ![n0, n1, n2, n3]⟩ : Shape).Idx → Val e)
    (o0 o1 o2 o3 : Nat) (inb) (y0 : Fin m0) (y1 : Fin m1) (y2 : Fin m2) (y3 : Fin m3) (k0 : Fin n0) (k1 : Fin n1) (k2 : Fin n2) (k3 : Fin n3)
    (h0 : k0.val = y0.val + o0) (h1 : k1.val = y1.val + o1) (h2 : k2.val = y2.val + o2) (h3 : k3.val = y3.val + o3) :
    (View.ld X (Rect.unit (s := ⟨4, ![n0, n1, n2, n3]⟩) ![o0, o1, o2, o3] ![m0, m1, m2, m3] inb) : (⟨4, ![m0, m1, m2, m3]⟩ : Shape).Idx → Val e)
      (ix4 y0 y1 y2 y3) = X (ix4 k0 k1 k2 k3) :=
  ld_unit_apply X _ _ _ _ _ fun a => by
    match a with
    | ⟨0, _⟩ => exact h0.trans (Nat.add_comm _ _)
    | ⟨1, _⟩ => exact h1.trans (Nat.add_comm _ _)
    | ⟨2, _⟩ => exact h2.trans (Nat.add_comm _ _)
    | ⟨3, _⟩ => exact h3.trans (Nat.add_comm _ _)

theorem ld3 {n0 n1 n2 m0 m1 m2 : Nat} {Val : EltTy → Type} {e : EltTy} (X : (⟨3, ![n0, n1, n2]⟩ : Shape).Idx → Val e)
    (o0 o1 o2 : Nat) (inb) (y0 : Fin m0) (y1 : Fin m1) (y2 : Fin m2) (k0 : Fin n0) (k1 : Fin n1) (k2 : Fin n2)
    (h0 : k0.val = y0.val + o0) (h1 : k1.val = y1.val + o1) (h2 : k2.val = y2.val + o2) :
    (View.ld X (Rect.unit (s := ⟨3, ![n0, n1, n2]⟩) ![o0, o1, o2] ![m0, m1, m2] inb) : (⟨3, ![m0, m1, m2]⟩ : Shape).Idx → Val e)
      (ix3 y0 y1 y2) = X (ix3 k0 k1 k2) :=
  ld_unit_apply X _ _ _ _ _ fun a => by
    match a with
    | ⟨0, _⟩ => exact h0.trans (Nat.add_comm _ _)
    | ⟨1, _⟩ => exact h1.trans (Nat.add_comm _ _)
    | ⟨2, _⟩ => exact h2.trans (Nat.add_comm _ _)

theorem ld2 {n0 n1 m0 m1 : Nat} {Val : EltTy → Type} {e : EltTy} (X : (⟨2, ![n0, n1]⟩ : Shape).Idx → Val e)
    (o0 o1 : Nat) (inb) (y0 : Fin m0) (y1 : Fin m1) (k0 : Fin n0) (k1 : Fin n1) (h0 : k0.val = y0.val + o0) (h1 : k1.val = y1.val + o1) :
    (View.ld X (Rect.unit (s := ⟨2, ![n0, n1]⟩) ![o0, o1] ![m0, m1] inb) : (⟨2, ![m0, m1]⟩ : Shape).Idx → Val e) (ix2 y0 y1) = X (ix2 k0 k1) :=
  ld_unit_apply X _ _ _ _ _ fun a => by
    match a with
    | ⟨0, _⟩ => exact h0.trans (Nat.add_comm _ _)
    | ⟨1, _⟩ => exact h1.trans (Nat.add_comm _ _)

-- An index lies in the slab of blocks that holds its leading coordinate, when the slab takes the other two axes whole.
theorem mem_slab3 {n0 n1 n2 : Nat} (i : (⟨3, ![n0, n1, n2]⟩ : Shape).Idx) (idx : Fin 3 → Nat) (B : Nat)
    (h0 : idx 0 * B ≤ (i 0).val ∧ (i 0).val < idx 0 * B + B) (h1 : idx 1 = 0) (h2 : idx 2 = 0) (a : Fin 3) :
    idx a * (![B, n1, n2] : Fin 3 → Nat) a ≤ (i a).val ∧ (i a).val < idx a * (![B, n1, n2] : Fin 3 → Nat) a + (![B, n1, n2] : Fin 3 → Nat) a := by
  match a with
  | ⟨0, _⟩ => exact h0
  | ⟨1, _⟩ => show idx 1 * n1 ≤ (i 1).val ∧ (i 1).val < idx 1 * n1 + n1; rw [h1]; have h : (i 1).val < n1 := (i 1).isLt; omega
  | ⟨2, _⟩ => show idx 2 * n2 ≤ (i 2).val ∧ (i 2).val < idx 2 * n2 + n2; rw [h2]; have h : (i 2).val < n2 := (i 2).isLt; omega

theorem zero3 : (![0, 0, 0] : Fin 3 → Nat) = fun _ => 0 := funext fun a => by fin_cases a <;> rfl

-- Row `d` of each row pair of a block, its unit axis dropped.
theorem ld_rowpair {R W C2 : Nat} (x0 : Vec Ideal ⟨4, ![R, 2, W, C2]⟩ .bf16) (d : Nat) (hd : d < 2) (inb)
    (hc : (⟨4, ![R, 1, W, C2]⟩ : Shape).ShapeCasts ⟨3, ![R, W, C2]⟩) (r : Fin R) (w : Fin W) (q : Fin C2) :
    shapeCast ⟨3, ![R, W, C2]⟩ (View.ld x0 (Rect.unit (s := ⟨4, ![R, 2, W, C2]⟩) ![0, d, 0, 0] ![R, 1, W, C2] inb)) hc (ix3 r w q)
      = x0 (ix4 r ⟨d, hd⟩ w q) := by
  rw [shapeCast_apply _ _ (ix3 r w q) (ix4 r 0 w q) (by
        rw [Shape.rowMajor_val_four, Shape.rowMajor_val_three]
        show ((r.val * 1 + 0) * W + w.val) * C2 + q.val = (r.val * W + w.val) * C2 + q.val
        rw [Nat.mul_one, Nat.add_zero])]
  exact ld4 x0 _ _ _ _ _ _ _ _ _ _ _ _ _ rfl (Nat.zero_add d).symm rfl rfl

-- The larger of the two rows of a pair, then the larger of the two halves of the last axis: the maximum of a two-by-two square.
theorem pool_apply {R W C C2 : Nat} (x0 : Vec Ideal ⟨4, ![R, 2, W, C2]⟩ .bf16) (r : Fin R) (w : Fin W) (o : Fin C) (hC : C2 = C + C)
    (hc : (⟨4, ![R, 1, W, C2]⟩ : Shape).ShapeCasts ⟨3, ![R, W, C2]⟩)
    (hs0 : (⟨3, ![R, W, C2]⟩ : Shape).Slices ![0, 0, 0] ⟨3, ![R, W, C]⟩) (hs1 : (⟨3, ![R, W, C2]⟩ : Shape).Slices ![0, 0, C] ⟨3, ![R, W, C]⟩)
    (inb0 inb1) :
    (maximumf
      (extractStridedSlice ⟨3, ![R, W, C]⟩ ![0, 0, 0]
        (maximumf (shapeCast ⟨3, ![R, W, C2]⟩ (View.ld x0 (Rect.unit (s := ⟨4, ![R, 2, W, C2]⟩) ![0, 0, 0, 0] ![R, 1, W, C2] inb0)) hc)
          (shapeCast ⟨3, ![R, W, C2]⟩ (View.ld x0 (Rect.unit (s := ⟨4, ![R, 2, W, C2]⟩) ![0, 1, 0, 0] ![R, 1, W, C2] inb1)) hc) : FVec Ideal ⟨3, ![R, W, C2]⟩ .bf16) hs0)
      (extractStridedSlice ⟨3, ![R, W, C]⟩ ![0, 0, C]
        (maximumf (shapeCast ⟨3, ![R, W, C2]⟩ (View.ld x0 (Rect.unit (s := ⟨4, ![R, 2, W, C2]⟩) ![0, 0, 0, 0] ![R, 1, W, C2] inb0)) hc)
          (shapeCast ⟨3, ![R, W, C2]⟩ (View.ld x0 (Rect.unit (s := ⟨4, ![R, 2, W, C2]⟩) ![0, 1, 0, 0] ![R, 1, W, C2] inb1)) hc) : FVec Ideal ⟨3, ![R, W, C2]⟩ .bf16) hs1)
      : FVec Ideal ⟨3, ![R, W, C]⟩ .bf16) (ix3 r w o)
    = max (max (x0 (ix4 r 0 w ⟨o.val, by omega⟩)) (x0 (ix4 r 1 w ⟨o.val, by omega⟩)))
        (max (x0 (ix4 r 0 w ⟨o.val + C, by omega⟩)) (x0 (ix4 r 1 w ⟨o.val + C, by omega⟩))) := by
  rw [maximumf_apply, extractStridedSlice_apply _ _ _ (ix3 r w o) (ix3 r w ⟨o.val, by omega⟩) (fun a => by
        match a with
        | ⟨0, _⟩ => show r.val = 0 + r.val; omega
        | ⟨1, _⟩ => show w.val = 0 + w.val; omega
        | ⟨2, _⟩ => show o.val = 0 + o.val; omega),
    extractStridedSlice_apply _ _ _ (ix3 r w o) (ix3 r w ⟨o.val + C, by omega⟩) (fun a => by
        match a with
        | ⟨0, _⟩ => show r.val = 0 + r.val; omega
        | ⟨1, _⟩ => show w.val = 0 + w.val; omega
        | ⟨2, _⟩ => show o.val + C = C + o.val; omega),
    maximumf_apply, maximumf_apply, ld_rowpair x0 0 (by omega), ld_rowpair x0 1 (by omega), ld_rowpair x0 0 (by omega), ld_rowpair x0 1 (by omega)]
  rfl

theorem bf16_lt_f32 : FTy.bf16.bits < FTy.f32.bits := by decide

-- One tap of a convolution: a window of pixels read as a matrix, one row per pixel in row-major order, times one weight matrix.
def tapG {F : FTy → Type} [FloatOps F] {S Cin Cout Pix : Nat} (h1 : (⟨4, ![1, S, S, Cin]⟩ : Shape).ShapeCasts ⟨3, ![S, S, Cin]⟩)
    (h2 : (⟨3, ![S, S, Cin]⟩ : Shape).ShapeCasts ⟨2, ![Pix, Cin]⟩) (h3 : (⟨3, ![1, Cin, Cout]⟩ : Shape).ShapeCasts ⟨2, ![Cin, Cout]⟩)
    (x : Vec F ⟨4, ![1, S, S, Cin]⟩ .bf16) (w : Vec F ⟨3, ![1, Cin, Cout]⟩ .bf16) : FVec F ⟨2, ![Pix, Cout]⟩ .f32 :=
  matmul (DotDims.plain Pix Cin Cout) none
    (truncf .bf16 (shapeCast ⟨2, ![Pix, Cin]⟩ (extf .f32 (shapeCast ⟨3, ![S, S, Cin]⟩ x h1 : FVec F ⟨3, ![S, S, Cin]⟩ .bf16) bf16_lt_f32 : FVec F ⟨3, ![S, S, Cin]⟩ .f32) h2 : FVec F ⟨2, ![Pix, Cin]⟩ .f32) bf16_lt_f32)
    (shapeCast ⟨2, ![Cin, Cout]⟩ w h3 : FVec F ⟨2, ![Cin, Cout]⟩ .bf16) (constant ⟨2, ![Pix, Cout]⟩ .f32 0x00000000#32)

-- At pixel `p` and output channel `o` it is the sum over the input channels of the pixel (p / S, p % S) times the weight.
theorem tapG_apply {S Cin Cout Pix : Nat} (h1 : (⟨4, ![1, S, S, Cin]⟩ : Shape).ShapeCasts ⟨3, ![S, S, Cin]⟩)
    (h2 : (⟨3, ![S, S, Cin]⟩ : Shape).ShapeCasts ⟨2, ![Pix, Cin]⟩) (h3 : (⟨3, ![1, Cin, Cout]⟩ : Shape).ShapeCasts ⟨2, ![Cin, Cout]⟩)
    (x : Vec Ideal ⟨4, ![1, S, S, Cin]⟩ .bf16) (w : Vec Ideal ⟨3, ![1, Cin, Cout]⟩ .bf16) (p : Fin Pix) (o : Fin Cout)
    (b1 : p.val / S < S) (b2 : p.val % S < S) :
    tapG h1 h2 h3 x w (ix2 p o) = ∑ c : Fin Cin, x (ix4 (0 : Fin 1) ⟨p.val / S, b1⟩ ⟨p.val % S, b2⟩ c) * w (ix3 (0 : Fin 1) c o) := by
  unfold tapG
  refine (Cert.LibPlainDot.matmul_plain_apply Pix Cin Cout none _ _ p o).trans (Finset.sum_congr rfl fun c _ => ?_)
  congr 1
  · rw [truncf_apply]
    refine (shapeCast_apply _ h2 (ix2 p c) (ix3 ⟨p.val / S, b1⟩ ⟨p.val % S, b2⟩ c) ?_).trans ?_
    · rw [Shape.rowMajor_val_three, Shape.rowMajor_val_two]
      show (p.val / S * S + p.val % S) * Cin + c.val = p.val * Cin + c.val
      rw [Nat.div_add_mod']
    · rw [extf_apply, shapeCast_1abc_abc_apply]
  · exact shapeCast_1ab_ab_apply w _ c o

end Cert.LibVal

end
-- ==== Proof.RR0Val.lean ====
import proofs.«182102_g2000302601656725_pallasbulk_822_2_alg».proof.Proof.RR0Body
import proofs.«182102_g2000302601656725_pallasbulk_822_2_alg».proof.Proof.RR0Frame
import proofs.«182102_g2000302601656725_pallasbulk_822_2_alg».proof.Proof.Spec
import proofs.«182102_g2000302601656725_pallasbulk_822_2_alg».proof.Proof.LibPlainDot
import proofs.«182102_g2000302601656725_pallasbulk_822_2_alg».proof.Proof.LibVal
import Idealize.ShloMosaic.Lib.ValueLayout

set_option maxRecDepth 16384

noncomputable section

open scoped BigOperators

namespace Cert.ReferenceIdeal.Hand

open Cert.ReferenceIdeal Cert.ReferenceIdeal.Gen Idealize.ShloMosaic Idealize.ShloMosaic.ValueIdx Idealize.ShloMosaic.TcCoe
open Idealize.ShloMosaic.Pipeline (Dat)

local notation "Cin" => 3
local notation "Side" => 64
local notation "Pad" => 68
local notation "Pix" => 4096

def tapR0 (x : Vec Ideal S1x64x64x3 .bf16) (w : Vec Ideal S1x3x128 .bf16) : FVec Ideal S4096x128 .f32 :=
  Cert.LibVal.tapG shapeCasts_S1x64x64x3_S64x64x3 shapeCasts_S64x64x3_S4096x3 shapeCasts_S1x3x128_S3x128 x w

theorem tapR0_apply (x : Vec Ideal S1x64x64x3 .bf16) (w : Vec Ideal S1x3x128 .bf16) (p : Fin Pix) (o : Fin 128) :
    tapR0 x w (ix2 p o)
      = ∑ c : Fin Cin, x (ix4 (0 : Fin 1) (⟨p.val / Side, by omega⟩ : Fin Side) (⟨p.val % Side, by omega⟩ : Fin Side) c)
          * w (ix3 (0 : Fin 1) c o) :=
  Cert.LibVal.tapG_apply _ _ _ x w p o _ _

theorem tapR0_ld (x0 : Vec Ideal S1x68x68x3 .bf16) (x1 : Vec Ideal S25x3x128 .bf16) (i j s : Nat)
    (inbx : ∀ a, (![0, i, j, 0] : Fin 4 → Nat) a + S1x64x64x3.size a ≤ S1x68x68x3.size a)
    (inbw : ∀ a, (![s, 0, 0] : Fin 3 → Nat) a + S1x3x128.size a ≤ S25x3x128.size a) (p : Fin Pix) (o : Fin 128) :
    tapR0 (View.ld x0 (Rect.unit (s := S1x68x68x3) ![0, i, j, 0] S1x64x64x3.size inbx))
        (View.ld x1 (Rect.unit (s := S25x3x128) ![s, 0, 0] S1x3x128.size inbw)) (ix2 p o)
      = ∑ c : Fin Cin,
          x0 (ix4 (0 : Fin 1) (⟨p.val / Side + i, by have h : i + Side ≤ Pad := inbx 1; omega⟩ : Fin Pad)
                (⟨p.val % Side + j, by have h : j + Side ≤ Pad := inbx 2; omega⟩ : Fin Pad) c)
            * x1 (ix3 (⟨s, by have h : s + 1 ≤ 25 := inbw 0; omega⟩ : Fin 25) c o) := by
  refine (tapR0_apply _ _ p o).trans (Finset.sum_congr rfl fun c _ => ?_)
  exact congrArg₂ (· * ·) (Cert.LibVal.ld4 x0 _ _ _ _ _ _ _ _ _ _ _ _ _ rfl rfl rfl rfl)
    (Cert.LibVal.ld3 x1 _ _ _ _ _ _ _ _ _ _ (Nat.zero_add s).symm rfl rfl)

def TR0 (x0 : Vec Ideal S1x68x68x3 .bf16) (x1 : Vec Ideal S25x3x128 .bf16) (p : Fin Pix) (o : Fin 128) (i j : Fin 5) : EReal :=
  ∑ c : Fin Cin, x0 (ix4 (0 : Fin 1) (⟨p.val / Side + i.val, by omega⟩ : Fin Pad) (⟨p.val % Side + j.val, by omega⟩ : Fin Pad) c)
    * x1 (ix3 (⟨i.val * 5 + j.val, by omega⟩ : Fin 25) c o)

theorem sum25R0 (T : Fin 5 → Fin 5 → EReal) :
    0 + T 0 0 + T 0 1 + T 0 2 + T 0 3 + T 0 4 + T 1 0 + T 1 1 + T 1 2 + T 1 3 + T 1 4 + T 2 0 + T 2 1 + T 2 2 + T 2 3 + T 2 4
      + T 3 0 + T 3 1 + T 3 2 + T 3 3 + T 3 4 + T 4 0 + T 4 1 + T 4 2 + T 4 3 + T 4 4 = ∑ i : Fin 5, ∑ j : Fin 5, T i j := by
  simp only [Fin.sum_univ_five, zero_add, add_assoc]

section
variable (s : FVec Ideal S4096x128 .f32) (a1 a2 a3 a4 : Vec Ideal S1x64x64x3 .bf16) (w1 w2 w3 w4 : Vec Ideal S1x3x128 .bf16)

theorem tapsR0_pay2 :
    k0_pay2 a1 w1 a2 w2 a3 w3
      = addf (addf (addf (broadcast S4096x128 (Scalar.ofBits (F := Ideal) .f32 0x00000000#32)) (tapR0 a1 w1)) (tapR0 a2 w2)) (tapR0 a3 w3) := rfl

theorem tapsR0_pay4 :
    k0_pay4 s (k0_pay3 a1) w1 a2 w2 a3 w3 = addf (addf (addf s (tapR0 a1 w1)) (tapR0 a2 w2)) (tapR0 a3 w3) := rfl

theorem tapsR0_pay7 :
    k0_pay7 s (k0_pay5 a1) (k0_pay6 w1) (constant S4096x128 .f32 0x00000000#32) a2 w2 a3 w3 a4 w4
      = addf (addf (addf (addf s (tapR0 a1 w1)) (tapR0 a2 w2)) (tapR0 a3 w3)) (tapR0 a4 w4) := rfl

theorem tapsR0_pay9 :
    k0_pay9 s (k0_pay8 a1) w1 a2 w2 a3 w3 = addf (addf (addf s (tapR0 a1 w1)) (tapR0 a2 w2)) (tapR0 a3 w3) := rfl

theorem tapsR0_pay11 :
    k0_pay11 s (k0_pay10 a1 w1) a2 w2 a3 w3 a4 w4
      = addf (addf (addf (addf s (tapR0 a1 w1)) (tapR0 a2 w2)) (tapR0 a3 w3)) (tapR0 a4 w4) := rfl

theorem tapsR0_pay13 :
    k0_pay13 s (k0_pay12 a1) w1 a2 w2 a3 w3 a4 w4
      = addf (addf (addf (addf s (tapR0 a1 w1)) (tapR0 a2 w2)) (tapR0 a3 w3)) (tapR0 a4 w4) := rfl

theorem tapsR0_pay14 :
    k0_pay14 s a1 w1 a2 w2 a3 w3 = addf (addf (addf s (tapR0 a1 w1)) (tapR0 a2 w2)) (tapR0 a3 w3) := rfl

end

def finR0 (acc : FVec Ideal S4096x128 .f32) (b0 b1 b2 : Vec Ideal S1x128 .f32) : FVec Ideal S1x4096x128 .bf16 :=
  shapeCast S1x4096x128
    (truncf .bf16
      (addf (mulf (maximumf (addf acc (broadcastTo S4096x128 b0 broadcasts_S1x128_S4096x128 : FVec Ideal S4096x128 .f32))
                      (broadcast S4096x128 (Scalar.ofBits (F := Ideal) .f32 0x00000000#32) : FVec Ideal S4096x128 .f32))
                  (broadcastTo S4096x128 b1 broadcasts_S1x128_S4096x128 : FVec Ideal S4096x128 .f32))
            (broadcastTo S4096x128 b2 broadcasts_S1x128_S4096x128 : FVec Ideal S4096x128 .f32))
      bitsLt_bf16_f32 : FVec Ideal S4096x128 .bf16)
    shapeCasts_S4096x128_S1x4096x128

theorem finR0_apply (acc : FVec Ideal S4096x128 .f32) (b0 b1 b2 : Vec Ideal S1x128 .f32) (u : Fin 1) (p : Fin Pix) (o : Fin 128) :
    finR0 acc b0 b1 b2 (ix3 u p o)
      = max (acc (ix2 p o) + b0 (ix2 (0 : Fin 1) o)) 0 * b1 (ix2 (0 : Fin 1) o) + b2 (ix2 (0 : Fin 1) o) := by
  unfold finR0
  rw [shapeCast_ab_1ab_apply, truncf_apply, addf_apply, mulf_apply, maximumf_apply, addf_apply, broadcast_apply,
    broadcastTo_1b_ab_apply, broadcastTo_1b_ab_apply, broadcastTo_1b_ab_apply]
  rw [show Scalar.ofBits (F := Ideal) .f32 0x00000000#32 = (0 : EReal) from Ideal.ofBits_zero_f32]

theorem tapsR0_pay1 (s : FVec Ideal S4096x128 .f32) (a1 : Vec Ideal S1x64x64x3 .bf16) (w1 : Vec Ideal S1x3x128 .bf16)
    (b0 b1 b2 : Vec Ideal S1x128 .f32) :
    k0_pay1 s (k0_pay15 a1) w1 b0 b1 b2 = finR0 (addf s (tapR0 a1 w1)) b0 b1 b2 := rfl

theorem bodyR0_apply (x0 : Vec Ideal S1x68x68x3 .bf16) (x1 : Vec Ideal S25x3x128 .bf16) (x2 : Vec Ideal S3x128 .f32)
    (u : Fin 1) (p : Fin Pix) (o : Fin 128) :
    body0 x0 x1 x2 (ix3 u p o)
      = Cert.Spec.affA (Cert.Spec.a2 x2)
          (Cert.Spec.conv5 (H := Side) (W := Side) (Hp := Pad) (Wp := Pad) (by omega) (by omega)
            (fun r s c => x0 (ix4 (0 : Fin 1) r s c)) (Cert.Spec.a3 x1)
            (⟨p.val / Side, by omega⟩ : Fin Side) (⟨p.val % Side, by omega⟩ : Fin Side) o) o := by
  unfold body0 body0_v221 body0_v216 body0_v189 body0_v157 body0_v153 body0_v125 body0_v117 body0_v93 body0_v90
    body0_cst_48 body0_v61 body0_v59 body0_v54 body0_v29 body0_v27
  rw [tapsR0_pay1, tapsR0_pay14, tapsR0_pay13, tapsR0_pay11, tapsR0_pay9, tapsR0_pay7, tapsR0_pay4, tapsR0_pay2, finR0_apply]
  refine congrArg₂ (· + ·) (congrArg₂ (· * ·) (congrArg₂ max (congrArg₂ (· + ·) ?_ (Cert.LibVal.ld2 x2 _ _ _ _ _ _ _ rfl rfl)) rfl)
    (Cert.LibVal.ld2 x2 _ _ _ _ _ _ _ rfl rfl)) (Cert.LibVal.ld2 x2 _ _ _ _ _ _ _ rfl rfl)
  simp only [addf_apply, broadcast_apply, tapR0_ld]
  rw [show Scalar.ofBits (F := Ideal) .f32 0x00000000#32 = (0 : EReal) from Ideal.ofBits_zero_f32]
  show _ = ∑ i : Fin 5, ∑ j : Fin 5, TR0 x0 x1 p o i j
  refine Eq.trans ?_ (sum25R0 (TR0 x0 x1 p o))
  rfl

theorem blockR0_value (a : Cert.Spec.Args) (n : Fin 64) (x0 : Vec Ideal S1x68x68x3 .bf16) (x1 : Vec Ideal S25x3x128 .bf16)
    (x2 : Vec Ideal S3x128 .f32)
    (hx0 : ∀ (r s : Fin Pad) (q : Fin Cin), x0 (ix4 (0 : Fin 1) r s q) = Cert.Spec.padz 2 (Cert.Spec.X a n) r s q)
    (hx1 : ∀ i : S25x3x128.Idx, x1 i = a.w1 i) (hx2 : ∀ i : S3x128.Idx, x2 i = a.b1 i) (y : S1x4096x128.Idx) :
    body0 x0 x1 x2 y
      = Cert.Spec.C1 a n (⟨(y 1).val / Side, by have h : (y 1).val < Pix := (y 1).isLt; omega⟩ : Fin Side)
          (⟨(y 1).val % Side, by omega⟩ : Fin Side) (y 2) := by
  obtain ⟨u, p, o, rfl⟩ : ∃ (u : Fin 1) (p : Fin Pix) (o : Fin 128), y = ix3 u p o := ⟨y 0, y 1, y 2, eq_ix3 y⟩
  rw [bodyR0_apply]
  have e0 : (fun (r s : Fin Pad) (c : Fin Cin) => x0 (ix4 (0 : Fin 1) r s c)) = Cert.Spec.padz 2 (Cert.Spec.X a n) :=
    funext fun r => funext fun s => funext fun q => hx0 r s q
  have e1 : x1 = a.w1 := funext hx1
  have e2 : x2 = a.b1 := funext hx2
  rw [e0, e1, e2]
  rfl

section Array

variable (V : (c : Dev nD) → (b : Ref sig .tc) → Buf (Elt Ideal) ((c : Thread nD τ).loc b))

theorem idxR0_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_3.index t (0 : Fin 3) = t.val ∧ win0_3.index t (1 : Fin 3) = 0 ∧ win0_3.index t (2 : Fin 3) = 0 :=
  (by decide +kernel : ∀ t : Fin grid0.N, _)

theorem idxR0_whole : ∀ t : Fin cfg0.N, (∀ a : Fin 3, win0_1.index t a = 0) ∧ ∀ a : Fin 2, win0_2.index t a = 0 :=
  (by decide +kernel : ∀ t : Fin grid0.N, _)

theorem iblkR0_0_apply (c : Dev nD) (t : Fin cfg0.N) (u : Fin 1) (r s : Fin Pad) (q : Fin Cin) :
    (iblk0 V c 0 t : Vec Ideal S1x68x68x3 .bf16) (ix4 u r s q)
      = (V c (Pipeline.arrRef spec0 0) : S64x68x68x3.Idx → Elt Ideal .bf16)
          (ix4 (⟨t.val, by have := t.isLt; have hN : cfg0.N = 64 := N_0; omega⟩ : Fin 64) r s q) := by
  obtain ⟨e0, e1, e2, e3, -⟩ := idxR0_facts t
  refine congrArg (V c (Pipeline.arrRef spec0 0)) (funext fun a => Fin.ext ?_)
  match a with
  | ⟨0, _⟩ => show win0_0.index t (0 : Fin 4) * 1 + 1 * u.val = t.val; rw [e0]; omega
  | ⟨1, _⟩ => show win0_0.index t (1 : Fin 4) * Pad + 1 * r.val = r.val; rw [e1]; omega
  | ⟨2, _⟩ => show win0_0.index t (2 : Fin 4) * Pad + 1 * s.val = s.val; rw [e2]; omega
  | ⟨3, _⟩ => show win0_0.index t (3 : Fin 4) * Cin + 1 * q.val = q.val; rw [e3]; omega

theorem iblkR0_1_apply (c : Dev nD) (t : Fin cfg0.N) (i : S25x3x128.Idx) :
    (iblk0 V c 1 t : Vec Ideal S25x3x128 .bf16) i = (V c (Pipeline.arrRef spec0 1) : S25x3x128.Idx → Elt Ideal .bf16) i :=
  congrArg (V c (Pipeline.arrRef spec0 1)) (funext fun a => Fin.ext (win0_1.rect_emb_val_of_index_zero t a ((idxR0_whole t).1 a) i))

theorem iblkR0_2_apply (c : Dev nD) (t : Fin cfg0.N) (i : S3x128.Idx) :
    (iblk0 V c 2 t : Vec Ideal S3x128 .f32) i = (V c (Pipeline.arrRef spec0 2) : S3x128.Idx → Elt Ideal .f32) i :=
  congrArg (V c (Pipeline.arrRef spec0 2)) (funext fun a => Fin.ext (win0_2.rect_emb_val_of_index_zero t a ((idxR0_whole t).2 a) i))

theorem coverR0 (i : S64x4096x128.Idx) :
    ∃ t : Fin cfg0.N, (cfg0.win 3).flush t = true ∧ i ∈ ((cfg0.win 3).blk t).view.set := by
  have hN : cfg0.N = 64 := N_0
  have hi0 : (i 0).val < 64 := (i 0).isLt
  obtain ⟨t, ht⟩ : ∃ t : Fin cfg0.N, t.val = (i 0).val := ⟨⟨_, by omega⟩, rfl⟩
  obtain ⟨-, -, -, -, e0, e1, e2⟩ := idxR0_facts t
  refine ⟨t, flush0_3 t, ?_⟩
  show i ∈ ((View.whole main_v6).slice (win0_3.rect t)).set
  rw [View.set_slice_whole, Rect.mem_set_unit]
  exact Cert.LibVal.mem_slab3 i (win0_3.index t) 1 (by omega) e1 e2

variable (c : Dev nD) (a : Cert.Spec.Args)
  (h0 : ∀ (n : Fin 64) (r s : Fin Pad) (q : Fin Cin),
    (V c (Pipeline.arrRef spec0 0) : S64x68x68x3.Idx → Elt Ideal .bf16) (ix4 n r s q) = Cert.Spec.padz 2 (Cert.Spec.X a n) r s q)
  (h1 : ∀ i : S25x3x128.Idx, (V c (Pipeline.arrRef spec0 1) : S25x3x128.Idx → Elt Ideal .bf16) i = a.w1 i)
  (h2 : ∀ i : S3x128.Idx, (V c (Pipeline.arrRef spec0 2) : S3x128.Idx → Elt Ideal .f32) i = a.b1 i)

include h0 h1 h2 in
theorem value0 (n : Fin 64) (hw : Fin Pix) (o : Fin 128) :
    ((dat0 V c).arrAt 3 cfg0.N : S64x4096x128.Idx → Elt Ideal .bf16) (ix3 n hw o)
      = Cert.Spec.C1 a n (⟨hw.val / Side, by omega⟩ : Fin Side) (⟨hw.val % Side, by omega⟩ : Fin Side) o := by
  refine (dat0 V c).arrAt_forall_of_cover 3
    (fun (i : S64x4096x128.Idx) v => v = Cert.Spec.C1 a (i 0) ⟨(i 1).val / Side, by have h : (i 1).val < Pix := (i 1).isLt; omega⟩ ⟨(i 1).val % Side, by omega⟩ (i 2))
    (fun t _ j => ?_) (coverR0) (ix3 n hw o)
  have ht : t.val < 64 := lt_of_lt_of_eq t.isLt N_0
  obtain ⟨-, -, -, -, e0, e1, e2⟩ := idxR0_facts t
  show (cfg0.win 3).cut (grid0.coords t) ((dat0 V c).after 3 t) j = _
  rw [after0_3]
  unfold out0_3
  rw [View.canon_unit_zero Cert.LibVal.zero3]
  refine (blockR0_value a (⟨t.val, by omega⟩ : Fin 64) (iblk0 V c 0 t) (iblk0 V c 1 t) (iblk0 V c 2 t) ?_ ?_ ?_ j).trans ?_
  · intro r s q
    rw [iblkR0_0_apply]
    exact h0 _ r s q
  · intro i
    rw [iblkR0_1_apply]
    exact h1 i
  · intro i
    rw [iblkR0_2_apply]
    exact h2 i
  · have k0 : ((((cfg0.win 3).blk t).view.emb j) 0).val = t.val := by
      show win0_3.index t (0 : Fin 3) * 1 + 1 * (j 0).val = t.val
      have hj0 : (j 0).val < 1 := (j 0).isLt
      rw [e0]; omega
    have k1 : ((((cfg0.win 3).blk t).view.emb j) 1).val = (j 1).val := by
      show win0_3.index t (1 : Fin 3) * Pix + 1 * (j 1).val = (j 1).val
      rw [e1]; omega
    have k2 : ((((cfg0.win 3).blk t).view.emb j) 2).val = (j 2).val := by
      show win0_3.index t (2 : Fin 3) * 128 + 1 * (j 2).val = (j 2).val
      rw [e2]; omega
    congr 1
    · exact Fin.ext k0.symm
    · exact Fin.ext (by show (j 1).val / Side = _ / Side; rw [k1])
    · exact Fin.ext (by show (j 1).val % Side = _ % Side; rw [k1])
    · exact Fin.ext k2.symm

end Array

end Cert.ReferenceIdeal.Hand

end
-- ==== Proof.RR1Val.lean ====
import proofs.«182102_g2000302601656725_pallasbulk_822_2_alg».proof.Proof.RR1Frame
import proofs.«182102_g2000302601656725_pallasbulk_822_2_alg».proof.Proof.Spec
import proofs.«182102_g2000302601656725_pallasbulk_822_2_alg».proof.Proof.LibVal
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

-- The stored block is the larger of the two rows at the even pixel against the larger of the two rows at the odd pixel.
theorem body1_apply (x0 : Vec Ideal S512x2x32x256 .bf16) (r : Fin 512) (w : Fin 32) (o : Fin 128) :
    body1 x0 (ix3 r w o) =
      max (max (x0 (ix4 r 0 w ⟨o.val, by omega⟩)) (x0 (ix4 r 1 w ⟨o.val, by omega⟩)))
          (max (x0 (ix4 r 0 w ⟨o.val + 128, by omega⟩)) (x0 (ix4 r 1 w ⟨o.val + 128, by omega⟩))) :=
  Cert.LibVal.pool_apply x0 r w o rfl _ _ _ _ _

variable (V : (c : Dev nD) → (b : Ref sig .tc) → Buf (Elt Ideal) ((c : Thread nD τ).loc b))

-- Both index maps send point `t` to row block `t`, zero on the other axes.
theorem idx_facts1 : ∀ t : Fin cfg1.N, win1_0.index t (0 : Fin 4) = t.val ∧ win1_0.index t (1 : Fin 4) = 0
    ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0 :=
  (by decide +kernel : ∀ t : Fin grid1.N, _)

-- The input block at point `t` is rows `t * 512 …` of the input array.
theorem iblk1_apply (c : Dev nD) (t : Fin cfg1.N) (r : Fin 512) (d : Fin 2) (w : Fin 32) (q : Fin 256) :
    iblk1 V c 0 t (ix4 r d w q) = (V c (Pipeline.arrRef spec1 0) : S2048x2x32x256.Idx → EReal)
      (ix4 ⟨t.val * 512 + r.val, by have := t.isLt; have hN : cfg1.N = 4 := N_1; omega⟩ d w q) := by
  obtain ⟨e0, e1, e2, e3, -⟩ := idx_facts1 t
  refine congrArg (V c main_v8) (funext fun a => Fin.ext ?_)
  match a with
  | ⟨0, _⟩ => show win1_0.index t (0 : Fin 4) * 512 + 1 * r.val = t.val * 512 + r.val; omega
  | ⟨1, _⟩ => show win1_0.index t (1 : Fin 4) * 2 + 1 * d.val = d.val; omega
  | ⟨2, _⟩ => show win1_0.index t (2 : Fin 4) * 32 + 1 * w.val = w.val; omega
  | ⟨3, _⟩ => show win1_0.index t (3 : Fin 4) * 256 + 1 * q.val = q.val; omega

-- Every index of the output array lies in the block numbered by its row divided by 512.
theorem cover1 (i : S2048x32x128.Idx) : ∃ t : Fin cfg1.N, (cfg1.win 1).flush t = true ∧ i ∈ ((cfg1.win 1).blk t).view.set := by
  have hi0 : (i 0).val < 2048 := (i 0).isLt
  have hN : cfg1.N = 4 := N_1
  obtain ⟨t, ht⟩ : ∃ t : Fin cfg1.N, t.val = (i 0).val / 512 := ⟨⟨_, by omega⟩, rfl⟩
  obtain ⟨-, -, -, -, f0, f1, f2⟩ := idx_facts1 t
  refine ⟨t, flush1_1 t, ?_⟩
  show i ∈ ((View.whole main_v9).slice (win1_1.rect t)).set
  rw [View.set_slice_whole, Rect.mem_set_unit]
  exact Cert.LibVal.mem_slab3 i (win1_1.index t) 512 (by omega) f1 f2

-- An entry of the output array is the stored block's entry at its place in its block: the maximum of a two-by-two square.
theorem value1 (a : Cert.Spec.Args) (c : Dev nD)
    (h0 : ∀ (mm : Fin 2048) (d : Fin 2) (w2 : Fin 32) (q : Fin 256),
      (V c (Pipeline.arrRef spec1 0) : S2048x2x32x256.Idx → EReal) (ix4 mm d w2 q)
        = Cert.Spec.C1 a ⟨mm.val / 32, by have := mm.isLt; omega⟩ ⟨2 * (mm.val % 32) + d.val, by have := d.isLt; omega⟩
            ⟨2 * w2.val + q.val / 128, by have := w2.isLt; have := q.isLt; omega⟩ ⟨q.val % 128, by omega⟩) :
    ∀ (mm : Fin 2048) (w2 : Fin 32) (o : Fin 128),
      (dat1 V c).arrAt 1 cfg1.N (ix3 mm w2 o)
        = Cert.Spec.P1 a ⟨mm.val / 32, by have := mm.isLt; omega⟩ ⟨mm.val % 32, by omega⟩ w2 o := by
  intro mm w2 o
  refine (dat1 V c).arrAt_forall_of_cover 1
    (fun (i : S2048x32x128.Idx) v => v = Cert.Spec.P1 a ⟨(i 0).val / 32, by have h : (i 0).val < 2048 := (i 0).isLt; omega⟩ ⟨(i 0).val % 32, by omega⟩ (i 1) (i 2))
    (fun t _ y => ?_) (cover1) (ix3 mm w2 o)
  obtain ⟨r, w, p, rfl⟩ : ∃ (r : Fin 512) (w : Fin 32) (p : Fin 128), y = ix3 r w p := ⟨y 0, y 1, y 2, eq_ix3 y⟩
  obtain ⟨-, -, -, -, f0, f1, f2⟩ := idx_facts1 t
  have hN : cfg1.N = 4 := N_1
  have ht := t.isLt
  have hi : ((cfg1.win 1).blk t).view.emb (ix3 r w p) = ix3 ⟨t.val * 512 + r.val, by omega⟩ w p := funext fun b => Fin.ext (by
    match b with
    | ⟨0, _⟩ => show win1_1.index t (0 : Fin 3) * 512 + 1 * r.val = t.val * 512 + r.val; omega
    | ⟨1, _⟩ => show win1_1.index t (1 : Fin 3) * 32 + 1 * w.val = w.val; omega
    | ⟨2, _⟩ => show win1_1.index t (2 : Fin 3) * 128 + 1 * p.val = p.val; omega)
  rw [hi]
  show (cfg1.win 1).cut (grid1.coords t) ((dat1 V c).after 1 t) (ix3 r w p) = _
  rw [after1_1]
  unfold out1_1
  rw [View.canon_unit_zero Cert.LibVal.zero3]
  show body1 (iblk1 V c 0 t) (ix3 r w p) = _
  have hp' := p.isLt
  rw [body1_apply, iblk1_apply, iblk1_apply, iblk1_apply, iblk1_apply, h0, h0, h0, h0]
  unfold Cert.Spec.P1 Cert.Spec.pool
  have key : ∀ n h (u u' : Fin 64) (s s' : Fin 128), u.val = u'.val → s.val = s'.val → Cert.Spec.C1 a n h u s = Cert.Spec.C1 a n h u' s' := by
    intro n h u u' s s' e2 e3; rw [Fin.ext e2, Fin.ext e3]
  have e1 : 2 * w.val + p.val / 128 = 2 * w.val := by omega
  have e2 : p.val % 128 = p.val := by omega
  have e3 : 2 * w.val + (p.val + 128) / 128 = 2 * w.val + 1 := by omega
  have e4 : (p.val + 128) % 128 = p.val := by omega
  exact congrArg₂ max (congrArg₂ max (key _ _ _ _ _ _ e1 e2) (key _ _ _ _ _ _ e1 e2)) (congrArg₂ max (key _ _ _ _ _ _ e3 e4) (key _ _ _ _ _ _ e3 e4))

end Cert.ReferenceIdeal.Hand

end
-- ==== Proof.RR2Val.lean ====
import proofs.«182102_g2000302601656725_pallasbulk_822_2_alg».proof.Proof.RR2Body
import proofs.«182102_g2000302601656725_pallasbulk_822_2_alg».proof.Proof.RR2Frame
import proofs.«182102_g2000302601656725_pallasbulk_822_2_alg».proof.Proof.Spec
import proofs.«182102_g2000302601656725_pallasbulk_822_2_alg».proof.Proof.LibPlainDot
import proofs.«182102_g2000302601656725_pallasbulk_822_2_alg».proof.Proof.LibVal
import Idealize.ShloMosaic.Lib.ValueLayout

set_option maxRecDepth 16384

noncomputable section

open scoped BigOperators

namespace Cert.ReferenceIdeal.Hand

open Cert.ReferenceIdeal Cert.ReferenceIdeal.Gen Idealize.ShloMosaic Idealize.ShloMosaic.ValueIdx Idealize.ShloMosaic.TcCoe
open Idealize.ShloMosaic.Pipeline (Dat)

local notation "Cin" => 128
local notation "Side" => 32
local notation "Pad" => 36
local notation "Pix" => 1024

def tapR2 (x : Vec Ideal S1x32x32x128 .bf16) (w : Vec Ideal S1x128x128 .bf16) : FVec Ideal S1024x128 .f32 :=
  Cert.LibVal.tapG shapeCasts_S1x32x32x128_S32x32x128 shapeCasts_S32x32x128_S1024x128 shapeCasts_S1x128x128_S128x128 x w

theorem tapR2_apply (x : Vec Ideal S1x32x32x128 .bf16) (w : Vec Ideal S1x128x128 .bf16) (p : Fin Pix) (o : Fin 128) :
    tapR2 x w (ix2 p o)
      = ∑ c : Fin Cin, x (ix4 (0 : Fin 1) (⟨p.val / Side, by omega⟩ : Fin Side) (⟨p.val % Side, by omega⟩ : Fin Side) c)
          * w (ix3 (0 : Fin 1) c o) :=
  Cert.LibVal.tapG_apply _ _ _ x w p o _ _

theorem tapR2_ld (x0 : Vec Ideal S1x36x36x128 .bf16) (x1 : Vec Ideal S25x128x128 .bf16) (i j s : Nat)
    (inbx : ∀ a, (![0, i, j, 0] : Fin 4 → Nat) a + S1x32x32x128.size a ≤ S1x36x36x128.size a)
    (inbw : ∀ a, (![s, 0, 0] : Fin 3 → Nat) a + S1x128x128.size a ≤ S25x128x128.size a) (p : Fin Pix) (o : Fin 128) :
    tapR2 (View.ld x0 (Rect.unit (s := S1x36x36x128) ![0, i, j, 0] S1x32x32x128.size inbx))
        (View.ld x1 (Rect.unit (s := S25x128x128) ![s, 0, 0] S1x128x128.size inbw)) (ix2 p o)
      = ∑ c : Fin Cin,
          x0 (ix4 (0 : Fin 1) (⟨p.val / Side + i, by have h : i + Side ≤ Pad := inbx 1; omega⟩ : Fin Pad)
                (⟨p.val % Side + j, by have h : j + Side ≤ Pad := inbx 2; omega⟩ : Fin Pad) c)
            * x1 (ix3 (⟨s, by have h : s + 1 ≤ 25 := inbw 0; omega⟩ : Fin 25) c o) := by
  refine (tapR2_apply _ _ p o).trans (Finset.sum_congr rfl fun c _ => ?_)
  exact congrArg₂ (· * ·) (Cert.LibVal.ld4 x0 _ _ _ _ _ _ _ _ _ _ _ _ _ rfl rfl rfl rfl)
    (Cert.LibVal.ld3 x1 _ _ _ _ _ _ _ _ _ _ (Nat.zero_add s).symm rfl rfl)

def TR2 (x0 : Vec Ideal S1x36x36x128 .bf16) (x1 : Vec Ideal S25x128x128 .bf16) (p : Fin Pix) (o : Fin 128) (i j : Fin 5) : EReal :=
  ∑ c : Fin Cin, x0 (ix4 (0 : Fin 1) (⟨p.val / Side + i.val, by omega⟩ : Fin Pad) (⟨p.val % Side + j.val, by omega⟩ : Fin Pad) c)
    * x1 (ix3 (⟨i.val * 5 + j.val, by omega⟩ : Fin 25) c o)

theorem sum25R2 (T : Fin 5 → Fin 5 → EReal) :
    0 + T 0 0 + T 0 1 + T 0 2 + T 0 3 + T 0 4 + T 1 0 + T 1 1 + T 1 2 + T 1 3 + T 1 4 + T 2 0 + T 2 1 + T 2 2 + T 2 3 + T 2 4
      + T 3 0 + T 3 1 + T 3 2 + T 3 3 + T 3 4 + T 4 0 + T 4 1 + T 4 2 + T 4 3 + T 4 4 = ∑ i : Fin 5, ∑ j : Fin 5, T i j := by
  simp only [Fin.sum_univ_five, zero_add, add_assoc]

section
variable (s : FVec Ideal S1024x128 .f32) (a1 a2 a3 a4 : Vec Ideal S1x32x32x128 .bf16) (w1 w2 w3 w4 : Vec Ideal S1x128x128 .bf16)

theorem tapsR2_pay2 :
    k2_pay2 a1 w1 a2 w2 a3 w3
      = addf (addf (addf (broadcast S1024x128 (Scalar.ofBits (F := Ideal) .f32 0x00000000#32)) (tapR2 a1 w1)) (tapR2 a2 w2)) (tapR2 a3 w3) := rfl

theorem tapsR2_pay4 :
    k2_pay4 s (k2_pay3 a1) w1 a2 w2 a3 w3 = addf (addf (addf s (tapR2 a1 w1)) (tapR2 a2 w2)) (tapR2 a3 w3) := rfl

theorem tapsR2_pay7 :
    k2_pay7 s (k2_pay5 a1) (k2_pay6 w1) (constant S1024x128 .f32 0x00000000#32) a2 w2 a3 w3 a4 w4
      = addf (addf (addf (addf s (tapR2 a1 w1)) (tapR2 a2 w2)) (tapR2 a3 w3)) (tapR2 a4 w4) := rfl

theorem tapsR2_pay9 :
    k2_pay9 s (k2_pay8 a1) w1 a2 w2 a3 w3 = addf (addf (addf s (tapR2 a1 w1)) (tapR2 a2 w2)) (tapR2 a3 w3) := rfl

theorem tapsR2_pay11 :
    k2_pay11 s (k2_pay10 a1 w1) a2 w2 a3 w3 a4 w4
      = addf (addf (addf (addf s (tapR2 a1 w1)) (tapR2 a2 w2)) (tapR2 a3 w3)) (tapR2 a4 w4) := rfl

theorem tapsR2_pay13 :
    k2_pay13 s (k2_pay12 a1) w1 a2 w2 a3 w3 a4 w4
      = addf (addf (addf (addf s (tapR2 a1 w1)) (tapR2 a2 w2)) (tapR2 a3 w3)) (tapR2 a4 w4) := rfl

theorem tapsR2_pay14 :
    k2_pay14 s a1 w1 a2 w2 a3 w3 = addf (addf (addf s (tapR2 a1 w1)) (tapR2 a2 w2)) (tapR2 a3 w3) := rfl

end

def finR2 (acc : FVec Ideal S1024x128 .f32) (b0 b1 b2 : Vec Ideal S1x128 .f32) : FVec Ideal S1x1024x128 .bf16 :=
  shapeCast S1x1024x128
    (truncf .bf16
      (addf (mulf (maximumf (addf acc (broadcastTo S1024x128 b0 broadcasts_S1x128_S1024x128 : FVec Ideal S1024x128 .f32))
                      (broadcast S1024x128 (Scalar.ofBits (F := Ideal) .f32 0x00000000#32) : FVec Ideal S1024x128 .f32))
                  (broadcastTo S1024x128 b1 broadcasts_S1x128_S1024x128 : FVec Ideal S1024x128 .f32))
            (broadcastTo S1024x128 b2 broadcasts_S1x128_S1024x128 : FVec Ideal S1024x128 .f32))
      bitsLt_bf16_f32 : FVec Ideal S1024x128 .bf16)
    shapeCasts_S1024x128_S1x1024x128

theorem finR2_apply (acc : FVec Ideal S1024x128 .f32) (b0 b1 b2 : Vec Ideal S1x128 .f32) (u : Fin 1) (p : Fin Pix) (o : Fin 128) :
    finR2 acc b0 b1 b2 (ix3 u p o)
      = max (acc (ix2 p o) + b0 (ix2 (0 : Fin 1) o)) 0 * b1 (ix2 (0 : Fin 1) o) + b2 (ix2 (0 : Fin 1) o) := by
  unfold finR2
  rw [shapeCast_ab_1ab_apply, truncf_apply, addf_apply, mulf_apply, maximumf_apply, addf_apply, broadcast_apply,
    broadcastTo_1b_ab_apply, broadcastTo_1b_ab_apply, broadcastTo_1b_ab_apply]
  rw [show Scalar.ofBits (F := Ideal) .f32 0x00000000#32 = (0 : EReal) from Ideal.ofBits_zero_f32]

theorem tapsR2_pay1 (s : FVec Ideal S1024x128 .f32) (a1 : Vec Ideal S1x32x32x128 .bf16) (w1 : Vec Ideal S1x128x128 .bf16)
    (b0 b1 b2 : Vec Ideal S1x128 .f32) :
    k2_pay1 s (k2_pay15 a1) w1 b0 b1 b2 = finR2 (addf s (tapR2 a1 w1)) b0 b1 b2 := rfl

theorem bodyR2_apply (x0 : Vec Ideal S1x36x36x128 .bf16) (x1 : Vec Ideal S25x128x128 .bf16) (x2 : Vec Ideal S3x128 .f32)
    (u : Fin 1) (p : Fin Pix) (o : Fin 128) :
    body2 x0 x1 x2 (ix3 u p o)
      = Cert.Spec.affA (Cert.Spec.a2 x2)
          (Cert.Spec.conv5 (H := Side) (W := Side) (Hp := Pad) (Wp := Pad) (by omega) (by omega)
            (fun r s c => x0 (ix4 (0 : Fin 1) r s c)) (Cert.Spec.a3 x1)
            (⟨p.val / Side, by omega⟩ : Fin Side) (⟨p.val % Side, by omega⟩ : Fin Side) o) o := by
  unfold body2 body2_v221 body2_v216 body2_v189 body2_v157 body2_v153 body2_v125 body2_v117 body2_v93 body2_v90
    body2_cst_48 body2_v61 body2_v59 body2_v54 body2_v29 body2_v27
  rw [tapsR2_pay1, tapsR2_pay14, tapsR2_pay13, tapsR2_pay11, tapsR2_pay9, tapsR2_pay7, tapsR2_pay4, tapsR2_pay2, finR2_apply]
  refine congrArg₂ (· + ·) (congrArg₂ (· * ·) (congrArg₂ max (congrArg₂ (· + ·) ?_ (Cert.LibVal.ld2 x2 _ _ _ _ _ _ _ rfl rfl)) rfl)
    (Cert.LibVal.ld2 x2 _ _ _ _ _ _ _ rfl rfl)) (Cert.LibVal.ld2 x2 _ _ _ _ _ _ _ rfl rfl)
  simp only [addf_apply, broadcast_apply, tapR2_ld]
  rw [show Scalar.ofBits (F := Ideal) .f32 0x00000000#32 = (0 : EReal) from Ideal.ofBits_zero_f32]
  show _ = ∑ i : Fin 5, ∑ j : Fin 5, TR2 x0 x1 p o i j
  refine Eq.trans ?_ (sum25R2 (TR2 x0 x1 p o))
  rfl

theorem blockR2_value (a : Cert.Spec.Args) (n : Fin 64) (x0 : Vec Ideal S1x36x36x128 .bf16) (x1 : Vec Ideal S25x128x128 .bf16)
    (x2 : Vec Ideal S3x128 .f32)
    (hx0 : ∀ (r s : Fin Pad) (q : Fin Cin), x0 (ix4 (0 : Fin 1) r s q) = Cert.Spec.padz 2 (Cert.Spec.P1 a n) r s q)
    (hx1 : ∀ i : S25x128x128.Idx, x1 i = a.w2 i) (hx2 : ∀ i : S3x128.Idx, x2 i = a.b2 i) (y : S1x1024x128.Idx) :
    body2 x0 x1 x2 y
      = Cert.Spec.C2 a n (⟨(y 1).val / Side, by have h : (y 1).val < Pix := (y 1).isLt; omega⟩ : Fin Side)
          (⟨(y 1).val % Side, by omega⟩ : Fin Side) (y 2) := by
  obtain ⟨u, p, o, rfl⟩ : ∃ (u : Fin 1) (p : Fin Pix) (o : Fin 128), y = ix3 u p o := ⟨y 0, y 1, y 2, eq_ix3 y⟩
  rw [bodyR2_apply]
  have e0 : (fun (r s : Fin Pad) (c : Fin Cin) => x0 (ix4 (0 : Fin 1) r s c)) = Cert.Spec.padz 2 (Cert.Spec.P1 a n) :=
    funext fun r => funext fun s => funext fun q => hx0 r s q
  have e1 : x1 = a.w2 := funext hx1
  have e2 : x2 = a.b2 := funext hx2
  rw [e0, e1, e2]
  rfl

section Array

variable (V : (c : Dev nD) → (b : Ref sig .tc) → Buf (Elt Ideal) ((c : Thread nD τ).loc b))

theorem idxR2_facts : ∀ t : Fin cfg2.N,
    win2_0.index t (0 : Fin 4) = t.val ∧ win2_0.index t (1 : Fin 4) = 0 ∧ win2_0.index t (2 : Fin 4) = 0 ∧ win2_0.index t (3 : Fin 4) = 0
    ∧ win2_3.index t (0 : Fin 3) = t.val ∧ win2_3.index t (1 : Fin 3) = 0 ∧ win2_3.index t (2 : Fin 3) = 0 :=
  (by decide +kernel : ∀ t : Fin grid2.N, _)

theorem idxR2_whole : ∀ t : Fin cfg2.N, (∀ a : Fin 3, win2_1.index t a = 0) ∧ ∀ a : Fin 2, win2_2.index t a = 0 :=
  (by decide +kernel : ∀ t : Fin grid2.N, _)

theorem iblkR2_0_apply (c : Dev nD) (t : Fin cfg2.N) (u : Fin 1) (r s : Fin Pad) (q : Fin Cin) :
    (iblk2 V c 0 t : Vec Ideal S1x36x36x128 .bf16) (ix4 u r s q)
      = (V c (Pipeline.arrRef spec2 0) : S64x36x36x128.Idx → Elt Ideal .bf16)
          (ix4 (⟨t.val, by have := t.isLt; have hN : cfg2.N = 64 := N_2; omega⟩ : Fin 64) r s q) := by
  obtain ⟨e0, e1, e2, e3, -⟩ := idxR2_facts t
  refine congrArg (V c (Pipeline.arrRef spec2 0)) (funext fun a => Fin.ext ?_)
  match a with
  | ⟨0, _⟩ => show win2_0.index t (0 : Fin 4) * 1 + 1 * u.val = t.val; rw [e0]; omega
  | ⟨1, _⟩ => show win2_0.index t (1 : Fin 4) * Pad + 1 * r.val = r.val; rw [e1]; omega
  | ⟨2, _⟩ => show win2_0.index t (2 : Fin 4) * Pad + 1 * s.val = s.val; rw [e2]; omega
  | ⟨3, _⟩ => show win2_0.index t (3 : Fin 4) * Cin + 1 * q.val = q.val; rw [e3]; omega

theorem iblkR2_1_apply (c : Dev nD) (t : Fin cfg2.N) (i : S25x128x128.Idx) :
    (iblk2 V c 1 t : Vec Ideal S25x128x128 .bf16) i = (V c (Pipeline.arrRef spec2 1) : S25x128x128.Idx → Elt Ideal .bf16) i :=
  congrArg (V c (Pipeline.arrRef spec2 1)) (funext fun a => Fin.ext (win2_1.rect_emb_val_of_index_zero t a ((idxR2_whole t).1 a) i))

theorem iblkR2_2_apply (c : Dev nD) (t : Fin cfg2.N) (i : S3x128.Idx) :
    (iblk2 V c 2 t : Vec Ideal S3x128 .f32) i = (V c (Pipeline.arrRef spec2 2) : S3x128.Idx → Elt Ideal .f32) i :=
  congrArg (V c (Pipeline.arrRef spec2 2)) (funext fun a => Fin.ext (win2_2.rect_emb_val_of_index_zero t a ((idxR2_whole t).2 a) i))

theorem coverR2 (i : S64x1024x128.Idx) :
    ∃ t : Fin cfg2.N, (cfg2.win 3).flush t = true ∧ i ∈ ((cfg2.win 3).blk t).view.set := by
  have hN : cfg2.N = 64 := N_2
  have hi0 : (i 0).val < 64 := (i 0).isLt
  obtain ⟨t, ht⟩ : ∃ t : Fin cfg2.N, t.val = (i 0).val := ⟨⟨_, by omega⟩, rfl⟩
  obtain ⟨-, -, -, -, e0, e1, e2⟩ := idxR2_facts t
  refine ⟨t, flush2_3 t, ?_⟩
  show i ∈ ((View.whole main_v12).slice (win2_3.rect t)).set
  rw [View.set_slice_whole, Rect.mem_set_unit]
  exact Cert.LibVal.mem_slab3 i (win2_3.index t) 1 (by omega) e1 e2

variable (c : Dev nD) (a : Cert.Spec.Args)
  (h0 : ∀ (n : Fin 64) (r s : Fin Pad) (q : Fin Cin),
    (V c (Pipeline.arrRef spec2 0) : S64x36x36x128.Idx → Elt Ideal .bf16) (ix4 n r s q) = Cert.Spec.padz 2 (Cert.Spec.P1 a n) r s q)
  (h1 : ∀ i : S25x128x128.Idx, (V c (Pipeline.arrRef spec2 1) : S25x128x128.Idx → Elt Ideal .bf16) i = a.w2 i)
  (h2 : ∀ i : S3x128.Idx, (V c (Pipeline.arrRef spec2 2) : S3x128.Idx → Elt Ideal .f32) i = a.b2 i)

include h0 h1 h2 in
theorem value2 (n : Fin 64) (hw : Fin Pix) (o : Fin 128) :
    ((dat2 V c).arrAt 3 cfg2.N : S64x1024x128.Idx → Elt Ideal .bf16) (ix3 n hw o)
      = Cert.Spec.C2 a n (⟨hw.val / Side, by omega⟩ : Fin Side) (⟨hw.val % Side, by omega⟩ : Fin Side) o := by
  refine (dat2 V c).arrAt_forall_of_cover 3
    (fun (i : S64x1024x128.Idx) v => v = Cert.Spec.C2 a (i 0) ⟨(i 1).val / Side, by have h : (i 1).val < Pix := (i 1).isLt; omega⟩ ⟨(i 1).val % Side, by omega⟩ (i 2))
    (fun t _ j => ?_) (coverR2) (ix3 n hw o)
  have ht : t.val < 64 := lt_of_lt_of_eq t.isLt N_2
  obtain ⟨-, -, -, -, e0, e1, e2⟩ := idxR2_facts t
  show (cfg2.win 3).cut (grid2.coords t) ((dat2 V c).after 3 t) j = _
  rw [after2_3]
  unfold out2_3
  rw [View.canon_unit_zero Cert.LibVal.zero3]
  refine (blockR2_value a (⟨t.val, by omega⟩ : Fin 64) (iblk2 V c 0 t) (iblk2 V c 1 t) (iblk2 V c 2 t) ?_ ?_ ?_ j).trans ?_
  · intro r s q
    rw [iblkR2_0_apply]
    exact h0 _ r s q
  · intro i
    rw [iblkR2_1_apply]
    exact h1 i
  · intro i
    rw [iblkR2_2_apply]
    exact h2 i
  · have k0 : ((((cfg2.win 3).blk t).view.emb j) 0).val = t.val := by
      show win2_3.index t (0 : Fin 3) * 1 + 1 * (j 0).val = t.val
      have hj0 : (j 0).val < 1 := (j 0).isLt
      rw [e0]; omega
    have k1 : ((((cfg2.win 3).blk t).view.emb j) 1).val = (j 1).val := by
      show win2_3.index t (1 : Fin 3) * Pix + 1 * (j 1).val = (j 1).val
      rw [e1]; omega
    have k2 : ((((cfg2.win 3).blk t).view.emb j) 2).val = (j 2).val := by
      show win2_3.index t (2 : Fin 3) * 128 + 1 * (j 2).val = (j 2).val
      rw [e2]; omega
    congr 1
    · exact Fin.ext k0.symm
    · exact Fin.ext (by show (j 1).val / Side = _ / Side; rw [k1])
    · exact Fin.ext (by show (j 1).val % Side = _ % Side; rw [k1])
    · exact Fin.ext k2.symm

end Array

end Cert.ReferenceIdeal.Hand

end
-- ==== Proof.RR3Val.lean ====
import proofs.«182102_g2000302601656725_pallasbulk_822_2_alg».proof.Proof.RR3Frame
import proofs.«182102_g2000302601656725_pallasbulk_822_2_alg».proof.Proof.Spec
import proofs.«182102_g2000302601656725_pallasbulk_822_2_alg».proof.Proof.LibVal
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

-- The stored block is the larger of the two rows at the even pixel against the larger of the two rows at the odd pixel.
theorem body3_apply (x0 : Vec Ideal S256x2x16x256 .bf16) (r : Fin 256) (w : Fin 16) (o : Fin 128) :
    body3 x0 (ix3 r w o) =
      max (max (x0 (ix4 r 0 w ⟨o.val, by omega⟩)) (x0 (ix4 r 1 w ⟨o.val, by omega⟩)))
          (max (x0 (ix4 r 0 w ⟨o.val + 128, by omega⟩)) (x0 (ix4 r 1 w ⟨o.val + 128, by omega⟩))) :=
  Cert.LibVal.pool_apply x0 r w o rfl _ _ _ _ _

variable (V : (c : Dev nD) → (b : Ref sig .tc) → Buf (Elt Ideal) ((c : Thread nD τ).loc b))

-- Both index maps send point `t` to row block `t`, zero on the other axes.
theorem idx_facts3 : ∀ t : Fin cfg3.N, win3_0.index t (0 : Fin 4) = t.val ∧ win3_0.index t (1 : Fin 4) = 0
    ∧ win3_0.index t (2 : Fin 4) = 0 ∧ win3_0.index t (3 : Fin 4) = 0
    ∧ win3_1.index t (0 : Fin 3) = t.val ∧ win3_1.index t (1 : Fin 3) = 0 ∧ win3_1.index t (2 : Fin 3) = 0 :=
  (by decide +kernel : ∀ t : Fin grid3.N, _)

-- The input block at point `t` is rows `t * 256 …` of the input array.
theorem iblk3_apply (c : Dev nD) (t : Fin cfg3.N) (r : Fin 256) (d : Fin 2) (w : Fin 16) (q : Fin 256) :
    iblk3 V c 0 t (ix4 r d w q) = (V c (Pipeline.arrRef spec3 0) : S1024x2x16x256.Idx → EReal)
      (ix4 ⟨t.val * 256 + r.val, by have := t.isLt; have hN : cfg3.N = 4 := N_3; omega⟩ d w q) := by
  obtain ⟨e0, e1, e2, e3, -⟩ := idx_facts3 t
  refine congrArg (V c main_v14) (funext fun a => Fin.ext ?_)
  match a with
  | ⟨0, _⟩ => show win3_0.index t (0 : Fin 4) * 256 + 1 * r.val = t.val * 256 + r.val; omega
  | ⟨1, _⟩ => show win3_0.index t (1 : Fin 4) * 2 + 1 * d.val = d.val; omega
  | ⟨2, _⟩ => show win3_0.index t (2 : Fin 4) * 16 + 1 * w.val = w.val; omega
  | ⟨3, _⟩ => show win3_0.index t (3 : Fin 4) * 256 + 1 * q.val = q.val; omega

-- Every index of the output array lies in the block numbered by its row divided by 256.
theorem cover3 (i : S1024x16x128.Idx) : ∃ t : Fin cfg3.N, (cfg3.win 1).flush t = true ∧ i ∈ ((cfg3.win 1).blk t).view.set := by
  have hi0 : (i 0).val < 1024 := (i 0).isLt
  have hN : cfg3.N = 4 := N_3
  obtain ⟨t, ht⟩ : ∃ t : Fin cfg3.N, t.val = (i 0).val / 256 := ⟨⟨_, by omega⟩, rfl⟩
  obtain ⟨-, -, -, -, f0, f1, f2⟩ := idx_facts3 t
  refine ⟨t, flush3_1 t, ?_⟩
  show i ∈ ((View.whole main_v15).slice (win3_1.rect t)).set
  rw [View.set_slice_whole, Rect.mem_set_unit]
  exact Cert.LibVal.mem_slab3 i (win3_1.index t) 256 (by omega) f1 f2

-- An entry of the output array is the stored block's entry at its place in its block: the maximum of a two-by-two square.
theorem value3 (a : Cert.Spec.Args) (c : Dev nD)
    (h0 : ∀ (mm : Fin 1024) (d : Fin 2) (w2 : Fin 16) (q : Fin 256),
      (V c (Pipeline.arrRef spec3 0) : S1024x2x16x256.Idx → EReal) (ix4 mm d w2 q)
        = Cert.Spec.C2 a ⟨mm.val / 16, by have := mm.isLt; omega⟩ ⟨2 * (mm.val % 16) + d.val, by have := d.isLt; omega⟩
            ⟨2 * w2.val + q.val / 128, by have := w2.isLt; have := q.isLt; omega⟩ ⟨q.val % 128, by omega⟩) :
    ∀ (mm : Fin 1024) (w2 : Fin 16) (o : Fin 128),
      (dat3 V c).arrAt 1 cfg3.N (ix3 mm w2 o)
        = Cert.Spec.P2 a ⟨mm.val / 16, by have := mm.isLt; omega⟩ ⟨mm.val % 16, by omega⟩ w2 o := by
  intro mm w2 o
  refine (dat3 V c).arrAt_forall_of_cover 1
    (fun (i : S1024x16x128.Idx) v => v = Cert.Spec.P2 a ⟨(i 0).val / 16, by have h : (i 0).val < 1024 := (i 0).isLt; omega⟩ ⟨(i 0).val % 16, by omega⟩ (i 1) (i 2))
    (fun t _ y => ?_) (cover3) (ix3 mm w2 o)
  obtain ⟨r, w, p, rfl⟩ : ∃ (r : Fin 256) (w : Fin 16) (p : Fin 128), y = ix3 r w p := ⟨y 0, y 1, y 2, eq_ix3 y⟩
  obtain ⟨-, -, -, -, f0, f1, f2⟩ := idx_facts3 t
  have hN : cfg3.N = 4 := N_3
  have ht := t.isLt
  have hi : ((cfg3.win 1).blk t).view.emb (ix3 r w p) = ix3 ⟨t.val * 256 + r.val, by omega⟩ w p := funext fun b => Fin.ext (by
    match b with
    | ⟨0, _⟩ => show win3_1.index t (0 : Fin 3) * 256 + 1 * r.val = t.val * 256 + r.val; omega
    | ⟨1, _⟩ => show win3_1.index t (1 : Fin 3) * 16 + 1 * w.val = w.val; omega
    | ⟨2, _⟩ => show win3_1.index t (2 : Fin 3) * 128 + 1 * p.val = p.val; omega)
  rw [hi]
  show (cfg3.win 1).cut (grid3.coords t) ((dat3 V c).after 1 t) (ix3 r w p) = _
  rw [after3_1]
  unfold out3_1
  rw [View.canon_unit_zero Cert.LibVal.zero3]
  show body3 (iblk3 V c 0 t) (ix3 r w p) = _
  have hp' := p.isLt
  rw [body3_apply, iblk3_apply, iblk3_apply, iblk3_apply, iblk3_apply, h0, h0, h0, h0]
  unfold Cert.Spec.P2 Cert.Spec.pool
  have key : ∀ n h (u u' : Fin 32) (s s' : Fin 128), u.val = u'.val → s.val = s'.val → Cert.Spec.C2 a n h u s = Cert.Spec.C2 a n h u' s' := by
    intro n h u u' s s' e2 e3; rw [Fin.ext e2, Fin.ext e3]
  have e1 : 2 * w.val + p.val / 128 = 2 * w.val := by omega
  have e2 : p.val % 128 = p.val := by omega
  have e3 : 2 * w.val + (p.val + 128) / 128 = 2 * w.val + 1 := by omega
  have e4 : (p.val + 128) % 128 = p.val := by omega
  exact congrArg₂ max (congrArg₂ max (key _ _ _ _ _ _ e1 e2) (key _ _ _ _ _ _ e1 e2)) (congrArg₂ max (key _ _ _ _ _ _ e3 e4) (key _ _ _ _ _ _ e3 e4))

end Cert.ReferenceIdeal.Hand

end
-- ==== Proof.RR4Val.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR4Body
import proofs.«182102_g2000302601656725_pallasbulk_822_2_alg».proof.Proof.RR4Frame
import proofs.«182102_g2000302601656725_pallasbulk_822_2_alg».proof.Proof.Spec
import proofs.«182102_g2000302601656725_pallasbulk_822_2_alg».proof.Proof.LibPlainDot
import proofs.«182102_g2000302601656725_pallasbulk_822_2_alg».proof.Proof.LibVal
import Idealize.ShloMosaic.Lib.Pipeline.FrameBody
import Idealize.ShloMosaic.Lib.Pipeline.RegionsLoop
import Idealize.ShloMosaic.Lib.Pipeline.Value
import Idealize.ShloMosaic.Lib.ValueLayout

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.RA Idealize.SL.Sem
open Idealize.ShloMosaic.Pipeline (Dat)

section AnyFormat
variable {F : FTy → Type} [FloatOps F]

def tapv4 (x : Vec F S1x16x16x128 .bf16) (w : Vec F S1x128x256 .bf16) : FVec F S256x256 .f32 :=
  Cert.LibVal.tapG shapeCasts_S1x16x16x128_S16x16x128 shapeCasts_S16x16x128_S256x128 shapeCasts_S1x128x256_S128x256 x w

variable (s : FVec F S256x256 .f32) (a1 a2 a3 : Vec F S1x16x16x128 .bf16) (w1 w2 w3 : Vec F S1x128x256 .bf16) (b0 b1 b2 : Vec F S1x256 .f32)

theorem pay2_4 :
    k4_pay2 a1 w1 a2 w2 a3 w3
      = addf (addf (addf (broadcast S256x256 (Scalar.ofBits .f32 0x00000000#32)) (tapv4 a1 w1)) (tapv4 a2 w2)) (tapv4 a3 w3) := rfl

theorem pay4_4 :
    k4_pay4 s (k4_pay3 a1) w1 a2 w2 a3 w3
      = addf (addf (addf s (tapv4 a1 w1)) (tapv4 a2 w2)) (tapv4 a3 w3) := rfl

abbrev epiV4 (S b0 b1 b2 z : FVec F S256x256 .f32) : FVec F S256x256 .f32 := addf (mulf (maximumf (addf S b0) z) b1) b2

theorem pay7_4 :
    k4_pay1 (k4_pay7 s (k4_pay5 a1) (k4_pay6 w1) (constant S256x256 .f32 0x00000000#32) a2 w2 a3 w3 b0 b1 b2)
      = shapeCast S1x256x256 (truncf .bf16 (epiV4 (addf (addf (addf s (tapv4 a1 w1)) (tapv4 a2 w2)) (tapv4 a3 w3))
            (broadcastTo S256x256 b0 broadcasts_S1x256_S256x256) (broadcastTo S256x256 b1 broadcasts_S1x256_S256x256) (broadcastTo S256x256 b2 broadcasts_S1x256_S256x256)
            (broadcast S256x256 (Scalar.ofBits .f32 0x00000000#32))) bitsLt_bf16_f32) shapeCasts_S256x256_S1x256x256 := rfl

end AnyFormat

abbrev epiE4 (S b0 b1 b2 : EReal) : EReal := max (S + b0) 0 * b1 + b2

theorem tapv4_apply (x : Vec Ideal S1x16x16x128 .bf16) (w : Vec Ideal S1x128x256 .bf16) (hw : Fin 256) (o : Fin 256) :
    tapv4 x w (ix2 hw o)
      = ∑ c : Fin 128, x (ix4 (0 : Fin 1) (⟨hw.val / 16, by omega⟩ : Fin 16) (⟨hw.val % 16, by omega⟩ : Fin 16) c) * w (ix3 (0 : Fin 1) c o) :=
  Cert.LibVal.tapG_apply _ _ _ x w hw o _ _

theorem chain4_apply (a1 a2 a3 a4 a5 a6 a7 a8 a9 : Vec Ideal S1x16x16x128 .bf16) (w1 w2 w3 w4 w5 w6 w7 w8 w9 : Vec Ideal S1x128x256 .bf16)
    (b0 b1 b2 : Vec Ideal S1x256 .f32) (u : Fin 1) (hw : Fin 256) (o : Fin 256) :
    k4_pay1 (k4_pay7 (k4_pay4 (k4_pay2 a1 w1 a2 w2 a3 w3) (k4_pay3 a4) w4 a5 w5 a6 w6) (k4_pay5 a7) (k4_pay6 w7)
        (constant S256x256 .f32 0x00000000#32) a8 w8 a9 w9 b0 b1 b2) (ix3 u hw o)
      = epiE4 (((((((((0 + tapv4 a1 w1 (ix2 hw o)) + tapv4 a2 w2 (ix2 hw o)) + tapv4 a3 w3 (ix2 hw o)) + tapv4 a4 w4 (ix2 hw o)) + tapv4 a5 w5 (ix2 hw o))
          + tapv4 a6 w6 (ix2 hw o)) + tapv4 a7 w7 (ix2 hw o)) + tapv4 a8 w8 (ix2 hw o)) + tapv4 a9 w9 (ix2 hw o))
          (b0 (ix2 (0 : Fin 1) o)) (b1 (ix2 (0 : Fin 1) o)) (b2 (ix2 (0 : Fin 1) o)) := by
  rw [pay7_4, pay4_4, pay2_4]
  refine (shapeCast_ab_1ab_apply _ _ u hw o).trans ?_
  simp only [epiV4, epiE4, truncf_apply, maximumf_apply, addf_apply, mulf_apply, broadcast_apply, broadcastTo_1b_ab_apply]
  rw [show (Scalar.ofBits .f32 0x00000000#32 : Ideal .f32) = 0 from Ideal.ofBits_zero_f32]

theorem ld_row4 (x2 : Vec Ideal S3x256 .f32) (k : ℕ)
    (inb : ∀ a, (![k, 0] : Fin 2 → ℕ) a + S1x256.size a ≤ S3x256.size a)
    (o : Fin 256) (k' : Fin 3) (hk : k'.val = k) :
    View.ld x2 (Rect.unit (s := S3x256) ![k, 0] S1x256.size inb) (ix2 (0 : Fin 1) o) = x2 (ix2 k' o) :=
  Cert.LibVal.ld2 x2 _ _ _ _ _ _ _ (hk.trans (Nat.zero_add k).symm) rfl

def T4 (x0 : Vec Ideal S1x18x18x128 .bf16) (x1 : Vec Ideal S9x128x256 .bf16) (hw : Fin 256) (o : Fin 256) (i j : Fin 3) : EReal :=
  ∑ c : Fin 128,
    x0 (ix4 (0 : Fin 1) (⟨hw.val / 16 + i.val, by have := i.isLt; omega⟩ : Fin 18) (⟨hw.val % 16 + j.val, by have := j.isLt; omega⟩ : Fin 18) c)
      * x1 (ix3 (⟨i.val * 3 + j.val, by have := i.isLt; have := j.isLt; omega⟩ : Fin 9) c o)

theorem tap4_at (x0 : Vec Ideal S1x18x18x128 .bf16) (x1 : Vec Ideal S9x128x256 .bf16) (hw : Fin 256) (o : Fin 256)
    (i j : Fin 3) (i' j' k' : ℕ)
    (inb0 : ∀ a, (![0, i', j', 0] : Fin 4 → ℕ) a + S1x16x16x128.size a ≤ S1x18x18x128.size a)
    (inb1 : ∀ a, (![k', 0, 0] : Fin 3 → ℕ) a + S1x128x256.size a ≤ S9x128x256.size a)
    (hi : i.val = i') (hj : j.val = j') (hk : i.val * 3 + j.val = k') :
    tapv4 (View.ld x0 (Rect.unit (s := S1x18x18x128) ![0, i', j', 0] S1x16x16x128.size inb0))
        (View.ld x1 (Rect.unit (s := S9x128x256) ![k', 0, 0] S1x128x256.size inb1)) (ix2 hw o)
      = T4 x0 x1 hw o i j := by
  subst hi hj hk
  rw [tapv4_apply]
  exact Finset.sum_congr rfl fun c _ => congrArg₂ (· * ·) (Cert.LibVal.ld4 x0 _ _ _ _ _ _ _ _ _ _ _ _ _ rfl rfl rfl rfl)
    (Cert.LibVal.ld3 x1 _ _ _ _ _ _ _ _ _ _ (Nat.zero_add _).symm rfl rfl)

theorem body4_spec (a : Cert.Spec.Args) (n : Fin 64)
    (x0 : Vec Ideal S1x18x18x128 .bf16) (x1 : Vec Ideal S9x128x256 .bf16) (x2 : Vec Ideal S3x256 .f32)
    (hx0 : ∀ (r s : Fin 18) (q : Fin 128), x0 (ix4 (0 : Fin 1) r s q) = Cert.Spec.padz 1 (Cert.Spec.P2 a n) r s q)
    (hx1 : ∀ (k : Fin 9) (q : Fin 128) (o : Fin 256), x1 (ix3 k q o) = a.w3 (ix3 k q o))
    (hx2 : ∀ (k : Fin 3) (o : Fin 256), x2 (ix2 k o) = a.b3 (ix2 k o))
    (u : Fin 1) (hw : Fin 256) (o : Fin 256) :
    body4 x0 x1 x2 (ix3 u hw o) = Cert.Spec.C3 a n ⟨hw.val / 16, by omega⟩ ⟨hw.val % 16, by omega⟩ o := by
  unfold body4 body4_v93 body4_v54 body4_v27 body4_v29 body4_v59 body4_v61 body4_cst_48
  refine (chain4_apply _ _ _ _ _ _ _ _ _ _ _ _ _ _ _ _ _ _ _ _ _ u hw o).trans ?_
  rw [tap4_at x0 x1 hw o 0 0 0 0 0 _ _ rfl rfl rfl, tap4_at x0 x1 hw o 0 1 0 1 1 _ _ rfl rfl rfl, tap4_at x0 x1 hw o 0 2 0 2 2 _ _ rfl rfl rfl,
    tap4_at x0 x1 hw o 1 0 1 0 3 _ _ rfl rfl rfl, tap4_at x0 x1 hw o 1 1 1 1 4 _ _ rfl rfl rfl, tap4_at x0 x1 hw o 1 2 1 2 5 _ _ rfl rfl rfl,
    tap4_at x0 x1 hw o 2 0 2 0 6 _ _ rfl rfl rfl, tap4_at x0 x1 hw o 2 1 2 1 7 _ _ rfl rfl rfl, tap4_at x0 x1 hw o 2 2 2 2 8 _ _ rfl rfl rfl,
    ld_row4 x2 0 _ o 0 rfl, ld_row4 x2 1 _ o 1 rfl, ld_row4 x2 2 _ o 2 rfl]
  have hc : Cert.Spec.conv3 (Hp := 18) (Wp := 18) (by norm_num) (by norm_num) (Cert.Spec.padz 1 (Cert.Spec.P2 a n)) (Cert.Spec.a3 a.w3)
      (⟨hw.val / 16, by omega⟩ : Fin 16) (⟨hw.val % 16, by omega⟩ : Fin 16) o = ∑ i : Fin 3, ∑ j : Fin 3, T4 x0 x1 hw o i j := by
    unfold Cert.Spec.conv3 T4
    refine Finset.sum_congr rfl fun i _ => Finset.sum_congr rfl fun j _ => Finset.sum_congr rfl fun c _ => ?_
    rw [hx0, hx1]
  unfold Cert.Spec.C3 Cert.Spec.affA
  rw [hc, Fin.sum_univ_three, Fin.sum_univ_three, Fin.sum_univ_three, Fin.sum_univ_three, hx2, hx2, hx2]
  simp only [epiE4, zero_add, add_assoc]

section Array
variable (V : (c : Dev nD) → (b : Ref sig .tc) → Buf (Elt Ideal) ((c : Thread nD τ).loc b))

theorem idx_facts4 : ∀ t : Fin cfg4.N,
    win4_0.index t (0 : Fin 4) = t.val ∧ win4_0.index t (1 : Fin 4) = 0 ∧ win4_0.index t (2 : Fin 4) = 0 ∧ win4_0.index t (3 : Fin 4) = 0
    ∧ win4_3.index t (0 : Fin 3) = t.val ∧ win4_3.index t (1 : Fin 3) = 0 ∧ win4_3.index t (2 : Fin 3) = 0 :=
  (by decide +kernel : ∀ t : Fin grid4.N, _)

theorem idx_whole4 : ∀ t : Fin cfg4.N, (∀ a : Fin 3, win4_1.index t a = 0) ∧ ∀ a : Fin 2, win4_2.index t a = 0 :=
  (by decide +kernel : ∀ t : Fin grid4.N, _)

theorem iblk4_0_apply (c : Dev nD) (t : Fin cfg4.N) (r s : Fin 18) (q : Fin 128) (n : Fin 64) (hn : n.val = t.val) :
    (iblk4 V c 0 t : Vec Ideal S1x18x18x128 .bf16) (ix4 (0 : Fin 1) r s q)
      = (V c (Pipeline.arrRef spec4 0) : S64x18x18x128.Idx → EReal) (ix4 n r s q) := by
  obtain ⟨e0, e1, e2, e3, -⟩ := idx_facts4 t
  refine congrArg (V c (Pipeline.arrRef spec4 0)) (funext fun a => Fin.ext ?_)
  match a with
  | ⟨0, _⟩ => show win4_0.index t (0 : Fin 4) * 1 + 1 * 0 = n.val; omega
  | ⟨1, _⟩ => show win4_0.index t (1 : Fin 4) * 18 + 1 * r.val = r.val; omega
  | ⟨2, _⟩ => show win4_0.index t (2 : Fin 4) * 18 + 1 * s.val = s.val; omega
  | ⟨3, _⟩ => show win4_0.index t (3 : Fin 4) * 128 + 1 * q.val = q.val; omega

theorem iblk4_1_apply (c : Dev nD) (t : Fin cfg4.N) (k : Fin 9) (q : Fin 128) (o : Fin 256) :
    (iblk4 V c 1 t : Vec Ideal S9x128x256 .bf16) (ix3 k q o)
      = (V c (Pipeline.arrRef spec4 1) : S9x128x256.Idx → EReal) (ix3 k q o) :=
  congrArg (V c (Pipeline.arrRef spec4 1)) (funext fun a => Fin.ext (win4_1.rect_emb_val_of_index_zero t a ((idx_whole4 t).1 a) _))

theorem iblk4_2_apply (c : Dev nD) (t : Fin cfg4.N) (k : Fin 3) (o : Fin 256) :
    (iblk4 V c 2 t : Vec Ideal S3x256 .f32) (ix2 k o)
      = (V c (Pipeline.arrRef spec4 2) : S3x256.Idx → EReal) (ix2 k o) :=
  congrArg (V c (Pipeline.arrRef spec4 2)) (funext fun a => Fin.ext (win4_2.rect_emb_val_of_index_zero t a ((idx_whole4 t).2 a) _))

variable (a : Cert.Spec.Args) (c : Dev nD)
variable (h0 : ∀ (n : Fin 64) (r s : Fin 18) (q : Fin 128),
    (V c (Pipeline.arrRef spec4 0) : S64x18x18x128.Idx → EReal) (ix4 n r s q) = Cert.Spec.padz 1 (Cert.Spec.P2 a n) r s q)
variable (h1 : ∀ (k : Fin 9) (q : Fin 128) (o : Fin 256),
    (V c (Pipeline.arrRef spec4 1) : S9x128x256.Idx → EReal) (ix3 k q o) = a.w3 (ix3 k q o))
variable (h2 : ∀ (k : Fin 3) (o : Fin 256),
    (V c (Pipeline.arrRef spec4 2) : S3x256.Idx → EReal) (ix2 k o) = a.b3 (ix2 k o))

theorem cover4_arr (i : S64x256x256.Idx) :
    ∃ t : Fin cfg4.N, (cfg4.win 3).flush t = true ∧ i ∈ ((cfg4.win 3).blk t).view.set := by
  have hi0 : (i 0).val < 64 := (i 0).isLt
  have hN : cfg4.N = 64 := N_4
  obtain ⟨t, ht⟩ : ∃ t : Fin cfg4.N, t.val = (i 0).val := ⟨⟨_, by omega⟩, rfl⟩
  obtain ⟨-, -, -, -, e0, e1, e2⟩ := idx_facts4 t
  refine ⟨t, flush4_3 t, ?_⟩
  show i ∈ ((View.whole main_v18).slice (win4_3.rect t)).set
  rw [View.set_slice_whole, Rect.mem_set_unit]
  exact Cert.LibVal.mem_slab3 i (win4_3.index t) 1 (by omega) e1 e2

include h0 h1 h2 in
theorem value4 (n : Fin 64) (hw : Fin 256) (o : Fin 256) :
    ((dat4 V c).arrAt 3 cfg4.N : S64x256x256.Idx → EReal) (ix3 n hw o)
      = Cert.Spec.C3 a n ⟨hw.val / 16, by omega⟩ ⟨hw.val % 16, by omega⟩ o := by
  refine (dat4 V c).arrAt_forall_of_cover 3
    (fun (i : S64x256x256.Idx) v => ∀ (n : Fin 64) (hw : Fin 256) (o : Fin 256), (i 0).val = n.val → (i 1).val = hw.val → (i 2).val = o.val →
      v = Cert.Spec.C3 a n ⟨hw.val / 16, by omega⟩ ⟨hw.val % 16, by omega⟩ o)
    (fun t _ y n hw o k0 k1 k2 => ?_) cover4_arr (ix3 n hw o) n hw o rfl rfl rfl
  obtain ⟨-, -, -, -, e0, e1, e2⟩ := idx_facts4 t
  have hN : t.val < 64 := lt_of_lt_of_eq t.isLt (show cfg4.N = 64 from N_4)
  have hy : (y 0).val < 1 := (y 0).isLt
  obtain rfl : n = ⟨t.val, hN⟩ := Fin.ext (k0.symm.trans (by show win4_3.index t (0 : Fin 3) * 1 + 1 * (y 0).val = t.val; omega))
  obtain rfl : hw = y 1 := Fin.ext (k1.symm.trans (by show win4_3.index t (1 : Fin 3) * 256 + 1 * (y 1).val = (y 1).val; omega))
  obtain rfl : o = y 2 := Fin.ext (k2.symm.trans (by show win4_3.index t (2 : Fin 3) * 256 + 1 * (y 2).val = (y 2).val; omega))
  show (cfg4.win 3).cut (grid4.coords t) ((dat4 V c).after 3 t) y = _
  rw [after4_3]
  unfold out4_3
  rw [View.canon_unit_zero Cert.LibVal.zero3]
  refine (congrArg (body4 (iblk4 V c 0 t) (iblk4 V c 1 t) (iblk4 V c 2 t)) (eq_ix3 y)).trans (body4_spec a ⟨t.val, hN⟩ _ _ _ ?_ ?_ ?_ (y 0) (y 1) (y 2))
  · intro r s q; exact (iblk4_0_apply V c t r s q ⟨t.val, hN⟩ rfl).trans (h0 _ r s q)
  · intro k q o; exact (iblk4_1_apply V c t k q o).trans (h1 k q o)
  · intro k o; exact (iblk4_2_apply V c t k o).trans (h2 k o)

end Array

end Cert.ReferenceIdeal.Hand

end
-- ==== Proof.RR5Val.lean ====
import proofs.«182102_g2000302601656725_pallasbulk_822_2_alg».proof.Proof.RR5Frame
import proofs.«182102_g2000302601656725_pallasbulk_822_2_alg».proof.Proof.Spec
import proofs.«182102_g2000302601656725_pallasbulk_822_2_alg».proof.Proof.LibVal
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Idealize.ShloMosaic.Pipeline (Dat)

-- The stored block is the larger of the two rows at the even pixel against the larger of the two rows at the odd pixel.
theorem body5_apply (x0 : Vec Ideal S128x2x8x512 .bf16) (r : Fin 128) (w : Fin 8) (o : Fin 256) :
    body5 x0 (ix3 r w o) =
      max (max (x0 (ix4 r 0 w ⟨o.val, by omega⟩)) (x0 (ix4 r 1 w ⟨o.val, by omega⟩)))
          (max (x0 (ix4 r 0 w ⟨o.val + 256, by omega⟩)) (x0 (ix4 r 1 w ⟨o.val + 256, by omega⟩))) :=
  Cert.LibVal.pool_apply x0 r w o rfl _ _ _ _ _

variable (V : (c : Dev nD) → (b : Ref sig .tc) → Buf (Elt Ideal) ((c : Thread nD τ).loc b))

-- Both index maps send point `t` to row block `t`, zero on the other axes.
theorem idx_facts5 : ∀ t : Fin cfg5.N, win5_0.index t (0 : Fin 4) = t.val ∧ win5_0.index t (1 : Fin 4) = 0
    ∧ win5_0.index t (2 : Fin 4) = 0 ∧ win5_0.index t (3 : Fin 4) = 0
    ∧ win5_1.index t (0 : Fin 3) = t.val ∧ win5_1.index t (1 : Fin 3) = 0 ∧ win5_1.index t (2 : Fin 3) = 0 :=
  (by decide +kernel : ∀ t : Fin grid5.N, _)

-- The input block at point `t` is rows `t * 128 …` of the input array.
theorem iblk5_apply (c : Dev nD) (t : Fin cfg5.N) (r : Fin 128) (d : Fin 2) (w : Fin 8) (q : Fin 512) :
    iblk5 V c 0 t (ix4 r d w q) = (V c (Pipeline.arrRef spec5 0) : S512x2x8x512.Idx → EReal)
      (ix4 ⟨t.val * 128 + r.val, by have := t.isLt; have hN : cfg5.N = 4 := N_5; omega⟩ d w q) := by
  obtain ⟨e0, e1, e2, e3, -⟩ := idx_facts5 t
  refine congrArg (V c main_v20) (funext fun a => Fin.ext ?_)
  match a with
  | ⟨0, _⟩ => show win5_0.index t (0 : Fin 4) * 128 + 1 * r.val = t.val * 128 + r.val; omega
  | ⟨1, _⟩ => show win5_0.index t (1 : Fin 4) * 2 + 1 * d.val = d.val; omega
  | ⟨2, _⟩ => show win5_0.index t (2 : Fin 4) * 8 + 1 * w.val = w.val; omega
  | ⟨3, _⟩ => show win5_0.index t (3 : Fin 4) * 512 + 1 * q.val = q.val; omega

-- Every index of the output array lies in the block numbered by its row divided by 128.
theorem cover5 (i : S512x8x256.Idx) : ∃ t : Fin cfg5.N, (cfg5.win 1).flush t = true ∧ i ∈ ((cfg5.win 1).blk t).view.set := by
  have hi0 : (i 0).val < 512 := (i 0).isLt
  have hN : cfg5.N = 4 := N_5
  obtain ⟨t, ht⟩ : ∃ t : Fin cfg5.N, t.val = (i 0).val / 128 := ⟨⟨_, by omega⟩, rfl⟩
  obtain ⟨-, -, -, -, f0, f1, f2⟩ := idx_facts5 t
  refine ⟨t, flush5_1 t, ?_⟩
  show i ∈ ((View.whole main_v21).slice (win5_1.rect t)).set
  rw [View.set_slice_whole, Rect.mem_set_unit]
  exact Cert.LibVal.mem_slab3 i (win5_1.index t) 128 (by omega) f1 f2

-- An entry of the output array is the stored block's entry at its place in its block: the maximum of a two-by-two square.
theorem value5 (a : Cert.Spec.Args) (c : Dev nD)
    (h0 : ∀ (mm : Fin 512) (d : Fin 2) (w2 : Fin 8) (q : Fin 512),
      (V c (Pipeline.arrRef spec5 0) : S512x2x8x512.Idx → EReal) (ix4 mm d w2 q)
        = Cert.Spec.C3 a ⟨mm.val / 8, by have := mm.isLt; omega⟩ ⟨2 * (mm.val % 8) + d.val, by have := d.isLt; omega⟩
            ⟨2 * w2.val + q.val / 256, by have := w2.isLt; have := q.isLt; omega⟩ ⟨q.val % 256, by omega⟩) :
    ∀ (mm : Fin 512) (w2 : Fin 8) (o : Fin 256),
      (dat5 V c).arrAt 1 cfg5.N (ix3 mm w2 o)
        = Cert.Spec.P3 a ⟨mm.val / 8, by have := mm.isLt; omega⟩ ⟨mm.val % 8, by omega⟩ w2 o := by
  intro mm w2 o
  refine (dat5 V c).arrAt_forall_of_cover 1
    (fun (i : S512x8x256.Idx) v => v = Cert.Spec.P3 a ⟨(i 0).val / 8, by have h : (i 0).val < 512 := (i 0).isLt; omega⟩ ⟨(i 0).val % 8, by omega⟩ (i 1) (i 2))
    (fun t _ y => ?_) (cover5) (ix3 mm w2 o)
  obtain ⟨r, w, p, rfl⟩ : ∃ (r : Fin 128) (w : Fin 8) (p : Fin 256), y = ix3 r w p := ⟨y 0, y 1, y 2, eq_ix3 y⟩
  obtain ⟨-, -, -, -, f0, f1, f2⟩ := idx_facts5 t
  have hN : cfg5.N = 4 := N_5
  have ht := t.isLt
  have hi : ((cfg5.win 1).blk t).view.emb (ix3 r w p) = ix3 ⟨t.val * 128 + r.val, by omega⟩ w p := funext fun b => Fin.ext (by
    match b with
    | ⟨0, _⟩ => show win5_1.index t (0 : Fin 3) * 128 + 1 * r.val = t.val * 128 + r.val; omega
    | ⟨1, _⟩ => show win5_1.index t (1 : Fin 3) * 8 + 1 * w.val = w.val; omega
    | ⟨2, _⟩ => show win5_1.index t (2 : Fin 3) * 256 + 1 * p.val = p.val; omega)
  rw [hi]
  show (cfg5.win 1).cut (grid5.coords t) ((dat5 V c).after 1 t) (ix3 r w p) = _
  rw [after5_1]
  unfold out5_1
  rw [View.canon_unit_zero Cert.LibVal.zero3]
  show body5 (iblk5 V c 0 t) (ix3 r w p) = _
  have hp' := p.isLt
  rw [body5_apply, iblk5_apply, iblk5_apply, iblk5_apply, iblk5_apply, h0, h0, h0, h0]
  unfold Cert.Spec.P3 Cert.Spec.pool
  have key : ∀ n h (u u' : Fin 16) (s s' : Fin 256), u.val = u'.val → s.val = s'.val → Cert.Spec.C3 a n h u s = Cert.Spec.C3 a n h u' s' := by
    intro n h u u' s s' e2 e3; rw [Fin.ext e2, Fin.ext e3]
  have e1 : 2 * w.val + p.val / 256 = 2 * w.val := by omega
  have e2 : p.val % 256 = p.val := by omega
  have e3 : 2 * w.val + (p.val + 256) / 256 = 2 * w.val + 1 := by omega
  have e4 : (p.val + 256) % 256 = p.val := by omega
  exact congrArg₂ max (congrArg₂ max (key _ _ _ _ _ _ e1 e2) (key _ _ _ _ _ _ e1 e2)) (congrArg₂ max (key _ _ _ _ _ _ e3 e4) (key _ _ _ _ _ _ e3 e4))

end Cert.ReferenceIdeal.Hand

end
-- ==== Proof.RR6Val.lean ====
import proofs.«182102_g2000302601656725_pallasbulk_822_2_alg».proof.Proof.Gen.ReferenceIdeal.Launch
import proofs.«182102_g2000302601656725_pallasbulk_822_2_alg».proof.Proof.Gen.ReferenceIdeal.Skeleton
import proofs.«182102_g2000302601656725_pallasbulk_822_2_alg».proof.Proof.Gen.ReferenceIdeal.Points
import proofs.«182102_g2000302601656725_pallasbulk_822_2_alg».proof.Proof.RR6Body
import proofs.«182102_g2000302601656725_pallasbulk_822_2_alg».proof.Proof.RR6Frame
import proofs.«182102_g2000302601656725_pallasbulk_822_2_alg».proof.Proof.Spec
import proofs.«182102_g2000302601656725_pallasbulk_822_2_alg».proof.Proof.LibPlainDot
import proofs.«182102_g2000302601656725_pallasbulk_822_2_alg».proof.Proof.LibVal
import Idealize.ShloMosaic.Lib.Pipeline.FrameBody
import Idealize.ShloMosaic.Lib.Pipeline.RegionsLoop
import Idealize.ShloMosaic.Lib.Pipeline.Value
import Idealize.ShloMosaic.Lib.ValueLayout

set_option maxRecDepth 16384

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.RA Idealize.SL.Sem
open Idealize.ShloMosaic.Pipeline (Dat)

section AnyFormat
variable {F : FTy → Type} [FloatOps F]

def tapv6 (x : Vec F S1x8x8x256 .bf16) (w : Vec F S1x256x512 .bf16) : FVec F S64x512 .f32 :=
  Cert.LibVal.tapG shapeCasts_S1x8x8x256_S8x8x256 shapeCasts_S8x8x256_S64x256 shapeCasts_S1x256x512_S256x512 x w

variable (s : FVec F S64x512 .f32) (a1 a2 a3 : Vec F S1x8x8x256 .bf16) (w1 w2 w3 : Vec F S1x256x512 .bf16) (b0 b1 b2 : Vec F S1x512 .f32)

theorem pay2_6 :
    k6_pay2 a1 w1 a2 w2 a3 w3
      = addf (addf (addf (broadcast S64x512 (Scalar.ofBits .f32 0x00000000#32)) (tapv6 a1 w1)) (tapv6 a2 w2)) (tapv6 a3 w3) := rfl

theorem pay4_6 :
    k6_pay4 s (k6_pay3 a1) w1 a2 w2 a3 w3
      = addf (addf (addf s (tapv6 a1 w1)) (tapv6 a2 w2)) (tapv6 a3 w3) := rfl

abbrev epiV6 (S b0 b1 b2 z : FVec F S64x512 .f32) : FVec F S64x512 .f32 := maximumf (addf (mulf (addf S b0) b1) b2) z

theorem pay7_6 :
    k6_pay1 (k6_pay7 s (k6_pay5 a1) (k6_pay6 w1) (constant S64x512 .f32 0x00000000#32) a2 w2 a3 w3 b0 b1 b2)
      = shapeCast S1x64x512 (truncf .bf16 (epiV6 (addf (addf (addf s (tapv6 a1 w1)) (tapv6 a2 w2)) (tapv6 a3 w3))
            (broadcastTo S64x512 b0 broadcasts_S1x512_S64x512) (broadcastTo S64x512 b1 broadcasts_S1x512_S64x512) (broadcastTo S64x512 b2 broadcasts_S1x512_S64x512)
            (broadcast S64x512 (Scalar.ofBits .f32 0x00000000#32))) bitsLt_bf16_f32) shapeCasts_S64x512_S1x64x512 := rfl

end AnyFormat

abbrev epiE6 (S b0 b1 b2 : EReal) : EReal := max ((S + b0) * b1 + b2) 0

theorem tapv6_apply (x : Vec Ideal S1x8x8x256 .bf16) (w : Vec Ideal S1x256x512 .bf16) (hw : Fin 64) (o : Fin 512) :
    tapv6 x w (ix2 hw o)
      = ∑ c : Fin 256, x (ix4 (0 : Fin 1) (⟨hw.val / 8, by omega⟩ : Fin 8) (⟨hw.val % 8, by omega⟩ : Fin 8) c) * w (ix3 (0 : Fin 1) c o) :=
  Cert.LibVal.tapG_apply _ _ _ x w hw o _ _

theorem chain6_apply (a1 a2 a3 a4 a5 a6 a7 a8 a9 : Vec Ideal S1x8x8x256 .bf16) (w1 w2 w3 w4 w5 w6 w7 w8 w9 : Vec Ideal S1x256x512 .bf16)
    (b0 b1 b2 : Vec Ideal S1x512 .f32) (u : Fin 1) (hw : Fin 64) (o : Fin 512) :
    k6_pay1 (k6_pay7 (k6_pay4 (k6_pay2 a1 w1 a2 w2 a3 w3) (k6_pay3 a4) w4 a5 w5 a6 w6) (k6_pay5 a7) (k6_pay6 w7)
        (constant S64x512 .f32 0x00000000#32) a8 w8 a9 w9 b0 b1 b2) (ix3 u hw o)
      = epiE6 (((((((((0 + tapv6 a1 w1 (ix2 hw o)) + tapv6 a2 w2 (ix2 hw o)) + tapv6 a3 w3 (ix2 hw o)) + tapv6 a4 w4 (ix2 hw o)) + tapv6 a5 w5 (ix2 hw o))
          + tapv6 a6 w6 (ix2 hw o)) + tapv6 a7 w7 (ix2 hw o)) + tapv6 a8 w8 (ix2 hw o)) + tapv6 a9 w9 (ix2 hw o))
          (b0 (ix2 (0 : Fin 1) o)) (b1 (ix2 (0 : Fin 1) o)) (b2 (ix2 (0 : Fin 1) o)) := by
  rw [pay7_6, pay4_6, pay2_6]
  refine (shapeCast_ab_1ab_apply _ _ u hw o).trans ?_
  simp only [epiV6, epiE6, truncf_apply, maximumf_apply, addf_apply, mulf_apply, broadcast_apply, broadcastTo_1b_ab_apply]
  rw [show (Scalar.ofBits .f32 0x00000000#32 : Ideal .f32) = 0 from Ideal.ofBits_zero_f32]

theorem ld_row6 (x2 : Vec Ideal S3x512 .f32) (k : ℕ)
    (inb : ∀ a, (![k, 0] : Fin 2 → ℕ) a + S1x512.size a ≤ S3x512.size a)
    (o : Fin 512) (k' : Fin 3) (hk : k'.val = k) :
    View.ld x2 (Rect.unit (s := S3x512) ![k, 0] S1x512.size inb) (ix2 (0 : Fin 1) o) = x2 (ix2 k' o) :=
  Cert.LibVal.ld2 x2 _ _ _ _ _ _ _ (hk.trans (Nat.zero_add k).symm) rfl

def T6 (x0 : Vec Ideal S1x10x10x256 .bf16) (x1 : Vec Ideal S9x256x512 .bf16) (hw : Fin 64) (o : Fin 512) (i j : Fin 3) : EReal :=
  ∑ c : Fin 256,
    x0 (ix4 (0 : Fin 1) (⟨hw.val / 8 + i.val, by have := i.isLt; omega⟩ : Fin 10) (⟨hw.val % 8 + j.val, by have := j.isLt; omega⟩ : Fin 10) c)
      * x1 (ix3 (⟨i.val * 3 + j.val, by have := i.isLt; have := j.isLt; omega⟩ : Fin 9) c o)

theorem tap6_at (x0 : Vec Ideal S1x10x10x256 .bf16) (x1 : Vec Ideal S9x256x512 .bf16) (hw : Fin 64) (o : Fin 512)
    (i j : Fin 3) (i' j' k' : ℕ)
    (inb0 : ∀ a, (![0, i', j', 0] : Fin 4 → ℕ) a + S1x8x8x256.size a ≤ S1x10x10x256.size a)
    (inb1 : ∀ a, (![k', 0, 0] : Fin 3 → ℕ) a + S1x256x512.size a ≤ S9x256x512.size a)
    (hi : i.val = i') (hj : j.val = j') (hk : i.val * 3 + j.val = k') :
    tapv6 (View.ld x0 (Rect.unit (s := S1x10x10x256) ![0, i', j', 0] S1x8x8x256.size inb0))
        (View.ld x1 (Rect.unit (s := S9x256x512) ![k', 0, 0] S1x256x512.size inb1)) (ix2 hw o)
      = T6 x0 x1 hw o i j := by
  subst hi hj hk
  rw [tapv6_apply]
  exact Finset.sum_congr rfl fun c _ => congrArg₂ (· * ·) (Cert.LibVal.ld4 x0 _ _ _ _ _ _ _ _ _ _ _ _ _ rfl rfl rfl rfl)
    (Cert.LibVal.ld3 x1 _ _ _ _ _ _ _ _ _ _ (Nat.zero_add _).symm rfl rfl)

theorem body6_spec (a : Cert.Spec.Args) (n : Fin 64)
    (x0 : Vec Ideal S1x10x10x256 .bf16) (x1 : Vec Ideal S9x256x512 .bf16) (x2 : Vec Ideal S3x512 .f32)
    (hx0 : ∀ (r s : Fin 10) (q : Fin 256), x0 (ix4 (0 : Fin 1) r s q) = Cert.Spec.padz 1 (Cert.Spec.P3 a n) r s q)
    (hx1 : ∀ (k : Fin 9) (q : Fin 256) (o : Fin 512), x1 (ix3 k q o) = a.w4 (ix3 k q o))
    (hx2 : ∀ (k : Fin 3) (o : Fin 512), x2 (ix2 k o) = a.b4 (ix2 k o))
    (u : Fin 1) (hw : Fin 64) (o : Fin 512) :
    body6 x0 x1 x2 (ix3 u hw o) = Cert.Spec.C4 a n ⟨hw.val / 8, by omega⟩ ⟨hw.val % 8, by omega⟩ o := by
  unfold body6 body6_v93 body6_v54 body6_v27 body6_v29 body6_v59 body6_v61 body6_cst_48
  refine (chain6_apply _ _ _ _ _ _ _ _ _ _ _ _ _ _ _ _ _ _ _ _ _ u hw o).trans ?_
  rw [tap6_at x0 x1 hw o 0 0 0 0 0 _ _ rfl rfl rfl, tap6_at x0 x1 hw o 0 1 0 1 1 _ _ rfl rfl rfl, tap6_at x0 x1 hw o 0 2 0 2 2 _ _ rfl rfl rfl,
    tap6_at x0 x1 hw o 1 0 1 0 3 _ _ rfl rfl rfl, tap6_at x0 x1 hw o 1 1 1 1 4 _ _ rfl rfl rfl, tap6_at x0 x1 hw o 1 2 1 2 5 _ _ rfl rfl rfl,
    tap6_at x0 x1 hw o 2 0 2 0 6 _ _ rfl rfl rfl, tap6_at x0 x1 hw o 2 1 2 1 7 _ _ rfl rfl rfl, tap6_at x0 x1 hw o 2 2 2 2 8 _ _ rfl rfl rfl,
    ld_row6 x2 0 _ o 0 rfl, ld_row6 x2 1 _ o 1 rfl, ld_row6 x2 2 _ o 2 rfl]
  have hc : Cert.Spec.conv3 (Hp := 10) (Wp := 10) (by norm_num) (by norm_num) (Cert.Spec.padz 1 (Cert.Spec.P3 a n)) (Cert.Spec.a3 a.w4)
      (⟨hw.val / 8, by omega⟩ : Fin 8) (⟨hw.val % 8, by omega⟩ : Fin 8) o = ∑ i : Fin 3, ∑ j : Fin 3, T6 x0 x1 hw o i j := by
    unfold Cert.Spec.conv3 T6
    refine Finset.sum_congr rfl fun i _ => Finset.sum_congr rfl fun j _ => Finset.sum_congr rfl fun c _ => ?_
    rw [hx0, hx1]
  unfold Cert.Spec.C4 Cert.Spec.affB
  rw [hc, Fin.sum_univ_three, Fin.sum_univ_three, Fin.sum_univ_three, Fin.sum_univ_three, hx2, hx2, hx2]
  simp only [epiE6, zero_add, add_assoc]

section Array
variable (V : (c : Dev nD) → (b : Ref sig .tc) → Buf (Elt Ideal) ((c : Thread nD τ).loc b))

theorem idx_facts6 : ∀ t : Fin cfg6.N,
    win6_0.index t (0 : Fin 4) = t.val ∧ win6_0.index t (1 : Fin 4) = 0 ∧ win6_0.index t (2 : Fin 4) = 0 ∧ win6_0.index t (3 : Fin 4) = 0
    ∧ win6_3.index t (0 : Fin 3) = t.val ∧ win6_3.index t (1 : Fin 3) = 0 ∧ win6_3.index t (2 : Fin 3) = 0 :=
  (by decide +kernel : ∀ t : Fin grid6.N, _)

theorem idx_whole6 : ∀ t : Fin cfg6.N, (∀ a : Fin 3, win6_1.index t a = 0) ∧ ∀ a : Fin 2, win6_2.index t a = 0 :=
  (by decide +kernel : ∀ t : Fin grid6.N, _)

theorem iblk6_0_apply (c : Dev nD) (t : Fin cfg6.N) (r s : Fin 10) (q : Fin 256) (n : Fin 64) (hn : n.val = t.val) :
    (iblk6 V c 0 t : Vec Ideal S1x10x10x256 .bf16) (ix4 (0 : Fin 1) r s q)
      = (V c (Pipeline.arrRef spec6 0) : S64x10x10x256.Idx → EReal) (ix4 n r s q) := by
  obtain ⟨e0, e1, e2, e3, -⟩ := idx_facts6 t
  refine congrArg (V c (Pipeline.arrRef spec6 0)) (funext fun a => Fin.ext ?_)
  match a with
  | ⟨0, _⟩ => show win6_0.index t (0 : Fin 4) * 1 + 1 * 0 = n.val; omega
  | ⟨1, _⟩ => show win6_0.index t (1 : Fin 4) * 10 + 1 * r.val = r.val; omega
  | ⟨2, _⟩ => show win6_0.index t (2 : Fin 4) * 10 + 1 * s.val = s.val; omega
  | ⟨3, _⟩ => show win6_0.index t (3 : Fin 4) * 256 + 1 * q.val = q.val; omega

theorem iblk6_1_apply (c : Dev nD) (t : Fin cfg6.N) (k : Fin 9) (q : Fin 256) (o : Fin 512) :
    (iblk6 V c 1 t : Vec Ideal S9x256x512 .bf16) (ix3 k q o)
      = (V c (Pipeline.arrRef spec6 1) : S9x256x512.Idx → EReal) (ix3 k q o) :=
  congrArg (V c (Pipeline.arrRef spec6 1)) (funext fun a => Fin.ext (win6_1.rect_emb_val_of_index_zero t a ((idx_whole6 t).1 a) _))

theorem iblk6_2_apply (c : Dev nD) (t : Fin cfg6.N) (k : Fin 3) (o : Fin 512) :
    (iblk6 V c 2 t : Vec Ideal S3x512 .f32) (ix2 k o)
      = (V c (Pipeline.arrRef spec6 2) : S3x512.Idx → EReal) (ix2 k o) :=
  congrArg (V c (Pipeline.arrRef spec6 2)) (funext fun a => Fin.ext (win6_2.rect_emb_val_of_index_zero t a ((idx_whole6 t).2 a) _))

variable (a : Cert.Spec.Args) (c : Dev nD)
variable (h0 : ∀ (n : Fin 64) (r s : Fin 10) (q : Fin 256),
    (V c (Pipeline.arrRef spec6 0) : S64x10x10x256.Idx → EReal) (ix4 n r s q) = Cert.Spec.padz 1 (Cert.Spec.P3 a n) r s q)
variable (h1 : ∀ (k : Fin 9) (q : Fin 256) (o : Fin 512),
    (V c (Pipeline.arrRef spec6 1) : S9x256x512.Idx → EReal) (ix3 k q o) = a.w4 (ix3 k q o))
variable (h2 : ∀ (k : Fin 3) (o : Fin 512),
    (V c (Pipeline.arrRef spec6 2) : S3x512.Idx → EReal) (ix2 k o) = a.b4 (ix2 k o))

theorem cover6_arr (i : S64x64x512.Idx) :
    ∃ t : Fin cfg6.N, (cfg6.win 3).flush t = true ∧ i ∈ ((cfg6.win 3).blk t).view.set := by
  have hi0 : (i 0).val < 64 := (i 0).isLt
  have hN : cfg6.N = 64 := N_6
  obtain ⟨t, ht⟩ : ∃ t : Fin cfg6.N, t.val = (i 0).val := ⟨⟨_, by omega⟩, rfl⟩
  obtain ⟨-, -, -, -, e0, e1, e2⟩ := idx_facts6 t
  refine ⟨t, flush6_3 t, ?_⟩
  show i ∈ ((View.whole main_v24).slice (win6_3.rect t)).set
  rw [View.set_slice_whole, Rect.mem_set_unit]
  exact Cert.LibVal.mem_slab3 i (win6_3.index t) 1 (by omega) e1 e2

include h0 h1 h2 in
theorem value6 (n : Fin 64) (hw : Fin 64) (o : Fin 512) :
    ((dat6 V c).arrAt 3 cfg6.N : S64x64x512.Idx → EReal) (ix3 n hw o)
      = Cert.Spec.C4 a n ⟨hw.val / 8, by omega⟩ ⟨hw.val % 8, by omega⟩ o := by
  refine (dat6 V c).arrAt_forall_of_cover 3
    (fun (i : S64x64x512.Idx) v => ∀ (n : Fin 64) (hw : Fin 64) (o : Fin 512), (i 0).val = n.val → (i 1).val = hw.val → (i 2).val = o.val →
      v = Cert.Spec.C4 a n ⟨hw.val / 8, by omega⟩ ⟨hw.val % 8, by omega⟩ o)
    (fun t _ y n hw o k0 k1 k2 => ?_) cover6_arr (ix3 n hw o) n hw o rfl rfl rfl
  obtain ⟨-, -, -, -, e0, e1, e2⟩ := idx_facts6 t
  have hN : t.val < 64 := lt_of_lt_of_eq t.isLt (show cfg6.N = 64 from N_6)
  have hy : (y 0).val < 1 := (y 0).isLt
  obtain rfl : n = ⟨t.val, hN⟩ := Fin.ext (k0.symm.trans (by show win6_3.index t (0 : Fin 3) * 1 + 1 * (y 0).val = t.val; omega))
  obtain rfl : hw = y 1 := Fin.ext (k1.symm.trans (by show win6_3.index t (1 : Fin 3) * 64 + 1 * (y 1).val = (y 1).val; omega))
  obtain rfl : o = y 2 := Fin.ext (k2.symm.trans (by show win6_3.index t (2 : Fin 3) * 512 + 1 * (y 2).val = (y 2).val; omega))
  show (cfg6.win 3).cut (grid6.coords t) ((dat6 V c).after 3 t) y = _
  rw [after6_3]
  unfold out6_3
  rw [View.canon_unit_zero Cert.LibVal.zero3]
  refine (congrArg (body6 (iblk6 V c 0 t) (iblk6 V c 1 t) (iblk6 V c 2 t)) (eq_ix3 y)).trans (body6_spec a ⟨t.val, hN⟩ _ _ _ ?_ ?_ ?_ (y 0) (y 1) (y 2))
  · intro r s q; exact (iblk6_0_apply V c t r s q ⟨t.val, hN⟩ rfl).trans (h0 _ r s q)
  · intro k q o; exact (iblk6_1_apply V c t k q o).trans (h1 k q o)
  · intro k o; exact (iblk6_2_apply V c t k o).trans (h2 k o)

end Array

end Cert.ReferenceIdeal.Hand

end
-- ==== Proof.RR7Pay.lean ====
import proofs.«182102_g2000302601656725_pallasbulk_822_2_alg».proof.Proof.RR7Body
import proofs.«182102_g2000302601656725_pallasbulk_822_2_alg».proof.Proof.Spec
import proofs.«182102_g2000302601656725_pallasbulk_822_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.TcCoe Idealize.ShloMosaic.ValueIdx
open Idealize.SL Idealize.SL.RA Idealize.SL.Sem
open Cert.ReferenceIdeal Cert.ReferenceIdeal.Gen

theorem zero7_apply (n : Fin 64) (u : Fin 1024) : (zero7 (F := Ideal)) (ix2 n u) = 0 := by
  unfold zero7 k7_pay1
  exact (congrFun (shapeCast_self _ _) (ix2 n u)).trans Ideal.ofBits_zero_f32

-- One step adds to entry (n, u) the 4096 products of feature row n with weight column u.
theorem pay2_apply (v3 : FVec Ideal S64x1024 .f32) (v4 : FVec Ideal S64x4096 .bf16) (v6 : FVec Ideal S4096x1024 .bf16)
    (n : Fin 64) (u : Fin 1024) :
    k7_pay2 (F := Ideal) v3 v4 v6 (ix2 n u) = v3 (ix2 n u) + ∑ k : Fin 4096, v4 (ix2 n k) * v6 (ix2 k u) := by
  unfold k7_pay2
  refine (congrFun (shapeCast_self _ _) (ix2 n u)).trans ?_
  refine (addf_apply (φ := .f32) _ _ _).trans ?_
  refine congrArg (v3 (ix2 n u) + ·) ?_
  rw [shapeCast_self]
  exact Cert.LibPlainDot.matmul_plain_apply 64 4096 1024 none v4 v6 n u

def act7 (v15 : FVec Ideal S64x1024 .f32) (v16 v21 v24 : FVec Ideal S1x1024 .f32) (n : Fin 64) (u : Fin 1024) : EReal :=
  max (v15 (ix2 n u) + v16 (ix2 0 u)) 0 * v21 (ix2 0 u) + v24 (ix2 0 u)

theorem act7_apply (v15 : FVec Ideal S64x1024 .f32) (v16 v21 v24 : FVec Ideal S1x1024 .f32) (n : Fin 64) (u : Fin 1024) :
    addf (mulf (maximumf (addf v15 (broadcastTo S64x1024 v16 broadcasts_S1x1024_S64x1024))
        (broadcast S64x1024 (Scalar.ofBits (F := Ideal) .f32 0x00000000#32)))
        (broadcastTo S64x1024 v21 broadcasts_S1x1024_S64x1024)) (broadcastTo S64x1024 v24 broadcasts_S1x1024_S64x1024) (ix2 n u)
      = act7 v15 v16 v21 v24 n u := by
  show max (v15 (ix2 n u) + broadcastTo S64x1024 v16 broadcasts_S1x1024_S64x1024 (ix2 n u)) (Ideal.ofBits .f32 0x00000000#32)
      * broadcastTo S64x1024 v21 broadcasts_S1x1024_S64x1024 (ix2 n u)
      + broadcastTo S64x1024 v24 broadcasts_S1x1024_S64x1024 (ix2 n u) = _
  rw [broadcastTo_1b_ab_apply v16, broadcastTo_1b_ab_apply v21, broadcastTo_1b_ab_apply v24, Ideal.ofBits_zero_f32]
  rfl

-- The stored result at (r, v): the hidden layer from rows r and r + 32, clamped, then the 256 -> 2 layer.
theorem pay3_apply (v15 : FVec Ideal S64x1024 .f32) (v16 v21 v24 : FVec Ideal S1x1024 .f32)
    (v31 v33 : FVec Ideal S1024x256 .bf16) (v36 : FVec Ideal S1x256 .f32) (v42 : FVec Ideal S256x2 .bf16)
    (v44 : FVec Ideal S1x2 .f32) (r : Fin 32) (v : Fin 2) :
    k7_pay3 (F := Ideal) v15 v16 v21 v24 v31 v33 v36 v42 v44 (ix2 r v)
      = (∑ t : Fin 256,
          max ((∑ u : Fin 1024, act7 v15 v16 v21 v24 ⟨r.val, by omega⟩ u * v31 (ix2 u t))
              + (∑ u : Fin 1024, act7 v15 v16 v21 v24 ⟨r.val + 32, by omega⟩ u * v33 (ix2 u t))
              + v36 (ix2 0 t)) 0 * v42 (ix2 t v))
        + v44 (ix2 0 v) := by
  unfold k7_pay3
  refine (addf_apply (φ := .f32) _ _ _).trans ?_
  refine congrArg₂ (· + ·) ?_ (broadcastTo_1b_ab_apply v44 _ r v)
  refine (Cert.LibPlainDot.matmul_plain_apply 32 256 2 none _ v42 r v).trans ?_
  refine Finset.sum_congr rfl fun t _ => ?_
  refine congrArg (· * v42 (ix2 t v)) ?_
  refine (truncf_apply (φ := .f32) (ψ := .bf16) _ bitsLt_bf16_f32 _).trans ?_
  refine (maximumf_apply (φ := .f32) _ _ _).trans ?_
  refine congrArg₂ max ?_ Ideal.ofBits_zero_f32
  refine (addf_apply (φ := .f32) _ _ _).trans ?_
  refine congrArg₂ (· + ·) ?_ (broadcastTo_1b_ab_apply v36 _ r t)
  refine (addf_apply (φ := .f32) _ _ _).trans ?_
  refine congrArg₂ (· + ·) ?_ ?_
  · refine (Cert.LibPlainDot.matmul_plain_apply 32 1024 256 none _ v31 r t).trans ?_
    refine Finset.sum_congr rfl fun u _ => ?_
    refine congrArg (· * v31 (ix2 u t)) ?_
    refine (truncf_apply (φ := .f32) (ψ := .bf16) _ bitsLt_bf16_f32 _).trans ?_
    refine (slice2_axis0_apply 0 _ _ r u ⟨r.val, by omega⟩ (by simp)).trans ?_
    exact act7_apply v15 v16 v21 v24 ⟨r.val, by omega⟩ u
  · refine (Cert.LibPlainDot.matmul_plain_apply 32 1024 256 none _ v33 r t).trans ?_
    refine Finset.sum_congr rfl fun u _ => ?_
    refine congrArg (· * v33 (ix2 u t)) ?_
    refine (truncf_apply (φ := .f32) (ψ := .bf16) _ bitsLt_bf16_f32 _).trans ?_
    refine (slice2_axis0_apply 32 _ _ r u ⟨r.val + 32, by omega⟩ (by simp [Nat.add_comm])).trans ?_
    exact act7_apply v15 v16 v21 v24 ⟨r.val + 32, by omega⟩ u

theorem hz7 : (![0, 0] : Fin 2 → ℕ) = fun _ => 0 := funext fun a => by
  match a with
  | ⟨0, _⟩ => rfl
  | ⟨1, _⟩ => rfl

theorem step7_apply (s : Vec Ideal S64x1024 .f32) (x0 : Vec Ideal S64x4096 .bf16) (x1 : Vec Ideal S4096x1024 .bf16)
    (n : Fin 64) (u : Fin 1024) :
    step7 s x0 x1 (ix2 n u) = s (ix2 n u) + ∑ k : Fin 4096, x0 (ix2 n k) * x1 (ix2 k u) := by
  unfold step7
  rw [View.ld_unit_zero (S := S64x1024) hz7, View.ld_unit_zero (S := S64x4096) hz7, View.ld_unit_zero (S := S4096x1024) hz7]
  exact pay2_apply s x0 x1 n u

theorem ix2_of {n0 n1 : ℕ} (i : (⟨2, ![n0, n1]⟩ : Shape).Idx) (p : Fin n0) (q : Fin n1)
    (h0 : (i 0).val = p.val) (h1 : (i 1).val = q.val) : i = ix2 p q := by
  funext a; match a with | ⟨0, _⟩ => exact Fin.ext h0 | ⟨1, _⟩ => exact Fin.ext h1

theorem ld_row7 (x2 : Vec Ideal S3x1024 .f32) (k : ℕ)
    (inb : ∀ a, (![k, 0] : Fin 2 → ℕ) a + S1x1024.size a ≤ S3x1024.size a)
    (u : Fin 1024) (k' : Fin 3) (hk : k'.val = k) :
    View.ld x2 (Rect.unit (s := S3x1024) ![k, 0] S1x1024.size inb) (ix2 (0 : Fin 1) u) = x2 (ix2 k' u) :=
  congrArg x2 (ix2_of _ k' u (by show k + 1 * 0 = k'.val; omega) (by show 0 + 1 * u.val = u.val; omega))

theorem ld_half7 (x3 : Vec Ideal S2048x256 .bf16) (k : ℕ)
    (inb : ∀ a, (![k, 0] : Fin 2 → ℕ) a + S1024x256.size a ≤ S2048x256.size a)
    (u : Fin 1024) (t : Fin 256) (u' : Fin 2048) (hu : u'.val = k + u.val) :
    View.ld x3 (Rect.unit (s := S2048x256) ![k, 0] S1024x256.size inb) (ix2 u t) = x3 (ix2 u' t) :=
  congrArg x3 (ix2_of _ u' t (by show k + 1 * u.val = u'.val; omega) (by show 0 + 1 * t.val = t.val; omega))

theorem act7_fv (a : Cert.Spec.Args) (s : Vec Ideal S64x1024 .f32) (x2 : Vec Ideal S3x1024 .f32)
    (hs : ∀ (n : Fin 64) (u : Fin 1024), s (ix2 n u) = Cert.Spec.acc5 a n u)
    (h2 : ∀ (k : Fin 3) (u : Fin 1024), x2 (ix2 k u) = a.b5 (ix2 k u)) (n : Fin 64) (u : Fin 1024) :
    act7 (View.ld s r7_s) (View.ld x2 r7_b0) (View.ld x2 r7_b1) (View.ld x2 r7_b2) n u = Cert.Spec.fv a n u := by
  unfold act7 Cert.Spec.fv Cert.Spec.affA
  rw [View.ld_unit_zero (S := S64x1024) hz7, ld_row7 x2 0 _ u 0 rfl, ld_row7 x2 1 _ u 1 rfl, ld_row7 x2 2 _ u 2 rfl,
    hs, h2, h2, h2]

-- With the sums complete and the blocks equal to the head's parameters, the stored result is `Spec.out`.
theorem body7_spec (a : Cert.Spec.Args) (s : Vec Ideal S64x1024 .f32) (x2 : Vec Ideal S3x1024 .f32)
    (x3 : Vec Ideal S2048x256 .bf16) (x4 : Vec Ideal S1x256 .f32) (x5 : Vec Ideal S256x2 .bf16) (x6 : Vec Ideal S1x2 .f32)
    (hs : ∀ (n : Fin 64) (u : Fin 1024), s (ix2 n u) = Cert.Spec.acc5 a n u)
    (h2 : ∀ (k : Fin 3) (u : Fin 1024), x2 (ix2 k u) = a.b5 (ix2 k u))
    (h3 : ∀ (k : Fin 2048) (t : Fin 256), x3 (ix2 k t) = a.wf1 (ix2 k t))
    (h4 : ∀ t : Fin 256, x4 (ix2 (0 : Fin 1) t) = a.bf1 (ix2 (0 : Fin 1) t))
    (h5 : ∀ (t : Fin 256) (v : Fin 2), x5 (ix2 t v) = a.wf2 (ix2 t v))
    (h6 : ∀ v : Fin 2, x6 (ix2 (0 : Fin 1) v) = a.bf2 (ix2 (0 : Fin 1) v))
    (r : Fin 32) (v : Fin 2) : body7 s x2 x3 x4 x5 x6 (ix2 r v) = Cert.Spec.out a r v := by
  unfold body7
  refine (pay3_apply _ _ _ _ _ _ _ _ _ r v).trans ?_
  unfold Cert.Spec.out Cert.Spec.hid
  rw [View.ld_unit_zero (S := S1x2) hz7, View.ld_unit_zero (S := S256x2) hz7, View.ld_unit_zero (S := S1x256) hz7]
  refine congrArg₂ (· + ·) (Finset.sum_congr rfl fun t _ => congrArg₂ (· * ·) (congrArg₂ max (congrArg₂ (· + ·)
    (congrArg₂ (· + ·) (Finset.sum_congr rfl fun u _ => ?_) (Finset.sum_congr rfl fun u _ => ?_)) (h4 t)) rfl) (h5 t v)) (h6 v)
  · refine congrArg₂ (· * ·) (act7_fv a s x2 hs h2 _ u) ?_
    exact (ld_half7 x3 0 _ u t ⟨u.val, by omega⟩ (by simp)).trans (h3 _ t)
  · refine congrArg₂ (· * ·) (act7_fv a s x2 hs h2 _ u) ?_
    exact (ld_half7 x3 1024 _ u t ⟨u.val + 1024, by omega⟩ (by simp [Nat.add_comm])).trans (h3 _ t)

-- By induction on the point: the running sum after point n is the sum of the first n + 1 chunk products.
theorem partial_sums7 {N : ℕ} (S : (n : ℕ) → n < N → Vec Ideal S64x1024 .f32)
    (xb : (n : ℕ) → n < N → Vec Ideal S64x4096 .bf16) (wb : (n : ℕ) → n < N → Vec Ideal S4096x1024 .bf16)
    (h0 : ∀ h, S 0 h = step7 zero7 (xb 0 h) (wb 0 h))
    (hs : ∀ n h, S (n + 1) h = step7 (S n (Nat.lt_of_succ_lt h)) (xb (n + 1) h) (wb (n + 1) h))
    (T : ℕ → Fin 64 → Fin 1024 → EReal)
    (hT : ∀ n h (r : Fin 64) (u : Fin 1024), ∑ k : Fin 4096, xb n h (ix2 r k) * wb n h (ix2 k u) = T n r u)
    (n : ℕ) (h : n < N) (r : Fin 64) (u : Fin 1024) :
    S n h (ix2 r u) = ∑ j ∈ Finset.range (n + 1), T j r u := by
  induction n with
  | zero => rw [h0, step7_apply, zero7_apply, zero_add, hT, Finset.sum_range_one]
  | succ n ih =>
    rw [hs, step7_apply, ih (Nat.lt_of_succ_lt h), hT]
    exact (Finset.sum_range_succ (fun j => T j r u) (n + 1)).symm

def chunk7 (a : Cert.Spec.Args) (j : ℕ) (r : Fin 64) (u : Fin 1024) : EReal :=
  if hj : j < 8 then
    ∑ k : Fin 4096, Cert.Spec.flat a r ⟨j * 4096 + k.val, by have := k.isLt; omega⟩
      * a.w5 (ix2 ⟨j * 4096 + k.val, by have := k.isLt; omega⟩ u)
  else 0

theorem chunks7_acc5 (a : Cert.Spec.Args) (r : Fin 64) (u : Fin 1024) :
    ∑ j ∈ Finset.range (7 + 1), chunk7 a j r u = Cert.Spec.acc5 a r u := by
  rw [Finset.sum_range]
  unfold Cert.Spec.acc5
  refine Finset.sum_congr rfl fun j _ => ?_
  unfold chunk7
  rw [dif_pos j.isLt]

end Cert.ReferenceIdeal.Hand

end
-- ==== Proof.RR7Val.lean ====
import proofs.«182102_g2000302601656725_pallasbulk_822_2_alg».proof.Proof.RR7Frame
import proofs.«182102_g2000302601656725_pallasbulk_822_2_alg».proof.Proof.RR7Pay
import Idealize.ShloMosaic.Lib.Tactic

noncomputable section

open scoped BigOperators

namespace Cert.ReferenceIdeal.Hand

open Cert.ReferenceIdeal Cert.ReferenceIdeal.Gen
open Idealize.ShloMosaic Idealize.ShloMosaic.TcCoe Idealize.ShloMosaic.ValueIdx
open Idealize.SL Idealize.SL.RA Idealize.SL.Sem

section Pieces

variable {F : FTy → Type} [FloatOps F]
variable (c : Dev nD) (i : grid7.Coords)
  (arg1 : Memref sig .tc .vmem S64x4096 .bf16) (harg1 : arg1.IsWhole) (arg2 : Memref sig .tc .vmem S4096x1024 .bf16) (harg2 : arg2.IsWhole)
  (arg3 : Memref sig .tc .vmem S3x1024 .f32) (harg3 : arg3.IsWhole) (arg4 : Memref sig .tc .vmem S2048x256 .bf16) (harg4 : arg4.IsWhole)
  (arg5 : Memref sig .tc .vmem S1x256 .f32) (harg5 : arg5.IsWhole) (arg6 : Memref sig .tc .vmem S256x2 .bf16) (harg6 : arg6.IsWhole)
  (arg7 : Memref sig .tc .vmem S1x2 .f32) (harg7 : arg7.IsWhole) (arg8 : Memref sig .tc .vmem S32x2 .f32) (harg8 : arg8.IsWhole)
  (arg9 : Memref sig .tc .vmem S64x1024 .f32) (harg9 : arg9.IsWhole)
  (x0 : Vec F S64x4096 .bf16) (x1 : Vec F S4096x1024 .bf16) (x2 : Vec F S3x1024 .f32) (x3 : Vec F S2048x256 .bf16)
  (x4 : Vec F S1x256 .f32) (x5 : Vec F S256x2 .bf16) (x6 : Vec F S1x2 .f32) (xs0 : Vec F S64x1024 .f32)

-- The running sum after the first point is one step from zero; after any later point, one step from the previous.
theorem sout7_A_eq (hc0 : cond7_0 i) (hc1 : ¬cond7_1 i) :
    sout7_A_0 c i arg1 harg1 arg2 harg2 arg3 harg3 arg4 harg4 arg5 harg5 arg6 harg6 arg7 harg7 arg8 harg8 arg9 harg9 hc0 hc1 x0 x1 x2 x3 x4 x5 x6 = step7 zero7 x0 x1 := by
  unfold sout7_A_0
  rw [View.read_writes_eq_canon _ _ _ (scover7_A_0 _ _ _ _ _ _ _ _ _ _ _ _ _ _ _ _ _ _ _ _ _ _ _ _ _ _ _ _ _)]
  unfold kernelRun7_A
  dsimp only
  sl_unfold_words
  rw [View.canon_cons_unit_zero (S := S64x1024) hz7, View.readCov_unit_zero (S := S64x1024) _ hz7]
  unfold step7 zero7
  simp only [View.readAt_eq_ld, harg1.read_unread, harg2.read_unread, View.ld_unit_zero (S := S64x1024) hz7]

theorem sout7_B_eq (hc0 : ¬cond7_0 i) (hc1 : ¬cond7_1 i) :
    sout7_B_0 c i arg1 harg1 arg2 harg2 arg3 harg3 arg4 harg4 arg5 harg5 arg6 harg6 arg7 harg7 arg8 harg8 arg9 harg9 hc0 hc1 x0 x1 x2 x3 x4 x5 x6 xs0 = step7 xs0 x0 x1 := by
  unfold sout7_B_0
  rw [View.read_writes_eq_canon _ _ _ (scover7_B_0 _ _ _ _ _ _ _ _ _ _ _ _ _ _ _ _ _ _ _ _ _ _ _ _ _ _ _ _ _ _)]
  unfold kernelRun7_B
  dsimp only
  sl_unfold_words
  rw [View.canon_unit_zero (S := S64x1024) hz7]
  unfold step7
  simp only [View.readAt_eq_ld, harg9.read_unread, harg1.read_unread, harg2.read_unread]

theorem sout7_C_eq (hc0 : ¬cond7_0 i) (hc1 : cond7_1 i) :
    sout7_C_0 c i arg1 harg1 arg2 harg2 arg3 harg3 arg4 harg4 arg5 harg5 arg6 harg6 arg7 harg7 arg8 harg8 arg9 harg9 hc0 hc1 x0 x1 x2 x3 x4 x5 x6 xs0 = step7 xs0 x0 x1 := by
  unfold sout7_C_0
  rw [View.read_writes_eq_canon _ _ _ (scover7_C_0 _ _ _ _ _ _ _ _ _ _ _ _ _ _ _ _ _ _ _ _ _ _ _ _ _ _ _ _ _ _)]
  unfold kernelRun7_C
  dsimp only
  sl_unfold_words
  rw [View.canon_unit_zero (S := S64x1024) hz7]
  unfold step7
  simp only [View.readAt_eq_ld, harg9.read_unread, harg1.read_unread, harg2.read_unread]

-- The last point stores the head applied to the completed sums.
theorem out7_C_eq (hc0 : ¬cond7_0 i) (hc1 : cond7_1 i) :
    out7_C_7 c i arg1 harg1 arg2 harg2 arg3 harg3 arg4 harg4 arg5 harg5 arg6 harg6 arg7 harg7 arg8 harg8 arg9 harg9 hc0 hc1 x0 x1 x2 x3 x4 x5 x6 xs0 = body7 (step7 xs0 x0 x1) x2 x3 x4 x5 x6 := by
  unfold out7_C_7
  rw [View.read_writes_eq_canon _ _ _ (cover7_C_7 _ _ _ _ _ _ _ _ _ _ _ _ _ _ _ _ _ _ _ _ _ _ _ _ _ _ _ _ _ _)]
  unfold kernelRun7_C
  dsimp only
  sl_unfold_words
  rw [View.canon_unit_zero (S := S32x2) hz7]
  unfold body7 step7
  simp only [View.readAt_eq_ld, View.readCov_unit_zero (S := S64x1024) _ hz7, harg9.read_unread, harg1.read_unread,
    harg2.read_unread, harg3.read_unread, harg4.read_unread, harg5.read_unread, harg6.read_unread, harg7.read_unread,
    View.ld_unit_zero (S := S64x1024) hz7]

end Pieces

section Array
variable (V : (c : Dev nD) → (b : Ref sig .tc) → Buf (Elt Ideal) ((c : Thread nD τ).loc b))

theorem scr7_zero (c : Dev nD) (h : 0 < cfg7.N) :
    (outsAt7 V c 0 h).2 = step7 zero7 (iblk7 V c 0 ⟨0, h⟩) (iblk7 V c 1 ⟨0, h⟩) := by
  have hc0 : cond7_0 (grid7.coords ⟨0, h⟩) := (hcond7_0 ⟨0, h⟩).mpr (Nat.zero_mod _)
  have hc1 : ¬cond7_1 (grid7.coords ⟨0, h⟩) := fun hh => by
    have h' := (hcond7_1 ⟨0, h⟩).mp hh
    dsimp only at h'
    omega
  rw [outsAt7_A V c ⟨0, h⟩ rfl hc0 hc1]
  unfold outA7
  dsimp only
  exact sout7_A_eq ..

theorem scr7_succ (c : Dev nD) (n : ℕ) (h : n + 1 < cfg7.N) :
    (outsAt7 V c (n + 1) h).2
      = step7 (outsAt7 V c n (Nat.lt_of_succ_lt h)).2 (iblk7 V c 0 ⟨n + 1, h⟩) (iblk7 V c 1 ⟨n + 1, h⟩) := by
  have hc0 : ¬cond7_0 (grid7.coords ⟨n + 1, h⟩) := notFirst7 n h
  by_cases h1 : (n + 1) % 8 = 7
  · rw [outsAt7_C V c ⟨n + 1, h⟩ (Nat.succ_ne_zero n) h1 hc0 ((hcond7_1 ⟨n + 1, h⟩).mpr h1)]
    unfold outC7
    dsimp only
    exact sout7_C_eq ..
  · rw [outsAt7_B V c ⟨n + 1, h⟩ (Nat.succ_ne_zero n) h1 hc0 fun hh => h1 ((hcond7_1 ⟨n + 1, h⟩).mp hh)]
    unfold outB7
    dsimp only
    exact sout7_B_eq ..

-- At point `t` the first two blocks start at column, respectively row, 4096 t; all the others at the origin.
theorem idx_facts7 : ∀ t : Fin cfg7.N,
    win7_0.index t (0 : Fin 2) = 0 ∧ win7_0.index t (1 : Fin 2) = t.val
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

theorem blk7_0_apply (c : Dev nD) (t : Fin cfg7.N) (r : Fin 64) (k : Fin 4096) (q : Fin 32768)
    (hq : q.val = t.val * 4096 + k.val) :
    (iblk7 V c 0 t : Vec Ideal S64x4096 .bf16) (ix2 r k)
      = (V c (Pipeline.arrRef spec7 0) : S64x32768.Idx → EReal) (ix2 r q) := by
  have hi := idx_facts7 t
  exact congrArg (V c (Pipeline.arrRef spec7 0) : S64x32768.Idx → EReal) (ix2_of _ r q
    (by show win7_0.index t (0 : Fin 2) * 64 + 1 * r.val = r.val; omega)
    (by show win7_0.index t (1 : Fin 2) * 4096 + 1 * k.val = q.val; omega))

theorem blk7_1_apply (c : Dev nD) (t : Fin cfg7.N) (k : Fin 4096) (u : Fin 1024) (q : Fin 32768)
    (hq : q.val = t.val * 4096 + k.val) :
    (iblk7 V c 1 t : Vec Ideal S4096x1024 .bf16) (ix2 k u)
      = (V c (Pipeline.arrRef spec7 1) : S32768x1024.Idx → EReal) (ix2 q u) := by
  have hi := idx_facts7 t
  exact congrArg (V c (Pipeline.arrRef spec7 1) : S32768x1024.Idx → EReal) (ix2_of _ q u
    (by show win7_1.index t (0 : Fin 2) * 4096 + 1 * k.val = q.val; omega)
    (by show win7_1.index t (1 : Fin 2) * 1024 + 1 * u.val = u.val; omega))

def G7 (a : Cert.Spec.Args) : S32x2.Idx → EReal := fun i => Cert.Spec.out a (i 0) (i 1)

variable (a : Cert.Spec.Args) (c : Dev nD)
variable (h0 : ∀ (n : Fin 64) (q : Fin 32768),
    (V c (Pipeline.arrRef spec7 0) : S64x32768.Idx → EReal) (ix2 n q) = Cert.Spec.flat a n q)
variable (h1 : ∀ i, (V c (Pipeline.arrRef spec7 1) : S32768x1024.Idx → EReal) i = a.w5 i)
variable (h2 : ∀ i, (V c (Pipeline.arrRef spec7 2) : S3x1024.Idx → EReal) i = a.b5 i)
variable (h3 : ∀ i, (V c (Pipeline.arrRef spec7 3) : S2048x256.Idx → EReal) i = a.wf1 i)
variable (h4 : ∀ i, (V c (Pipeline.arrRef spec7 4) : S1x256.Idx → EReal) i = a.bf1 i)
variable (h5 : ∀ i, (V c (Pipeline.arrRef spec7 5) : S256x2.Idx → EReal) i = a.wf2 i)
variable (h6 : ∀ i, (V c (Pipeline.arrRef spec7 6) : S1x2.Idx → EReal) i = a.bf2 i)

include h0 h1 in
-- Hence after point `n` the running sum is chunks 0 … n of `Spec.acc5`.
theorem scr7_sum (n : ℕ) (h : n < cfg7.N) (r : Fin 64) (u : Fin 1024) :
    ((outsAt7 V c n h).2 : Vec Ideal S64x1024 .f32) (ix2 r u) = ∑ j ∈ Finset.range (n + 1), chunk7 a j r u := by
  refine partial_sums7 (N := cfg7.N) (fun n h => (outsAt7 V c n h).2) (fun n h => iblk7 V c 0 ⟨n, h⟩)
    (fun n h => iblk7 V c 1 ⟨n, h⟩) (fun h => scr7_zero V c h) (fun n h => scr7_succ V c n h) (chunk7 a) ?_ n h r u
  intro n h r u
  have hN : n < 8 := lt_of_lt_of_eq h (show cfg7.N = 8 from N_7)
  unfold chunk7
  rw [dif_pos hN]
  refine Finset.sum_congr rfl fun k _ => ?_
  have hk : k.val < 4096 := k.isLt
  exact congrArg₂ (· * ·)
    ((blk7_0_apply V c ⟨n, h⟩ r k ⟨n * 4096 + k.val, by omega⟩ rfl).trans (h0 r _))
    ((blk7_1_apply V c ⟨n, h⟩ k u ⟨n * 4096 + k.val, by omega⟩ rfl).trans (h1 _))

include h0 h1 in
theorem scr7_last (t : Fin cfg7.N) (h7 : t.val % 8 = 7) (n : Fin 64) (u : Fin 1024) :
    step7 (outsAt7 V c (t.val - 1) (Nat.lt_of_le_of_lt (Nat.sub_le _ _) t.isLt)).2 (iblk7 V c 0 t) (iblk7 V c 1 t) (ix2 n u)
      = Cert.Spec.acc5 a n u := by
  obtain ⟨tv, ht⟩ := t
  have hN : tv < 8 := lt_of_lt_of_eq ht (show cfg7.N = 8 from N_7)
  obtain rfl : tv = 7 := by dsimp only at h7; omega
  exact ((congrFun (scr7_succ V c 6 ht) (ix2 n u)).symm.trans (scr7_sum V a c h0 h1 7 ht n u)).trans (chunks7_acc5 a n u)

include h0 h1 h2 h3 h4 h5 h6 in
-- The last point's block is the whole result, and it holds `Spec.out`.
theorem flushed7 (t : Fin cfg7.N) (hf : (cfg7.win 7).flush t = true) :
    (dat7 V c).flushed 7 t = ((cfg7.win 7).blk t).view.read (Elt Ideal) (G7 a) := by
  have hi := idx_facts7 t
  have h7 : t.val % 8 = 7 := (flush7_7 t).mp hf
  have hc0 : ¬cond7_0 (grid7.coords t) := fun hh => by
    have h' := (hcond7_0 t).mp hh
    omega
  show (cfg7.win 7).cut (grid7.coords t) ((dat7 V c).after 7 t) = _
  rw [after7_7, outsAt7_C V c t (by omega) h7 hc0 ((hcond7_1 t).mpr h7)]
  unfold outC7
  dsimp only
  rw [out7_C_eq (F := Ideal)]
  funext y
  obtain ⟨p, q, rfl⟩ : ∃ p q, y = ix2 p q := ⟨_, _, eq_ix2 y⟩
  show body7 (F := Ideal) _ _ _ _ _ _ (ix2 p q) = G7 a _
  refine (body7_spec a _ _ _ _ _ _ (scr7_last V a c h0 h1 t h7) (fun k u => ?_) (fun k u => ?_) (fun u => ?_)
    (fun k u => ?_) (fun u => ?_) p q).trans (congrArg (G7 a) (ix2_of _ p q ?_ ?_)).symm
  · exact (h2 _).trans (congrArg a.b5 (ix2_of _ k u (by show win7_2.index t (0 : Fin 2) * 3 + 1 * k.val = k.val; omega)
      (by show win7_2.index t (1 : Fin 2) * 1024 + 1 * u.val = u.val; omega)))
  · exact (h3 _).trans (congrArg a.wf1 (ix2_of _ k u (by show win7_3.index t (0 : Fin 2) * 2048 + 1 * k.val = k.val; omega)
      (by show win7_3.index t (1 : Fin 2) * 256 + 1 * u.val = u.val; omega)))
  · exact (h4 _).trans (congrArg a.bf1 (ix2_of _ 0 u (by show win7_4.index t (0 : Fin 2) * 1 + 1 * 0 = 0; omega)
      (by show win7_4.index t (1 : Fin 2) * 256 + 1 * u.val = u.val; omega)))
  · exact (h5 _).trans (congrArg a.wf2 (ix2_of _ k u (by show win7_5.index t (0 : Fin 2) * 256 + 1 * k.val = k.val; omega)
      (by show win7_5.index t (1 : Fin 2) * 2 + 1 * u.val = u.val; omega)))
  · exact (h6 _).trans (congrArg a.bf2 (ix2_of _ 0 u (by show win7_6.index t (0 : Fin 2) * 1 + 1 * 0 = 0; omega)
      (by show win7_6.index t (1 : Fin 2) * 2 + 1 * u.val = u.val; omega)))
  · show win7_7.index t (0 : Fin 2) * 32 + 1 * p.val = p.val; omega
  · show win7_7.index t (1 : Fin 2) * 2 + 1 * q.val = q.val; omega

theorem cover7_arr (i : S32x2.Idx) :
    ∃ t : Fin cfg7.N, (cfg7.win 7).flush t = true ∧ i ∈ ((cfg7.win 7).blk t).view.set := by
  have hi0 : (i 0).val < 32 := (i 0).isLt
  have hi1 : (i 1).val < 2 := (i 1).isLt
  have hN : 7 < cfg7.N := by rw [show cfg7.N = 8 from N_7]; omega
  have hi := idx_facts7 ⟨7, hN⟩
  refine ⟨⟨7, hN⟩, (flush7_7 _).mpr rfl, ?_⟩
  show i ∈ ((View.whole main_v27).slice (win7_7.rect ⟨7, hN⟩)).set
  rw [View.set_slice_whole, Rect.mem_set_unit]
  intro ax
  match ax with
  | ⟨0, _⟩ => show win7_7.index ⟨7, hN⟩ (0 : Fin 2) * 32 ≤ (i 0).val ∧ (i 0).val < win7_7.index ⟨7, hN⟩ (0 : Fin 2) * 32 + 32; omega
  | ⟨1, _⟩ => show win7_7.index ⟨7, hN⟩ (1 : Fin 2) * 2 ≤ (i 1).val ∧ (i 1).val < win7_7.index ⟨7, hN⟩ (1 : Fin 2) * 2 + 2; omega

include h0 h1 h2 h3 h4 h5 h6 in
-- So the result array ends as `Spec.out`.
theorem value7 (r : Fin 32) (v : Fin 2) :
    ((dat7 V c).arrAt 7 cfg7.N : S32x2.Idx → EReal) (ix2 r v) = Cert.Spec.out a r v :=
  congrFun ((dat7 V c).arrAt_eq_of_cover 7 (G7 a) (fun t hf => flushed7 V a c h0 h1 h2 h3 h4 h5 h6 t hf) cover7_arr) (ix2 r v)

end Array

end Cert.ReferenceIdeal.Hand

end
-- ==== Proof.RChain.lean ====
import proofs.«182102_g2000302601656725_pallasbulk_822_2_alg».proof.Proof.RRun
import proofs.«182102_g2000302601656725_pallasbulk_822_2_alg».proof.Proof.RHostVal
import proofs.«182102_g2000302601656725_pallasbulk_822_2_alg».proof.Proof.RR0Val
import proofs.«182102_g2000302601656725_pallasbulk_822_2_alg».proof.Proof.RR1Val
import proofs.«182102_g2000302601656725_pallasbulk_822_2_alg».proof.Proof.RR2Val
import proofs.«182102_g2000302601656725_pallasbulk_822_2_alg».proof.Proof.RR3Val
import proofs.«182102_g2000302601656725_pallasbulk_822_2_alg».proof.Proof.RR4Val
import proofs.«182102_g2000302601656725_pallasbulk_822_2_alg».proof.Proof.RR5Val
import proofs.«182102_g2000302601656725_pallasbulk_822_2_alg».proof.Proof.RR6Val
import proofs.«182102_g2000302601656725_pallasbulk_822_2_alg».proof.Proof.RR7Val

noncomputable section

namespace Cert.ReferenceIdeal.Hand

open Cert.ReferenceIdeal Cert.ReferenceIdeal.Gen
open Idealize.ShloMosaic Idealize.ShloMosaic.TcCoe Idealize.ShloMosaic.ValueIdx

variable (m : (ℓ : Loc nD τ sig) → Buf (Elt Ideal) ℓ)

def args (c : Dev nD) : Cert.Spec.Args where
  x := m ((c : Thread nD τ).loc main_arg0)
  w1 := m ((c : Thread nD τ).loc main_arg1)
  b1 := m ((c : Thread nD τ).loc main_arg2)
  w2 := m ((c : Thread nD τ).loc main_arg3)
  b2 := m ((c : Thread nD τ).loc main_arg4)
  w3 := m ((c : Thread nD τ).loc main_arg5)
  b3 := m ((c : Thread nD τ).loc main_arg6)
  w4 := m ((c : Thread nD τ).loc main_arg7)
  b4 := m ((c : Thread nD τ).loc main_arg8)
  w5 := m ((c : Thread nD τ).loc main_arg9)
  b5 := m ((c : Thread nD τ).loc main_arg10)
  wf1 := m ((c : Thread nD τ).loc main_arg11)
  bf1 := m ((c : Thread nD τ).loc main_arg12)
  wf2 := m ((c : Thread nD τ).loc main_arg13)
  bf2 := m ((c : Thread nD τ).loc main_arg14)

-- The same, at the valuations the run passes through.
theorem W_arg (c : Dev nD) (r : Ref sig .tc) (hr : r ∈ argRefs) :
    W2 m c r = Gen.V0 m c r ∧ W7 m c r = Gen.V0 m c r ∧ W12 m c r = Gen.V0 m c r ∧ W17 m c r = Gen.V0 m c r
      ∧ W19 m c r = Gen.V0 m c r := by
  have h := args_V m (outs m) c r hr
  rwa [V2_eq m c, V7_eq m c, V12_eq m c, V17_eq m c, V19_eq m c] at h

-- Each launch's result is its layer of the specification: its input is the launch before it, relabeled by the host.
theorem res0_apply (c : Dev nD) (n : Fin 64) (hw : Fin 4096) (o : Fin 128) :
    (res0 m c : S64x4096x128.Idx → EReal) (ix3 n hw o)
      = Cert.Spec.C1 (args m c) n ⟨hw.val / 64, by omega⟩ ⟨hw.val % 64, by omega⟩ o :=
  value0 (fun c b => W2 m c b) c (args m c) (host_v5 (args m c) (W0 m c) rfl)
    (congrFun (W_arg m c main_arg1 (by decide)).1) (congrFun (W_arg m c main_arg2 (by decide)).1) n hw o

theorem res1_apply (c : Dev nD) (mm : Fin 2048) (w2 : Fin 32) (o : Fin 128) :
    (res1 m c : S2048x32x128.Idx → EReal) (ix3 mm w2 o)
      = Cert.Spec.P1 (args m c) ⟨mm.val / 32, by omega⟩ ⟨mm.val % 32, by omega⟩ w2 o :=
  value1 (fun c b => W4 m c b) (args m c) c (host_v8 (args m c) (W3 m c) fun n hw o =>
    (congrFun (Function.update_self _ _ _ : W3 m c main_v6 = res0 m c) _).trans (res0_apply m c n hw o)) mm w2 o

theorem res2_apply (c : Dev nD) (n : Fin 64) (hw : Fin 1024) (o : Fin 128) :
    (res2 m c : S64x1024x128.Idx → EReal) (ix3 n hw o)
      = Cert.Spec.C2 (args m c) n ⟨hw.val / 32, by omega⟩ ⟨hw.val % 32, by omega⟩ o :=
  value2 (fun c b => W7 m c b) c (args m c) (host_v11 (args m c) (W5 m c) fun mm w2 o =>
      (congrFun (Function.update_self _ _ _ : W5 m c main_v9 = res1 m c) _).trans (res1_apply m c mm w2 o))
    (congrFun (W_arg m c main_arg3 (by decide)).2.1) (congrFun (W_arg m c main_arg4 (by decide)).2.1) n hw o

theorem res3_apply (c : Dev nD) (mm : Fin 1024) (w2 : Fin 16) (o : Fin 128) :
    (res3 m c : S1024x16x128.Idx → EReal) (ix3 mm w2 o)
      = Cert.Spec.P2 (args m c) ⟨mm.val / 16, by omega⟩ ⟨mm.val % 16, by omega⟩ w2 o :=
  value3 (fun c b => W9 m c b) (args m c) c (host_v14 (args m c) (W8 m c) fun n hw o =>
    (congrFun (Function.update_self _ _ _ : W8 m c main_v12 = res2 m c) _).trans (res2_apply m c n hw o)) mm w2 o

theorem res4_apply (c : Dev nD) (n : Fin 64) (hw : Fin 256) (o : Fin 256) :
    (res4 m c : S64x256x256.Idx → EReal) (ix3 n hw o)
      = Cert.Spec.C3 (args m c) n ⟨hw.val / 16, by omega⟩ ⟨hw.val % 16, by omega⟩ o :=
  value4 (fun c b => W12 m c b) (args m c) c (host_v17 (args m c) (W10 m c) fun mm w2 o =>
      (congrFun (Function.update_self _ _ _ : W10 m c main_v15 = res3 m c) _).trans (res3_apply m c mm w2 o))
    (fun _ _ _ => congrFun (W_arg m c main_arg5 (by decide)).2.2.1 _)
    (fun _ _ => congrFun (W_arg m c main_arg6 (by decide)).2.2.1 _) n hw o

theorem res5_apply (c : Dev nD) (mm : Fin 512) (w2 : Fin 8) (o : Fin 256) :
    (res5 m c : S512x8x256.Idx → EReal) (ix3 mm w2 o)
      = Cert.Spec.P3 (args m c) ⟨mm.val / 8, by omega⟩ ⟨mm.val % 8, by omega⟩ w2 o :=
  value5 (fun c b => W14 m c b) (args m c) c (host_v20 (args m c) (W13 m c) fun n hw o =>
    (congrFun (Function.update_self _ _ _ : W13 m c main_v18 = res4 m c) _).trans (res4_apply m c n hw o)) mm w2 o

theorem res6_apply (c : Dev nD) (n : Fin 64) (hw : Fin 64) (o : Fin 512) :
    (res6 m c : S64x64x512.Idx → EReal) (ix3 n hw o)
      = Cert.Spec.C4 (args m c) n ⟨hw.val / 8, by omega⟩ ⟨hw.val % 8, by omega⟩ o :=
  value6 (fun c b => W17 m c b) (args m c) c (host_v23 (args m c) (W15 m c) fun mm w2 o =>
      (congrFun (Function.update_self _ _ _ : W15 m c main_v21 = res5 m c) _).trans (res5_apply m c mm w2 o))
    (fun _ _ _ => congrFun (W_arg m c main_arg7 (by decide)).2.2.2.1 _)
    (fun _ _ => congrFun (W_arg m c main_arg8 (by decide)).2.2.2.1 _) n hw o

theorem result_eq (c : Dev nD) (r : Fin 32) (v : Fin 2) :
    (res7 m c : S32x2.Idx → EReal) (ix2 r v) = Cert.Spec.out (args m c) r v :=
  value7 (fun c b => W19 m c b) (args m c) c (host_v26 (args m c) (W18 m c) fun n hw o =>
      (congrFun (Function.update_self _ _ _ : W18 m c main_v24 = res6 m c) _).trans (res6_apply m c n hw o))
    (congrFun (W_arg m c main_arg9 (by decide)).2.2.2.2) (congrFun (W_arg m c main_arg10 (by decide)).2.2.2.2)
    (congrFun (W_arg m c main_arg11 (by decide)).2.2.2.2) (congrFun (W_arg m c main_arg12 (by decide)).2.2.2.2)
    (congrFun (W_arg m c main_arg13 (by decide)).2.2.2.2) (congrFun (W_arg m c main_arg14 (by decide)).2.2.2.2) r v

theorem res7_eq (c : Dev nD) :
    (res7 m c : S32x2.Idx → EReal) = fun i => Cert.Spec.out (args m c) (i 0) (i 1) :=
  funext fun i => (congrArg (res7 m c : S32x2.Idx → EReal) (eq_ix2 i)).trans (result_eq m c (i 0) (i 1))

end Cert.ReferenceIdeal.Hand

end
-- ==== Proof.lean ====
import proofs.«182102_g2000302601656725_pallasbulk_822_2_alg».proof.Defs
import proofs.«182102_g2000302601656725_pallasbulk_822_2_alg».proof.Proof.Gen.Kernel
import proofs.«182102_g2000302601656725_pallasbulk_822_2_alg».proof.Proof.Gen.KernelIdeal
import proofs.«182102_g2000302601656725_pallasbulk_822_2_alg».proof.Proof.Gen.ReferenceIdeal
import proofs.«182102_g2000302601656725_pallasbulk_822_2_alg».proof.Proof.Gen.Pre_finite_inputs
import proofs.«182102_g2000302601656725_pallasbulk_822_2_alg».proof.Proof.BRun
import proofs.«182102_g2000302601656725_pallasbulk_822_2_alg».proof.Proof.KChain
import proofs.«182102_g2000302601656725_pallasbulk_822_2_alg».proof.Proof.RChain

noncomputable section

namespace Cert.Proof

open Idealize.ShloMosaic Idealize.SL.Sem

theorem frame_words : Cert.frame_Kernel := fun m ρ _ =>
  (θ_run Cert.Kernel.defs _ _).mono (fun _ h c => (h c).2) (Cert.Kernel.Hand.run (F := Bits) m ρ)

theorem frame_fused : Cert.frame_KernelIdeal := fun m ρ _ =>
  (θ_run Cert.KernelIdeal.defs _ _).mono (fun _ h c => (h c).2) (Cert.KernelIdeal.Hand.run (F := Ideal) m ρ)

theorem frame_plain : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

-- Both programs compute `Cert.Spec.out` of the shared arguments, so their results agree.
theorem algebraic : Cert.algebraic_KernelIdeal_ReferenceIdeal := by
  intro m ρ m' ρ' _ hagree
  refine ⟨fun c => Cert.KernelIdeal.Hand.res2 m c, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  have hargs : Cert.ReferenceIdeal.Hand.args m' c = Cert.KernelIdeal.Hand.args m c := by
    obtain ⟨e0, e1, e2, e3, e4, e5, e6, e7, e8, e9, e10, e11, e12, e13, e14⟩ := hagree c
    unfold Cert.ReferenceIdeal.Hand.args Cert.KernelIdeal.Hand.args
    rw [e0, e1, e2, e3, e4, e5, e6, e7, e8, e9, e10, e11, e12, e13, e14]
  show Cert.ReferenceIdeal.Hand.res7 m' c = Cert.KernelIdeal.Hand.res2 m c
  rw [Cert.ReferenceIdeal.Hand.res7_eq, Cert.KernelIdeal.Hand.res2_eq, hargs]
  rfl

theorem claim : Cert.Claim :=
  ⟨Cert.Kernel.Gen.facts, Cert.KernelIdeal.Gen.facts, Cert.ReferenceIdeal.Gen.facts, Cert.Pre_finite_inputs.Gen.facts,
    frame_words, frame_fused, frame_plain, preserves, algebraic⟩

end Cert.Proof

end
